-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v244)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v244) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v403) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S300000 : Shape := ⟨1, ![300000]⟩
abbrev S5x256x256 : Shape := ⟨3, ![5, 256, 256]⟩
abbrev S5x256 : Shape := ⟨2, ![5, 256]⟩
abbrev S5 : Shape := ⟨1, ![5]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S5x256x256 : S_.BroadcastsInDim S5x256x256 (![] : Fin 0 → Fin S5x256x256.rank)
  reducesTo_S5x256x256_S_d0_1_2 : S5x256x256.ReducesTo [0, 1, 2] S_
  bcast_S_S5x256 : S_.BroadcastsInDim S5x256 (![] : Fin 0 → Fin S5x256.rank)
  reducesTo_S5x256_S_d0_1 : S5x256.ReducesTo [0, 1] S_
  bcast_S_S5 : S_.BroadcastsInDim S5 (![] : Fin 0 → Fin S5.rank)
  reducesTo_S5_S_d0 : S5.ReducesTo [0] S_
  bcast_S_S300000 : S_.BroadcastsInDim S300000 (![] : Fin 0 → Fin S300000.rank)
  reducesTo_S300000_S_d0 : S300000.ReducesTo [0] S_

variable [Facts]

def fn_part3 {F : FTy → Type} [FloatOps F] (main_arg1 : IVec S300000 32) (main_v48 : IVec S_ 1) (main_v50 : IVec S300000 1) : IVec S_ 1 :=
  let main_c_19 : IVec S_ 1 := constantI S_ 1 1#1
  let main_v51 : IVec S_ 1 := (fun x v => Host.reduce IntOp.andi x v reducesTo_S300000_S_d0 h_S_) main_v50 main_c_19
  let main_v52 : IVec S_ 1 := andi main_v48 main_v51
  let main_c_20 : IVec S_ 32 := constantI S_ 32 50000#32
  let main_v53 : IVec S300000 32 := broadcastInDim S300000 ![] bcast_S_S300000 main_c_20
  let main_v54 : IVec S300000 1 := cmpi .slt main_arg1 main_v53
  let main_c_21 : IVec S_ 1 := constantI S_ 1 1#1
  let main_v55 : IVec S_ 1 := (fun x v => Host.reduce IntOp.andi x v reducesTo_S300000_S_d0 h_S_) main_v54 main_c_21
  let main_v56 : IVec S_ 1 := andi main_v52 main_v55
  main_v56

def fn_part2 {F : FTy → Type} [FloatOps F] (main_arg1 : IVec S300000 32) (main_arg9 : FVec F S5 .f32) (main_arg10 : FVec F S5x256 .f32) (main_arg11 : FVec F S5x256 .f32) (main_v33 : IVec S_ 1) : IVec S_ 1 :=
  let main_v34 : FVec F S5 .f32 := Host.absf main_arg9
  let main_cst_12 : FVec F S_ .f32 := constant S_ .f32 0x7F800000#32
  let main_v35 : FVec F S5 .f32 := broadcastInDim S5 ![] bcast_S_S5 main_cst_12
  let main_v36 : IVec S5 1 := cmpf .olt main_v34 main_v35
  let main_c_13 : IVec S_ 1 := constantI S_ 1 1#1
  let main_v37 : IVec S_ 1 := (fun x v => Host.reduce IntOp.andi x v reducesTo_S5_S_d0 h_S_) main_v36 main_c_13
  let main_v38 : IVec S_ 1 := andi main_v33 main_v37
  let main_v39 : FVec F S5x256 .f32 := Host.absf main_arg10
  let main_cst_14 : FVec F S_ .f32 := constant S_ .f32 0x7F800000#32
  let main_v40 : FVec F S5x256 .f32 := broadcastInDim S5x256 ![] bcast_S_S5x256 main_cst_14
  let main_v41 : IVec S5x256 1 := cmpf .olt main_v39 main_v40
  let main_c_15 : IVec S_ 1 := constantI S_ 1 1#1
  let main_v42 : IVec S_ 1 := (fun x v => Host.reduce IntOp.andi x v reducesTo_S5x256_S_d0_1 h_S_) main_v41 main_c_15
  let main_v43 : IVec S_ 1 := andi main_v38 main_v42
  let main_v44 : FVec F S5x256 .f32 := Host.absf main_arg11
  let main_cst_16 : FVec F S_ .f32 := constant S_ .f32 0x7F800000#32
  let main_v45 : FVec F S5x256 .f32 := broadcastInDim S5x256 ![] bcast_S_S5x256 main_cst_16
  let main_v46 : IVec S5x256 1 := cmpf .olt main_v44 main_v45
  let main_c_17 : IVec S_ 1 := constantI S_ 1 1#1
  let main_v47 : IVec S_ 1 := (fun x v => Host.reduce IntOp.andi x v reducesTo_S5x256_S_d0_1 h_S_) main_v46 main_c_17
  let main_v48 : IVec S_ 1 := andi main_v43 main_v47
  let main_c_18 : IVec S_ 32 := constantI S_ 32 4294917296#32
  let main_v49 : IVec S300000 32 := broadcastInDim S300000 ![] bcast_S_S300000 main_c_18
  let main_v50 : IVec S300000 1 := cmpi .sge main_arg1 main_v49
  fn_part3 (F := F) main_arg1 main_v48 main_v50

def fn_part1 {F : FTy → Type} [FloatOps F] (main_arg1 : IVec S300000 32) (main_arg6 : FVec F S5x256 .f32) (main_arg7 : FVec F S5x256x256 .f32) (main_arg8 : FVec F S5x256 .f32) (main_arg9 : FVec F S5 .f32) (main_arg10 : FVec F S5x256 .f32) (main_arg11 : FVec F S5x256 .f32) (main_v13 : IVec S_ 1) (main_v16 : IVec S5x256 1) : IVec S_ 1 :=
  let main_c_5 : IVec S_ 1 := constantI S_ 1 1#1
  let main_v17 : IVec S_ 1 := (fun x v => Host.reduce IntOp.andi x v reducesTo_S5x256_S_d0_1 h_S_) main_v16 main_c_5
  let main_v18 : IVec S_ 1 := andi main_v13 main_v17
  let main_v19 : FVec F S5x256 .f32 := Host.absf main_arg6
  let main_cst_6 : FVec F S_ .f32 := constant S_ .f32 0x7F800000#32
  let main_v20 : FVec F S5x256 .f32 := broadcastInDim S5x256 ![] bcast_S_S5x256 main_cst_6
  let main_v21 : IVec S5x256 1 := cmpf .olt main_v19 main_v20
  let main_c_7 : IVec S_ 1 := constantI S_ 1 1#1
  let main_v22 : IVec S_ 1 := (fun x v => Host.reduce IntOp.andi x v reducesTo_S5x256_S_d0_1 h_S_) main_v21 main_c_7
  let main_v23 : IVec S_ 1 := andi main_v18 main_v22
  let main_v24 : FVec F S5x256x256 .f32 := Host.absf main_arg7
  let main_cst_8 : FVec F S_ .f32 := constant S_ .f32 0x7F800000#32
  let main_v25 : FVec F S5x256x256 .f32 := broadcastInDim S5x256x256 ![] bcast_S_S5x256x256 main_cst_8
  let main_v26 : IVec S5x256x256 1 := cmpf .olt main_v24 main_v25
  let main_c_9 : IVec S_ 1 := constantI S_ 1 1#1
  let main_v27 : IVec S_ 1 := (fun x v => Host.reduce IntOp.andi x v reducesTo_S5x256x256_S_d0_1_2 h_S_) main_v26 main_c_9
  let main_v28 : IVec S_ 1 := andi main_v23 main_v27
  let main_v29 : FVec F S5x256 .f32 := Host.absf main_arg8
  let main_cst_10 : FVec F S_ .f32 := constant S_ .f32 0x7F800000#32
  let main_v30 : FVec F S5x256 .f32 := broadcastInDim S5x256 ![] bcast_S_S5x256 main_cst_10
  let main_v31 : IVec S5x256 1 := cmpf .olt main_v29 main_v30
  let main_c_11 : IVec S_ 1 := constantI S_ 1 1#1
  let main_v32 : IVec S_ 1 := (fun x v => Host.reduce IntOp.andi x v reducesTo_S5x256_S_d0_1 h_S_) main_v31 main_c_11
  let main_v33 : IVec S_ 1 := andi main_v28 main_v32
  fn_part2 (F := F) main_arg1 main_arg9 main_arg10 main_arg11 main_v33

def fn {F : FTy → Type} [FloatOps F] (main_arg0 : FVec F S50000x256 .f32) (main_arg1 : IVec S300000 32) (main_arg2 : IVec S300000 32) (main_arg3 : FVec F S5x256x256 .f32) (main_arg4 : FVec F S5x256 .f32) (main_arg5 : FVec F S5x256 .f32) (main_arg6 : FVec F S5x256 .f32) (main_arg7 : FVec F S5x256x256 .f32) (main_arg8 : FVec F S5x256 .f32) (main_arg9 : FVec F S5 .f32) (main_arg10 : FVec F S5x256 .f32) (main_arg11 : FVec F S5x256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S5x256x256 .f32 := Host.absf main_arg3
  let main_cst_0 : FVec F S_ .f32 := constant S_ .f32 0x7F800000#32
  let main_v5 : FVec F S5x256x256 .f32 := broadcastInDim S5x256x256 ![] bcast_S_S5x256x256 main_cst_0
  let main_v6 : IVec S5x256x256 1 := cmpf .olt main_v4 main_v5
  let main_c_1 : IVec S_ 1 := constantI S_ 1 1#1
  let main_v7 : IVec S_ 1 := (fun x v => Host.reduce IntOp.andi x v reducesTo_S5x256x256_S_d0_1_2 h_S_) main_v6 main_c_1
  let main_v8 : IVec S_ 1 := andi main_v3 main_v7
  let main_v9 : FVec F S5x256 .f32 := Host.absf main_arg4
  let main_cst_2 : FVec F S_ .f32 := constant S_ .f32 0x7F800000#32
  let main_v10 : FVec F S5x256 .f32 := broadcastInDim S5x256 ![] bcast_S_S5x256 main_cst_2
  let main_v11 : IVec S5x256 1 := cmpf .olt main_v9 main_v10
  let main_c_3 : IVec S_ 1 := constantI S_ 1 1#1
  let main_v12 : IVec S_ 1 := (fun x v => Host.reduce IntOp.andi x v reducesTo_S5x256_S_d0_1 h_S_) main_v11 main_c_3
  let main_v13 : IVec S_ 1 := andi main_v8 main_v12
  let main_v14 : FVec F S5x256 .f32 := Host.absf main_arg5
  let main_cst_4 : FVec F S_ .f32 := constant S_ .f32 0x7F800000#32
  let main_v15 : FVec F S5x256 .f32 := broadcastInDim S5x256 ![] bcast_S_S5x256 main_cst_4
  let main_v16 : IVec S5x256 1 := cmpf .olt main_v14 main_v15
  fn_part1 (F := F) main_arg1 main_arg6 main_arg7 main_arg8 main_arg9 main_arg10 main_arg11 main_v13 main_v16
-- ==== Kernel.lean ====
abbrev S50000x256 : Shape := ⟨2, ![50000, 256]⟩
abbrev S300000 : Shape := ⟨1, ![300000]⟩
abbrev S5x256x256 : Shape := ⟨3, ![5, 256, 256]⟩
abbrev S5x256 : Shape := ⟨2, ![5, 256]⟩
abbrev S5 : Shape := ⟨1, ![5]⟩
abbrev S_ : Shape := ⟨0, ![]⟩
abbrev S300000x1 : Shape := ⟨2, ![300000, 1]⟩
abbrev S1 : Shape := ⟨1, ![1]⟩
abbrev S1x1 : Shape := ⟨2, ![1, 1]⟩
abbrev S300000x256 : Shape := ⟨2, ![300000, 256]⟩
abbrev S1x256 : Shape := ⟨2, ![1, 256]⟩
abbrev S1x256x256 : Shape := ⟨3, ![1, 256, 256]⟩
abbrev S256x256 : Shape := ⟨2, ![256, 256]⟩
abbrev S256 : Shape := ⟨1, ![256]⟩
abbrev S10x1x256 : Shape := ⟨3, ![10, 1, 256]⟩
abbrev S5000x256 : Shape := ⟨2, ![5000, 256]⟩
abbrev S1x1x256 : Shape := ⟨3, ![1, 1, 256]⟩

abbrev nBuf : Space → Nat
  | .hbm => 442
  | .vmem => 175
  | .smem => 0
  | _ => 0

abbrev hbmTy0_0 (i : Nat) : BufTy := match i % 128 with
  | 0 => ⟨S50000x256, .f32⟩
  | 1 => ⟨S300000, .i32⟩
  | 2 => ⟨S300000, .i32⟩
  | 3 => ⟨S5x256x256, .f32⟩
  | 4 => ⟨S5x256, .f32⟩
  | 5 => ⟨S5x256, .f32⟩
  | 6 => ⟨S5x256, .f32⟩
  | 7 => ⟨S5x256x256, .f32⟩
  | 8 => ⟨S5x256, .f32⟩
  | 9 => ⟨S5, .f32⟩
  | 10 => ⟨S5x256, .f32⟩
  | 11 => ⟨S5x256, .f32⟩
  | 12 => ⟨S_, .i32⟩
  | 13 => ⟨S300000, .i32⟩
  | 14 => ⟨S300000, .i1⟩
  | 15 => ⟨S_, .i32⟩
  | 16 => ⟨S300000, .i32⟩
  | 17 => ⟨S300000, .i32⟩
  | 18 => ⟨S300000, .i32⟩
  | 19 => ⟨S300000x1, .i32⟩
  | 20 => ⟨S1, .i32⟩
  | 21 => ⟨S_, .i32⟩
  | 22 => ⟨S300000x1, .i32⟩
  | 23 => ⟨S300000x1, .i1⟩
  | 24 => ⟨S1x1, .i32⟩
  | 25 => ⟨S300000x1, .i32⟩
  | 26 => ⟨S300000x1, .i1⟩
  | 27 => ⟨S300000x1, .i1⟩
  | 28 => ⟨S_, .i1⟩
  | 29 => ⟨S300000, .i1⟩
  | 30 => ⟨S300000x256, .f32⟩
  | 31 => ⟨S300000x256, .i1⟩
  | 32 => ⟨S_, .f32⟩
  | 33 => ⟨S300000x256, .f32⟩
  | 34 => ⟨S300000x256, .f32⟩
  | 35 => ⟨S_, .f32⟩
  | 36 => ⟨S300000x256, .f32⟩
  | 37 => ⟨S300000x256, .f32⟩
  | 38 => ⟨S_, .f32⟩
  | 39 => ⟨S50000x256, .f32⟩
  | 40 => ⟨S300000x1, .i32⟩
  | 41 => ⟨S50000x256, .f32⟩
  | 42 => ⟨S1, .f32⟩
  | 43 => ⟨S_, .f32⟩
  | 44 => ⟨S1x256, .f32⟩
  | 45 => ⟨S1x256x256, .f32⟩
  | 46 => ⟨S256x256, .f32⟩
  | 47 => ⟨S1x256, .f32⟩
  | 48 => ⟨S256, .f32⟩
  | 49 => ⟨S1x256, .f32⟩
  | 50 => ⟨S50000x256, .f32⟩
  | 51 => ⟨S10x1x256, .f32⟩
  | 52 => ⟨S10x1x256, .f32⟩
  | 53 => ⟨S_, .f32⟩
  | 54 => ⟨S1x256, .f32⟩
  | 55 => ⟨S_, .f32⟩
  | 56 => ⟨S1x256, .f32⟩
  | 57 => ⟨S_, .f32⟩
  | 58 => ⟨S1x256, .f32⟩
  | 59 => ⟨S1x256, .f32⟩
  | 60 => ⟨S_, .f32⟩
  | 61 => ⟨S1x256, .f32⟩
  | 62 => ⟨S1x256, .f32⟩
  | 63 => ⟨S1x256, .f32⟩
  | 64 => ⟨S1x256, .f32⟩
  | 65 => ⟨S1x256, .f32⟩
  | 66 => ⟨S256, .f32⟩
  | 67 => ⟨S1x256, .f32⟩
  | 68 => ⟨S1x256, .f32⟩
  | 69 => ⟨S256, .f32⟩
  | 70 => ⟨S1x256, .f32⟩
  | 71 => ⟨S1x256x256, .f32⟩
  | 72 => ⟨S256x256, .f32⟩
  | 73 => ⟨S1x256, .f32⟩
  | 74 => ⟨S256, .f32⟩
  | 75 => ⟨S1x256, .f32⟩
  | 76 => ⟨S50000x256, .f32⟩
  | 77 => ⟨S10x1x256, .f32⟩
  | 78 => ⟨S10x1x256, .f32⟩
  | 79 => ⟨S_, .f32⟩
  | 80 => ⟨S1x256, .f32⟩
  | 81 => ⟨S_, .f32⟩
  | 82 => ⟨S1x256, .f32⟩
  | 83 => ⟨S_, .f32⟩
  | 84 => ⟨S1x256, .f32⟩
  | 85 => ⟨S1x256, .f32⟩
  | 86 => ⟨S_, .f32⟩
  | 87 => ⟨S1x256, .f32⟩
  | 88 => ⟨S1x256, .f32⟩
  | 89 => ⟨S1x256, .f32⟩
  | 90 => ⟨S1x256, .f32⟩
  | 91 => ⟨S1x256, .f32⟩
  | 92 => ⟨S256, .f32⟩
  | 93 => ⟨S1x256, .f32⟩
  | 94 => ⟨S1x256, .f32⟩
  | 95 => ⟨S256, .f32⟩
  | 96 => ⟨S1x256, .f32⟩
  | 97 => ⟨S50000x256, .f32⟩
  | 98 => ⟨S_, .i32⟩
  | 99 => ⟨S300000, .i32⟩
  | 100 => ⟨S300000, .i1⟩
  | 101 => ⟨S_, .i32⟩
  | 102 => ⟨S300000, .i32⟩
  | 103 => ⟨S300000, .i32⟩
  | 104 => ⟨S300000, .i32⟩
  | 105 => ⟨S300000x1, .i32⟩
  | 106 => ⟨S1, .i32⟩
  | 107 => ⟨S_, .i32⟩
  | 108 => ⟨S300000x1, .i32⟩
  | 109 => ⟨S300000x1, .i1⟩
  | 110 => ⟨S1x1, .i32⟩
  | 111 => ⟨S300000x1, .i32⟩
  | 112 => ⟨S300000x1, .i1⟩
  | 113 => ⟨S300000x1, .i1⟩
  | 114 => ⟨S_, .i1⟩
  | 115 => ⟨S300000, .i1⟩
  | 116 => ⟨S300000x256, .f32⟩
  | 117 => ⟨S300000x256, .i1⟩
  | 118 => ⟨S_, .f32⟩
  | 119 => ⟨S300000x256, .f32⟩
  | 120 => ⟨S300000x256, .f32⟩
  | 121 => ⟨S_, .f32⟩
  | 122 => ⟨S300000x256, .f32⟩
  | 123 => ⟨S300000x256, .f32⟩
  | 124 => ⟨S_, .f32⟩
  | 125 => ⟨S50000x256, .f32⟩
  | 126 => ⟨S300000x1, .i32⟩
  | 127 => ⟨S50000x256, .f32⟩
  | _ => ⟨S50000x256, .f32⟩

abbrev hbmTy0_1 (i : Nat) : BufTy := match i % 128 with
  | 0 => ⟨S1, .f32⟩
  | 1 => ⟨S_, .f32⟩
  | 2 => ⟨S1x256, .f32⟩
  | 3 => ⟨S1x256x256, .f32⟩
  | 4 => ⟨S256x256, .f32⟩
  | 5 => ⟨S1x256, .f32⟩
  | 6 => ⟨S256, .f32⟩
  | 7 => ⟨S1x256, .f32⟩
  | 8 => ⟨S50000x256, .f32⟩
  | 9 => ⟨S10x1x256, .f32⟩
  | 10 => ⟨S10x1x256, .f32⟩
  | 11 => ⟨S_, .f32⟩
  | 12 => ⟨S1x256, .f32⟩
  | 13 => ⟨S_, .f32⟩
  | 14 => ⟨S1x256, .f32⟩
  | 15 => ⟨S_, .f32⟩
  | 16 => ⟨S1x256, .f32⟩
  | 17 => ⟨S1x256, .f32⟩
  | 18 => ⟨S_, .f32⟩
  | 19 => ⟨S1x256, .f32⟩
  | 20 => ⟨S1x256, .f32⟩
  | 21 => ⟨S1x256, .f32⟩
  | 22 => ⟨S1x256, .f32⟩
  | 23 => ⟨S1x256, .f32⟩
  | 24 => ⟨S256, .f32⟩
  | 25 => ⟨S1x256, .f32⟩
  | 26 => ⟨S1x256, .f32⟩
  | 27 => ⟨S256, .f32⟩
  | 28 => ⟨S1x256, .f32⟩
  | 29 => ⟨S1x256x256, .f32⟩
  | 30 => ⟨S256x256, .f32⟩
  | 31 => ⟨S1x256, .f32⟩
  | 32 => ⟨S256, .f32⟩
  | 33 => ⟨S1x256, .f32⟩
  | 34 => ⟨S50000x256, .f32⟩
  | 35 => ⟨S10x1x256, .f32⟩
  | 36 => ⟨S10x1x256, .f32⟩
  | 37 => ⟨S_, .f32⟩
  | 38 => ⟨S1x256, .f32⟩
  | 39 => ⟨S_, .f32⟩
  | 40 => ⟨S1x256, .f32⟩
  | 41 => ⟨S_, .f32⟩
  | 42 => ⟨S1x256, .f32⟩
  | 43 => ⟨S1x256, .f32⟩
  | 44 => ⟨S_, .f32⟩
  | 45 => ⟨S1x256, .f32⟩
  | 46 => ⟨S1x256, .f32⟩
  | 47 => ⟨S1x256, .f32⟩
  | 48 => ⟨S1x256, .f32⟩
  | 49 => ⟨S1x256, .f32⟩
  | 50 => ⟨S256, .f32⟩
  | 51 => ⟨S1x256, .f32⟩
  | 52 => ⟨S1x256, .f32⟩
  | 53 => ⟨S256, .f32⟩
  | 54 => ⟨S1x256, .f32⟩
  | 55 => ⟨S50000x256, .f32⟩
  | 56 => ⟨S_, .i32⟩
  | 57 => ⟨S300000, .i32⟩
  | 58 => ⟨S300000, .i1⟩
  | 59 => ⟨S_, .i32⟩
  | 60 => ⟨S300000, .i32⟩
  | 61 => ⟨S300000, .i32⟩
  | 62 => ⟨S300000, .i32⟩
  | 63 => ⟨S300000x1, .i32⟩
  | 64 => ⟨S1, .i32⟩
  | 65 => ⟨S_, .i32⟩
  | 66 => ⟨S300000x1, .i32⟩
  | 67 => ⟨S300000x1, .i1⟩
  | 68 => ⟨S1x1, .i32⟩
  | 69 => ⟨S300000x1, .i32⟩
  | 70 => ⟨S300000x1, .i1⟩
  | 71 => ⟨S300000x1, .i1⟩
  | 72 => ⟨S_, .i1⟩
  | 73 => ⟨S300000, .i1⟩
  | 74 => ⟨S300000x256, .f32⟩
  | 75 => ⟨S300000x256, .i1⟩
  | 76 => ⟨S_, .f32⟩
  | 77 => ⟨S300000x256, .f32⟩
  | 78 => ⟨S300000x256, .f32⟩
  | 79 => ⟨S_, .f32⟩
  | 80 => ⟨S300000x256, .f32⟩
  | 81 => ⟨S300000x256, .f32⟩
  | 82 => ⟨S_, .f32⟩
  | 83 => ⟨S50000x256, .f32⟩
  | 84 => ⟨S300000x1, .i32⟩
  | 85 => ⟨S50000x256, .f32⟩
  | 86 => ⟨S1, .f32⟩
  | 87 => ⟨S_, .f32⟩
  | 88 => ⟨S1x256, .f32⟩
  | 89 => ⟨S1x256x256, .f32⟩
  | 90 => ⟨S256x256, .f32⟩
  | 91 => ⟨S1x256, .f32⟩
  | 92 => ⟨S256, .f32⟩
  | 93 => ⟨S1x256, .f32⟩
  | 94 => ⟨S50000x256, .f32⟩
  | 95 => ⟨S10x1x256, .f32⟩
  | 96 => ⟨S10x1x256, .f32⟩
  | 97 => ⟨S_, .f32⟩
  | 98 => ⟨S1x256, .f32⟩
  | 99 => ⟨S_, .f32⟩
  | 100 => ⟨S1x256, .f32⟩
  | 101 => ⟨S_, .f32⟩
  | 102 => ⟨S1x256, .f32⟩
  | 103 => ⟨S1x256, .f32⟩
  | 104 => ⟨S_, .f32⟩
  | 105 => ⟨S1x256, .f32⟩
  | 106 => ⟨S1x256, .f32⟩
  | 107 => ⟨S1x256, .f32⟩
  | 108 => ⟨S1x256, .f32⟩
  | 109 => ⟨S1x256, .f32⟩
  | 110 => ⟨S256, .f32⟩
  | 111 => ⟨S1x256, .f32⟩
  | 112 => ⟨S1x256, .f32⟩
  | 113 => ⟨S256, .f32⟩
  | 114 => ⟨S1x256, .f32⟩
  | 115 => ⟨S1x256x256, .f32⟩
  | 116 => ⟨S256x256, .f32⟩
  | 117 => ⟨S1x256, .f32⟩
  | 118 => ⟨S256, .f32⟩
  | 119 => ⟨S1x256, .f32⟩
  | 120 => ⟨S50000x256, .f32⟩
  | 121 => ⟨S10x1x256, .f32⟩
  | 122 => ⟨S10x1x256, .f32⟩
  | 123 => ⟨S_, .f32⟩
  | 124 => ⟨S1x256, .f32⟩
  | 125 => ⟨S_, .f32⟩
  | 126 => ⟨S1x256, .f32⟩
  | 127 => ⟨S_, .f32⟩
  | _ => ⟨S50000x256, .f32⟩

abbrev hbmTy0_2 (i : Nat) : BufTy := match i % 128 with
  | 0 => ⟨S1x256, .f32⟩
  | 1 => ⟨S1x256, .f32⟩
  | 2 => ⟨S_, .f32⟩
  | 3 => ⟨S1x256, .f32⟩
  | 4 => ⟨S1x256, .f32⟩
  | 5 => ⟨S1x256, .f32⟩
  | 6 => ⟨S1x256, .f32⟩
  | 7 => ⟨S1x256, .f32⟩
  | 8 => ⟨S256, .f32⟩
  | 9 => ⟨S1x256, .f32⟩
  | 10 => ⟨S1x256, .f32⟩
  | 11 => ⟨S256, .f32⟩
  | 12 => ⟨S1x256, .f32⟩
  | 13 => ⟨S50000x256, .f32⟩
  | 14 => ⟨S_, .i32⟩
  | 15 => ⟨S300000, .i32⟩
  | 16 => ⟨S300000, .i1⟩
  | 17 => ⟨S_, .i32⟩
  | 18 => ⟨S300000, .i32⟩
  | 19 => ⟨S300000, .i32⟩
  | 20 => ⟨S300000, .i32⟩
  | 21 => ⟨S300000x1, .i32⟩
  | 22 => ⟨S1, .i32⟩
  | 23 => ⟨S_, .i32⟩
  | 24 => ⟨S300000x1, .i32⟩
  | 25 => ⟨S300000x1, .i1⟩
  | 26 => ⟨S1x1, .i32⟩
  | 27 => ⟨S300000x1, .i32⟩
  | 28 => ⟨S300000x1, .i1⟩
  | 29 => ⟨S300000x1, .i1⟩
  | 30 => ⟨S_, .i1⟩
  | 31 => ⟨S300000, .i1⟩
  | 32 => ⟨S300000x256, .f32⟩
  | 33 => ⟨S300000x256, .i1⟩
  | 34 => ⟨S_, .f32⟩
  | 35 => ⟨S300000x256, .f32⟩
  | 36 => ⟨S300000x256, .f32⟩
  | 37 => ⟨S_, .f32⟩
  | 38 => ⟨S300000x256, .f32⟩
  | 39 => ⟨S300000x256, .f32⟩
  | 40 => ⟨S_, .f32⟩
  | 41 => ⟨S50000x256, .f32⟩
  | 42 => ⟨S300000x1, .i32⟩
  | 43 => ⟨S50000x256, .f32⟩
  | 44 => ⟨S1, .f32⟩
  | 45 => ⟨S_, .f32⟩
  | 46 => ⟨S1x256, .f32⟩
  | 47 => ⟨S1x256x256, .f32⟩
  | 48 => ⟨S256x256, .f32⟩
  | 49 => ⟨S1x256, .f32⟩
  | 50 => ⟨S256, .f32⟩
  | 51 => ⟨S1x256, .f32⟩
  | 52 => ⟨S50000x256, .f32⟩
  | 53 => ⟨S10x1x256, .f32⟩
  | 54 => ⟨S10x1x256, .f32⟩
  | 55 => ⟨S_, .f32⟩
  | 56 => ⟨S1x256, .f32⟩
  | 57 => ⟨S_, .f32⟩
  | 58 => ⟨S1x256, .f32⟩
  | 59 => ⟨S_, .f32⟩
  | 60 => ⟨S1x256, .f32⟩
  | 61 => ⟨S1x256, .f32⟩
  | 62 => ⟨S_, .f32⟩
  | 63 => ⟨S1x256, .f32⟩
  | 64 => ⟨S1x256, .f32⟩
  | 65 => ⟨S1x256, .f32⟩
  | 66 => ⟨S1x256, .f32⟩
  | 67 => ⟨S1x256, .f32⟩
  | 68 => ⟨S256, .f32⟩
  | 69 => ⟨S1x256, .f32⟩
  | 70 => ⟨S1x256, .f32⟩
  | 71 => ⟨S256, .f32⟩
  | 72 => ⟨S1x256, .f32⟩
  | 73 => ⟨S1x256x256, .f32⟩
  | 74 => ⟨S256x256, .f32⟩
  | 75 => ⟨S1x256, .f32⟩
  | 76 => ⟨S256, .f32⟩
  | 77 => ⟨S1x256, .f32⟩
  | 78 => ⟨S50000x256, .f32⟩
  | 79 => ⟨S10x1x256, .f32⟩
  | 80 => ⟨S10x1x256, .f32⟩
  | 81 => ⟨S_, .f32⟩
  | 82 => ⟨S1x256, .f32⟩
  | 83 => ⟨S_, .f32⟩
  | 84 => ⟨S1x256, .f32⟩
  | 85 => ⟨S_, .f32⟩
  | 86 => ⟨S1x256, .f32⟩
  | 87 => ⟨S1x256, .f32⟩
  | 88 => ⟨S_, .f32⟩
  | 89 => ⟨S1x256, .f32⟩
  | 90 => ⟨S1x256, .f32⟩
  | 91 => ⟨S1x256, .f32⟩
  | 92 => ⟨S1x256, .f32⟩
  | 93 => ⟨S1x256, .f32⟩
  | 94 => ⟨S256, .f32⟩
  | 95 => ⟨S1x256, .f32⟩
  | 96 => ⟨S1x256, .f32⟩
  | 97 => ⟨S256, .f32⟩
  | 98 => ⟨S1x256, .f32⟩
  | 99 => ⟨S50000x256, .f32⟩
  | 100 => ⟨S_, .i32⟩
  | 101 => ⟨S300000, .i32⟩
  | 102 => ⟨S300000, .i1⟩
  | 103 => ⟨S_, .i32⟩
  | 104 => ⟨S300000, .i32⟩
  | 105 => ⟨S300000, .i32⟩
  | 106 => ⟨S300000, .i32⟩
  | 107 => ⟨S300000x1, .i32⟩
  | 108 => ⟨S1, .i32⟩
  | 109 => ⟨S_, .i32⟩
  | 110 => ⟨S300000x1, .i32⟩
  | 111 => ⟨S300000x1, .i1⟩
  | 112 => ⟨S1x1, .i32⟩
  | 113 => ⟨S300000x1, .i32⟩
  | 114 => ⟨S300000x1, .i1⟩
  | 115 => ⟨S300000x1, .i1⟩
  | 116 => ⟨S_, .i1⟩
  | 117 => ⟨S300000, .i1⟩
  | 118 => ⟨S300000x256, .f32⟩
  | 119 => ⟨S300000x256, .i1⟩
  | 120 => ⟨S_, .f32⟩
  | 121 => ⟨S300000x256, .f32⟩
  | 122 => ⟨S300000x256, .f32⟩
  | 123 => ⟨S_, .f32⟩
  | 124 => ⟨S300000x256, .f32⟩
  | 125 => ⟨S300000x256, .f32⟩
  | 126 => ⟨S_, .f32⟩
  | 127 => ⟨S50000x256, .f32⟩
  | _ => ⟨S50000x256, .f32⟩

abbrev hbmTy0_3 (i : Nat) : BufTy := match i % 128 with
  | 0 => ⟨S300000x1, .i32⟩
  | 1 => ⟨S50000x256, .f32⟩
  | 2 => ⟨S1, .f32⟩
  | 3 => ⟨S_, .f32⟩
  | 4 => ⟨S1x256, .f32⟩
  | 5 => ⟨S1x256x256, .f32⟩
  | 6 => ⟨S256x256, .f32⟩
  | 7 => ⟨S1x256, .f32⟩
  | 8 => ⟨S256, .f32⟩
  | 9 => ⟨S1x256, .f32⟩
  | 10 => ⟨S50000x256, .f32⟩
  | 11 => ⟨S10x1x256, .f32⟩
  | 12 => ⟨S10x1x256, .f32⟩
  | 13 => ⟨S_, .f32⟩
  | 14 => ⟨S1x256, .f32⟩
  | 15 => ⟨S_, .f32⟩
  | 16 => ⟨S1x256, .f32⟩
  | 17 => ⟨S_, .f32⟩
  | 18 => ⟨S1x256, .f32⟩
  | 19 => ⟨S1x256, .f32⟩
  | 20 => ⟨S_, .f32⟩
  | 21 => ⟨S1x256, .f32⟩
  | 22 => ⟨S1x256, .f32⟩
  | 23 => ⟨S1x256, .f32⟩
  | 24 => ⟨S1x256, .f32⟩
  | 25 => ⟨S1x256, .f32⟩
  | 26 => ⟨S256, .f32⟩
  | 27 => ⟨S1x256, .f32⟩
  | 28 => ⟨S1x256, .f32⟩
  | 29 => ⟨S256, .f32⟩
  | 30 => ⟨S1x256, .f32⟩
  | 31 => ⟨S1x256x256, .f32⟩
  | 32 => ⟨S256x256, .f32⟩
  | 33 => ⟨S1x256, .f32⟩
  | 34 => ⟨S256, .f32⟩
  | 35 => ⟨S1x256, .f32⟩
  | 36 => ⟨S50000x256, .f32⟩
  | 37 => ⟨S10x1x256, .f32⟩
  | 38 => ⟨S10x1x256, .f32⟩
  | 39 => ⟨S_, .f32⟩
  | 40 => ⟨S1x256, .f32⟩
  | 41 => ⟨S_, .f32⟩
  | 42 => ⟨S1x256, .f32⟩
  | 43 => ⟨S_, .f32⟩
  | 44 => ⟨S1x256, .f32⟩
  | 45 => ⟨S1x256, .f32⟩
  | 46 => ⟨S_, .f32⟩
  | 47 => ⟨S1x256, .f32⟩
  | 48 => ⟨S1x256, .f32⟩
  | 49 => ⟨S1x256, .f32⟩
  | 50 => ⟨S1x256, .f32⟩
  | 51 => ⟨S1x256, .f32⟩
  | 52 => ⟨S256, .f32⟩
  | 53 => ⟨S1x256, .f32⟩
  | 54 => ⟨S1x256, .f32⟩
  | 55 => ⟨S256, .f32⟩
  | 56 => ⟨S1x256, .f32⟩
  | 57 => ⟨S50000x256, .f32⟩
  | _ => ⟨S50000x256, .f32⟩

abbrev hbmTy (i : Nat) : BufTy := match i / 128 with
  | 0 => hbmTy0_0 i
  | 1 => hbmTy0_1 i
  | 2 => hbmTy0_2 i
  | 3 => hbmTy0_3 i
  | _ => ⟨S50000x256, .f32⟩

abbrev vmemTy0_0 (i : Nat) : BufTy := match i % 128 with
  | 0 => ⟨S5000x256, .f32⟩
  | 1 => ⟨S5000x256, .f32⟩
  | 2 => ⟨S5000x256, .f32⟩
  | 3 => ⟨S5000x256, .f32⟩
  | 4 => ⟨S1x256, .f32⟩
  | 5 => ⟨S256x256, .f32⟩
  | 6 => ⟨S1x256, .f32⟩
  | 7 => ⟨S5000x256, .f32⟩
  | 8 => ⟨S5000x256, .f32⟩
  | 9 => ⟨S1x1x256, .f32⟩
  | 10 => ⟨S1x1x256, .f32⟩
  | 11 => ⟨S1x1x256, .f32⟩
  | 12 => ⟨S1x1x256, .f32⟩
  | 13 => ⟨S5000x256, .f32⟩
  | 14 => ⟨S5000x256, .f32⟩
  | 15 => ⟨S1x256, .f32⟩
  | 16 => ⟨S1x256, .f32⟩
  | 17 => ⟨S1x256, .f32⟩
  | 18 => ⟨S1x256, .f32⟩
  | 19 => ⟨S256x256, .f32⟩
  | 20 => ⟨S1x256, .f32⟩
  | 21 => ⟨S5000x256, .f32⟩
  | 22 => ⟨S5000x256, .f32⟩
  | 23 => ⟨S1x1x256, .f32⟩
  | 24 => ⟨S1x1x256, .f32⟩
  | 25 => ⟨S1x1x256, .f32⟩
  | 26 => ⟨S1x1x256, .f32⟩
  | 27 => ⟨S5000x256, .f32⟩
  | 28 => ⟨S5000x256, .f32⟩
  | 29 => ⟨S1x256, .f32⟩
  | 30 => ⟨S1x256, .f32⟩
  | 31 => ⟨S1x256, .f32⟩
  | 32 => ⟨S1x256, .f32⟩
  | 33 => ⟨S5000x256, .f32⟩
  | 34 => ⟨S5000x256, .f32⟩
  | 35 => ⟨S5000x256, .f32⟩
  | 36 => ⟨S5000x256, .f32⟩
  | 37 => ⟨S5000x256, .f32⟩
  | 38 => ⟨S5000x256, .f32⟩
  | 39 => ⟨S1x256, .f32⟩
  | 40 => ⟨S256x256, .f32⟩
  | 41 => ⟨S1x256, .f32⟩
  | 42 => ⟨S5000x256, .f32⟩
  | 43 => ⟨S5000x256, .f32⟩
  | 44 => ⟨S1x1x256, .f32⟩
  | 45 => ⟨S1x1x256, .f32⟩
  | 46 => ⟨S1x1x256, .f32⟩
  | 47 => ⟨S1x1x256, .f32⟩
  | 48 => ⟨S5000x256, .f32⟩
  | 49 => ⟨S5000x256, .f32⟩
  | 50 => ⟨S1x256, .f32⟩
  | 51 => ⟨S1x256, .f32⟩
  | 52 => ⟨S1x256, .f32⟩
  | 53 => ⟨S1x256, .f32⟩
  | 54 => ⟨S256x256, .f32⟩
  | 55 => ⟨S1x256, .f32⟩
  | 56 => ⟨S5000x256, .f32⟩
  | 57 => ⟨S5000x256, .f32⟩
  | 58 => ⟨S1x1x256, .f32⟩
  | 59 => ⟨S1x1x256, .f32⟩
  | 60 => ⟨S1x1x256, .f32⟩
  | 61 => ⟨S1x1x256, .f32⟩
  | 62 => ⟨S5000x256, .f32⟩
  | 63 => ⟨S5000x256, .f32⟩
  | 64 => ⟨S1x256, .f32⟩
  | 65 => ⟨S1x256, .f32⟩
  | 66 => ⟨S1x256, .f32⟩
  | 67 => ⟨S1x256, .f32⟩
  | 68 => ⟨S5000x256, .f32⟩
  | 69 => ⟨S5000x256, .f32⟩
  | 70 => ⟨S5000x256, .f32⟩
  | 71 => ⟨S5000x256, .f32⟩
  | 72 => ⟨S5000x256, .f32⟩
  | 73 => ⟨S5000x256, .f32⟩
  | 74 => ⟨S1x256, .f32⟩
  | 75 => ⟨S256x256, .f32⟩
  | 76 => ⟨S1x256, .f32⟩
  | 77 => ⟨S5000x256, .f32⟩
  | 78 => ⟨S5000x256, .f32⟩
  | 79 => ⟨S1x1x256, .f32⟩
  | 80 => ⟨S1x1x256, .f32⟩
  | 81 => ⟨S1x1x256, .f32⟩
  | 82 => ⟨S1x1x256, .f32⟩
  | 83 => ⟨S5000x256, .f32⟩
  | 84 => ⟨S5000x256, .f32⟩
  | 85 => ⟨S1x256, .f32⟩
  | 86 => ⟨S1x256, .f32⟩
  | 87 => ⟨S1x256, .f32⟩
  | 88 => ⟨S1x256, .f32⟩
  | 89 => ⟨S256x256, .f32⟩
  | 90 => ⟨S1x256, .f32⟩
  | 91 => ⟨S5000x256, .f32⟩
  | 92 => ⟨S5000x256, .f32⟩
  | 93 => ⟨S1x1x256, .f32⟩
  | 94 => ⟨S1x1x256, .f32⟩
  | 95 => ⟨S1x1x256, .f32⟩
  | 96 => ⟨S1x1x256, .f32⟩
  | 97 => ⟨S5000x256, .f32⟩
  | 98 => ⟨S5000x256, .f32⟩
  | 99 => ⟨S1x256, .f32⟩
  | 100 => ⟨S1x256, .f32⟩
  | 101 => ⟨S1x256, .f32⟩
  | 102 => ⟨S1x256, .f32⟩
  | 103 => ⟨S5000x256, .f32⟩
  | 104 => ⟨S5000x256, .f32⟩
  | 105 => ⟨S5000x256, .f32⟩
  | 106 => ⟨S5000x256, .f32⟩
  | 107 => ⟨S5000x256, .f32⟩
  | 108 => ⟨S5000x256, .f32⟩
  | 109 => ⟨S1x256, .f32⟩
  | 110 => ⟨S256x256, .f32⟩
  | 111 => ⟨S1x256, .f32⟩
  | 112 => ⟨S5000x256, .f32⟩
  | 113 => ⟨S5000x256, .f32⟩
  | 114 => ⟨S1x1x256, .f32⟩
  | 115 => ⟨S1x1x256, .f32⟩
  | 116 => ⟨S1x1x256, .f32⟩
  | 117 => ⟨S1x1x256, .f32⟩
  | 118 => ⟨S5000x256, .f32⟩
  | 119 => ⟨S5000x256, .f32⟩
  | 120 => ⟨S1x256, .f32⟩
  | 121 => ⟨S1x256, .f32⟩
  | 122 => ⟨S1x256, .f32⟩
  | 123 => ⟨S1x256, .f32⟩
  | 124 => ⟨S256x256, .f32⟩
  | 125 => ⟨S1x256, .f32⟩
  | 126 => ⟨S5000x256, .f32⟩
  | 127 => ⟨S5000x256, .f32⟩
  | _ => ⟨S50000x256, .f32⟩

abbrev vmemTy0_1 (i : Nat) : BufTy := match i % 128 with
  | 0 => ⟨S1x1x256, .f32⟩
  | 1 => ⟨S1x1x256, .f32⟩
  | 2 => ⟨S1x1x256, .f32⟩
  | 3 => ⟨S1x1x256, .f32⟩
  | 4 => ⟨S5000x256, .f32⟩
  | 5 => ⟨S5000x256, .f32⟩
  | 6 => ⟨S1x256, .f32⟩
  | 7 => ⟨S1x256, .f32⟩
  | 8 => ⟨S1x256, .f32⟩
  | 9 => ⟨S1x256, .f32⟩
  | 10 => ⟨S5000x256, .f32⟩
  | 11 => ⟨S5000x256, .f32⟩
  | 12 => ⟨S5000x256, .f32⟩
  | 13 => ⟨S5000x256, .f32⟩
  | 14 => ⟨S5000x256, .f32⟩
  | 15 => ⟨S5000x256, .f32⟩
  | 16 => ⟨S1x256, .f32⟩
  | 17 => ⟨S256x256, .f32⟩
  | 18 => ⟨S1x256, .f32⟩
  | 19 => ⟨S5000x256, .f32⟩
  | 20 => ⟨S5000x256, .f32⟩
  | 21 => ⟨S1x1x256, .f32⟩
  | 22 => ⟨S1x1x256, .f32⟩
  | 23 => ⟨S1x1x256, .f32⟩
  | 24 => ⟨S1x1x256, .f32⟩
  | 25 => ⟨S5000x256, .f32⟩
  | 26 => ⟨S5000x256, .f32⟩
  | 27 => ⟨S1x256, .f32⟩
  | 28 => ⟨S1x256, .f32⟩
  | 29 => ⟨S1x256, .f32⟩
  | 30 => ⟨S1x256, .f32⟩
  | 31 => ⟨S256x256, .f32⟩
  | 32 => ⟨S1x256, .f32⟩
  | 33 => ⟨S5000x256, .f32⟩
  | 34 => ⟨S5000x256, .f32⟩
  | 35 => ⟨S1x1x256, .f32⟩
  | 36 => ⟨S1x1x256, .f32⟩
  | 37 => ⟨S1x1x256, .f32⟩
  | 38 => ⟨S1x1x256, .f32⟩
  | 39 => ⟨S5000x256, .f32⟩
  | 40 => ⟨S5000x256, .f32⟩
  | 41 => ⟨S1x256, .f32⟩
  | 42 => ⟨S1x256, .f32⟩
  | 43 => ⟨S1x256, .f32⟩
  | 44 => ⟨S1x256, .f32⟩
  | 45 => ⟨S5000x256, .f32⟩
  | 46 => ⟨S5000x256, .f32⟩
  | _ => ⟨S50000x256, .f32⟩

abbrev vmemTy (i : Nat) : BufTy := match i / 128 with
  | 0 => vmemTy0_0 i
  | 1 => vmemTy0_1 i
  | _ => ⟨S50000x256, .f32⟩

abbrev bufTy : (tb : Table) → Fin (tcTables nBuf tb) → BufTy
  | .hbm, ⟨i, _⟩ => hbmTy i
  | .local _ .vmem, ⟨i, _⟩ => vmemTy i
  | _, _ => ⟨S50000x256, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 175 → Bool
  | ⟨i, _⟩ => dmaSemScopedAt i

abbrev sig : RefSig :=
  ofTc nBuf bufTy 0 175 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v0 : Ref sig .tc := ⟨.hbm, 34, rfl⟩
abbrev main_call1_cst : Ref sig .tc := ⟨.hbm, 35, rfl⟩
abbrev main_call1_v0 : Ref sig .tc := ⟨.hbm, 36, rfl⟩
abbrev main_v1 : Ref sig .tc := ⟨.hbm, 37, rfl⟩
abbrev main_cst : Ref sig .tc := ⟨.hbm, 38, rfl⟩
abbrev main_v2 : Ref sig .tc := ⟨.hbm, 39, rfl⟩
abbrev main_v3 : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13_0 : Ref sig .tc := ⟨.hbm, 50, rfl⟩
abbrev main_v13_1 : Ref sig .tc := ⟨.hbm, 51, rfl⟩
abbrev main_v13_2 : Ref sig .tc := ⟨.hbm, 52, rfl⟩
abbrev main_cst_0 : Ref sig .tc := ⟨.hbm, 53, rfl⟩
abbrev main_v14 : Ref sig .tc := ⟨.hbm, 54, rfl⟩
abbrev main_cst_1 : Ref sig .tc := ⟨.hbm, 55, rfl⟩
abbrev main_v15 : Ref sig .tc := ⟨.hbm, 56, rfl⟩
abbrev main_cst_2 : Ref sig .tc := ⟨.hbm, 57, rfl⟩
abbrev main_v16 : Ref sig .tc := ⟨.hbm, 58, rfl⟩
abbrev main_v17 : Ref sig .tc := ⟨.hbm, 59, rfl⟩
abbrev main_cst_3 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33_0 : Ref sig .tc := ⟨.hbm, 76, rfl⟩
abbrev main_v33_1 : Ref sig .tc := ⟨.hbm, 77, rfl⟩
abbrev main_v33_2 : Ref sig .tc := ⟨.hbm, 78, rfl⟩
abbrev main_cst_4 : Ref sig .tc := ⟨.hbm, 79, rfl⟩
abbrev main_v34 : Ref sig .tc := ⟨.hbm, 80, rfl⟩
abbrev main_cst_5 : Ref sig .tc := ⟨.hbm, 81, rfl⟩
abbrev main_v35 : Ref sig .tc := ⟨.hbm, 82, rfl⟩
abbrev main_cst_6 : Ref sig .tc := ⟨.hbm, 83, rfl⟩
abbrev main_v36 : Ref sig .tc := ⟨.hbm, 84, rfl⟩
abbrev main_v37 : Ref sig .tc := ⟨.hbm, 85, rfl⟩
abbrev main_cst_7 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_call2_c : Ref sig .tc := ⟨.hbm, 98, rfl⟩
abbrev main_call2_v0 : Ref sig .tc := ⟨.hbm, 99, rfl⟩
abbrev main_call2_v1 : Ref sig .tc := ⟨.hbm, 100, rfl⟩
abbrev main_call2_c_0 : Ref sig .tc := ⟨.hbm, 101, rfl⟩
abbrev main_call2_v2 : Ref sig .tc := ⟨.hbm, 102, rfl⟩
abbrev main_call2_v3 : Ref sig .tc := ⟨.hbm, 103, rfl⟩
abbrev main_call2_v4 : Ref sig .tc := ⟨.hbm, 104, rfl⟩
abbrev main_call2_v5 : Ref sig .tc := ⟨.hbm, 105, rfl⟩
abbrev main_call2_c_1 : Ref sig .tc := ⟨.hbm, 106, rfl⟩
abbrev main_call2_c_2 : Ref sig .tc := ⟨.hbm, 107, rfl⟩
abbrev main_call2_v6 : Ref sig .tc := ⟨.hbm, 108, rfl⟩
abbrev main_call2_v7 : Ref sig .tc := ⟨.hbm, 109, rfl⟩
abbrev main_call2_v8 : Ref sig .tc := ⟨.hbm, 110, rfl⟩
abbrev main_call2_v9 : Ref sig .tc := ⟨.hbm, 111, rfl⟩
abbrev main_call2_v10 : Ref sig .tc := ⟨.hbm, 112, rfl⟩
abbrev main_call2_v11 : Ref sig .tc := ⟨.hbm, 113, rfl⟩
abbrev main_call2_c_3 : Ref sig .tc := ⟨.hbm, 114, rfl⟩
abbrev main_call2_v12 : Ref sig .tc := ⟨.hbm, 115, rfl⟩
abbrev main_call2_v13 : Ref sig .tc := ⟨.hbm, 116, rfl⟩
abbrev main_call2_v14 : Ref sig .tc := ⟨.hbm, 117, rfl⟩
abbrev main_call2_cst : Ref sig .tc := ⟨.hbm, 118, rfl⟩
abbrev main_call2_v15 : Ref sig .tc := ⟨.hbm, 119, rfl⟩
abbrev main_v49 : Ref sig .tc := ⟨.hbm, 120, rfl⟩
abbrev main_call3_cst : Ref sig .tc := ⟨.hbm, 121, rfl⟩
abbrev main_call3_v0 : Ref sig .tc := ⟨.hbm, 122, rfl⟩
abbrev main_v50 : Ref sig .tc := ⟨.hbm, 123, rfl⟩
abbrev main_cst_8 : Ref sig .tc := ⟨.hbm, 124, rfl⟩
abbrev main_v51 : Ref sig .tc := ⟨.hbm, 125, rfl⟩
abbrev main_v52 : Ref sig .tc := ⟨.hbm, 126, rfl⟩
abbrev main_v53 : Ref sig .tc := ⟨.hbm, 127, rfl⟩
abbrev main_v54 : Ref sig .tc := ⟨.hbm, 128, rfl⟩
abbrev main_v55 : Ref sig .tc := ⟨.hbm, 129, rfl⟩
abbrev main_v56 : Ref sig .tc := ⟨.hbm, 130, rfl⟩
abbrev main_v57 : Ref sig .tc := ⟨.hbm, 131, rfl⟩
abbrev main_v58 : Ref sig .tc := ⟨.hbm, 132, rfl⟩
abbrev main_v59 : Ref sig .tc := ⟨.hbm, 133, rfl⟩
abbrev main_v60 : Ref sig .tc := ⟨.hbm, 134, rfl⟩
abbrev main_v61 : Ref sig .tc := ⟨.hbm, 135, rfl⟩
abbrev main_v62_0 : Ref sig .tc := ⟨.hbm, 136, rfl⟩
abbrev main_v62_1 : Ref sig .tc := ⟨.hbm, 137, rfl⟩
abbrev main_v62_2 : Ref sig .tc := ⟨.hbm, 138, rfl⟩
abbrev main_cst_9 : Ref sig .tc := ⟨.hbm, 139, rfl⟩
abbrev main_v63 : Ref sig .tc := ⟨.hbm, 140, rfl⟩
abbrev main_cst_10 : Ref sig .tc := ⟨.hbm, 141, rfl⟩
abbrev main_v64 : Ref sig .tc := ⟨.hbm, 142, rfl⟩
abbrev main_cst_11 : Ref sig .tc := ⟨.hbm, 143, rfl⟩
abbrev main_v65 : Ref sig .tc := ⟨.hbm, 144, rfl⟩
abbrev main_v66 : Ref sig .tc := ⟨.hbm, 145, rfl⟩
abbrev main_cst_12 : Ref sig .tc := ⟨.hbm, 146, rfl⟩
abbrev main_v67 : Ref sig .tc := ⟨.hbm, 147, rfl⟩
abbrev main_v68 : Ref sig .tc := ⟨.hbm, 148, rfl⟩
abbrev main_v69 : Ref sig .tc := ⟨.hbm, 149, rfl⟩
abbrev main_v70 : Ref sig .tc := ⟨.hbm, 150, rfl⟩
abbrev main_v71 : Ref sig .tc := ⟨.hbm, 151, rfl⟩
abbrev main_v72 : Ref sig .tc := ⟨.hbm, 152, rfl⟩
abbrev main_v73 : Ref sig .tc := ⟨.hbm, 153, rfl⟩
abbrev main_v74 : Ref sig .tc := ⟨.hbm, 154, rfl⟩
abbrev main_v75 : Ref sig .tc := ⟨.hbm, 155, rfl⟩
abbrev main_v76 : Ref sig .tc := ⟨.hbm, 156, rfl⟩
abbrev main_v77 : Ref sig .tc := ⟨.hbm, 157, rfl⟩
abbrev main_v78 : Ref sig .tc := ⟨.hbm, 158, rfl⟩
abbrev main_v79 : Ref sig .tc := ⟨.hbm, 159, rfl⟩
abbrev main_v80 : Ref sig .tc := ⟨.hbm, 160, rfl⟩
abbrev main_v81 : Ref sig .tc := ⟨.hbm, 161, rfl⟩
abbrev main_v82_0 : Ref sig .tc := ⟨.hbm, 162, rfl⟩
abbrev main_v82_1 : Ref sig .tc := ⟨.hbm, 163, rfl⟩
abbrev main_v82_2 : Ref sig .tc := ⟨.hbm, 164, rfl⟩
abbrev main_cst_13 : Ref sig .tc := ⟨.hbm, 165, rfl⟩
abbrev main_v83 : Ref sig .tc := ⟨.hbm, 166, rfl⟩
abbrev main_cst_14 : Ref sig .tc := ⟨.hbm, 167, rfl⟩
abbrev main_v84 : Ref sig .tc := ⟨.hbm, 168, rfl⟩
abbrev main_cst_15 : Ref sig .tc := ⟨.hbm, 169, rfl⟩
abbrev main_v85 : Ref sig .tc := ⟨.hbm, 170, rfl⟩
abbrev main_v86 : Ref sig .tc := ⟨.hbm, 171, rfl⟩
abbrev main_cst_16 : Ref sig .tc := ⟨.hbm, 172, rfl⟩
abbrev main_v87 : Ref sig .tc := ⟨.hbm, 173, rfl⟩
abbrev main_v88 : Ref sig .tc := ⟨.hbm, 174, rfl⟩
abbrev main_v89 : Ref sig .tc := ⟨.hbm, 175, rfl⟩
abbrev main_v90 : Ref sig .tc := ⟨.hbm, 176, rfl⟩
abbrev main_v91 : Ref sig .tc := ⟨.hbm, 177, rfl⟩
abbrev main_v92 : Ref sig .tc := ⟨.hbm, 178, rfl⟩
abbrev main_v93 : Ref sig .tc := ⟨.hbm, 179, rfl⟩
abbrev main_v94 : Ref sig .tc := ⟨.hbm, 180, rfl⟩
abbrev main_v95 : Ref sig .tc := ⟨.hbm, 181, rfl⟩
abbrev main_v96 : Ref sig .tc := ⟨.hbm, 182, rfl⟩
abbrev main_v97 : Ref sig .tc := ⟨.hbm, 183, rfl⟩
abbrev main_call4_c : Ref sig .tc := ⟨.hbm, 184, rfl⟩
abbrev main_call4_v0 : Ref sig .tc := ⟨.hbm, 185, rfl⟩
abbrev main_call4_v1 : Ref sig .tc := ⟨.hbm, 186, rfl⟩
abbrev main_call4_c_0 : Ref sig .tc := ⟨.hbm, 187, rfl⟩
abbrev main_call4_v2 : Ref sig .tc := ⟨.hbm, 188, rfl⟩
abbrev main_call4_v3 : Ref sig .tc := ⟨.hbm, 189, rfl⟩
abbrev main_call4_v4 : Ref sig .tc := ⟨.hbm, 190, rfl⟩
abbrev main_call4_v5 : Ref sig .tc := ⟨.hbm, 191, rfl⟩
abbrev main_call4_c_1 : Ref sig .tc := ⟨.hbm, 192, rfl⟩
abbrev main_call4_c_2 : Ref sig .tc := ⟨.hbm, 193, rfl⟩
abbrev main_call4_v6 : Ref sig .tc := ⟨.hbm, 194, rfl⟩
abbrev main_call4_v7 : Ref sig .tc := ⟨.hbm, 195, rfl⟩
abbrev main_call4_v8 : Ref sig .tc := ⟨.hbm, 196, rfl⟩
abbrev main_call4_v9 : Ref sig .tc := ⟨.hbm, 197, rfl⟩
abbrev main_call4_v10 : Ref sig .tc := ⟨.hbm, 198, rfl⟩
abbrev main_call4_v11 : Ref sig .tc := ⟨.hbm, 199, rfl⟩
abbrev main_call4_c_3 : Ref sig .tc := ⟨.hbm, 200, rfl⟩
abbrev main_call4_v12 : Ref sig .tc := ⟨.hbm, 201, rfl⟩
abbrev main_call4_v13 : Ref sig .tc := ⟨.hbm, 202, rfl⟩
abbrev main_call4_v14 : Ref sig .tc := ⟨.hbm, 203, rfl⟩
abbrev main_call4_cst : Ref sig .tc := ⟨.hbm, 204, rfl⟩
abbrev main_call4_v15 : Ref sig .tc := ⟨.hbm, 205, rfl⟩
abbrev main_v98 : Ref sig .tc := ⟨.hbm, 206, rfl⟩
abbrev main_call5_cst : Ref sig .tc := ⟨.hbm, 207, rfl⟩
abbrev main_call5_v0 : Ref sig .tc := ⟨.hbm, 208, rfl⟩
abbrev main_v99 : Ref sig .tc := ⟨.hbm, 209, rfl⟩
abbrev main_cst_17 : Ref sig .tc := ⟨.hbm, 210, rfl⟩
abbrev main_v100 : Ref sig .tc := ⟨.hbm, 211, rfl⟩
abbrev main_v101 : Ref sig .tc := ⟨.hbm, 212, rfl⟩
abbrev main_v102 : Ref sig .tc := ⟨.hbm, 213, rfl⟩
abbrev main_v103 : Ref sig .tc := ⟨.hbm, 214, rfl⟩
abbrev main_v104 : Ref sig .tc := ⟨.hbm, 215, rfl⟩
abbrev main_v105 : Ref sig .tc := ⟨.hbm, 216, rfl⟩
abbrev main_v106 : Ref sig .tc := ⟨.hbm, 217, rfl⟩
abbrev main_v107 : Ref sig .tc := ⟨.hbm, 218, rfl⟩
abbrev main_v108 : Ref sig .tc := ⟨.hbm, 219, rfl⟩
abbrev main_v109 : Ref sig .tc := ⟨.hbm, 220, rfl⟩
abbrev main_v110 : Ref sig .tc := ⟨.hbm, 221, rfl⟩
abbrev main_v111_0 : Ref sig .tc := ⟨.hbm, 222, rfl⟩
abbrev main_v111_1 : Ref sig .tc := ⟨.hbm, 223, rfl⟩
abbrev main_v111_2 : Ref sig .tc := ⟨.hbm, 224, rfl⟩
abbrev main_cst_18 : Ref sig .tc := ⟨.hbm, 225, rfl⟩
abbrev main_v112 : Ref sig .tc := ⟨.hbm, 226, rfl⟩
abbrev main_cst_19 : Ref sig .tc := ⟨.hbm, 227, rfl⟩
abbrev main_v113 : Ref sig .tc := ⟨.hbm, 228, rfl⟩
abbrev main_cst_20 : Ref sig .tc := ⟨.hbm, 229, rfl⟩
abbrev main_v114 : Ref sig .tc := ⟨.hbm, 230, rfl⟩
abbrev main_v115 : Ref sig .tc := ⟨.hbm, 231, rfl⟩
abbrev main_cst_21 : Ref sig .tc := ⟨.hbm, 232, rfl⟩
abbrev main_v116 : Ref sig .tc := ⟨.hbm, 233, rfl⟩
abbrev main_v117 : Ref sig .tc := ⟨.hbm, 234, rfl⟩
abbrev main_v118 : Ref sig .tc := ⟨.hbm, 235, rfl⟩
abbrev main_v119 : Ref sig .tc := ⟨.hbm, 236, rfl⟩
abbrev main_v120 : Ref sig .tc := ⟨.hbm, 237, rfl⟩
abbrev main_v121 : Ref sig .tc := ⟨.hbm, 238, rfl⟩
abbrev main_v122 : Ref sig .tc := ⟨.hbm, 239, rfl⟩
abbrev main_v123 : Ref sig .tc := ⟨.hbm, 240, rfl⟩
abbrev main_v124 : Ref sig .tc := ⟨.hbm, 241, rfl⟩
abbrev main_v125 : Ref sig .tc := ⟨.hbm, 242, rfl⟩
abbrev main_v126 : Ref sig .tc := ⟨.hbm, 243, rfl⟩
abbrev main_v127 : Ref sig .tc := ⟨.hbm, 244, rfl⟩
abbrev main_v128 : Ref sig .tc := ⟨.hbm, 245, rfl⟩
abbrev main_v129 : Ref sig .tc := ⟨.hbm, 246, rfl⟩
abbrev main_v130 : Ref sig .tc := ⟨.hbm, 247, rfl⟩
abbrev main_v131_0 : Ref sig .tc := ⟨.hbm, 248, rfl⟩
abbrev main_v131_1 : Ref sig .tc := ⟨.hbm, 249, rfl⟩
abbrev main_v131_2 : Ref sig .tc := ⟨.hbm, 250, rfl⟩
abbrev main_cst_22 : Ref sig .tc := ⟨.hbm, 251, rfl⟩
abbrev main_v132 : Ref sig .tc := ⟨.hbm, 252, rfl⟩
abbrev main_cst_23 : Ref sig .tc := ⟨.hbm, 253, rfl⟩
abbrev main_v133 : Ref sig .tc := ⟨.hbm, 254, rfl⟩
abbrev main_cst_24 : Ref sig .tc := ⟨.hbm, 255, rfl⟩
abbrev main_v134 : Ref sig .tc := ⟨.hbm, 256, rfl⟩
abbrev main_v135 : Ref sig .tc := ⟨.hbm, 257, rfl⟩
abbrev main_cst_25 : Ref sig .tc := ⟨.hbm, 258, rfl⟩
abbrev main_v136 : Ref sig .tc := ⟨.hbm, 259, rfl⟩
abbrev main_v137 : Ref sig .tc := ⟨.hbm, 260, rfl⟩
abbrev main_v138 : Ref sig .tc := ⟨.hbm, 261, rfl⟩
abbrev main_v139 : Ref sig .tc := ⟨.hbm, 262, rfl⟩
abbrev main_v140 : Ref sig .tc := ⟨.hbm, 263, rfl⟩
abbrev main_v141 : Ref sig .tc := ⟨.hbm, 264, rfl⟩
abbrev main_v142 : Ref sig .tc := ⟨.hbm, 265, rfl⟩
abbrev main_v143 : Ref sig .tc := ⟨.hbm, 266, rfl⟩
abbrev main_v144 : Ref sig .tc := ⟨.hbm, 267, rfl⟩
abbrev main_v145 : Ref sig .tc := ⟨.hbm, 268, rfl⟩
abbrev main_v146 : Ref sig .tc := ⟨.hbm, 269, rfl⟩
abbrev main_call6_c : Ref sig .tc := ⟨.hbm, 270, rfl⟩
abbrev main_call6_v0 : Ref sig .tc := ⟨.hbm, 271, rfl⟩
abbrev main_call6_v1 : Ref sig .tc := ⟨.hbm, 272, rfl⟩
abbrev main_call6_c_0 : Ref sig .tc := ⟨.hbm, 273, rfl⟩
abbrev main_call6_v2 : Ref sig .tc := ⟨.hbm, 274, rfl⟩
abbrev main_call6_v3 : Ref sig .tc := ⟨.hbm, 275, rfl⟩
abbrev main_call6_v4 : Ref sig .tc := ⟨.hbm, 276, rfl⟩
abbrev main_call6_v5 : Ref sig .tc := ⟨.hbm, 277, rfl⟩
abbrev main_call6_c_1 : Ref sig .tc := ⟨.hbm, 278, rfl⟩
abbrev main_call6_c_2 : Ref sig .tc := ⟨.hbm, 279, rfl⟩
abbrev main_call6_v6 : Ref sig .tc := ⟨.hbm, 280, rfl⟩
abbrev main_call6_v7 : Ref sig .tc := ⟨.hbm, 281, rfl⟩
abbrev main_call6_v8 : Ref sig .tc := ⟨.hbm, 282, rfl⟩
abbrev main_call6_v9 : Ref sig .tc := ⟨.hbm, 283, rfl⟩
abbrev main_call6_v10 : Ref sig .tc := ⟨.hbm, 284, rfl⟩
abbrev main_call6_v11 : Ref sig .tc := ⟨.hbm, 285, rfl⟩
abbrev main_call6_c_3 : Ref sig .tc := ⟨.hbm, 286, rfl⟩
abbrev main_call6_v12 : Ref sig .tc := ⟨.hbm, 287, rfl⟩
abbrev main_call6_v13 : Ref sig .tc := ⟨.hbm, 288, rfl⟩
abbrev main_call6_v14 : Ref sig .tc := ⟨.hbm, 289, rfl⟩
abbrev main_call6_cst : Ref sig .tc := ⟨.hbm, 290, rfl⟩
abbrev main_call6_v15 : Ref sig .tc := ⟨.hbm, 291, rfl⟩
abbrev main_v147 : Ref sig .tc := ⟨.hbm, 292, rfl⟩
abbrev main_call7_cst : Ref sig .tc := ⟨.hbm, 293, rfl⟩
abbrev main_call7_v0 : Ref sig .tc := ⟨.hbm, 294, rfl⟩
abbrev main_v148 : Ref sig .tc := ⟨.hbm, 295, rfl⟩
abbrev main_cst_26 : Ref sig .tc := ⟨.hbm, 296, rfl⟩
abbrev main_v149 : Ref sig .tc := ⟨.hbm, 297, rfl⟩
abbrev main_v150 : Ref sig .tc := ⟨.hbm, 298, rfl⟩
abbrev main_v151 : Ref sig .tc := ⟨.hbm, 299, rfl⟩
abbrev main_v152 : Ref sig .tc := ⟨.hbm, 300, rfl⟩
abbrev main_v153 : Ref sig .tc := ⟨.hbm, 301, rfl⟩
abbrev main_v154 : Ref sig .tc := ⟨.hbm, 302, rfl⟩
abbrev main_v155 : Ref sig .tc := ⟨.hbm, 303, rfl⟩
abbrev main_v156 : Ref sig .tc := ⟨.hbm, 304, rfl⟩
abbrev main_v157 : Ref sig .tc := ⟨.hbm, 305, rfl⟩
abbrev main_v158 : Ref sig .tc := ⟨.hbm, 306, rfl⟩
abbrev main_v159 : Ref sig .tc := ⟨.hbm, 307, rfl⟩
abbrev main_v160_0 : Ref sig .tc := ⟨.hbm, 308, rfl⟩
abbrev main_v160_1 : Ref sig .tc := ⟨.hbm, 309, rfl⟩
abbrev main_v160_2 : Ref sig .tc := ⟨.hbm, 310, rfl⟩
abbrev main_cst_27 : Ref sig .tc := ⟨.hbm, 311, rfl⟩
abbrev main_v161 : Ref sig .tc := ⟨.hbm, 312, rfl⟩
abbrev main_cst_28 : Ref sig .tc := ⟨.hbm, 313, rfl⟩
abbrev main_v162 : Ref sig .tc := ⟨.hbm, 314, rfl⟩
abbrev main_cst_29 : Ref sig .tc := ⟨.hbm, 315, rfl⟩
abbrev main_v163 : Ref sig .tc := ⟨.hbm, 316, rfl⟩
abbrev main_v164 : Ref sig .tc := ⟨.hbm, 317, rfl⟩
abbrev main_cst_30 : Ref sig .tc := ⟨.hbm, 318, rfl⟩
abbrev main_v165 : Ref sig .tc := ⟨.hbm, 319, rfl⟩
abbrev main_v166 : Ref sig .tc := ⟨.hbm, 320, rfl⟩
abbrev main_v167 : Ref sig .tc := ⟨.hbm, 321, rfl⟩
abbrev main_v168 : Ref sig .tc := ⟨.hbm, 322, rfl⟩
abbrev main_v169 : Ref sig .tc := ⟨.hbm, 323, rfl⟩
abbrev main_v170 : Ref sig .tc := ⟨.hbm, 324, rfl⟩
abbrev main_v171 : Ref sig .tc := ⟨.hbm, 325, rfl⟩
abbrev main_v172 : Ref sig .tc := ⟨.hbm, 326, rfl⟩
abbrev main_v173 : Ref sig .tc := ⟨.hbm, 327, rfl⟩
abbrev main_v174 : Ref sig .tc := ⟨.hbm, 328, rfl⟩
abbrev main_v175 : Ref sig .tc := ⟨.hbm, 329, rfl⟩
abbrev main_v176 : Ref sig .tc := ⟨.hbm, 330, rfl⟩
abbrev main_v177 : Ref sig .tc := ⟨.hbm, 331, rfl⟩
abbrev main_v178 : Ref sig .tc := ⟨.hbm, 332, rfl⟩
abbrev main_v179 : Ref sig .tc := ⟨.hbm, 333, rfl⟩
abbrev main_v180_0 : Ref sig .tc := ⟨.hbm, 334, rfl⟩
abbrev main_v180_1 : Ref sig .tc := ⟨.hbm, 335, rfl⟩
abbrev main_v180_2 : Ref sig .tc := ⟨.hbm, 336, rfl⟩
abbrev main_cst_31 : Ref sig .tc := ⟨.hbm, 337, rfl⟩
abbrev main_v181 : Ref sig .tc := ⟨.hbm, 338, rfl⟩
abbrev main_cst_32 : Ref sig .tc := ⟨.hbm, 339, rfl⟩
abbrev main_v182 : Ref sig .tc := ⟨.hbm, 340, rfl⟩
abbrev main_cst_33 : Ref sig .tc := ⟨.hbm, 341, rfl⟩
abbrev main_v183 : Ref sig .tc := ⟨.hbm, 342, rfl⟩
abbrev main_v184 : Ref sig .tc := ⟨.hbm, 343, rfl⟩
abbrev main_cst_34 : Ref sig .tc := ⟨.hbm, 344, rfl⟩
abbrev main_v185 : Ref sig .tc := ⟨.hbm, 345, rfl⟩
abbrev main_v186 : Ref sig .tc := ⟨.hbm, 346, rfl⟩
abbrev main_v187 : Ref sig .tc := ⟨.hbm, 347, rfl⟩
abbrev main_v188 : Ref sig .tc := ⟨.hbm, 348, rfl⟩
abbrev main_v189 : Ref sig .tc := ⟨.hbm, 349, rfl⟩
abbrev main_v190 : Ref sig .tc := ⟨.hbm, 350, rfl⟩
abbrev main_v191 : Ref sig .tc := ⟨.hbm, 351, rfl⟩
abbrev main_v192 : Ref sig .tc := ⟨.hbm, 352, rfl⟩
abbrev main_v193 : Ref sig .tc := ⟨.hbm, 353, rfl⟩
abbrev main_v194 : Ref sig .tc := ⟨.hbm, 354, rfl⟩
abbrev main_v195 : Ref sig .tc := ⟨.hbm, 355, rfl⟩
abbrev main_call8_c : Ref sig .tc := ⟨.hbm, 356, rfl⟩
abbrev main_call8_v0 : Ref sig .tc := ⟨.hbm, 357, rfl⟩
abbrev main_call8_v1 : Ref sig .tc := ⟨.hbm, 358, rfl⟩
abbrev main_call8_c_0 : Ref sig .tc := ⟨.hbm, 359, rfl⟩
abbrev main_call8_v2 : Ref sig .tc := ⟨.hbm, 360, rfl⟩
abbrev main_call8_v3 : Ref sig .tc := ⟨.hbm, 361, rfl⟩
abbrev main_call8_v4 : Ref sig .tc := ⟨.hbm, 362, rfl⟩
abbrev main_call8_v5 : Ref sig .tc := ⟨.hbm, 363, rfl⟩
abbrev main_call8_c_1 : Ref sig .tc := ⟨.hbm, 364, rfl⟩
abbrev main_call8_c_2 : Ref sig .tc := ⟨.hbm, 365, rfl⟩
abbrev main_call8_v6 : Ref sig .tc := ⟨.hbm, 366, rfl⟩
abbrev main_call8_v7 : Ref sig .tc := ⟨.hbm, 367, rfl⟩
abbrev main_call8_v8 : Ref sig .tc := ⟨.hbm, 368, rfl⟩
abbrev main_call8_v9 : Ref sig .tc := ⟨.hbm, 369, rfl⟩
abbrev main_call8_v10 : Ref sig .tc := ⟨.hbm, 370, rfl⟩
abbrev main_call8_v11 : Ref sig .tc := ⟨.hbm, 371, rfl⟩
abbrev main_call8_c_3 : Ref sig .tc := ⟨.hbm, 372, rfl⟩
abbrev main_call8_v12 : Ref sig .tc := ⟨.hbm, 373, rfl⟩
abbrev main_call8_v13 : Ref sig .tc := ⟨.hbm, 374, rfl⟩
abbrev main_call8_v14 : Ref sig .tc := ⟨.hbm, 375, rfl⟩
abbrev main_call8_cst : Ref sig .tc := ⟨.hbm, 376, rfl⟩
abbrev main_call8_v15 : Ref sig .tc := ⟨.hbm, 377, rfl⟩
abbrev main_v196 : Ref sig .tc := ⟨.hbm, 378, rfl⟩
abbrev main_call9_cst : Ref sig .tc := ⟨.hbm, 379, rfl⟩
abbrev main_call9_v0 : Ref sig .tc := ⟨.hbm, 380, rfl⟩
abbrev main_v197 : Ref sig .tc := ⟨.hbm, 381, rfl⟩
abbrev main_cst_35 : Ref sig .tc := ⟨.hbm, 382, rfl⟩
abbrev main_v198 : Ref sig .tc := ⟨.hbm, 383, rfl⟩
abbrev main_v199 : Ref sig .tc := ⟨.hbm, 384, rfl⟩
abbrev main_v200 : Ref sig .tc := ⟨.hbm, 385, rfl⟩
abbrev main_v201 : Ref sig .tc := ⟨.hbm, 386, rfl⟩
abbrev main_v202 : Ref sig .tc := ⟨.hbm, 387, rfl⟩
abbrev main_v203 : Ref sig .tc := ⟨.hbm, 388, rfl⟩
abbrev main_v204 : Ref sig .tc := ⟨.hbm, 389, rfl⟩
abbrev main_v205 : Ref sig .tc := ⟨.hbm, 390, rfl⟩
abbrev main_v206 : Ref sig .tc := ⟨.hbm, 391, rfl⟩
abbrev main_v207 : Ref sig .tc := ⟨.hbm, 392, rfl⟩
abbrev main_v208 : Ref sig .tc := ⟨.hbm, 393, rfl⟩
abbrev main_v209_0 : Ref sig .tc := ⟨.hbm, 394, rfl⟩
abbrev main_v209_1 : Ref sig .tc := ⟨.hbm, 395, rfl⟩
abbrev main_v209_2 : Ref sig .tc := ⟨.hbm, 396, rfl⟩
abbrev main_cst_36 : Ref sig .tc := ⟨.hbm, 397, rfl⟩
abbrev main_v210 : Ref sig .tc := ⟨.hbm, 398, rfl⟩
abbrev main_cst_37 : Ref sig .tc := ⟨.hbm, 399, rfl⟩
abbrev main_v211 : Ref sig .tc := ⟨.hbm, 400, rfl⟩
abbrev main_cst_38 : Ref sig .tc := ⟨.hbm, 401, rfl⟩
abbrev main_v212 : Ref sig .tc := ⟨.hbm, 402, rfl⟩
abbrev main_v213 : Ref sig .tc := ⟨.hbm, 403, rfl⟩
abbrev main_cst_39 : Ref sig .tc := ⟨.hbm, 404, rfl⟩
abbrev main_v214 : Ref sig .tc := ⟨.hbm, 405, rfl⟩
abbrev main_v215 : Ref sig .tc := ⟨.hbm, 406, rfl⟩
abbrev main_v216 : Ref sig .tc := ⟨.hbm, 407, rfl⟩
abbrev main_v217 : Ref sig .tc := ⟨.hbm, 408, rfl⟩
abbrev main_v218 : Ref sig .tc := ⟨.hbm, 409, rfl⟩
abbrev main_v219 : Ref sig .tc := ⟨.hbm, 410, rfl⟩
abbrev main_v220 : Ref sig .tc := ⟨.hbm, 411, rfl⟩
abbrev main_v221 : Ref sig .tc := ⟨.hbm, 412, rfl⟩
abbrev main_v222 : Ref sig .tc := ⟨.hbm, 413, rfl⟩
abbrev main_v223 : Ref sig .tc := ⟨.hbm, 414, rfl⟩
abbrev main_v224 : Ref sig .tc := ⟨.hbm, 415, rfl⟩
abbrev main_v225 : Ref sig .tc := ⟨.hbm, 416, rfl⟩
abbrev main_v226 : Ref sig .tc := ⟨.hbm, 417, rfl⟩
abbrev main_v227 : Ref sig .tc := ⟨.hbm, 418, rfl⟩
abbrev main_v228 : Ref sig .tc := ⟨.hbm, 419, rfl⟩
abbrev main_v229_0 : Ref sig .tc := ⟨.hbm, 420, rfl⟩
abbrev main_v229_1 : Ref sig .tc := ⟨.hbm, 421, rfl⟩
abbrev main_v229_2 : Ref sig .tc := ⟨.hbm, 422, rfl⟩
abbrev main_cst_40 : Ref sig .tc := ⟨.hbm, 423, rfl⟩
abbrev main_v230 : Ref sig .tc := ⟨.hbm, 424, rfl⟩
abbrev main_cst_41 : Ref sig .tc := ⟨.hbm, 425, rfl⟩
abbrev main_v231 : Ref sig .tc := ⟨.hbm, 426, rfl⟩
abbrev main_cst_42 : Ref sig .tc := ⟨.hbm, 427, rfl⟩
abbrev main_v232 : Ref sig .tc := ⟨.hbm, 428, rfl⟩
abbrev main_v233 : Ref sig .tc := ⟨.hbm, 429, rfl⟩
abbrev main_cst_43 : Ref sig .tc := ⟨.hbm, 430, rfl⟩
abbrev main_v234 : Ref sig .tc := ⟨.hbm, 431, rfl⟩
abbrev main_v235 : Ref sig .tc := ⟨.hbm, 432, rfl⟩
abbrev main_v236 : Ref sig .tc := ⟨.hbm, 433, rfl⟩
abbrev main_v237 : Ref sig .tc := ⟨.hbm, 434, rfl⟩
abbrev main_v238 : Ref sig .tc := ⟨.hbm, 435, rfl⟩
abbrev main_v239 : Ref sig .tc := ⟨.hbm, 436, rfl⟩
abbrev main_v240 : Ref sig .tc := ⟨.hbm, 437, rfl⟩
abbrev main_v241 : Ref sig .tc := ⟨.hbm, 438, rfl⟩
abbrev main_v242 : Ref sig .tc := ⟨.hbm, 439, rfl⟩
abbrev main_v243 : Ref sig .tc := ⟨.hbm, 440, rfl⟩
abbrev main_v244 : Ref sig .tc := ⟨.hbm, 441, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg7_1 : Ref sig .tc := ⟨.vmem, 22, rfl⟩
abbrev cc1_stg8_0 : Ref sig .tc := ⟨.vmem, 23, rfl⟩
abbrev cc1_stg8_1 : Ref sig .tc := ⟨.vmem, 24, rfl⟩
abbrev cc1_stg9_0 : Ref sig .tc := ⟨.vmem, 25, rfl⟩
abbrev cc1_stg9_1 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg5_1 : Ref sig .tc := ⟨.vmem, 34, rfl⟩
abbrev cc3_stg0_0 : Ref sig .tc := ⟨.vmem, 35, rfl⟩
abbrev cc3_stg0_1 : Ref sig .tc := ⟨.vmem, 36, rfl⟩
abbrev cc3_stg1_0 : Ref sig .tc := ⟨.vmem, 37, rfl⟩
abbrev cc3_stg1_1 : Ref sig .tc := ⟨.vmem, 38, rfl⟩
abbrev cc3_stg2_0 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg5_1 : Ref sig .tc := ⟨.vmem, 43, rfl⟩
abbrev cc3_stg6_0 : Ref sig .tc := ⟨.vmem, 44, rfl⟩
abbrev cc3_stg6_1 : Ref sig .tc := ⟨.vmem, 45, rfl⟩
abbrev cc3_stg7_0 : Ref sig .tc := ⟨.vmem, 46, rfl⟩
abbrev cc3_stg7_1 : Ref sig .tc := ⟨.vmem, 47, rfl⟩
abbrev cc4_stg0_0 : Ref sig .tc := ⟨.vmem, 48, rfl⟩
abbrev cc4_stg0_1 : Ref sig .tc := ⟨.vmem, 49, rfl⟩
abbrev cc4_stg1_0 : Ref sig .tc := ⟨.vmem, 50, rfl⟩
abbrev cc4_stg2_0 : Ref sig .tc := ⟨.vmem, 51, rfl⟩
abbrev cc4_stg3_0 : Ref sig .tc := ⟨.vmem, 52, rfl⟩
abbrev cc4_stg4_0 : Ref sig .tc := ⟨.vmem, 53, rfl⟩
abbrev cc4_stg5_0 : Ref sig .tc := ⟨.vmem, 54, rfl⟩
abbrev cc4_stg6_0 : Ref sig .tc := ⟨.vmem, 55, rfl⟩
abbrev cc4_stg7_0 : Ref sig .tc := ⟨.vmem, 56, rfl⟩
abbrev cc4_stg7_1 : Ref sig .tc := ⟨.vmem, 57, rfl⟩
abbrev cc4_stg8_0 : Ref sig .tc := ⟨.vmem, 58, rfl⟩
abbrev cc4_stg8_1 : Ref sig .tc := ⟨.vmem, 59, rfl⟩
abbrev cc4_stg9_0 : Ref sig .tc := ⟨.vmem, 60, rfl⟩
abbrev cc4_stg9_1 : Ref sig .tc := ⟨.vmem, 61, rfl⟩
abbrev cc5_stg0_0 : Ref sig .tc := ⟨.vmem, 62, rfl⟩
abbrev cc5_stg0_1 : Ref sig .tc := ⟨.vmem, 63, rfl⟩
abbrev cc5_stg1_0 : Ref sig .tc := ⟨.vmem, 64, rfl⟩
abbrev cc5_stg2_0 : Ref sig .tc := ⟨.vmem, 65, rfl⟩
abbrev cc5_stg3_0 : Ref sig .tc := ⟨.vmem, 66, rfl⟩
abbrev cc5_stg4_0 : Ref sig .tc := ⟨.vmem, 67, rfl⟩
abbrev cc5_stg5_0 : Ref sig .tc := ⟨.vmem, 68, rfl⟩
abbrev cc5_stg5_1 : Ref sig .tc := ⟨.vmem, 69, rfl⟩
abbrev cc6_stg0_0 : Ref sig .tc := ⟨.vmem, 70, rfl⟩
abbrev cc6_stg0_1 : Ref sig .tc := ⟨.vmem, 71, rfl⟩
abbrev cc6_stg1_0 : Ref sig .tc := ⟨.vmem, 72, rfl⟩
abbrev cc6_stg1_1 : Ref sig .tc := ⟨.vmem, 73, rfl⟩
abbrev cc6_stg2_0 : Ref sig .tc := ⟨.vmem, 74, rfl⟩
abbrev cc6_stg3_0 : Ref sig .tc := ⟨.vmem, 75, rfl⟩
abbrev cc6_stg4_0 : Ref sig .tc := ⟨.vmem, 76, rfl⟩
abbrev cc6_stg5_0 : Ref sig .tc := ⟨.vmem, 77, rfl⟩
abbrev cc6_stg5_1 : Ref sig .tc := ⟨.vmem, 78, rfl⟩
abbrev cc6_stg6_0 : Ref sig .tc := ⟨.vmem, 79, rfl⟩
abbrev cc6_stg6_1 : Ref sig .tc := ⟨.vmem, 80, rfl⟩
abbrev cc6_stg7_0 : Ref sig .tc := ⟨.vmem, 81, rfl⟩
abbrev cc6_stg7_1 : Ref sig .tc := ⟨.vmem, 82, rfl⟩
abbrev cc7_stg0_0 : Ref sig .tc := ⟨.vmem, 83, rfl⟩
abbrev cc7_stg0_1 : Ref sig .tc := ⟨.vmem, 84, rfl⟩
abbrev cc7_stg1_0 : Ref sig .tc := ⟨.vmem, 85, rfl⟩
abbrev cc7_stg2_0 : Ref sig .tc := ⟨.vmem, 86, rfl⟩
abbrev cc7_stg3_0 : Ref sig .tc := ⟨.vmem, 87, rfl⟩
abbrev cc7_stg4_0 : Ref sig .tc := ⟨.vmem, 88, rfl⟩
abbrev cc7_stg5_0 : Ref sig .tc := ⟨.vmem, 89, rfl⟩
abbrev cc7_stg6_0 : Ref sig .tc := ⟨.vmem, 90, rfl⟩
abbrev cc7_stg7_0 : Ref sig .tc := ⟨.vmem, 91, rfl⟩
abbrev cc7_stg7_1 : Ref sig .tc := ⟨.vmem, 92, rfl⟩
abbrev cc7_stg8_0 : Ref sig .tc := ⟨.vmem, 93, rfl⟩
abbrev cc7_stg8_1 : Ref sig .tc := ⟨.vmem, 94, rfl⟩
abbrev cc7_stg9_0 : Ref sig .tc := ⟨.vmem, 95, rfl⟩
abbrev cc7_stg9_1 : Ref sig .tc := ⟨.vmem, 96, rfl⟩
abbrev cc8_stg0_0 : Ref sig .tc := ⟨.vmem, 97, rfl⟩
abbrev cc8_stg0_1 : Ref sig .tc := ⟨.vmem, 98, rfl⟩
abbrev cc8_stg1_0 : Ref sig .tc := ⟨.vmem, 99, rfl⟩
abbrev cc8_stg2_0 : Ref sig .tc := ⟨.vmem, 100, rfl⟩
abbrev cc8_stg3_0 : Ref sig .tc := ⟨.vmem, 101, rfl⟩
abbrev cc8_stg4_0 : Ref sig .tc := ⟨.vmem, 102, rfl⟩
abbrev cc8_stg5_0 : Ref sig .tc := ⟨.vmem, 103, rfl⟩
abbrev cc8_stg5_1 : Ref sig .tc := ⟨.vmem, 104, rfl⟩
abbrev cc9_stg0_0 : Ref sig .tc := ⟨.vmem, 105, rfl⟩
abbrev cc9_stg0_1 : Ref sig .tc := ⟨.vmem, 106, rfl⟩
abbrev cc9_stg1_0 : Ref sig .tc := ⟨.vmem, 107, rfl⟩
abbrev cc9_stg1_1 : Ref sig .tc := ⟨.vmem, 108, rfl⟩
abbrev cc9_stg2_0 : Ref sig .tc := ⟨.vmem, 109, rfl⟩
abbrev cc9_stg3_0 : Ref sig .tc := ⟨.vmem, 110, rfl⟩
abbrev cc9_stg4_0 : Ref sig .tc := ⟨.vmem, 111, rfl⟩
abbrev cc9_stg5_0 : Ref sig .tc := ⟨.vmem, 112, rfl⟩
abbrev cc9_stg5_1 : Ref sig .tc := ⟨.vmem, 113, rfl⟩
abbrev cc9_stg6_0 : Ref sig .tc := ⟨.vmem, 114, rfl⟩
abbrev cc9_stg6_1 : Ref sig .tc := ⟨.vmem, 115, rfl⟩
abbrev cc9_stg7_0 : Ref sig .tc := ⟨.vmem, 116, rfl⟩
abbrev cc9_stg7_1 : Ref sig .tc := ⟨.vmem, 117, rfl⟩
abbrev cc10_stg0_0 : Ref sig .tc := ⟨.vmem, 118, rfl⟩
abbrev cc10_stg0_1 : Ref sig .tc := ⟨.vmem, 119, rfl⟩
abbrev cc10_stg1_0 : Ref sig .tc := ⟨.vmem, 120, rfl⟩
abbrev cc10_stg2_0 : Ref sig .tc := ⟨.vmem, 121, rfl⟩
abbrev cc10_stg3_0 : Ref sig .tc := ⟨.vmem, 122, rfl⟩
abbrev cc10_stg4_0 : Ref sig .tc := ⟨.vmem, 123, rfl⟩
abbrev cc10_stg5_0 : Ref sig .tc := ⟨.vmem, 124, rfl⟩
abbrev cc10_stg6_0 : Ref sig .tc := ⟨.vmem, 125, rfl⟩
abbrev cc10_stg7_0 : Ref sig .tc := ⟨.vmem, 126, rfl⟩
abbrev cc10_stg7_1 : Ref sig .tc := ⟨.vmem, 127, rfl⟩
abbrev cc10_stg8_0 : Ref sig .tc := ⟨.vmem, 128, rfl⟩
abbrev cc10_stg8_1 : Ref sig .tc := ⟨.vmem, 129, rfl⟩
abbrev cc10_stg9_0 : Ref sig .tc := ⟨.vmem, 130, rfl⟩
abbrev cc10_stg9_1 : Ref sig .tc := ⟨.vmem, 131, rfl⟩
abbrev cc11_stg0_0 : Ref sig .tc := ⟨.vmem, 132, rfl⟩
abbrev cc11_stg0_1 : Ref sig .tc := ⟨.vmem, 133, rfl⟩
abbrev cc11_stg1_0 : Ref sig .tc := ⟨.vmem, 134, rfl⟩
abbrev cc11_stg2_0 : Ref sig .tc := ⟨.vmem, 135, rfl⟩
abbrev cc11_stg3_0 : Ref sig .tc := ⟨.vmem, 136, rfl⟩
abbrev cc11_stg4_0 : Ref sig .tc := ⟨.vmem, 137, rfl⟩
abbrev cc11_stg5_0 : Ref sig .tc := ⟨.vmem, 138, rfl⟩
abbrev cc11_stg5_1 : Ref sig .tc := ⟨.vmem, 139, rfl⟩
abbrev cc12_stg0_0 : Ref sig .tc := ⟨.vmem, 140, rfl⟩
abbrev cc12_stg0_1 : Ref sig .tc := ⟨.vmem, 141, rfl⟩
abbrev cc12_stg1_0 : Ref sig .tc := ⟨.vmem, 142, rfl⟩
abbrev cc12_stg1_1 : Ref sig .tc := ⟨.vmem, 143, rfl⟩
abbrev cc12_stg2_0 : Ref sig .tc := ⟨.vmem, 144, rfl⟩
abbrev cc12_stg3_0 : Ref sig .tc := ⟨.vmem, 145, rfl⟩
abbrev cc12_stg4_0 : Ref sig .tc := ⟨.vmem, 146, rfl⟩
abbrev cc12_stg5_0 : Ref sig .tc := ⟨.vmem, 147, rfl⟩
abbrev cc12_stg5_1 : Ref sig .tc := ⟨.vmem, 148, rfl⟩
abbrev cc12_stg6_0 : Ref sig .tc := ⟨.vmem, 149, rfl⟩
abbrev cc12_stg6_1 : Ref sig .tc := ⟨.vmem, 150, rfl⟩
abbrev cc12_stg7_0 : Ref sig .tc := ⟨.vmem, 151, rfl⟩
abbrev cc12_stg7_1 : Ref sig .tc := ⟨.vmem, 152, rfl⟩
abbrev cc13_stg0_0 : Ref sig .tc := ⟨.vmem, 153, rfl⟩
abbrev cc13_stg0_1 : Ref sig .tc := ⟨.vmem, 154, rfl⟩
abbrev cc13_stg1_0 : Ref sig .tc := ⟨.vmem, 155, rfl⟩
abbrev cc13_stg2_0 : Ref sig .tc := ⟨.vmem, 156, rfl⟩
abbrev cc13_stg3_0 : Ref sig .tc := ⟨.vmem, 157, rfl⟩
abbrev cc13_stg4_0 : Ref sig .tc := ⟨.vmem, 158, rfl⟩
abbrev cc13_stg5_0 : Ref sig .tc := ⟨.vmem, 159, rfl⟩
abbrev cc13_stg6_0 : Ref sig .tc := ⟨.vmem, 160, rfl⟩
abbrev cc13_stg7_0 : Ref sig .tc := ⟨.vmem, 161, rfl⟩
abbrev cc13_stg7_1 : Ref sig .tc := ⟨.vmem, 162, rfl⟩
abbrev cc13_stg8_0 : Ref sig .tc := ⟨.vmem, 163, rfl⟩
abbrev cc13_stg8_1 : Ref sig .tc := ⟨.vmem, 164, rfl⟩
abbrev cc13_stg9_0 : Ref sig .tc := ⟨.vmem, 165, rfl⟩
abbrev cc13_stg9_1 : Ref sig .tc := ⟨.vmem, 166, rfl⟩
abbrev cc14_stg0_0 : Ref sig .tc := ⟨.vmem, 167, rfl⟩
abbrev cc14_stg0_1 : Ref sig .tc := ⟨.vmem, 168, rfl⟩
abbrev cc14_stg1_0 : Ref sig .tc := ⟨.vmem, 169, rfl⟩
abbrev cc14_stg2_0 : Ref sig .tc := ⟨.vmem, 170, rfl⟩
abbrev cc14_stg3_0 : Ref sig .tc := ⟨.vmem, 171, rfl⟩
abbrev cc14_stg4_0 : Ref sig .tc := ⟨.vmem, 172, rfl⟩
abbrev cc14_stg5_0 : Ref sig .tc := ⟨.vmem, 173, rfl⟩
abbrev cc14_stg5_1 : Ref sig .tc := ⟨.vmem, 174, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem7_1 : DmaSem sig := 22
abbrev cc1_sem8_0 : DmaSem sig := 23
abbrev cc1_sem8_1 : DmaSem sig := 24
abbrev cc1_sem9_0 : DmaSem sig := 25
abbrev cc1_sem9_1 : DmaSem sig := 26
abbrev cc2_sem0_0 : DmaSem sig := 27
abbrev cc2_sem0_1 : DmaSem sig := 28
abbrev cc2_sem1_0 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem5_1 : DmaSem sig := 34
abbrev cc3_sem0_0 : DmaSem sig := 35
abbrev cc3_sem0_1 : DmaSem sig := 36
abbrev cc3_sem1_0 : DmaSem sig := 37
abbrev cc3_sem1_1 : DmaSem sig := 38
abbrev cc3_sem2_0 : DmaSem sig := 39
abbrev cc3_sem3_0 : DmaSem sig := 40
abbrev cc3_sem4_0 : DmaSem sig := 41
abbrev cc3_sem5_0 : DmaSem sig := 42
abbrev cc3_sem5_1 : DmaSem sig := 43
abbrev cc3_sem6_0 : DmaSem sig := 44
abbrev cc3_sem6_1 : DmaSem sig := 45
abbrev cc3_sem7_0 : DmaSem sig := 46
abbrev cc3_sem7_1 : DmaSem sig := 47
abbrev cc4_sem0_0 : DmaSem sig := 48
abbrev cc4_sem0_1 : DmaSem sig := 49
abbrev cc4_sem1_0 : DmaSem sig := 50
abbrev cc4_sem2_0 : DmaSem sig := 51
abbrev cc4_sem3_0 : DmaSem sig := 52
abbrev cc4_sem4_0 : DmaSem sig := 53
abbrev cc4_sem5_0 : DmaSem sig := 54
abbrev cc4_sem6_0 : DmaSem sig := 55
abbrev cc4_sem7_0 : DmaSem sig := 56
abbrev cc4_sem7_1 : DmaSem sig := 57
abbrev cc4_sem8_0 : DmaSem sig := 58
abbrev cc4_sem8_1 : DmaSem sig := 59
abbrev cc4_sem9_0 : DmaSem sig := 60
abbrev cc4_sem9_1 : DmaSem sig := 61
abbrev cc5_sem0_0 : DmaSem sig := 62
abbrev cc5_sem0_1 : DmaSem sig := 63
abbrev cc5_sem1_0 : DmaSem sig := 64
abbrev cc5_sem2_0 : DmaSem sig := 65
abbrev cc5_sem3_0 : DmaSem sig := 66
abbrev cc5_sem4_0 : DmaSem sig := 67
abbrev cc5_sem5_0 : DmaSem sig := 68
abbrev cc5_sem5_1 : DmaSem sig := 69
abbrev cc6_sem0_0 : DmaSem sig := 70
abbrev cc6_sem0_1 : DmaSem sig := 71
abbrev cc6_sem1_0 : DmaSem sig := 72
abbrev cc6_sem1_1 : DmaSem sig := 73
abbrev cc6_sem2_0 : DmaSem sig := 74
abbrev cc6_sem3_0 : DmaSem sig := 75
abbrev cc6_sem4_0 : DmaSem sig := 76
abbrev cc6_sem5_0 : DmaSem sig := 77
abbrev cc6_sem5_1 : DmaSem sig := 78
abbrev cc6_sem6_0 : DmaSem sig := 79
abbrev cc6_sem6_1 : DmaSem sig := 80
abbrev cc6_sem7_0 : DmaSem sig := 81
abbrev cc6_sem7_1 : DmaSem sig := 82
abbrev cc7_sem0_0 : DmaSem sig := 83
abbrev cc7_sem0_1 : DmaSem sig := 84
abbrev cc7_sem1_0 : DmaSem sig := 85
abbrev cc7_sem2_0 : DmaSem sig := 86
abbrev cc7_sem3_0 : DmaSem sig := 87
abbrev cc7_sem4_0 : DmaSem sig := 88
abbrev cc7_sem5_0 : DmaSem sig := 89
abbrev cc7_sem6_0 : DmaSem sig := 90
abbrev cc7_sem7_0 : DmaSem sig := 91
abbrev cc7_sem7_1 : DmaSem sig := 92
abbrev cc7_sem8_0 : DmaSem sig := 93
abbrev cc7_sem8_1 : DmaSem sig := 94
abbrev cc7_sem9_0 : DmaSem sig := 95
abbrev cc7_sem9_1 : DmaSem sig := 96
abbrev cc8_sem0_0 : DmaSem sig := 97
abbrev cc8_sem0_1 : DmaSem sig := 98
abbrev cc8_sem1_0 : DmaSem sig := 99
abbrev cc8_sem2_0 : DmaSem sig := 100
abbrev cc8_sem3_0 : DmaSem sig := 101
abbrev cc8_sem4_0 : DmaSem sig := 102
abbrev cc8_sem5_0 : DmaSem sig := 103
abbrev cc8_sem5_1 : DmaSem sig := 104
abbrev cc9_sem0_0 : DmaSem sig := 105
abbrev cc9_sem0_1 : DmaSem sig := 106
abbrev cc9_sem1_0 : DmaSem sig := 107
abbrev cc9_sem1_1 : DmaSem sig := 108
abbrev cc9_sem2_0 : DmaSem sig := 109
abbrev cc9_sem3_0 : DmaSem sig := 110
abbrev cc9_sem4_0 : DmaSem sig := 111
abbrev cc9_sem5_0 : DmaSem sig := 112
abbrev cc9_sem5_1 : DmaSem sig := 113
abbrev cc9_sem6_0 : DmaSem sig := 114
abbrev cc9_sem6_1 : DmaSem sig := 115
abbrev cc9_sem7_0 : DmaSem sig := 116
abbrev cc9_sem7_1 : DmaSem sig := 117
abbrev cc10_sem0_0 : DmaSem sig := 118
abbrev cc10_sem0_1 : DmaSem sig := 119
abbrev cc10_sem1_0 : DmaSem sig := 120
abbrev cc10_sem2_0 : DmaSem sig := 121
abbrev cc10_sem3_0 : DmaSem sig := 122
abbrev cc10_sem4_0 : DmaSem sig := 123
abbrev cc10_sem5_0 : DmaSem sig := 124
abbrev cc10_sem6_0 : DmaSem sig := 125
abbrev cc10_sem7_0 : DmaSem sig := 126
abbrev cc10_sem7_1 : DmaSem sig := 127
abbrev cc10_sem8_0 : DmaSem sig := 128
abbrev cc10_sem8_1 : DmaSem sig := 129
abbrev cc10_sem9_0 : DmaSem sig := 130
abbrev cc10_sem9_1 : DmaSem sig := 131
abbrev cc11_sem0_0 : DmaSem sig := 132
abbrev cc11_sem0_1 : DmaSem sig := 133
abbrev cc11_sem1_0 : DmaSem sig := 134
abbrev cc11_sem2_0 : DmaSem sig := 135
abbrev cc11_sem3_0 : DmaSem sig := 136
abbrev cc11_sem4_0 : DmaSem sig := 137
abbrev cc11_sem5_0 : DmaSem sig := 138
abbrev cc11_sem5_1 : DmaSem sig := 139
abbrev cc12_sem0_0 : DmaSem sig := 140
abbrev cc12_sem0_1 : DmaSem sig := 141
abbrev cc12_sem1_0 : DmaSem sig := 142
abbrev cc12_sem1_1 : DmaSem sig := 143
abbrev cc12_sem2_0 : DmaSem sig := 144
abbrev cc12_sem3_0 : DmaSem sig := 145
abbrev cc12_sem4_0 : DmaSem sig := 146
abbrev cc12_sem5_0 : DmaSem sig := 147
abbrev cc12_sem5_1 : DmaSem sig := 148
abbrev cc12_sem6_0 : DmaSem sig := 149
abbrev cc12_sem6_1 : DmaSem sig := 150
abbrev cc12_sem7_0 : DmaSem sig := 151
abbrev cc12_sem7_1 : DmaSem sig := 152
abbrev cc13_sem0_0 : DmaSem sig := 153
abbrev cc13_sem0_1 : DmaSem sig := 154
abbrev cc13_sem1_0 : DmaSem sig := 155
abbrev cc13_sem2_0 : DmaSem sig := 156
abbrev cc13_sem3_0 : DmaSem sig := 157
abbrev cc13_sem4_0 : DmaSem sig := 158
abbrev cc13_sem5_0 : DmaSem sig := 159
abbrev cc13_sem6_0 : DmaSem sig := 160
abbrev cc13_sem7_0 : DmaSem sig := 161
abbrev cc13_sem7_1 : DmaSem sig := 162
abbrev cc13_sem8_0 : DmaSem sig := 163
abbrev cc13_sem8_1 : DmaSem sig := 164
abbrev cc13_sem9_0 : DmaSem sig := 165
abbrev cc13_sem9_1 : DmaSem sig := 166
abbrev cc14_sem0_0 : DmaSem sig := 167
abbrev cc14_sem0_1 : DmaSem sig := 168
abbrev cc14_sem1_0 : DmaSem sig := 169
abbrev cc14_sem2_0 : DmaSem sig := 170
abbrev cc14_sem3_0 : DmaSem sig := 171
abbrev cc14_sem4_0 : DmaSem sig := 172
abbrev cc14_sem5_0 : DmaSem sig := 173
abbrev cc14_sem5_1 : DmaSem sig := 174

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x1x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x1x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_7 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1x1x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1x1x256 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_9 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S5000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S256x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S5000x256 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S1x1x256 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev stage4_9 : Fin 2 → Memref sig .tc .vmem S1x1x256 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_7 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S5000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x256 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S256x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x256 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x256 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S1x1x256 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S1x1x256 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_8 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_9 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage7_0 : Fin 2 → Memref sig .tc .vmem S5000x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x256 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x256 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x256 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S256x256 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x256 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S5000x256 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev stage7_8 : Fin 2 → Memref sig .tc .vmem S1x1x256 .f32 := fun | 0 => Memref.whole cc7_stg8_0 | 1 => Memref.whole cc7_stg8_1 | ⟨_ + 2, h⟩ => absurd h (Nat.not_lt.2 (Nat.le_add_left _ _))
abbrev sem7_8 : Fin 2 → DmaSem sig := fun | 0 => cc7_sem8_0 | 1 => cc7_sem8_1 | ⟨_ + 2, h⟩ => absurd h (Nat.not_lt.2 (Nat.le_add_left _ _))
abbrev reads7_8 : Fin grid7.rank → Bool := ![true]

abbrev stage7_9 : Fin 2 → Memref sig .tc .vmem S1x1x256 .f32 := fun | 0 => Memref.whole cc7_stg9_0 | 1 => Memref.whole cc7_stg9_1 | ⟨_ + 2, h⟩ => absurd h (Nat.not_lt.2 (Nat.le_add_left _ _))
abbrev sem7_9 : Fin 2 → DmaSem sig := fun | 0 => cc7_sem9_0 | 1 => cc7_sem9_1 | ⟨_ + 2, h⟩ => absurd h (Nat.not_lt.2 (Nat.le_add_left _ _))
abbrev reads7_9 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x256 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x256 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x256 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x256 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x256 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x256 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_6 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc9_transform_7 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage9_0 : Fin 2 → Memref sig .tc .vmem S5000x256 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x256 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S1x256 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S256x256 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x256 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S5000x256 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev stage9_6 : Fin 2 → Memref sig .tc .vmem S1x1x256 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

abbrev stage9_7 : Fin 2 → Memref sig .tc .vmem S1x1x256 .f32 := fun | 0 => Memref.whole cc9_stg7_0 | 1 => Memref.whole cc9_stg7_1 | ⟨_ + 2, h⟩ => absurd h (Nat.not_lt.2 (Nat.le_add_left _ _))
abbrev sem9_7 : Fin 2 → DmaSem sig := fun | 0 => cc9_sem7_0 | 1 => cc9_sem7_1 | ⟨_ + 2, h⟩ => absurd h (Nat.not_lt.2 (Nat.le_add_left _ _))
abbrev reads9_7 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_7 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_8 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc10_transform_9 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage10_0 : Fin 2 → Memref sig .tc .vmem S5000x256 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x256 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x256 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x256 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x256 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S256x256 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S1x256 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 2 → Memref sig .tc .vmem S5000x256 .f32 := fun | 0 => Memref.whole cc10_stg7_0 | 1 => Memref.whole cc10_stg7_1 | ⟨_ + 2, h⟩ => absurd h (Nat.not_lt.2 (Nat.le_add_left _ _))
abbrev sem10_7 : Fin 2 → DmaSem sig := fun | 0 => cc10_sem7_0 | 1 => cc10_sem7_1 | ⟨_ + 2, h⟩ => absurd h (Nat.not_lt.2 (Nat.le_add_left _ _))
abbrev reads10_7 : Fin grid10.rank → Bool := ![true]

abbrev stage10_8 : Fin 2 → Memref sig .tc .vmem S1x1x256 .f32 := fun | 0 => Memref.whole cc10_stg8_0 | 1 => Memref.whole cc10_stg8_1 | ⟨_ + 2, h⟩ => absurd h (Nat.not_lt.2 (Nat.le_add_left _ _))
abbrev sem10_8 : Fin 2 → DmaSem sig := fun | 0 => cc10_sem8_0 | 1 => cc10_sem8_1 | ⟨_ + 2, h⟩ => absurd h (Nat.not_lt.2 (Nat.le_add_left _ _))
abbrev reads10_8 : Fin grid10.rank → Bool := ![true]

abbrev stage10_9 : Fin 2 → Memref sig .tc .vmem S1x1x256 .f32 := fun | 0 => Memref.whole cc10_stg9_0 | 1 => Memref.whole cc10_stg9_1 | ⟨_ + 2, h⟩ => absurd h (Nat.not_lt.2 (Nat.le_add_left _ _))
abbrev sem10_9 : Fin 2 → DmaSem sig := fun | 0 => cc10_sem9_0 | 1 => cc10_sem9_1 | ⟨_ + 2, h⟩ => absurd h (Nat.not_lt.2 (Nat.le_add_left _ _))
abbrev reads10_9 : Fin grid10.rank → Bool := ![true]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x256 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x256 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x256 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x256 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x256 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S5000x256 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_6 (i : grid12.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc12_transform_7 (i : grid12.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage12_0 : Fin 2 → Memref sig .tc .vmem S5000x256 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S5000x256 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S1x256 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S256x256 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x256 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 2 → Memref sig .tc .vmem S5000x256 .f32 := fun | 0 => Memref.whole cc12_stg5_0 | 1 => Memref.whole cc12_stg5_1 | ⟨_ + 2, h⟩ => absurd h (Nat.not_lt.2 (Nat.le_add_left _ _))
abbrev sem12_5 : Fin 2 → DmaSem sig := fun | 0 => cc12_sem5_0 | 1 => cc12_sem5_1 | ⟨_ + 2, h⟩ => absurd h (Nat.not_lt.2 (Nat.le_add_left _ _))
abbrev reads12_5 : Fin grid12.rank → Bool := ![true]

abbrev stage12_6 : Fin 2 → Memref sig .tc .vmem S1x1x256 .f32 := fun | 0 => Memref.whole cc12_stg6_0 | 1 => Memref.whole cc12_stg6_1 | ⟨_ + 2, h⟩ => absurd h (Nat.not_lt.2 (Nat.le_add_left _ _))
abbrev sem12_6 : Fin 2 → DmaSem sig := fun | 0 => cc12_sem6_0 | 1 => cc12_sem6_1 | ⟨_ + 2, h⟩ => absurd h (Nat.not_lt.2 (Nat.le_add_left _ _))
abbrev reads12_6 : Fin grid12.rank → Bool := ![true]

abbrev stage12_7 : Fin 2 → Memref sig .tc .vmem S1x1x256 .f32 := fun | 0 => Memref.whole cc12_stg7_0 | 1 => Memref.whole cc12_stg7_1 | ⟨_ + 2, h⟩ => absurd h (Nat.not_lt.2 (Nat.le_add_left _ _))
abbrev sem12_7 : Fin 2 → DmaSem sig := fun | 0 => cc12_sem7_0 | 1 => cc12_sem7_1 | ⟨_ + 2, h⟩ => absurd h (Nat.not_lt.2 (Nat.le_add_left _ _))
abbrev reads12_7 : Fin grid12.rank → Bool := ![true]

abbrev grid13 : Pipeline.Grid := ⟨1, ![10], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_6 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_7 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_8 (i : grid13.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc13_transform_9 (i : grid13.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage13_0 : Fin 2 → Memref sig .tc .vmem S5000x256 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1x256 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x256 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x256 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S1x256 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 1 → Memref sig .tc .vmem S256x256 .f32 := fun | 0 => Memref.whole cc13_stg5_0 | ⟨_ + 1, h⟩ => absurd h (Nat.not_lt.2 (Nat.le_add_left _ _))
abbrev sem13_5 : Fin 1 → DmaSem sig := fun | 0 => cc13_sem5_0 | ⟨_ + 1, h⟩ => absurd h (Nat.not_lt.2 (Nat.le_add_left _ _))
abbrev reads13_5 : Fin grid13.rank → Bool := ![false]

abbrev stage13_6 : Fin 1 → Memref sig .tc .vmem S1x256 .f32 := fun | 0 => Memref.whole cc13_stg6_0 | ⟨_ + 1, h⟩ => absurd h (Nat.not_lt.2 (Nat.le_add_left _ _))
abbrev sem13_6 : Fin 1 → DmaSem sig := fun | 0 => cc13_sem6_0 | ⟨_ + 1, h⟩ => absurd h (Nat.not_lt.2 (Nat.le_add_left _ _))
abbrev reads13_6 : Fin grid13.rank → Bool := ![false]

abbrev stage13_7 : Fin 2 → Memref sig .tc .vmem S5000x256 .f32 := fun | 0 => Memref.whole cc13_stg7_0 | 1 => Memref.whole cc13_stg7_1 | ⟨_ + 2, h⟩ => absurd h (Nat.not_lt.2 (Nat.le_add_left _ _))
abbrev sem13_7 : Fin 2 → DmaSem sig := fun | 0 => cc13_sem7_0 | 1 => cc13_sem7_1 | ⟨_ + 2, h⟩ => absurd h (Nat.not_lt.2 (Nat.le_add_left _ _))
abbrev reads13_7 : Fin grid13.rank → Bool := ![true]

abbrev stage13_8 : Fin 2 → Memref sig .tc .vmem S1x1x256 .f32 := fun | 0 => Memref.whole cc13_stg8_0 | 1 => Memref.whole cc13_stg8_1 | ⟨_ + 2, h⟩ => absurd h (Nat.not_lt.2 (Nat.le_add_left _ _))
abbrev sem13_8 : Fin 2 → DmaSem sig := fun | 0 => cc13_sem8_0 | 1 => cc13_sem8_1 | ⟨_ + 2, h⟩ => absurd h (Nat.not_lt.2 (Nat.le_add_left _ _))
abbrev reads13_8 : Fin grid13.rank → Bool := ![true]

abbrev stage13_9 : Fin 2 → Memref sig .tc .vmem S1x1x256 .f32 := fun | 0 => Memref.whole cc13_stg9_0 | 1 => Memref.whole cc13_stg9_1 | ⟨_ + 2, h⟩ => absurd h (Nat.not_lt.2 (Nat.le_add_left _ _))
abbrev sem13_9 : Fin 2 → DmaSem sig := fun | 0 => cc13_sem9_0 | 1 => cc13_sem9_1 | ⟨_ + 2, h⟩ => absurd h (Nat.not_lt.2 (Nat.le_add_left _ _))
abbrev reads13_9 : Fin grid13.rank → Bool := ![true]

abbrev grid14 : Pipeline.Grid := ⟨1, ![10], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S5000x256 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S1x256 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x256 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S1x256 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S1x256 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 2 → Memref sig .tc .vmem S5000x256 .f32 := fun | 0 => Memref.whole cc14_stg5_0 | 1 => Memref.whole cc14_stg5_1 | ⟨_ + 2, h⟩ => absurd h (Nat.not_lt.2 (Nat.le_add_left _ _))
abbrev sem14_5 : Fin 2 → DmaSem sig := fun | 0 => cc14_sem5_0 | 1 => cc14_sem5_1 | ⟨_ + 2, h⟩ => absurd h (Nat.not_lt.2 (Nat.le_add_left _ _))
abbrev reads14_5 : Fin grid14.rank → Bool := ![true]

class Facts₀ : Prop where
  bcast_S_S300000 : S_.BroadcastsInDim S300000 (![] : Fin 0 → Fin S300000.rank)
  bcast_S300000_S300000x1_0 : S300000.BroadcastsInDim S300000x1 (![0] : Fin 1 → Fin S300000x1.rank)
  bcast_S_S300000x1 : S_.BroadcastsInDim S300000x1 (![] : Fin 0 → Fin S300000x1.rank)
  bcast_S1_S1x1_1 : S1.BroadcastsInDim S1x1 (![1] : Fin 1 → Fin S1x1.rank)
  bcast_S1x1_S300000x1_0_1 : S1x1.BroadcastsInDim S300000x1 (![0, 1] : Fin 2 → Fin S300000x1.rank)
  reducesTo_S300000x1_S300000_d1 : S300000x1.ReducesTo [1] S300000
  h_S_ : 0 < S_.numel
  bcast_S300000_S300000x256_0 : S300000.BroadcastsInDim S300000x256 (![0] : Fin 1 → Fin S300000x256.rank)
  bcast_S_S300000x256 : S_.BroadcastsInDim S300000x256 (![] : Fin 0 → Fin S300000x256.rank)
  bcast_S_S50000x256 : S_.BroadcastsInDim S50000x256 (![] : Fin 0 → Fin S50000x256.rank)
  slices_S5_S1_0 : S5.Slices ![0] S1
  shapeCasts_S1_S_ : S1.ShapeCasts S_
  bcast_S_S1x256 : S_.BroadcastsInDim S1x256 (![] : Fin 0 → Fin S1x256.rank)
  slices_S5x256x256_S1x256x256_0_0_0 : S5x256x256.Slices ![0, 0, 0] S1x256x256
  shapeCasts_S1x256x256_S256x256 : S1x256x256.ShapeCasts S256x256
  slices_S5x256_S1x256_0_0 : S5x256.Slices ![0, 0] S1x256
  shapeCasts_S1x256_S256 : S1x256.ShapeCasts S256
  shapeCasts_S256_S1x256 : S256.ShapeCasts S1x256
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  reduces_S5000x256_S256 : S5000x256.Reduces [0] S256
  shapeCasts_S1x256_S1x1x256 : S1x256.ShapeCasts S1x1x256
  inb_S1x1x256_S1x1x256_0_0_0 : ∀ a, (![0, 0, 0] : Fin 3 → Nat) a + S1x1x256.size a ≤ S1x1x256.size a
  h_S1x1x256 : 0 < S1x1x256.numel
  reducesTo_S10x1x256_S1x256_d0 : S10x1x256.ReducesTo [0] S1x256
  slices_S5_S1_1 : S5.Slices ![1] S1
  slices_S5x256x256_S1x256x256_1_0_0 : S5x256x256.Slices ![1, 0, 0] S1x256x256
  slices_S5x256_S1x256_1_0 : S5x256.Slices ![1, 0] S1x256
  slices_S5_S1_2 : S5.Slices ![2] S1
  slices_S5x256x256_S1x256x256_2_0_0 : S5x256x256.Slices ![2, 0, 0] S1x256x256
  slices_S5x256_S1x256_2_0 : S5x256.Slices ![2, 0] S1x256
  slices_S5_S1_3 : S5.Slices ![3] S1
  slices_S5x256x256_S1x256x256_3_0_0 : S5x256x256.Slices ![3, 0, 0] S1x256x256
  slices_S5x256_S1x256_3_0 : S5x256.Slices ![3, 0] S1x256
  slices_S5_S1_4 : S5.Slices ![4] S1
  slices_S5x256x256_S1x256x256_4_0_0 : S5x256x256.Slices ![4, 0, 0] S1x256x256
  slices_S5x256_S1x256_4_0 : S5x256.Slices ![4, 0] S1x256
  gather_S50000x256_S300000x1_S300000x256_1_0_n_n_0_1_1256_wf : GatherDims.WF S50000x256 S300000x1 S300000x256 [1] [0] [] [0] [] 1 ![1, 256]
  scatter_S50000x256_S300000x1_S300000x256_1_0_0_1_wf : ScatterDims.WF S50000x256 S300000x1 S300000x256 [1] [0] [0] 1
  dot_S5000x256_S256x256_S5000x256_1_0_0_1_n_n_wf : DotDims.WF S5000x256 S256x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x256.size a ≤ S50000x256.size a
  hwx0_1 : ∀ i : grid0.Coords, EltTy.bits .f32 = 32 ∨ (Rect.block (s := S50000x256) S5000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x256.size a ≤ S50000x256.size a
  hwx0_5 : ∀ i : grid0.Coords, EltTy.bits .f32 = 32 ∨ (Rect.block (s := S50000x256) S5000x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x256.size a ≤ S10x1x256.size a
  hwx0_6 : ∀ i : grid0.Coords, EltTy.bits .f32 = 32 ∨ (Rect.block (s := S10x1x256) S1x1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x256.size a ≤ S10x1x256.size a
  hwx0_7 : ∀ i : grid0.Coords, EltTy.bits .f32 = 32 ∨ (Rect.block (s := S10x1x256) S1x1x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .f32 = 32 ∨ (Rect.block (s := S256x256) S256x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x256.size a ≤ S50000x256.size a
  hwx1_7 : ∀ i : grid1.Coords, EltTy.bits .f32 = 32 ∨ (Rect.block (s := S50000x256) S5000x256.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x1x256.size a ≤ S10x1x256.size a
  hwx1_8 : ∀ i : grid1.Coords, EltTy.bits .f32 = 32 ∨ (Rect.block (s := S10x1x256) S1x1x256.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1x1x256.size a ≤ S10x1x256.size a
  hwx1_9 : ∀ i : grid1.Coords, EltTy.bits .f32 = 32 ∨ (Rect.block (s := S10x1x256) S1x1x256.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x256.size a ≤ S50000x256.size a
  hwx2_5 : ∀ i : grid2.Coords, EltTy.bits .f32 = 32 ∨ (Rect.block (s := S50000x256) S5000x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S50000x256.size a
  hwx3_0 : ∀ i : grid3.Coords, EltTy.bits .f32 = 32 ∨ (Rect.block (s := S50000x256) S5000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x256.size a ≤ S50000x256.size a
  hwx3_1 : ∀ i : grid3.Coords, EltTy.bits .f32 = 32 ∨ (Rect.block (s := S50000x256) S5000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .f32 = 32 ∨ (Rect.block (s := S256x256) S256x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x256.size a ≤ S50000x256.size a
  hwx3_5 : ∀ i : grid3.Coords, EltTy.bits .f32 = 32 ∨ (Rect.block (s := S50000x256) S5000x256.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1x1x256.size a ≤ S10x1x256.size a
  hwx3_6 : ∀ i : grid3.Coords, EltTy.bits .f32 = 32 ∨ (Rect.block (s := S10x1x256) S1x1x256.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S1x1x256.size a ≤ S10x1x256.size a
  hwx3_7 : ∀ i : grid3.Coords, EltTy.bits .f32 = 32 ∨ (Rect.block (s := S10x1x256) S1x1x256.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x256.size a ≤ S50000x256.size a
  hwx4_0 : ∀ i : grid4.Coords, EltTy.bits .f32 = 32 ∨ (Rect.block (s := S50000x256) S5000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x256.size a ≤ S1x256.size a
  hwx4_1 : ∀ i : grid4.Coords, EltTy.bits .f32 = 32 ∨ (Rect.block (s := S1x256) S1x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S256x256.size a ≤ S256x256.size a
  hwx4_5 : ∀ i : grid4.Coords, EltTy.bits .f32 = 32 ∨ (Rect.block (s := S256x256) S256x256.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x256.size a ≤ S1x256.size a
  hwx4_6 : ∀ i : grid4.Coords, EltTy.bits .f32 = 32 ∨ (Rect.block (s := S1x256) S1x256.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x256.size a ≤ S50000x256.size a
  hwx4_7 : ∀ i : grid4.Coords, EltTy.bits .f32 = 32 ∨ (Rect.block (s := S50000x256) S5000x256.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S1x1x256.size a ≤ S10x1x256.size a
  hwx4_8 : ∀ i : grid4.Coords, EltTy.bits .f32 = 32 ∨ (Rect.block (s := S10x1x256) S1x1x256.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S1x1x256.size a ≤ S10x1x256.size a
  hwx4_9 : ∀ i : grid4.Coords, EltTy.bits .f32 = 32 ∨ (Rect.block (s := S10x1x256) S1x1x256.size (cc4_transform_9 i) (hinb4_9 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x256.size a ≤ S50000x256.size a
  hwx5_0 : ∀ i : grid5.Coords, EltTy.bits .f32 = 32 ∨ (Rect.block (s := S50000x256) S5000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x256.size a ≤ S1x256.size a
  hwx5_1 : ∀ i : grid5.Coords, EltTy.bits .f32 = 32 ∨ (Rect.block (s := S1x256) S1x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x256.size a ≤ S50000x256.size a
  hwx5_5 : ∀ i : grid5.Coords, EltTy.bits .f32 = 32 ∨ (Rect.block (s := S50000x256) S5000x256.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x256.size a ≤ S50000x256.size a
  hwx6_0 : ∀ i : grid6.Coords, EltTy.bits .f32 = 32 ∨ (Rect.block (s := S50000x256) S5000x256.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x256.size a ≤ S50000x256.size a
  hwx6_1 : ∀ i : grid6.Coords, EltTy.bits .f32 = 32 ∨ (Rect.block (s := S50000x256) S5000x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x256.size a ≤ S1x256.size a
  hwx6_2 : ∀ i : grid6.Coords, EltTy.bits .f32 = 32 ∨ (Rect.block (s := S1x256) S1x256.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S256x256.size a ≤ S256x256.size a
  hwx6_3 : ∀ i : grid6.Coords, EltTy.bits .f32 = 32 ∨ (Rect.block (s := S256x256) S256x256.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x256.size a ≤ S1x256.size a
  hwx6_4 : ∀ i : grid6.Coords, EltTy.bits .f32 = 32 ∨ (Rect.block (s := S1x256) S1x256.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x256.size a ≤ S50000x256.size a
  hwx6_5 : ∀ i : grid6.Coords, EltTy.bits .f32 = 32 ∨ (Rect.block (s := S50000x256) S5000x256.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S1x1x256.size a ≤ S10x1x256.size a
  hwx6_6 : ∀ i : grid6.Coords, EltTy.bits .f32 = 32 ∨ (Rect.block (s := S10x1x256) S1x1x256.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S1x1x256.size a ≤ S10x1x256.size a
  hwx6_7 : ∀ i : grid6.Coords, EltTy.bits .f32 = 32 ∨ (Rect.block (s := S10x1x256) S1x1x256.size (cc6_transform_7 i) (hinb6_7 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x256.size a ≤ S50000x256.size a
  hwx7_0 : ∀ i : grid7.Coords, EltTy.bits .f32 = 32 ∨ (Rect.block (s := S50000x256) S5000x256.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x256.size a ≤ S1x256.size a
  hwx7_1 : ∀ i : grid7.Coords, EltTy.bits .f32 = 32 ∨ (Rect.block (s := S1x256) S1x256.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x256.size a ≤ S1x256.size a
  hwx7_2 : ∀ i : grid7.Coords, EltTy.bits .f32 = 32 ∨ (Rect.block (s := S1x256) S1x256.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x256.size a ≤ S1x256.size a
  hwx7_3 : ∀ i : grid7.Coords, EltTy.bits .f32 = 32 ∨ (Rect.block (s := S1x256) S1x256.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x256.size a ≤ S1x256.size a
  hwx7_4 : ∀ i : grid7.Coords, EltTy.bits .f32 = 32 ∨ (Rect.block (s := S1x256) S1x256.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S256x256.size a ≤ S256x256.size a
  hwx7_5 : ∀ i : grid7.Coords, EltTy.bits .f32 = 32 ∨ (Rect.block (s := S256x256) S256x256.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x256.size a ≤ S1x256.size a
  hwx7_6 : ∀ i : grid7.Coords, EltTy.bits .f32 = 32 ∨ (Rect.block (s := S1x256) S1x256.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S5000x256.size a ≤ S50000x256.size a
  hwx7_7 : ∀ i : grid7.Coords, EltTy.bits .f32 = 32 ∨ (Rect.block (s := S50000x256) S5000x256.size (cc7_transform_7 i) (hinb7_7 i)).WholeWords (EltTy.packing .f32)
  hstage7_8 : ∀ j, (stage7_8 j).IsWhole
  nbuf7_8 : grid7.bufCount reads7_8 false = 2
  hreads7_8 : ∀ i i' : grid7.Coords, (∀ a, reads7_8 a = true → i a = i' a) → cc7_transform_8 i = cc7_transform_8 i'
  hinb7_8 : ∀ (i : grid7.Coords) a, (cc7_transform_8 i a + 1) * S1x1x256.size a ≤ S10x1x256.size a
  hwx7_8 : ∀ i : grid7.Coords, EltTy.bits .f32 = 32 ∨ (Rect.block (s := S10x1x256) S1x1x256.size (cc7_transform_8 i) (hinb7_8 i)).WholeWords (EltTy.packing .f32)
  hstage7_9 : ∀ j, (stage7_9 j).IsWhole
  nbuf7_9 : grid7.bufCount reads7_9 false = 2
  hreads7_9 : ∀ i i' : grid7.Coords, (∀ a, reads7_9 a = true → i a = i' a) → cc7_transform_9 i = cc7_transform_9 i'
  hinb7_9 : ∀ (i : grid7.Coords) a, (cc7_transform_9 i a + 1) * S1x1x256.size a ≤ S10x1x256.size a
  hwx7_9 : ∀ i : grid7.Coords, EltTy.bits .f32 = 32 ∨ (Rect.block (s := S10x1x256) S1x1x256.size (cc7_transform_9 i) (hinb7_9 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x256.size a ≤ S50000x256.size a
  hwx8_0 : ∀ i : grid8.Coords, EltTy.bits .f32 = 32 ∨ (Rect.block (s := S50000x256) S5000x256.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x256.size a ≤ S1x256.size a
  hwx8_1 : ∀ i : grid8.Coords, EltTy.bits .f32 = 32 ∨ (Rect.block (s := S1x256) S1x256.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x256.size a ≤ S1x256.size a
  hwx8_2 : ∀ i : grid8.Coords, EltTy.bits .f32 = 32 ∨ (Rect.block (s := S1x256) S1x256.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x256.size a ≤ S1x256.size a
  hwx8_3 : ∀ i : grid8.Coords, EltTy.bits .f32 = 32 ∨ (Rect.block (s := S1x256) S1x256.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x256.size a ≤ S1x256.size a
  hwx8_4 : ∀ i : grid8.Coords, EltTy.bits .f32 = 32 ∨ (Rect.block (s := S1x256) S1x256.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x256.size a ≤ S50000x256.size a
  hwx8_5 : ∀ i : grid8.Coords, EltTy.bits .f32 = 32 ∨ (Rect.block (s := S50000x256) S5000x256.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x256.size a ≤ S50000x256.size a
  hwx9_0 : ∀ i : grid9.Coords, EltTy.bits .f32 = 32 ∨ (Rect.block (s := S50000x256) S5000x256.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x256.size a ≤ S50000x256.size a
  hwx9_1 : ∀ i : grid9.Coords, EltTy.bits .f32 = 32 ∨ (Rect.block (s := S50000x256) S5000x256.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x256.size a ≤ S1x256.size a
  hwx9_2 : ∀ i : grid9.Coords, EltTy.bits .f32 = 32 ∨ (Rect.block (s := S1x256) S1x256.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S256x256.size a ≤ S256x256.size a
  hwx9_3 : ∀ i : grid9.Coords, EltTy.bits .f32 = 32 ∨ (Rect.block (s := S256x256) S256x256.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x256.size a ≤ S1x256.size a
  hwx9_4 : ∀ i : grid9.Coords, EltTy.bits .f32 = 32 ∨ (Rect.block (s := S1x256) S1x256.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S5000x256.size a ≤ S50000x256.size a
  hwx9_5 : ∀ i : grid9.Coords, EltTy.bits .f32 = 32 ∨ (Rect.block (s := S50000x256) S5000x256.size (cc9_transform_5 i) (hinb9_5 i)).WholeWords (EltTy.packing .f32)
  hstage9_6 : ∀ j, (stage9_6 j).IsWhole
  nbuf9_6 : grid9.bufCount reads9_6 false = 2
  hreads9_6 : ∀ i i' : grid9.Coords, (∀ a, reads9_6 a = true → i a = i' a) → cc9_transform_6 i = cc9_transform_6 i'
  hinb9_6 : ∀ (i : grid9.Coords) a, (cc9_transform_6 i a + 1) * S1x1x256.size a ≤ S10x1x256.size a
  hwx9_6 : ∀ i : grid9.Coords, EltTy.bits .f32 = 32 ∨ (Rect.block (s := S10x1x256) S1x1x256.size (cc9_transform_6 i) (hinb9_6 i)).WholeWords (EltTy.packing .f32)
  hstage9_7 : ∀ j, (stage9_7 j).IsWhole
  nbuf9_7 : grid9.bufCount reads9_7 false = 2
  hreads9_7 : ∀ i i' : grid9.Coords, (∀ a, reads9_7 a = true → i a = i' a) → cc9_transform_7 i = cc9_transform_7 i'
  hinb9_7 : ∀ (i : grid9.Coords) a, (cc9_transform_7 i a + 1) * S1x1x256.size a ≤ S10x1x256.size a
  hwx9_7 : ∀ i : grid9.Coords, EltTy.bits .f32 = 32 ∨ (Rect.block (s := S10x1x256) S1x1x256.size (cc9_transform_7 i) (hinb9_7 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x256.size a ≤ S50000x256.size a
  hwx10_0 : ∀ i : grid10.Coords, EltTy.bits .f32 = 32 ∨ (Rect.block (s := S50000x256) S5000x256.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x256.size a ≤ S1x256.size a
  hwx10_1 : ∀ i : grid10.Coords, EltTy.bits .f32 = 32 ∨ (Rect.block (s := S1x256) S1x256.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x256.size a ≤ S1x256.size a
  hwx10_2 : ∀ i : grid10.Coords, EltTy.bits .f32 = 32 ∨ (Rect.block (s := S1x256) S1x256.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x256.size a ≤ S1x256.size a
  hwx10_3 : ∀ i : grid10.Coords, EltTy.bits .f32 = 32 ∨ (Rect.block (s := S1x256) S1x256.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x256.size a ≤ S1x256.size a
  hwx10_4 : ∀ i : grid10.Coords, EltTy.bits .f32 = 32 ∨ (Rect.block (s := S1x256) S1x256.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S256x256.size a ≤ S256x256.size a
  hwx10_5 : ∀ i : grid10.Coords, EltTy.bits .f32 = 32 ∨ (Rect.block (s := S256x256) S256x256.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S1x256.size a ≤ S1x256.size a
  hwx10_6 : ∀ i : grid10.Coords, EltTy.bits .f32 = 32 ∨ (Rect.block (s := S1x256) S1x256.size (cc10_transform_6 i) (hinb10_6 i)).WholeWords (EltTy.packing .f32)
  hstage10_7 : ∀ j, (stage10_7 j).IsWhole
  nbuf10_7 : grid10.bufCount reads10_7 false = 2
  hreads10_7 : ∀ i i' : grid10.Coords, (∀ a, reads10_7 a = true → i a = i' a) → cc10_transform_7 i = cc10_transform_7 i'
  hinb10_7 : ∀ (i : grid10.Coords) a, (cc10_transform_7 i a + 1) * S5000x256.size a ≤ S50000x256.size a
  hwx10_7 : ∀ i : grid10.Coords, EltTy.bits .f32 = 32 ∨ (Rect.block (s := S50000x256) S5000x256.size (cc10_transform_7 i) (hinb10_7 i)).WholeWords (EltTy.packing .f32)
  hstage10_8 : ∀ j, (stage10_8 j).IsWhole
  nbuf10_8 : grid10.bufCount reads10_8 false = 2
  hreads10_8 : ∀ i i' : grid10.Coords, (∀ a, reads10_8 a = true → i a = i' a) → cc10_transform_8 i = cc10_transform_8 i'
  hinb10_8 : ∀ (i : grid10.Coords) a, (cc10_transform_8 i a + 1) * S1x1x256.size a ≤ S10x1x256.size a
  hwx10_8 : ∀ i : grid10.Coords, EltTy.bits .f32 = 32 ∨ (Rect.block (s := S10x1x256) S1x1x256.size (cc10_transform_8 i) (hinb10_8 i)).WholeWords (EltTy.packing .f32)
  hstage10_9 : ∀ j, (stage10_9 j).IsWhole
  nbuf10_9 : grid10.bufCount reads10_9 false = 2
  hreads10_9 : ∀ i i' : grid10.Coords, (∀ a, reads10_9 a = true → i a = i' a) → cc10_transform_9 i = cc10_transform_9 i'
  hinb10_9 : ∀ (i : grid10.Coords) a, (cc10_transform_9 i a + 1) * S1x1x256.size a ≤ S10x1x256.size a
  hwx10_9 : ∀ i : grid10.Coords, EltTy.bits .f32 = 32 ∨ (Rect.block (s := S10x1x256) S1x1x256.size (cc10_transform_9 i) (hinb10_9 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x256.size a ≤ S50000x256.size a
  hwx11_0 : ∀ i : grid11.Coords, EltTy.bits .f32 = 32 ∨ (Rect.block (s := S50000x256) S5000x256.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x256.size a ≤ S1x256.size a
  hwx11_1 : ∀ i : grid11.Coords, EltTy.bits .f32 = 32 ∨ (Rect.block (s := S1x256) S1x256.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x256.size a ≤ S1x256.size a
  hwx11_2 : ∀ i : grid11.Coords, EltTy.bits .f32 = 32 ∨ (Rect.block (s := S1x256) S1x256.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x256.size a ≤ S1x256.size a
  hwx11_3 : ∀ i : grid11.Coords, EltTy.bits .f32 = 32 ∨ (Rect.block (s := S1x256) S1x256.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x256.size a ≤ S1x256.size a
  hwx11_4 : ∀ i : grid11.Coords, EltTy.bits .f32 = 32 ∨ (Rect.block (s := S1x256) S1x256.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S5000x256.size a ≤ S50000x256.size a
  hwx11_5 : ∀ i : grid11.Coords, EltTy.bits .f32 = 32 ∨ (Rect.block (s := S50000x256) S5000x256.size (cc11_transform_5 i) (hinb11_5 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x256.size a ≤ S50000x256.size a
  hwx12_0 : ∀ i : grid12.Coords, EltTy.bits .f32 = 32 ∨ (Rect.block (s := S50000x256) S5000x256.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S5000x256.size a ≤ S50000x256.size a
  hwx12_1 : ∀ i : grid12.Coords, EltTy.bits .f32 = 32 ∨ (Rect.block (s := S50000x256) S5000x256.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x256.size a ≤ S1x256.size a
  hwx12_2 : ∀ i : grid12.Coords, EltTy.bits .f32 = 32 ∨ (Rect.block (s := S1x256) S1x256.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S256x256.size a ≤ S256x256.size a
  hwx12_3 : ∀ i : grid12.Coords, EltTy.bits .f32 = 32 ∨ (Rect.block (s := S256x256) S256x256.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x256.size a ≤ S1x256.size a
  hwx12_4 : ∀ i : grid12.Coords, EltTy.bits .f32 = 32 ∨ (Rect.block (s := S1x256) S1x256.size (cc12_transform_4 i) (hinb12_4 i)).WholeWords (EltTy.packing .f32)
  hstage12_5 : ∀ j, (stage12_5 j).IsWhole
  nbuf12_5 : grid12.bufCount reads12_5 false = 2
  hreads12_5 : ∀ i i' : grid12.Coords, (∀ a, reads12_5 a = true → i a = i' a) → cc12_transform_5 i = cc12_transform_5 i'
  hinb12_5 : ∀ (i : grid12.Coords) a, (cc12_transform_5 i a + 1) * S5000x256.size a ≤ S50000x256.size a
  hwx12_5 : ∀ i : grid12.Coords, EltTy.bits .f32 = 32 ∨ (Rect.block (s := S50000x256) S5000x256.size (cc12_transform_5 i) (hinb12_5 i)).WholeWords (EltTy.packing .f32)
  hstage12_6 : ∀ j, (stage12_6 j).IsWhole
  nbuf12_6 : grid12.bufCount reads12_6 false = 2
  hreads12_6 : ∀ i i' : grid12.Coords, (∀ a, reads12_6 a = true → i a = i' a) → cc12_transform_6 i = cc12_transform_6 i'
  hinb12_6 : ∀ (i : grid12.Coords) a, (cc12_transform_6 i a + 1) * S1x1x256.size a ≤ S10x1x256.size a
  hwx12_6 : ∀ i : grid12.Coords, EltTy.bits .f32 = 32 ∨ (Rect.block (s := S10x1x256) S1x1x256.size (cc12_transform_6 i) (hinb12_6 i)).WholeWords (EltTy.packing .f32)
  hstage12_7 : ∀ j, (stage12_7 j).IsWhole
  nbuf12_7 : grid12.bufCount reads12_7 false = 2
  hreads12_7 : ∀ i i' : grid12.Coords, (∀ a, reads12_7 a = true → i a = i' a) → cc12_transform_7 i = cc12_transform_7 i'
  hinb12_7 : ∀ (i : grid12.Coords) a, (cc12_transform_7 i a + 1) * S1x1x256.size a ≤ S10x1x256.size a
  hwx12_7 : ∀ i : grid12.Coords, EltTy.bits .f32 = 32 ∨ (Rect.block (s := S10x1x256) S1x1x256.size (cc12_transform_7 i) (hinb12_7 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S5000x256.size a ≤ S50000x256.size a
  hwx13_0 : ∀ i : grid13.Coords, EltTy.bits .f32 = 32 ∨ (Rect.block (s := S50000x256) S5000x256.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S1x256.size a ≤ S1x256.size a
  hwx13_1 : ∀ i : grid13.Coords, EltTy.bits .f32 = 32 ∨ (Rect.block (s := S1x256) S1x256.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x256.size a ≤ S1x256.size a
  hwx13_2 : ∀ i : grid13.Coords, EltTy.bits .f32 = 32 ∨ (Rect.block (s := S1x256) S1x256.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x256.size a ≤ S1x256.size a
  hwx13_3 : ∀ i : grid13.Coords, EltTy.bits .f32 = 32 ∨ (Rect.block (s := S1x256) S1x256.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S1x256.size a ≤ S1x256.size a
  hwx13_4 : ∀ i : grid13.Coords, EltTy.bits .f32 = 32 ∨ (Rect.block (s := S1x256) S1x256.size (cc13_transform_4 i) (hinb13_4 i)).WholeWords (EltTy.packing .f32)
  hstage13_5 : ∀ j, (stage13_5 j).IsWhole
  nbuf13_5 : grid13.bufCount reads13_5 true = 1
  hreads13_5 : ∀ i i' : grid13.Coords, (∀ a, reads13_5 a = true → i a = i' a) → cc13_transform_5 i = cc13_transform_5 i'
  hinb13_5 : ∀ (i : grid13.Coords) a, (cc13_transform_5 i a + 1) * S256x256.size a ≤ S256x256.size a
  hwx13_5 : ∀ i : grid13.Coords, EltTy.bits .f32 = 32 ∨ (Rect.block (s := S256x256) S256x256.size (cc13_transform_5 i) (hinb13_5 i)).WholeWords (EltTy.packing .f32)
  hstage13_6 : ∀ j, (stage13_6 j).IsWhole
  nbuf13_6 : grid13.bufCount reads13_6 true = 1
  hreads13_6 : ∀ i i' : grid13.Coords, (∀ a, reads13_6 a = true → i a = i' a) → cc13_transform_6 i = cc13_transform_6 i'
  hinb13_6 : ∀ (i : grid13.Coords) a, (cc13_transform_6 i a + 1) * S1x256.size a ≤ S1x256.size a
  hwx13_6 : ∀ i : grid13.Coords, EltTy.bits .f32 = 32 ∨ (Rect.block (s := S1x256) S1x256.size (cc13_transform_6 i) (hinb13_6 i)).WholeWords (EltTy.packing .f32)
  hstage13_7 : ∀ j, (stage13_7 j).IsWhole
  nbuf13_7 : grid13.bufCount reads13_7 false = 2
  hreads13_7 : ∀ i i' : grid13.Coords, (∀ a, reads13_7 a = true → i a = i' a) → cc13_transform_7 i = cc13_transform_7 i'
  hinb13_7 : ∀ (i : grid13.Coords) a, (cc13_transform_7 i a + 1) * S5000x256.size a ≤ S50000x256.size a
  hwx13_7 : ∀ i : grid13.Coords, EltTy.bits .f32 = 32 ∨ (Rect.block (s := S50000x256) S5000x256.size (cc13_transform_7 i) (hinb13_7 i)).WholeWords (EltTy.packing .f32)
  hstage13_8 : ∀ j, (stage13_8 j).IsWhole
  nbuf13_8 : grid13.bufCount reads13_8 false = 2
  hreads13_8 : ∀ i i' : grid13.Coords, (∀ a, reads13_8 a = true → i a = i' a) → cc13_transform_8 i = cc13_transform_8 i'
  hinb13_8 : ∀ (i : grid13.Coords) a, (cc13_transform_8 i a + 1) * S1x1x256.size a ≤ S10x1x256.size a
  hwx13_8 : ∀ i : grid13.Coords, EltTy.bits .f32 = 32 ∨ (Rect.block (s := S10x1x256) S1x1x256.size (cc13_transform_8 i) (hinb13_8 i)).WholeWords (EltTy.packing .f32)
  hstage13_9 : ∀ j, (stage13_9 j).IsWhole
  nbuf13_9 : grid13.bufCount reads13_9 false = 2
  hreads13_9 : ∀ i i' : grid13.Coords, (∀ a, reads13_9 a = true → i a = i' a) → cc13_transform_9 i = cc13_transform_9 i'
  hinb13_9 : ∀ (i : grid13.Coords) a, (cc13_transform_9 i a + 1) * S1x1x256.size a ≤ S10x1x256.size a
  hwx13_9 : ∀ i : grid13.Coords, EltTy.bits .f32 = 32 ∨ (Rect.block (s := S10x1x256) S1x1x256.size (cc13_transform_9 i) (hinb13_9 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S5000x256.size a ≤ S50000x256.size a
  hwx14_0 : ∀ i : grid14.Coords, EltTy.bits .f32 = 32 ∨ (Rect.block (s := S50000x256) S5000x256.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S1x256.size a ≤ S1x256.size a
  hwx14_1 : ∀ i : grid14.Coords, EltTy.bits .f32 = 32 ∨ (Rect.block (s := S1x256) S1x256.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x256.size a ≤ S1x256.size a
  hwx14_2 : ∀ i : grid14.Coords, EltTy.bits .f32 = 32 ∨ (Rect.block (s := S1x256) S1x256.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S1x256.size a ≤ S1x256.size a
  hwx14_3 : ∀ i : grid14.Coords, EltTy.bits .f32 = 32 ∨ (Rect.block (s := S1x256) S1x256.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S1x256.size a ≤ S1x256.size a
  hwx14_4 : ∀ i : grid14.Coords, EltTy.bits .f32 = 32 ∨ (Rect.block (s := S1x256) S1x256.size (cc14_transform_4 i) (hinb14_4 i)).WholeWords (EltTy.packing .f32)
  hstage14_5 : ∀ j, (stage14_5 j).IsWhole
  nbuf14_5 : grid14.bufCount reads14_5 false = 2
  hreads14_5 : ∀ i i' : grid14.Coords, (∀ a, reads14_5 a = true → i a = i' a) → cc14_transform_5 i = cc14_transform_5 i'
  hinb14_5 : ∀ (i : grid14.Coords) a, (cc14_transform_5 i a + 1) * S5000x256.size a ≤ S50000x256.size a
  hwx14_5 : ∀ i : grid14.Coords, EltTy.bits .f32 = 32 ∨ (Rect.block (s := S50000x256) S5000x256.size (cc14_transform_5 i) (hinb14_5 i)).WholeWords (EltTy.packing .f32)

variable [Facts₀]

def gather_S50000x256_S300000x1_S300000x256_1_0_n_n_0_1_1256 : GatherDims S50000x256 S300000x1 S300000x256 where
  offsetDims := [1]
  collapsedSliceDims := [0]
  operandBatchingDims := []
  startIndicesBatchingDims := []
  startIndexMap := [0]
  indexVectorDim := 1
  sliceSizes := ![1, 256]
  wf := gather_S50000x256_S300000x1_S300000x256_1_0_n_n_0_1_1256_wf
def scatter_S50000x256_S300000x1_S300000x256_1_0_0_1 : ScatterDims S50000x256 S300000x1 S300000x256 where
  updateWindowDims := [1]
  insertedWindowDims := [0]
  scatterDimsToOperandDims := [0]
  indexVectorDim := 1
  wf := scatter_S50000x256_S300000x1_S300000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S5000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13_0) S5000x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v13_1) S1x1x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v13_2) S1x1x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v13_0) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v33_0) S5000x256.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v33_1) S1x1x256.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v33_2) S1x1x256.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v33_0) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v41) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v47) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v48) S5000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v48) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v53) S5000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v56) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v58) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v61) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v62_0) S5000x256.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v62_1) S1x1x256.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v62_2) S1x1x256.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v62_0) S5000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v66) S1x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v70) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v73) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v76) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v78) S256x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v81) S1x256.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v82_0) S5000x256.size cc4_transform_7 reads4_7 true false 2 stage4_7 sem4_7
    hrank4 hreads4_7 hinb4_7 nbuf4_7 (Memref.isWhole_whole _) hwx4_7 hstage4_7

abbrev win4_8 : Pipeline.Window sig grid4 :=
  Pipeline.Window.ofSpec (Memref.whole main_v82_1) S1x1x256.size cc4_transform_8 reads4_8 true false 2 stage4_8 sem4_8
    hrank4 hreads4_8 hinb4_8 nbuf4_8 (Memref.isWhole_whole _) hwx4_8 hstage4_8

abbrev win4_9 : Pipeline.Window sig grid4 :=
  Pipeline.Window.ofSpec (Memref.whole main_v82_2) S1x1x256.size cc4_transform_9 reads4_9 true false 2 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

abbrev win5_0 : Pipeline.Window sig grid5 :=
  Pipeline.Window.ofSpec (Memref.whole main_v82_0) S5000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v86) S1x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v90) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v93) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v96) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v97) S5000x256.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v97) S5000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v102) S5000x256.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v105) S1x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v107) S256x256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v110) S1x256.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v111_0) S5000x256.size cc6_transform_5 reads6_5 true false 2 stage6_5 sem6_5
    hrank6 hreads6_5 hinb6_5 nbuf6_5 (Memref.isWhole_whole _) hwx6_5 hstage6_5

abbrev win6_6 : Pipeline.Window sig grid6 :=
  Pipeline.Window.ofSpec (Memref.whole main_v111_1) S1x1x256.size cc6_transform_6 reads6_6 true false 2 stage6_6 sem6_6
    hrank6 hreads6_6 hinb6_6 nbuf6_6 (Memref.isWhole_whole _) hwx6_6 hstage6_6

abbrev win6_7 : Pipeline.Window sig grid6 :=
  Pipeline.Window.ofSpec (Memref.whole main_v111_2) S1x1x256.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v111_0) S5000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v115) S1x256.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v119) S1x256.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v122) S1x256.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v125) S1x256.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v127) S256x256.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v130) S1x256.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v131_0) S5000x256.size cc7_transform_7 reads7_7 true false 2 stage7_7 sem7_7
    hrank7 hreads7_7 hinb7_7 nbuf7_7 (Memref.isWhole_whole _) hwx7_7 hstage7_7

abbrev win7_8 : Pipeline.Window sig grid7 :=
  Pipeline.Window.ofSpec (Memref.whole main_v131_1) S1x1x256.size cc7_transform_8 reads7_8 true false 2 stage7_8 sem7_8
    hrank7 hreads7_8 hinb7_8 nbuf7_8 (Memref.isWhole_whole _) hwx7_8 hstage7_8

abbrev win7_9 : Pipeline.Window sig grid7 :=
  Pipeline.Window.ofSpec (Memref.whole main_v131_2) S1x1x256.size cc7_transform_9 reads7_9 true false 2 stage7_9 sem7_9
    hrank7 hreads7_9 hinb7_9 nbuf7_9 (Memref.isWhole_whole _) hwx7_9 hstage7_9

abbrev win7 : Fin 10 → Pipeline.Window sig grid7 := fun | 0 => win7_0 | 1 => win7_1 | 2 => win7_2 | 3 => win7_3 | 4 => win7_4 | 5 => win7_5 | 6 => win7_6 | 7 => win7_7 | 8 => win7_8 | 9 => win7_9 | ⟨_ + 10, h⟩ => absurd h (Nat.not_lt.2 (Nat.le_add_left _ _))
abbrev spec7 : Fin 10 → Pipeline.WinSpec sig grid7.rank := fun w => (win7 w).toWinSpec

abbrev win8_0 : Pipeline.Window sig grid8 :=
  Pipeline.Window.ofSpec (Memref.whole main_v131_0) S5000x256.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v135) S1x256.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v139) S1x256.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v142) S1x256.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v145) S1x256.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v146) S5000x256.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v146) S5000x256.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v151) S5000x256.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v154) S1x256.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v156) S256x256.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v159) S1x256.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v160_0) S5000x256.size cc9_transform_5 reads9_5 true false 2 stage9_5 sem9_5
    hrank9 hreads9_5 hinb9_5 nbuf9_5 (Memref.isWhole_whole _) hwx9_5 hstage9_5

abbrev win9_6 : Pipeline.Window sig grid9 :=
  Pipeline.Window.ofSpec (Memref.whole main_v160_1) S1x1x256.size cc9_transform_6 reads9_6 true false 2 stage9_6 sem9_6
    hrank9 hreads9_6 hinb9_6 nbuf9_6 (Memref.isWhole_whole _) hwx9_6 hstage9_6

abbrev win9_7 : Pipeline.Window sig grid9 :=
  Pipeline.Window.ofSpec (Memref.whole main_v160_2) S1x1x256.size cc9_transform_7 reads9_7 true false 2 stage9_7 sem9_7
    hrank9 hreads9_7 hinb9_7 nbuf9_7 (Memref.isWhole_whole _) hwx9_7 hstage9_7

abbrev win9 : Fin 8 → Pipeline.Window sig grid9 := fun | 0 => win9_0 | 1 => win9_1 | 2 => win9_2 | 3 => win9_3 | 4 => win9_4 | 5 => win9_5 | 6 => win9_6 | 7 => win9_7 | ⟨_ + 8, h⟩ => absurd h (Nat.not_lt.2 (Nat.le_add_left _ _))
abbrev spec9 : Fin 8 → Pipeline.WinSpec sig grid9.rank := fun w => (win9 w).toWinSpec

abbrev win10_0 : Pipeline.Window sig grid10 :=
  Pipeline.Window.ofSpec (Memref.whole main_v160_0) S5000x256.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v164) S1x256.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v168) S1x256.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v171) S1x256.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v174) S1x256.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v176) S256x256.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_v179) S1x256.size cc10_transform_6 reads10_6 false true 1 stage10_6 sem10_6
    hrank10 hreads10_6 hinb10_6 nbuf10_6 (Memref.isWhole_whole _) hwx10_6 hstage10_6

abbrev win10_7 : Pipeline.Window sig grid10 :=
  Pipeline.Window.ofSpec (Memref.whole main_v180_0) S5000x256.size cc10_transform_7 reads10_7 true false 2 stage10_7 sem10_7
    hrank10 hreads10_7 hinb10_7 nbuf10_7 (Memref.isWhole_whole _) hwx10_7 hstage10_7

abbrev win10_8 : Pipeline.Window sig grid10 :=
  Pipeline.Window.ofSpec (Memref.whole main_v180_1) S1x1x256.size cc10_transform_8 reads10_8 true false 2 stage10_8 sem10_8
    hrank10 hreads10_8 hinb10_8 nbuf10_8 (Memref.isWhole_whole _) hwx10_8 hstage10_8

abbrev win10_9 : Pipeline.Window sig grid10 :=
  Pipeline.Window.ofSpec (Memref.whole main_v180_2) S1x1x256.size cc10_transform_9 reads10_9 true false 2 stage10_9 sem10_9
    hrank10 hreads10_9 hinb10_9 nbuf10_9 (Memref.isWhole_whole _) hwx10_9 hstage10_9

abbrev win10 : Fin 10 → Pipeline.Window sig grid10 := fun | 0 => win10_0 | 1 => win10_1 | 2 => win10_2 | 3 => win10_3 | 4 => win10_4 | 5 => win10_5 | 6 => win10_6 | 7 => win10_7 | 8 => win10_8 | 9 => win10_9 | ⟨_ + 10, h⟩ => absurd h (Nat.not_lt.2 (Nat.le_add_left _ _))
abbrev spec10 : Fin 10 → Pipeline.WinSpec sig grid10.rank := fun w => (win10 w).toWinSpec

abbrev win11_0 : Pipeline.Window sig grid11 :=
  Pipeline.Window.ofSpec (Memref.whole main_v180_0) S5000x256.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v184) S1x256.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v188) S1x256.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v191) S1x256.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v194) S1x256.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v195) S5000x256.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_v195) S5000x256.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v200) S5000x256.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v203) S1x256.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v205) S256x256.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v208) S1x256.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v209_0) S5000x256.size cc12_transform_5 reads12_5 true false 2 stage12_5 sem12_5
    hrank12 hreads12_5 hinb12_5 nbuf12_5 (Memref.isWhole_whole _) hwx12_5 hstage12_5

abbrev win12_6 : Pipeline.Window sig grid12 :=
  Pipeline.Window.ofSpec (Memref.whole main_v209_1) S1x1x256.size cc12_transform_6 reads12_6 true false 2 stage12_6 sem12_6
    hrank12 hreads12_6 hinb12_6 nbuf12_6 (Memref.isWhole_whole _) hwx12_6 hstage12_6

abbrev win12_7 : Pipeline.Window sig grid12 :=
  Pipeline.Window.ofSpec (Memref.whole main_v209_2) S1x1x256.size cc12_transform_7 reads12_7 true false 2 stage12_7 sem12_7
    hrank12 hreads12_7 hinb12_7 nbuf12_7 (Memref.isWhole_whole _) hwx12_7 hstage12_7

abbrev win12 : Fin 8 → Pipeline.Window sig grid12 := fun | 0 => win12_0 | 1 => win12_1 | 2 => win12_2 | 3 => win12_3 | 4 => win12_4 | 5 => win12_5 | 6 => win12_6 | 7 => win12_7 | ⟨_ + 8, h⟩ => absurd h (Nat.not_lt.2 (Nat.le_add_left _ _))
abbrev spec12 : Fin 8 → Pipeline.WinSpec sig grid12.rank := fun w => (win12 w).toWinSpec

abbrev win13_0 : Pipeline.Window sig grid13 :=
  Pipeline.Window.ofSpec (Memref.whole main_v209_0) S5000x256.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v213) S1x256.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v217) S1x256.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v220) S1x256.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v223) S1x256.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v225) S256x256.size cc13_transform_5 reads13_5 false true 1 stage13_5 sem13_5
    hrank13 hreads13_5 hinb13_5 nbuf13_5 (Memref.isWhole_whole _) hwx13_5 hstage13_5

abbrev win13_6 : Pipeline.Window sig grid13 :=
  Pipeline.Window.ofSpec (Memref.whole main_v228) S1x256.size cc13_transform_6 reads13_6 false true 1 stage13_6 sem13_6
    hrank13 hreads13_6 hinb13_6 nbuf13_6 (Memref.isWhole_whole _) hwx13_6 hstage13_6

abbrev win13_7 : Pipeline.Window sig grid13 :=
  Pipeline.Window.ofSpec (Memref.whole main_v229_0) S5000x256.size cc13_transform_7 reads13_7 true false 2 stage13_7 sem13_7
    hrank13 hreads13_7 hinb13_7 nbuf13_7 (Memref.isWhole_whole _) hwx13_7 hstage13_7

abbrev win13_8 : Pipeline.Window sig grid13 :=
  Pipeline.Window.ofSpec (Memref.whole main_v229_1) S1x1x256.size cc13_transform_8 reads13_8 true false 2 stage13_8 sem13_8
    hrank13 hreads13_8 hinb13_8 nbuf13_8 (Memref.isWhole_whole _) hwx13_8 hstage13_8

abbrev win13_9 : Pipeline.Window sig grid13 :=
  Pipeline.Window.ofSpec (Memref.whole main_v229_2) S1x1x256.size cc13_transform_9 reads13_9 true false 2 stage13_9 sem13_9
    hrank13 hreads13_9 hinb13_9 nbuf13_9 (Memref.isWhole_whole _) hwx13_9 hstage13_9

abbrev win13 : Fin 10 → Pipeline.Window sig grid13 := fun | 0 => win13_0 | 1 => win13_1 | 2 => win13_2 | 3 => win13_3 | 4 => win13_4 | 5 => win13_5 | 6 => win13_6 | 7 => win13_7 | 8 => win13_8 | 9 => win13_9 | ⟨_ + 10, h⟩ => absurd h (Nat.not_lt.2 (Nat.le_add_left _ _))
abbrev spec13 : Fin 10 → Pipeline.WinSpec sig grid13.rank := fun w => (win13 w).toWinSpec

abbrev win14_0 : Pipeline.Window sig grid14 :=
  Pipeline.Window.ofSpec (Memref.whole main_v229_0) S5000x256.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v233) S1x256.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v237) S1x256.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v240) S1x256.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v243) S1x256.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_v244) S5000x256.size cc14_transform_5 reads14_5 true false 2 stage14_5 sem14_5
    hrank14 hreads14_5 hinb14_5 nbuf14_5 (Memref.isWhole_whole _) hwx14_5 hstage14_5

abbrev win14 : Fin 6 → Pipeline.Window sig grid14 := fun | 0 => win14_0 | 1 => win14_1 | 2 => win14_2 | 3 => win14_3 | 4 => win14_4 | 5 => win14_5 | ⟨_ + 6, h⟩ => absurd h (Nat.not_lt.2 (Nat.le_add_left _ _))
abbrev spec14 : Fin 6 → Pipeline.WinSpec sig grid14.rank := fun w => (win14 w).toWinSpec

class Facts : Prop extends Facts₀ where

variable [Facts]
-- ==== ReferenceIdeal.lean ====
abbrev S50000x256 : Shape := ⟨2, ![50000, 256]⟩
abbrev S300000 : Shape := ⟨1, ![300000]⟩
abbrev S5x256x256 : Shape := ⟨3, ![5, 256, 256]⟩
abbrev S5x256 : Shape := ⟨2, ![5, 256]⟩
abbrev S5 : Shape := ⟨1, ![5]⟩
abbrev S_ : Shape := ⟨0, ![]⟩
abbrev S300000x1 : Shape := ⟨2, ![300000, 1]⟩
abbrev S300000x256 : Shape := ⟨2, ![300000, 256]⟩
abbrev S1 : Shape := ⟨1, ![1]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩

abbrev nBuf : Space → Nat
  | .hbm => 714
  | .vmem => 0
  | .smem => 0
  | _ => 0

abbrev hbmTy0_0 (i : Nat) : BufTy := match i % 128 with
  | 0 => ⟨S50000x256, .f32⟩
  | 1 => ⟨S300000, .i32⟩
  | 2 => ⟨S300000, .i32⟩
  | 3 => ⟨S5x256x256, .f32⟩
  | 4 => ⟨S5x256, .f32⟩
  | 5 => ⟨S5x256, .f32⟩
  | 6 => ⟨S5x256, .f32⟩
  | 7 => ⟨S5x256x256, .f32⟩
  | 8 => ⟨S5x256, .f32⟩
  | 9 => ⟨S5, .f32⟩
  | 10 => ⟨S5x256, .f32⟩
  | 11 => ⟨S5x256, .f32⟩
  | 12 => ⟨S_, .i32⟩
  | 13 => ⟨S300000, .i32⟩
  | 14 => ⟨S300000, .i1⟩
  | 15 => ⟨S_, .i32⟩
  | 16 => ⟨S300000, .i32⟩
  | 17 => ⟨S300000, .i32⟩
  | 18 => ⟨S300000, .i32⟩
  | 19 => ⟨S300000x1, .i32⟩
  | 20 => ⟨S300000x256, .f32⟩
  | 21 => ⟨S_, .f32⟩
  | 22 => ⟨S300000x256, .f32⟩
  | 23 => ⟨S300000x256, .f32⟩
  | 24 => ⟨S_, .f32⟩
  | 25 => ⟨S50000x256, .f32⟩
  | 26 => ⟨S300000x1, .i32⟩
  | 27 => ⟨S50000x256, .f32⟩
  | 28 => ⟨S1, .f32⟩
  | 29 => ⟨S_, .f32⟩
  | 30 => ⟨S_, .f32⟩
  | 31 => ⟨S_, .f32⟩
  | 32 => ⟨S50000x256, .f32⟩
  | 33 => ⟨S50000x256, .f32⟩
  | 34 => ⟨S50000x256, .f32⟩
  | 35 => ⟨S1x256x256, .f32⟩
  | 36 => ⟨S256x256, .f32⟩
  | 37 => ⟨S50000x256, .f32⟩
  | 38 => ⟨S1x256, .f32⟩
  | 39 => ⟨S256, .f32⟩
  | 40 => ⟨S1x256, .f32⟩
  | 41 => ⟨S50000x256, .f32⟩
  | 42 => ⟨S50000x256, .f32⟩
  | 43 => ⟨S1x256, .f32⟩
  | 44 => ⟨S256, .f32⟩
  | 45 => ⟨S1x256, .f32⟩
  | 46 => ⟨S256, .f32⟩
  | 47 => ⟨S_, .f32⟩
  | 48 => ⟨S256, .f32⟩
  | 49 => ⟨S_, .f32⟩
  | 50 => ⟨S256, .f32⟩
  | 51 => ⟨S256, .f32⟩
  | 52 => ⟨S_, .i32⟩
  | 53 => ⟨S_, .f32⟩
  | 54 => ⟨S256, .f32⟩
  | 55 => ⟨S1x256, .f32⟩
  | 56 => ⟨S_, .f32⟩
  | 57 => ⟨S1x256, .f32⟩
  | 58 => ⟨S1x256, .f32⟩
  | 59 => ⟨S50000x256, .f32⟩
  | 60 => ⟨S50000x256, .f32⟩
  | 61 => ⟨S50000x256, .f32⟩
  | 62 => ⟨S_, .f32⟩
  | 63 => ⟨S_, .f32⟩
  | 64 => ⟨S_, .f32⟩
  | 65 => ⟨S_, .f32⟩
  | 66 => ⟨S256, .f32⟩
  | 67 => ⟨S256, .f32⟩
  | 68 => ⟨S256, .f32⟩
  | 69 => ⟨S_, .f32⟩
  | 70 => ⟨S_, .i1⟩
  | 71 => ⟨S_, .f32⟩
  | 72 => ⟨S_, .f32⟩
  | 73 => ⟨S256, .f32⟩
  | 74 => ⟨S256, .f32⟩
  | 75 => ⟨S1x256, .f32⟩
  | 76 => ⟨S50000x256, .f32⟩
  | 77 => ⟨S50000x256, .f32⟩
  | 78 => ⟨S_, .f32⟩
  | 79 => ⟨S256, .f32⟩
  | 80 => ⟨S256, .f32⟩
  | 81 => ⟨S256, .f32⟩
  | 82 => ⟨S1x256, .f32⟩
  | 83 => ⟨S50000x256, .f32⟩
  | 84 => ⟨S50000x256, .f32⟩
  | 85 => ⟨S1x256, .f32⟩
  | 86 => ⟨S50000x256, .f32⟩
  | 87 => ⟨S50000x256, .f32⟩
  | 88 => ⟨S1x256, .f32⟩
  | 89 => ⟨S50000x256, .f32⟩
  | 90 => ⟨S50000x256, .f32⟩
  | 91 => ⟨S_, .f32⟩
  | 92 => ⟨S50000x256, .f32⟩
  | 93 => ⟨S50000x256, .f32⟩
  | 94 => ⟨S1x256x256, .f32⟩
  | 95 => ⟨S256x256, .f32⟩
  | 96 => ⟨S50000x256, .f32⟩
  | 97 => ⟨S1x256, .f32⟩
  | 98 => ⟨S256, .f32⟩
  | 99 => ⟨S1x256, .f32⟩
  | 100 => ⟨S50000x256, .f32⟩
  | 101 => ⟨S50000x256, .f32⟩
  | 102 => ⟨S1x256, .f32⟩
  | 103 => ⟨S256, .f32⟩
  | 104 => ⟨S1x256, .f32⟩
  | 105 => ⟨S256, .f32⟩
  | 106 => ⟨S_, .f32⟩
  | 107 => ⟨S256, .f32⟩
  | 108 => ⟨S_, .f32⟩
  | 109 => ⟨S256, .f32⟩
  | 110 => ⟨S256, .f32⟩
  | 111 => ⟨S_, .i32⟩
  | 112 => ⟨S_, .f32⟩
  | 113 => ⟨S256, .f32⟩
  | 114 => ⟨S1x256, .f32⟩
  | 115 => ⟨S_, .f32⟩
  | 116 => ⟨S1x256, .f32⟩
  | 117 => ⟨S1x256, .f32⟩
  | 118 => ⟨S50000x256, .f32⟩
  | 119 => ⟨S50000x256, .f32⟩
  | 120 => ⟨S50000x256, .f32⟩
  | 121 => ⟨S_, .f32⟩
  | 122 => ⟨S_, .f32⟩
  | 123 => ⟨S_, .f32⟩
  | 124 => ⟨S_, .f32⟩
  | 125 => ⟨S256, .f32⟩
  | 126 => ⟨S256, .f32⟩
  | 127 => ⟨S256, .f32⟩
  | _ => ⟨S50000x256, .f32⟩

abbrev hbmTy0_1 (i : Nat) : BufTy := match i % 128 with
  | 0 => ⟨S_, .f32⟩
  | 1 => ⟨S_, .i1⟩
  | 2 => ⟨S_, .f32⟩
  | 3 => ⟨S_, .f32⟩
  | 4 => ⟨S256, .f32⟩
  | 5 => ⟨S256, .f32⟩
  | 6 => ⟨S1x256, .f32⟩
  | 7 => ⟨S50000x256, .f32⟩
  | 8 => ⟨S50000x256, .f32⟩
  | 9 => ⟨S_, .f32⟩
  | 10 => ⟨S256, .f32⟩
  | 11 => ⟨S256, .f32⟩
  | 12 => ⟨S256, .f32⟩
  | 13 => ⟨S1x256, .f32⟩
  | 14 => ⟨S50000x256, .f32⟩
  | 15 => ⟨S50000x256, .f32⟩
  | 16 => ⟨S1x256, .f32⟩
  | 17 => ⟨S50000x256, .f32⟩
  | 18 => ⟨S50000x256, .f32⟩
  | 19 => ⟨S1x256, .f32⟩
  | 20 => ⟨S50000x256, .f32⟩
  | 21 => ⟨S50000x256, .f32⟩
  | 22 => ⟨S_, .f32⟩
  | 23 => ⟨S50000x256, .f32⟩
  | 24 => ⟨S50000x256, .f32⟩
  | 25 => ⟨S_, .i32⟩
  | 26 => ⟨S300000, .i32⟩
  | 27 => ⟨S300000, .i1⟩
  | 28 => ⟨S_, .i32⟩
  | 29 => ⟨S300000, .i32⟩
  | 30 => ⟨S300000, .i32⟩
  | 31 => ⟨S300000, .i32⟩
  | 32 => ⟨S300000x1, .i32⟩
  | 33 => ⟨S300000x256, .f32⟩
  | 34 => ⟨S_, .f32⟩
  | 35 => ⟨S300000x256, .f32⟩
  | 36 => ⟨S300000x256, .f32⟩
  | 37 => ⟨S_, .f32⟩
  | 38 => ⟨S50000x256, .f32⟩
  | 39 => ⟨S300000x1, .i32⟩
  | 40 => ⟨S50000x256, .f32⟩
  | 41 => ⟨S1, .f32⟩
  | 42 => ⟨S_, .f32⟩
  | 43 => ⟨S_, .f32⟩
  | 44 => ⟨S_, .f32⟩
  | 45 => ⟨S50000x256, .f32⟩
  | 46 => ⟨S50000x256, .f32⟩
  | 47 => ⟨S50000x256, .f32⟩
  | 48 => ⟨S1x256x256, .f32⟩
  | 49 => ⟨S256x256, .f32⟩
  | 50 => ⟨S50000x256, .f32⟩
  | 51 => ⟨S1x256, .f32⟩
  | 52 => ⟨S256, .f32⟩
  | 53 => ⟨S1x256, .f32⟩
  | 54 => ⟨S50000x256, .f32⟩
  | 55 => ⟨S50000x256, .f32⟩
  | 56 => ⟨S1x256, .f32⟩
  | 57 => ⟨S256, .f32⟩
  | 58 => ⟨S1x256, .f32⟩
  | 59 => ⟨S256, .f32⟩
  | 60 => ⟨S_, .f32⟩
  | 61 => ⟨S256, .f32⟩
  | 62 => ⟨S_, .f32⟩
  | 63 => ⟨S256, .f32⟩
  | 64 => ⟨S256, .f32⟩
  | 65 => ⟨S_, .i32⟩
  | 66 => ⟨S_, .f32⟩
  | 67 => ⟨S256, .f32⟩
  | 68 => ⟨S1x256, .f32⟩
  | 69 => ⟨S_, .f32⟩
  | 70 => ⟨S1x256, .f32⟩
  | 71 => ⟨S1x256, .f32⟩
  | 72 => ⟨S50000x256, .f32⟩
  | 73 => ⟨S50000x256, .f32⟩
  | 74 => ⟨S50000x256, .f32⟩
  | 75 => ⟨S_, .f32⟩
  | 76 => ⟨S_, .f32⟩
  | 77 => ⟨S_, .f32⟩
  | 78 => ⟨S_, .f32⟩
  | 79 => ⟨S256, .f32⟩
  | 80 => ⟨S256, .f32⟩
  | 81 => ⟨S256, .f32⟩
  | 82 => ⟨S_, .f32⟩
  | 83 => ⟨S_, .i1⟩
  | 84 => ⟨S_, .f32⟩
  | 85 => ⟨S_, .f32⟩
  | 86 => ⟨S256, .f32⟩
  | 87 => ⟨S256, .f32⟩
  | 88 => ⟨S1x256, .f32⟩
  | 89 => ⟨S50000x256, .f32⟩
  | 90 => ⟨S50000x256, .f32⟩
  | 91 => ⟨S_, .f32⟩
  | 92 => ⟨S256, .f32⟩
  | 93 => ⟨S256, .f32⟩
  | 94 => ⟨S256, .f32⟩
  | 95 => ⟨S1x256, .f32⟩
  | 96 => ⟨S50000x256, .f32⟩
  | 97 => ⟨S50000x256, .f32⟩
  | 98 => ⟨S1x256, .f32⟩
  | 99 => ⟨S50000x256, .f32⟩
  | 100 => ⟨S50000x256, .f32⟩
  | 101 => ⟨S1x256, .f32⟩
  | 102 => ⟨S50000x256, .f32⟩
  | 103 => ⟨S50000x256, .f32⟩
  | 104 => ⟨S_, .f32⟩
  | 105 => ⟨S50000x256, .f32⟩
  | 106 => ⟨S50000x256, .f32⟩
  | 107 => ⟨S1x256x256, .f32⟩
  | 108 => ⟨S256x256, .f32⟩
  | 109 => ⟨S50000x256, .f32⟩
  | 110 => ⟨S1x256, .f32⟩
  | 111 => ⟨S256, .f32⟩
  | 112 => ⟨S1x256, .f32⟩
  | 113 => ⟨S50000x256, .f32⟩
  | 114 => ⟨S50000x256, .f32⟩
  | 115 => ⟨S1x256, .f32⟩
  | 116 => ⟨S256, .f32⟩
  | 117 => ⟨S1x256, .f32⟩
  | 118 => ⟨S256, .f32⟩
  | 119 => ⟨S_, .f32⟩
  | 120 => ⟨S256, .f32⟩
  | 121 => ⟨S_, .f32⟩
  | 122 => ⟨S256, .f32⟩
  | 123 => ⟨S256, .f32⟩
  | 124 => ⟨S_, .i32⟩
  | 125 => ⟨S_, .f32⟩
  | 126 => ⟨S256, .f32⟩
  | 127 => ⟨S1x256, .f32⟩
  | _ => ⟨S50000x256, .f32⟩

abbrev hbmTy0_2 (i : Nat) : BufTy := match i % 128 with
  | 0 => ⟨S_, .f32⟩
  | 1 => ⟨S1x256, .f32⟩
  | 2 => ⟨S1x256, .f32⟩
  | 3 => ⟨S50000x256, .f32⟩
  | 4 => ⟨S50000x256, .f32⟩
  | 5 => ⟨S50000x256, .f32⟩
  | 6 => ⟨S_, .f32⟩
  | 7 => ⟨S_, .f32⟩
  | 8 => ⟨S_, .f32⟩
  | 9 => ⟨S_, .f32⟩
  | 10 => ⟨S256, .f32⟩
  | 11 => ⟨S256, .f32⟩
  | 12 => ⟨S256, .f32⟩
  | 13 => ⟨S_, .f32⟩
  | 14 => ⟨S_, .i1⟩
  | 15 => ⟨S_, .f32⟩
  | 16 => ⟨S_, .f32⟩
  | 17 => ⟨S256, .f32⟩
  | 18 => ⟨S256, .f32⟩
  | 19 => ⟨S1x256, .f32⟩
  | 20 => ⟨S50000x256, .f32⟩
  | 21 => ⟨S50000x256, .f32⟩
  | 22 => ⟨S_, .f32⟩
  | 23 => ⟨S256, .f32⟩
  | 24 => ⟨S256, .f32⟩
  | 25 => ⟨S256, .f32⟩
  | 26 => ⟨S1x256, .f32⟩
  | 27 => ⟨S50000x256, .f32⟩
  | 28 => ⟨S50000x256, .f32⟩
  | 29 => ⟨S1x256, .f32⟩
  | 30 => ⟨S50000x256, .f32⟩
  | 31 => ⟨S50000x256, .f32⟩
  | 32 => ⟨S1x256, .f32⟩
  | 33 => ⟨S50000x256, .f32⟩
  | 34 => ⟨S50000x256, .f32⟩
  | 35 => ⟨S_, .f32⟩
  | 36 => ⟨S50000x256, .f32⟩
  | 37 => ⟨S50000x256, .f32⟩
  | 38 => ⟨S_, .i32⟩
  | 39 => ⟨S300000, .i32⟩
  | 40 => ⟨S300000, .i1⟩
  | 41 => ⟨S_, .i32⟩
  | 42 => ⟨S300000, .i32⟩
  | 43 => ⟨S300000, .i32⟩
  | 44 => ⟨S300000, .i32⟩
  | 45 => ⟨S300000x1, .i32⟩
  | 46 => ⟨S300000x256, .f32⟩
  | 47 => ⟨S_, .f32⟩
  | 48 => ⟨S300000x256, .f32⟩
  | 49 => ⟨S300000x256, .f32⟩
  | 50 => ⟨S_, .f32⟩
  | 51 => ⟨S50000x256, .f32⟩
  | 52 => ⟨S300000x1, .i32⟩
  | 53 => ⟨S50000x256, .f32⟩
  | 54 => ⟨S1, .f32⟩
  | 55 => ⟨S_, .f32⟩
  | 56 => ⟨S_, .f32⟩
  | 57 => ⟨S_, .f32⟩
  | 58 => ⟨S50000x256, .f32⟩
  | 59 => ⟨S50000x256, .f32⟩
  | 60 => ⟨S50000x256, .f32⟩
  | 61 => ⟨S1x256x256, .f32⟩
  | 62 => ⟨S256x256, .f32⟩
  | 63 => ⟨S50000x256, .f32⟩
  | 64 => ⟨S1x256, .f32⟩
  | 65 => ⟨S256, .f32⟩
  | 66 => ⟨S1x256, .f32⟩
  | 67 => ⟨S50000x256, .f32⟩
  | 68 => ⟨S50000x256, .f32⟩
  | 69 => ⟨S1x256, .f32⟩
  | 70 => ⟨S256, .f32⟩
  | 71 => ⟨S1x256, .f32⟩
  | 72 => ⟨S256, .f32⟩
  | 73 => ⟨S_, .f32⟩
  | 74 => ⟨S256, .f32⟩
  | 75 => ⟨S_, .f32⟩
  | 76 => ⟨S256, .f32⟩
  | 77 => ⟨S256, .f32⟩
  | 78 => ⟨S_, .i32⟩
  | 79 => ⟨S_, .f32⟩
  | 80 => ⟨S256, .f32⟩
  | 81 => ⟨S1x256, .f32⟩
  | 82 => ⟨S_, .f32⟩
  | 83 => ⟨S1x256, .f32⟩
  | 84 => ⟨S1x256, .f32⟩
  | 85 => ⟨S50000x256, .f32⟩
  | 86 => ⟨S50000x256, .f32⟩
  | 87 => ⟨S50000x256, .f32⟩
  | 88 => ⟨S_, .f32⟩
  | 89 => ⟨S_, .f32⟩
  | 90 => ⟨S_, .f32⟩
  | 91 => ⟨S_, .f32⟩
  | 92 => ⟨S256, .f32⟩
  | 93 => ⟨S256, .f32⟩
  | 94 => ⟨S256, .f32⟩
  | 95 => ⟨S_, .f32⟩
  | 96 => ⟨S_, .i1⟩
  | 97 => ⟨S_, .f32⟩
  | 98 => ⟨S_, .f32⟩
  | 99 => ⟨S256, .f32⟩
  | 100 => ⟨S256, .f32⟩
  | 101 => ⟨S1x256, .f32⟩
  | 102 => ⟨S50000x256, .f32⟩
  | 103 => ⟨S50000x256, .f32⟩
  | 104 => ⟨S_, .f32⟩
  | 105 => ⟨S256, .f32⟩
  | 106 => ⟨S256, .f32⟩
  | 107 => ⟨S256, .f32⟩
  | 108 => ⟨S1x256, .f32⟩
  | 109 => ⟨S50000x256, .f32⟩
  | 110 => ⟨S50000x256, .f32⟩
  | 111 => ⟨S1x256, .f32⟩
  | 112 => ⟨S50000x256, .f32⟩
  | 113 => ⟨S50000x256, .f32⟩
  | 114 => ⟨S1x256, .f32⟩
  | 115 => ⟨S50000x256, .f32⟩
  | 116 => ⟨S50000x256, .f32⟩
  | 117 => ⟨S_, .f32⟩
  | 118 => ⟨S50000x256, .f32⟩
  | 119 => ⟨S50000x256, .f32⟩
  | 120 => ⟨S1x256x256, .f32⟩
  | 121 => ⟨S256x256, .f32⟩
  | 122 => ⟨S50000x256, .f32⟩
  | 123 => ⟨S1x256, .f32⟩
  | 124 => ⟨S256, .f32⟩
  | 125 => ⟨S1x256, .f32⟩
  | 126 => ⟨S50000x256, .f32⟩
  | 127 => ⟨S50000x256, .f32⟩
  | _ => ⟨S50000x256, .f32⟩

abbrev hbmTy0_3 (i : Nat) : BufTy := match i % 128 with
  | 0 => ⟨S1x256, .f32⟩
  | 1 => ⟨S256, .f32⟩
  | 2 => ⟨S1x256, .f32⟩
  | 3 => ⟨S256, .f32⟩
  | 4 => ⟨S_, .f32⟩
  | 5 => ⟨S256, .f32⟩
  | 6 => ⟨S_, .f32⟩
  | 7 => ⟨S256, .f32⟩
  | 8 => ⟨S256, .f32⟩
  | 9 => ⟨S_, .i32⟩
  | 10 => ⟨S_, .f32⟩
  | 11 => ⟨S256, .f32⟩
  | 12 => ⟨S1x256, .f32⟩
  | 13 => ⟨S_, .f32⟩
  | 14 => ⟨S1x256, .f32⟩
  | 15 => ⟨S1x256, .f32⟩
  | 16 => ⟨S50000x256, .f32⟩
  | 17 => ⟨S50000x256, .f32⟩
  | 18 => ⟨S50000x256, .f32⟩
  | 19 => ⟨S_, .f32⟩
  | 20 => ⟨S_, .f32⟩
  | 21 => ⟨S_, .f32⟩
  | 22 => ⟨S_, .f32⟩
  | 23 => ⟨S256, .f32⟩
  | 24 => ⟨S256, .f32⟩
  | 25 => ⟨S256, .f32⟩
  | 26 => ⟨S_, .f32⟩
  | 27 => ⟨S_, .i1⟩
  | 28 => ⟨S_, .f32⟩
  | 29 => ⟨S_, .f32⟩
  | 30 => ⟨S256, .f32⟩
  | 31 => ⟨S256, .f32⟩
  | 32 => ⟨S1x256, .f32⟩
  | 33 => ⟨S50000x256, .f32⟩
  | 34 => ⟨S50000x256, .f32⟩
  | 35 => ⟨S_, .f32⟩
  | 36 => ⟨S256, .f32⟩
  | 37 => ⟨S256, .f32⟩
  | 38 => ⟨S256, .f32⟩
  | 39 => ⟨S1x256, .f32⟩
  | 40 => ⟨S50000x256, .f32⟩
  | 41 => ⟨S50000x256, .f32⟩
  | 42 => ⟨S1x256, .f32⟩
  | 43 => ⟨S50000x256, .f32⟩
  | 44 => ⟨S50000x256, .f32⟩
  | 45 => ⟨S1x256, .f32⟩
  | 46 => ⟨S50000x256, .f32⟩
  | 47 => ⟨S50000x256, .f32⟩
  | 48 => ⟨S_, .f32⟩
  | 49 => ⟨S50000x256, .f32⟩
  | 50 => ⟨S50000x256, .f32⟩
  | 51 => ⟨S_, .i32⟩
  | 52 => ⟨S300000, .i32⟩
  | 53 => ⟨S300000, .i1⟩
  | 54 => ⟨S_, .i32⟩
  | 55 => ⟨S300000, .i32⟩
  | 56 => ⟨S300000, .i32⟩
  | 57 => ⟨S300000, .i32⟩
  | 58 => ⟨S300000x1, .i32⟩
  | 59 => ⟨S300000x256, .f32⟩
  | 60 => ⟨S_, .f32⟩
  | 61 => ⟨S300000x256, .f32⟩
  | 62 => ⟨S300000x256, .f32⟩
  | 63 => ⟨S_, .f32⟩
  | 64 => ⟨S50000x256, .f32⟩
  | 65 => ⟨S300000x1, .i32⟩
  | 66 => ⟨S50000x256, .f32⟩
  | 67 => ⟨S1, .f32⟩
  | 68 => ⟨S_, .f32⟩
  | 69 => ⟨S_, .f32⟩
  | 70 => ⟨S_, .f32⟩
  | 71 => ⟨S50000x256, .f32⟩
  | 72 => ⟨S50000x256, .f32⟩
  | 73 => ⟨S50000x256, .f32⟩
  | 74 => ⟨S1x256x256, .f32⟩
  | 75 => ⟨S256x256, .f32⟩
  | 76 => ⟨S50000x256, .f32⟩
  | 77 => ⟨S1x256, .f32⟩
  | 78 => ⟨S256, .f32⟩
  | 79 => ⟨S1x256, .f32⟩
  | 80 => ⟨S50000x256, .f32⟩
  | 81 => ⟨S50000x256, .f32⟩
  | 82 => ⟨S1x256, .f32⟩
  | 83 => ⟨S256, .f32⟩
  | 84 => ⟨S1x256, .f32⟩
  | 85 => ⟨S256, .f32⟩
  | 86 => ⟨S_, .f32⟩
  | 87 => ⟨S256, .f32⟩
  | 88 => ⟨S_, .f32⟩
  | 89 => ⟨S256, .f32⟩
  | 90 => ⟨S256, .f32⟩
  | 91 => ⟨S_, .i32⟩
  | 92 => ⟨S_, .f32⟩
  | 93 => ⟨S256, .f32⟩
  | 94 => ⟨S1x256, .f32⟩
  | 95 => ⟨S_, .f32⟩
  | 96 => ⟨S1x256, .f32⟩
  | 97 => ⟨S1x256, .f32⟩
  | 98 => ⟨S50000x256, .f32⟩
  | 99 => ⟨S50000x256, .f32⟩
  | 100 => ⟨S50000x256, .f32⟩
  | 101 => ⟨S_, .f32⟩
  | 102 => ⟨S_, .f32⟩
  | 103 => ⟨S_, .f32⟩
  | 104 => ⟨S_, .f32⟩
  | 105 => ⟨S256, .f32⟩
  | 106 => ⟨S256, .f32⟩
  | 107 => ⟨S256, .f32⟩
  | 108 => ⟨S_, .f32⟩
  | 109 => ⟨S_, .i1⟩
  | 110 => ⟨S_, .f32⟩
  | 111 => ⟨S_, .f32⟩
  | 112 => ⟨S256, .f32⟩
  | 113 => ⟨S256, .f32⟩
  | 114 => ⟨S1x256, .f32⟩
  | 115 => ⟨S50000x256, .f32⟩
  | 116 => ⟨S50000x256, .f32⟩
  | 117 => ⟨S_, .f32⟩
  | 118 => ⟨S256, .f32⟩
  | 119 => ⟨S256, .f32⟩
  | 120 => ⟨S256, .f32⟩
  | 121 => ⟨S1x256, .f32⟩
  | 122 => ⟨S50000x256, .f32⟩
  | 123 => ⟨S50000x256, .f32⟩
  | 124 => ⟨S1x256, .f32⟩
  | 125 => ⟨S50000x256, .f32⟩
  | 126 => ⟨S50000x256, .f32⟩
  | 127 => ⟨S1x256, .f32⟩
  | _ => ⟨S50000x256, .f32⟩

abbrev hbmTy0_4 (i : Nat) : BufTy := match i % 128 with
  | 0 => ⟨S50000x256, .f32⟩
  | 1 => ⟨S50000x256, .f32⟩
  | 2 => ⟨S_, .f32⟩
  | 3 => ⟨S50000x256, .f32⟩
  | 4 => ⟨S50000x256, .f32⟩
  | 5 => ⟨S1x256x256, .f32⟩
  | 6 => ⟨S256x256, .f32⟩
  | 7 => ⟨S50000x256, .f32⟩
  | 8 => ⟨S1x256, .f32⟩
  | 9 => ⟨S256, .f32⟩
  | 10 => ⟨S1x256, .f32⟩
  | 11 => ⟨S50000x256, .f32⟩
  | 12 => ⟨S50000x256, .f32⟩
  | 13 => ⟨S1x256, .f32⟩
  | 14 => ⟨S256, .f32⟩
  | 15 => ⟨S1x256, .f32⟩
  | 16 => ⟨S256, .f32⟩
  | 17 => ⟨S_, .f32⟩
  | 18 => ⟨S256, .f32⟩
  | 19 => ⟨S_, .f32⟩
  | 20 => ⟨S256, .f32⟩
  | 21 => ⟨S256, .f32⟩
  | 22 => ⟨S_, .i32⟩
  | 23 => ⟨S_, .f32⟩
  | 24 => ⟨S256, .f32⟩
  | 25 => ⟨S1x256, .f32⟩
  | 26 => ⟨S_, .f32⟩
  | 27 => ⟨S1x256, .f32⟩
  | 28 => ⟨S1x256, .f32⟩
  | 29 => ⟨S50000x256, .f32⟩
  | 30 => ⟨S50000x256, .f32⟩
  | 31 => ⟨S50000x256, .f32⟩
  | 32 => ⟨S_, .f32⟩
  | 33 => ⟨S_, .f32⟩
  | 34 => ⟨S_, .f32⟩
  | 35 => ⟨S_, .f32⟩
  | 36 => ⟨S256, .f32⟩
  | 37 => ⟨S256, .f32⟩
  | 38 => ⟨S256, .f32⟩
  | 39 => ⟨S_, .f32⟩
  | 40 => ⟨S_, .i1⟩
  | 41 => ⟨S_, .f32⟩
  | 42 => ⟨S_, .f32⟩
  | 43 => ⟨S256, .f32⟩
  | 44 => ⟨S256, .f32⟩
  | 45 => ⟨S1x256, .f32⟩
  | 46 => ⟨S50000x256, .f32⟩
  | 47 => ⟨S50000x256, .f32⟩
  | 48 => ⟨S_, .f32⟩
  | 49 => ⟨S256, .f32⟩
  | 50 => ⟨S256, .f32⟩
  | 51 => ⟨S256, .f32⟩
  | 52 => ⟨S1x256, .f32⟩
  | 53 => ⟨S50000x256, .f32⟩
  | 54 => ⟨S50000x256, .f32⟩
  | 55 => ⟨S1x256, .f32⟩
  | 56 => ⟨S50000x256, .f32⟩
  | 57 => ⟨S50000x256, .f32⟩
  | 58 => ⟨S1x256, .f32⟩
  | 59 => ⟨S50000x256, .f32⟩
  | 60 => ⟨S50000x256, .f32⟩
  | 61 => ⟨S_, .f32⟩
  | 62 => ⟨S50000x256, .f32⟩
  | 63 => ⟨S50000x256, .f32⟩
  | 64 => ⟨S_, .i32⟩
  | 65 => ⟨S300000, .i32⟩
  | 66 => ⟨S300000, .i1⟩
  | 67 => ⟨S_, .i32⟩
  | 68 => ⟨S300000, .i32⟩
  | 69 => ⟨S300000, .i32⟩
  | 70 => ⟨S300000, .i32⟩
  | 71 => ⟨S300000x1, .i32⟩
  | 72 => ⟨S300000x256, .f32⟩
  | 73 => ⟨S_, .f32⟩
  | 74 => ⟨S300000x256, .f32⟩
  | 75 => ⟨S300000x256, .f32⟩
  | 76 => ⟨S_, .f32⟩
  | 77 => ⟨S50000x256, .f32⟩
  | 78 => ⟨S300000x1, .i32⟩
  | 79 => ⟨S50000x256, .f32⟩
  | 80 => ⟨S1, .f32⟩
  | 81 => ⟨S_, .f32⟩
  | 82 => ⟨S_, .f32⟩
  | 83 => ⟨S_, .f32⟩
  | 84 => ⟨S50000x256, .f32⟩
  | 85 => ⟨S50000x256, .f32⟩
  | 86 => ⟨S50000x256, .f32⟩
  | 87 => ⟨S1x256x256, .f32⟩
  | 88 => ⟨S256x256, .f32⟩
  | 89 => ⟨S50000x256, .f32⟩
  | 90 => ⟨S1x256, .f32⟩
  | 91 => ⟨S256, .f32⟩
  | 92 => ⟨S1x256, .f32⟩
  | 93 => ⟨S50000x256, .f32⟩
  | 94 => ⟨S50000x256, .f32⟩
  | 95 => ⟨S1x256, .f32⟩
  | 96 => ⟨S256, .f32⟩
  | 97 => ⟨S1x256, .f32⟩
  | 98 => ⟨S256, .f32⟩
  | 99 => ⟨S_, .f32⟩
  | 100 => ⟨S256, .f32⟩
  | 101 => ⟨S_, .f32⟩
  | 102 => ⟨S256, .f32⟩
  | 103 => ⟨S256, .f32⟩
  | 104 => ⟨S_, .i32⟩
  | 105 => ⟨S_, .f32⟩
  | 106 => ⟨S256, .f32⟩
  | 107 => ⟨S1x256, .f32⟩
  | 108 => ⟨S_, .f32⟩
  | 109 => ⟨S1x256, .f32⟩
  | 110 => ⟨S1x256, .f32⟩
  | 111 => ⟨S50000x256, .f32⟩
  | 112 => ⟨S50000x256, .f32⟩
  | 113 => ⟨S50000x256, .f32⟩
  | 114 => ⟨S_, .f32⟩
  | 115 => ⟨S_, .f32⟩
  | 116 => ⟨S_, .f32⟩
  | 117 => ⟨S_, .f32⟩
  | 118 => ⟨S256, .f32⟩
  | 119 => ⟨S256, .f32⟩
  | 120 => ⟨S256, .f32⟩
  | 121 => ⟨S_, .f32⟩
  | 122 => ⟨S_, .i1⟩
  | 123 => ⟨S_, .f32⟩
  | 124 => ⟨S_, .f32⟩
  | 125 => ⟨S256, .f32⟩
  | 126 => ⟨S256, .f32⟩
  | 127 => ⟨S1x256, .f32⟩
  | _ => ⟨S50000x256, .f32⟩

abbrev hbmTy0_5 (i : Nat) : BufTy := match i % 128 with
  | 0 => ⟨S50000x256, .f32⟩
  | 1 => ⟨S50000x256, .f32⟩
  | 2 => ⟨S_, .f32⟩
  | 3 => ⟨S256, .f32⟩
  | 4 => ⟨S256, .f32⟩
  | 5 => ⟨S256, .f32⟩
  | 6 => ⟨S1x256, .f32⟩
  | 7 => ⟨S50000x256, .f32⟩
  | 8 => ⟨S50000x256, .f32⟩
  | 9 => ⟨S1x256, .f32⟩
  | 10 => ⟨S50000x256, .f32⟩
  | 11 => ⟨S50000x256, .f32⟩
  | 12 => ⟨S1x256, .f32⟩
  | 13 => ⟨S50000x256, .f32⟩
  | 14 => ⟨S50000x256, .f32⟩
  | 15 => ⟨S_, .f32⟩
  | 16 => ⟨S50000x256, .f32⟩
  | 17 => ⟨S50000x256, .f32⟩
  | 18 => ⟨S1x256x256, .f32⟩
  | 19 => ⟨S256x256, .f32⟩
  | 20 => ⟨S50000x256, .f32⟩
  | 21 => ⟨S1x256, .f32⟩
  | 22 => ⟨S256, .f32⟩
  | 23 => ⟨S1x256, .f32⟩
  | 24 => ⟨S50000x256, .f32⟩
  | 25 => ⟨S50000x256, .f32⟩
  | 26 => ⟨S1x256, .f32⟩
  | 27 => ⟨S256, .f32⟩
  | 28 => ⟨S1x256, .f32⟩
  | 29 => ⟨S256, .f32⟩
  | 30 => ⟨S_, .f32⟩
  | 31 => ⟨S256, .f32⟩
  | 32 => ⟨S_, .f32⟩
  | 33 => ⟨S256, .f32⟩
  | 34 => ⟨S256, .f32⟩
  | 35 => ⟨S_, .i32⟩
  | 36 => ⟨S_, .f32⟩
  | 37 => ⟨S256, .f32⟩
  | 38 => ⟨S1x256, .f32⟩
  | 39 => ⟨S_, .f32⟩
  | 40 => ⟨S1x256, .f32⟩
  | 41 => ⟨S1x256, .f32⟩
  | 42 => ⟨S50000x256, .f32⟩
  | 43 => ⟨S50000x256, .f32⟩
  | 44 => ⟨S50000x256, .f32⟩
  | 45 => ⟨S_, .f32⟩
  | 46 => ⟨S_, .f32⟩
  | 47 => ⟨S_, .f32⟩
  | 48 => ⟨S_, .f32⟩
  | 49 => ⟨S256, .f32⟩
  | 50 => ⟨S256, .f32⟩
  | 51 => ⟨S256, .f32⟩
  | 52 => ⟨S_, .f32⟩
  | 53 => ⟨S_, .i1⟩
  | 54 => ⟨S_, .f32⟩
  | 55 => ⟨S_, .f32⟩
  | 56 => ⟨S256, .f32⟩
  | 57 => ⟨S256, .f32⟩
  | 58 => ⟨S1x256, .f32⟩
  | 59 => ⟨S50000x256, .f32⟩
  | 60 => ⟨S50000x256, .f32⟩
  | 61 => ⟨S_, .f32⟩
  | 62 => ⟨S256, .f32⟩
  | 63 => ⟨S256, .f32⟩
  | 64 => ⟨S256, .f32⟩
  | 65 => ⟨S1x256, .f32⟩
  | 66 => ⟨S50000x256, .f32⟩
  | 67 => ⟨S50000x256, .f32⟩
  | 68 => ⟨S1x256, .f32⟩
  | 69 => ⟨S50000x256, .f32⟩
  | 70 => ⟨S50000x256, .f32⟩
  | 71 => ⟨S1x256, .f32⟩
  | 72 => ⟨S50000x256, .f32⟩
  | 73 => ⟨S50000x256, .f32⟩
  | _ => ⟨S50000x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_call0_cst : Ref sig .tc := ⟨.hbm, 21, rfl⟩
abbrev main_call0_v0 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_1 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_2 : Ref sig .tc := ⟨.hbm, 47, rfl⟩
abbrev main_v29 : Ref sig .tc := ⟨.hbm, 48, rfl⟩
abbrev main_cst_3 : Ref sig .tc := ⟨.hbm, 49, rfl⟩
abbrev main_v30 : Ref sig .tc := ⟨.hbm, 50, rfl⟩
abbrev main_v31 : Ref sig .tc := ⟨.hbm, 51, rfl⟩
abbrev main_c_4 : Ref sig .tc := ⟨.hbm, 52, rfl⟩
abbrev main_call1_cst : Ref sig .tc := ⟨.hbm, 53, rfl⟩
abbrev main_call1_v0 : Ref sig .tc := ⟨.hbm, 54, rfl⟩
abbrev main_call1_v1 : Ref sig .tc := ⟨.hbm, 55, rfl⟩
abbrev main_call1_cst_0 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_v5 : Ref sig .tc := ⟨.hbm, 60, rfl⟩
abbrev main_call1_v6 : Ref sig .tc := ⟨.hbm, 61, rfl⟩
abbrev main_call1_v7 : Ref sig .tc := ⟨.hbm, 62, rfl⟩
abbrev main_call1_cst_1 : Ref sig .tc := ⟨.hbm, 63, rfl⟩
abbrev main_call1_v8 : Ref sig .tc := ⟨.hbm, 64, rfl⟩
abbrev main_call1_cst_2 : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_cst_3 : Ref sig .tc := ⟨.hbm, 69, rfl⟩
abbrev main_call1_v12 : Ref sig .tc := ⟨.hbm, 70, rfl⟩
abbrev main_call1_cst_4 : Ref sig .tc := ⟨.hbm, 71, rfl⟩
abbrev main_call1_call0_v0 : Ref sig .tc := ⟨.hbm, 72, rfl⟩
abbrev main_call1_call0_v1 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_cst_5 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_call2_cst : Ref sig .tc := ⟨.hbm, 91, rfl⟩
abbrev main_call2_v0 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_cst_6 : Ref sig .tc := ⟨.hbm, 106, rfl⟩
abbrev main_v61 : Ref sig .tc := ⟨.hbm, 107, rfl⟩
abbrev main_cst_7 : Ref sig .tc := ⟨.hbm, 108, rfl⟩
abbrev main_v62 : Ref sig .tc := ⟨.hbm, 109, rfl⟩
abbrev main_v63 : Ref sig .tc := ⟨.hbm, 110, rfl⟩
abbrev main_c_8 : Ref sig .tc := ⟨.hbm, 111, rfl⟩
abbrev main_call3_cst : Ref sig .tc := ⟨.hbm, 112, rfl⟩
abbrev main_call3_v0 : Ref sig .tc := ⟨.hbm, 113, rfl⟩
abbrev main_call3_v1 : Ref sig .tc := ⟨.hbm, 114, rfl⟩
abbrev main_call3_cst_0 : Ref sig .tc := ⟨.hbm, 115, rfl⟩
abbrev main_call3_v2 : Ref sig .tc := ⟨.hbm, 116, rfl⟩
abbrev main_call3_v3 : Ref sig .tc := ⟨.hbm, 117, rfl⟩
abbrev main_call3_v4 : Ref sig .tc := ⟨.hbm, 118, rfl⟩
abbrev main_call3_v5 : Ref sig .tc := ⟨.hbm, 119, rfl⟩
abbrev main_call3_v6 : Ref sig .tc := ⟨.hbm, 120, rfl⟩
abbrev main_call3_v7 : Ref sig .tc := ⟨.hbm, 121, rfl⟩
abbrev main_call3_cst_1 : Ref sig .tc := ⟨.hbm, 122, rfl⟩
abbrev main_call3_v8 : Ref sig .tc := ⟨.hbm, 123, rfl⟩
abbrev main_call3_cst_2 : Ref sig .tc := ⟨.hbm, 124, rfl⟩
abbrev main_call3_v9 : Ref sig .tc := ⟨.hbm, 125, rfl⟩
abbrev main_call3_v10 : Ref sig .tc := ⟨.hbm, 126, rfl⟩
abbrev main_call3_v11 : Ref sig .tc := ⟨.hbm, 127, rfl⟩
abbrev main_call3_cst_3 : Ref sig .tc := ⟨.hbm, 128, rfl⟩
abbrev main_call3_v12 : Ref sig .tc := ⟨.hbm, 129, rfl⟩
abbrev main_call3_cst_4 : Ref sig .tc := ⟨.hbm, 130, rfl⟩
abbrev main_call3_call0_v0 : Ref sig .tc := ⟨.hbm, 131, rfl⟩
abbrev main_call3_call0_v1 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_cst_9 : Ref sig .tc := ⟨.hbm, 137, rfl⟩
abbrev main_v68 : Ref sig .tc := ⟨.hbm, 138, rfl⟩
abbrev main_v69 : Ref sig .tc := ⟨.hbm, 139, rfl⟩
abbrev main_v70 : Ref sig .tc := ⟨.hbm, 140, rfl⟩
abbrev main_v71 : Ref sig .tc := ⟨.hbm, 141, rfl⟩
abbrev main_v72 : Ref sig .tc := ⟨.hbm, 142, rfl⟩
abbrev main_v73 : Ref sig .tc := ⟨.hbm, 143, rfl⟩
abbrev main_v74 : Ref sig .tc := ⟨.hbm, 144, rfl⟩
abbrev main_v75 : Ref sig .tc := ⟨.hbm, 145, rfl⟩
abbrev main_v76 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_call4_cst : Ref sig .tc := ⟨.hbm, 150, rfl⟩
abbrev main_call4_v0 : Ref sig .tc := ⟨.hbm, 151, rfl⟩
abbrev main_v80 : Ref sig .tc := ⟨.hbm, 152, rfl⟩
abbrev main_c_10 : Ref sig .tc := ⟨.hbm, 153, rfl⟩
abbrev main_v81 : Ref sig .tc := ⟨.hbm, 154, rfl⟩
abbrev main_v82 : Ref sig .tc := ⟨.hbm, 155, rfl⟩
abbrev main_c_11 : Ref sig .tc := ⟨.hbm, 156, rfl⟩
abbrev main_v83 : Ref sig .tc := ⟨.hbm, 157, rfl⟩
abbrev main_v84 : Ref sig .tc := ⟨.hbm, 158, rfl⟩
abbrev main_v85 : Ref sig .tc := ⟨.hbm, 159, rfl⟩
abbrev main_v86 : Ref sig .tc := ⟨.hbm, 160, rfl⟩
abbrev main_v87 : Ref sig .tc := ⟨.hbm, 161, rfl⟩
abbrev main_call5_cst : Ref sig .tc := ⟨.hbm, 162, rfl⟩
abbrev main_call5_v0 : Ref sig .tc := ⟨.hbm, 163, rfl⟩
abbrev main_v88 : Ref sig .tc := ⟨.hbm, 164, rfl⟩
abbrev main_cst_12 : Ref sig .tc := ⟨.hbm, 165, rfl⟩
abbrev main_v89 : Ref sig .tc := ⟨.hbm, 166, rfl⟩
abbrev main_v90 : Ref sig .tc := ⟨.hbm, 167, rfl⟩
abbrev main_v91 : Ref sig .tc := ⟨.hbm, 168, rfl⟩
abbrev main_v92 : Ref sig .tc := ⟨.hbm, 169, rfl⟩
abbrev main_v93 : Ref sig .tc := ⟨.hbm, 170, rfl⟩
abbrev main_cst_13 : Ref sig .tc := ⟨.hbm, 171, rfl⟩
abbrev main_v94 : Ref sig .tc := ⟨.hbm, 172, rfl⟩
abbrev main_v95 : Ref sig .tc := ⟨.hbm, 173, rfl⟩
abbrev main_v96 : Ref sig .tc := ⟨.hbm, 174, rfl⟩
abbrev main_v97 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_v101 : Ref sig .tc := ⟨.hbm, 179, rfl⟩
abbrev main_v102 : Ref sig .tc := ⟨.hbm, 180, rfl⟩
abbrev main_v103 : Ref sig .tc := ⟨.hbm, 181, rfl⟩
abbrev main_v104 : Ref sig .tc := ⟨.hbm, 182, rfl⟩
abbrev main_v105 : Ref sig .tc := ⟨.hbm, 183, rfl⟩
abbrev main_v106 : Ref sig .tc := ⟨.hbm, 184, rfl⟩
abbrev main_v107 : Ref sig .tc := ⟨.hbm, 185, rfl⟩
abbrev main_v108 : Ref sig .tc := ⟨.hbm, 186, rfl⟩
abbrev main_v109 : Ref sig .tc := ⟨.hbm, 187, rfl⟩
abbrev main_cst_14 : Ref sig .tc := ⟨.hbm, 188, rfl⟩
abbrev main_v110 : Ref sig .tc := ⟨.hbm, 189, rfl⟩
abbrev main_cst_15 : Ref sig .tc := ⟨.hbm, 190, rfl⟩
abbrev main_v111 : Ref sig .tc := ⟨.hbm, 191, rfl⟩
abbrev main_v112 : Ref sig .tc := ⟨.hbm, 192, rfl⟩
abbrev main_c_16 : Ref sig .tc := ⟨.hbm, 193, rfl⟩
abbrev main_call6_cst : Ref sig .tc := ⟨.hbm, 194, rfl⟩
abbrev main_call6_v0 : Ref sig .tc := ⟨.hbm, 195, rfl⟩
abbrev main_call6_v1 : Ref sig .tc := ⟨.hbm, 196, rfl⟩
abbrev main_call6_cst_0 : Ref sig .tc := ⟨.hbm, 197, rfl⟩
abbrev main_call6_v2 : Ref sig .tc := ⟨.hbm, 198, rfl⟩
abbrev main_call6_v3 : Ref sig .tc := ⟨.hbm, 199, rfl⟩
abbrev main_call6_v4 : Ref sig .tc := ⟨.hbm, 200, rfl⟩
abbrev main_call6_v5 : Ref sig .tc := ⟨.hbm, 201, rfl⟩
abbrev main_call6_v6 : Ref sig .tc := ⟨.hbm, 202, rfl⟩
abbrev main_call6_v7 : Ref sig .tc := ⟨.hbm, 203, rfl⟩
abbrev main_call6_cst_1 : Ref sig .tc := ⟨.hbm, 204, rfl⟩
abbrev main_call6_v8 : Ref sig .tc := ⟨.hbm, 205, rfl⟩
abbrev main_call6_cst_2 : Ref sig .tc := ⟨.hbm, 206, rfl⟩
abbrev main_call6_v9 : Ref sig .tc := ⟨.hbm, 207, rfl⟩
abbrev main_call6_v10 : Ref sig .tc := ⟨.hbm, 208, rfl⟩
abbrev main_call6_v11 : Ref sig .tc := ⟨.hbm, 209, rfl⟩
abbrev main_call6_cst_3 : Ref sig .tc := ⟨.hbm, 210, rfl⟩
abbrev main_call6_v12 : Ref sig .tc := ⟨.hbm, 211, rfl⟩
abbrev main_call6_cst_4 : Ref sig .tc := ⟨.hbm, 212, rfl⟩
abbrev main_call6_call0_v0 : Ref sig .tc := ⟨.hbm, 213, rfl⟩
abbrev main_call6_call0_v1 : Ref sig .tc := ⟨.hbm, 214, rfl⟩
abbrev main_v113 : Ref sig .tc := ⟨.hbm, 215, rfl⟩
abbrev main_v114 : Ref sig .tc := ⟨.hbm, 216, rfl⟩
abbrev main_v115 : Ref sig .tc := ⟨.hbm, 217, rfl⟩
abbrev main_v116 : Ref sig .tc := ⟨.hbm, 218, rfl⟩
abbrev main_cst_17 : Ref sig .tc := ⟨.hbm, 219, rfl⟩
abbrev main_v117 : Ref sig .tc := ⟨.hbm, 220, rfl⟩
abbrev main_v118 : Ref sig .tc := ⟨.hbm, 221, rfl⟩
abbrev main_v119 : Ref sig .tc := ⟨.hbm, 222, rfl⟩
abbrev main_v120 : Ref sig .tc := ⟨.hbm, 223, rfl⟩
abbrev main_v121 : Ref sig .tc := ⟨.hbm, 224, rfl⟩
abbrev main_v122 : Ref sig .tc := ⟨.hbm, 225, rfl⟩
abbrev main_v123 : Ref sig .tc := ⟨.hbm, 226, rfl⟩
abbrev main_v124 : Ref sig .tc := ⟨.hbm, 227, rfl⟩
abbrev main_v125 : Ref sig .tc := ⟨.hbm, 228, rfl⟩
abbrev main_v126 : Ref sig .tc := ⟨.hbm, 229, rfl⟩
abbrev main_v127 : Ref sig .tc := ⟨.hbm, 230, rfl⟩
abbrev main_v128 : Ref sig .tc := ⟨.hbm, 231, rfl⟩
abbrev main_call7_cst : Ref sig .tc := ⟨.hbm, 232, rfl⟩
abbrev main_call7_v0 : Ref sig .tc := ⟨.hbm, 233, rfl⟩
abbrev main_v129 : Ref sig .tc := ⟨.hbm, 234, rfl⟩
abbrev main_v130 : Ref sig .tc := ⟨.hbm, 235, rfl⟩
abbrev main_v131 : Ref sig .tc := ⟨.hbm, 236, rfl⟩
abbrev main_v132 : Ref sig .tc := ⟨.hbm, 237, rfl⟩
abbrev main_v133 : Ref sig .tc := ⟨.hbm, 238, rfl⟩
abbrev main_v134 : Ref sig .tc := ⟨.hbm, 239, rfl⟩
abbrev main_v135 : Ref sig .tc := ⟨.hbm, 240, rfl⟩
abbrev main_v136 : Ref sig .tc := ⟨.hbm, 241, rfl⟩
abbrev main_v137 : Ref sig .tc := ⟨.hbm, 242, rfl⟩
abbrev main_v138 : Ref sig .tc := ⟨.hbm, 243, rfl⟩
abbrev main_v139 : Ref sig .tc := ⟨.hbm, 244, rfl⟩
abbrev main_v140 : Ref sig .tc := ⟨.hbm, 245, rfl⟩
abbrev main_v141 : Ref sig .tc := ⟨.hbm, 246, rfl⟩
abbrev main_cst_18 : Ref sig .tc := ⟨.hbm, 247, rfl⟩
abbrev main_v142 : Ref sig .tc := ⟨.hbm, 248, rfl⟩
abbrev main_cst_19 : Ref sig .tc := ⟨.hbm, 249, rfl⟩
abbrev main_v143 : Ref sig .tc := ⟨.hbm, 250, rfl⟩
abbrev main_v144 : Ref sig .tc := ⟨.hbm, 251, rfl⟩
abbrev main_c_20 : Ref sig .tc := ⟨.hbm, 252, rfl⟩
abbrev main_call8_cst : Ref sig .tc := ⟨.hbm, 253, rfl⟩
abbrev main_call8_v0 : Ref sig .tc := ⟨.hbm, 254, rfl⟩
abbrev main_call8_v1 : Ref sig .tc := ⟨.hbm, 255, rfl⟩
abbrev main_call8_cst_0 : Ref sig .tc := ⟨.hbm, 256, rfl⟩
abbrev main_call8_v2 : Ref sig .tc := ⟨.hbm, 257, rfl⟩
abbrev main_call8_v3 : Ref sig .tc := ⟨.hbm, 258, rfl⟩
abbrev main_call8_v4 : Ref sig .tc := ⟨.hbm, 259, rfl⟩
abbrev main_call8_v5 : Ref sig .tc := ⟨.hbm, 260, rfl⟩
abbrev main_call8_v6 : Ref sig .tc := ⟨.hbm, 261, rfl⟩
abbrev main_call8_v7 : Ref sig .tc := ⟨.hbm, 262, rfl⟩
abbrev main_call8_cst_1 : Ref sig .tc := ⟨.hbm, 263, rfl⟩
abbrev main_call8_v8 : Ref sig .tc := ⟨.hbm, 264, rfl⟩
abbrev main_call8_cst_2 : Ref sig .tc := ⟨.hbm, 265, rfl⟩
abbrev main_call8_v9 : Ref sig .tc := ⟨.hbm, 266, rfl⟩
abbrev main_call8_v10 : Ref sig .tc := ⟨.hbm, 267, rfl⟩
abbrev main_call8_v11 : Ref sig .tc := ⟨.hbm, 268, rfl⟩
abbrev main_call8_cst_3 : Ref sig .tc := ⟨.hbm, 269, rfl⟩
abbrev main_call8_v12 : Ref sig .tc := ⟨.hbm, 270, rfl⟩
abbrev main_call8_cst_4 : Ref sig .tc := ⟨.hbm, 271, rfl⟩
abbrev main_call8_call0_v0 : Ref sig .tc := ⟨.hbm, 272, rfl⟩
abbrev main_call8_call0_v1 : Ref sig .tc := ⟨.hbm, 273, rfl⟩
abbrev main_v145 : Ref sig .tc := ⟨.hbm, 274, rfl⟩
abbrev main_v146 : Ref sig .tc := ⟨.hbm, 275, rfl⟩
abbrev main_v147 : Ref sig .tc := ⟨.hbm, 276, rfl⟩
abbrev main_v148 : Ref sig .tc := ⟨.hbm, 277, rfl⟩
abbrev main_cst_21 : Ref sig .tc := ⟨.hbm, 278, rfl⟩
abbrev main_v149 : Ref sig .tc := ⟨.hbm, 279, rfl⟩
abbrev main_v150 : Ref sig .tc := ⟨.hbm, 280, rfl⟩
abbrev main_v151 : Ref sig .tc := ⟨.hbm, 281, rfl⟩
abbrev main_v152 : Ref sig .tc := ⟨.hbm, 282, rfl⟩
abbrev main_v153 : Ref sig .tc := ⟨.hbm, 283, rfl⟩
abbrev main_v154 : Ref sig .tc := ⟨.hbm, 284, rfl⟩
abbrev main_v155 : Ref sig .tc := ⟨.hbm, 285, rfl⟩
abbrev main_v156 : Ref sig .tc := ⟨.hbm, 286, rfl⟩
abbrev main_v157 : Ref sig .tc := ⟨.hbm, 287, rfl⟩
abbrev main_v158 : Ref sig .tc := ⟨.hbm, 288, rfl⟩
abbrev main_v159 : Ref sig .tc := ⟨.hbm, 289, rfl⟩
abbrev main_v160 : Ref sig .tc := ⟨.hbm, 290, rfl⟩
abbrev main_call9_cst : Ref sig .tc := ⟨.hbm, 291, rfl⟩
abbrev main_call9_v0 : Ref sig .tc := ⟨.hbm, 292, rfl⟩
abbrev main_v161 : Ref sig .tc := ⟨.hbm, 293, rfl⟩
abbrev main_c_22 : Ref sig .tc := ⟨.hbm, 294, rfl⟩
abbrev main_v162 : Ref sig .tc := ⟨.hbm, 295, rfl⟩
abbrev main_v163 : Ref sig .tc := ⟨.hbm, 296, rfl⟩
abbrev main_c_23 : Ref sig .tc := ⟨.hbm, 297, rfl⟩
abbrev main_v164 : Ref sig .tc := ⟨.hbm, 298, rfl⟩
abbrev main_v165 : Ref sig .tc := ⟨.hbm, 299, rfl⟩
abbrev main_v166 : Ref sig .tc := ⟨.hbm, 300, rfl⟩
abbrev main_v167 : Ref sig .tc := ⟨.hbm, 301, rfl⟩
abbrev main_v168 : Ref sig .tc := ⟨.hbm, 302, rfl⟩
abbrev main_call10_cst : Ref sig .tc := ⟨.hbm, 303, rfl⟩
abbrev main_call10_v0 : Ref sig .tc := ⟨.hbm, 304, rfl⟩
abbrev main_v169 : Ref sig .tc := ⟨.hbm, 305, rfl⟩
abbrev main_cst_24 : Ref sig .tc := ⟨.hbm, 306, rfl⟩
abbrev main_v170 : Ref sig .tc := ⟨.hbm, 307, rfl⟩
abbrev main_v171 : Ref sig .tc := ⟨.hbm, 308, rfl⟩
abbrev main_v172 : Ref sig .tc := ⟨.hbm, 309, rfl⟩
abbrev main_v173 : Ref sig .tc := ⟨.hbm, 310, rfl⟩
abbrev main_v174 : Ref sig .tc := ⟨.hbm, 311, rfl⟩
abbrev main_cst_25 : Ref sig .tc := ⟨.hbm, 312, rfl⟩
abbrev main_v175 : Ref sig .tc := ⟨.hbm, 313, rfl⟩
abbrev main_v176 : Ref sig .tc := ⟨.hbm, 314, rfl⟩
abbrev main_v177 : Ref sig .tc := ⟨.hbm, 315, rfl⟩
abbrev main_v178 : Ref sig .tc := ⟨.hbm, 316, rfl⟩
abbrev main_v179 : Ref sig .tc := ⟨.hbm, 317, rfl⟩
abbrev main_v180 : Ref sig .tc := ⟨.hbm, 318, rfl⟩
abbrev main_v181 : Ref sig .tc := ⟨.hbm, 319, rfl⟩
abbrev main_v182 : Ref sig .tc := ⟨.hbm, 320, rfl⟩
abbrev main_v183 : Ref sig .tc := ⟨.hbm, 321, rfl⟩
abbrev main_v184 : Ref sig .tc := ⟨.hbm, 322, rfl⟩
abbrev main_v185 : Ref sig .tc := ⟨.hbm, 323, rfl⟩
abbrev main_v186 : Ref sig .tc := ⟨.hbm, 324, rfl⟩
abbrev main_v187 : Ref sig .tc := ⟨.hbm, 325, rfl⟩
abbrev main_v188 : Ref sig .tc := ⟨.hbm, 326, rfl⟩
abbrev main_v189 : Ref sig .tc := ⟨.hbm, 327, rfl⟩
abbrev main_v190 : Ref sig .tc := ⟨.hbm, 328, rfl⟩
abbrev main_cst_26 : Ref sig .tc := ⟨.hbm, 329, rfl⟩
abbrev main_v191 : Ref sig .tc := ⟨.hbm, 330, rfl⟩
abbrev main_cst_27 : Ref sig .tc := ⟨.hbm, 331, rfl⟩
abbrev main_v192 : Ref sig .tc := ⟨.hbm, 332, rfl⟩
abbrev main_v193 : Ref sig .tc := ⟨.hbm, 333, rfl⟩
abbrev main_c_28 : Ref sig .tc := ⟨.hbm, 334, rfl⟩
abbrev main_call11_cst : Ref sig .tc := ⟨.hbm, 335, rfl⟩
abbrev main_call11_v0 : Ref sig .tc := ⟨.hbm, 336, rfl⟩
abbrev main_call11_v1 : Ref sig .tc := ⟨.hbm, 337, rfl⟩
abbrev main_call11_cst_0 : Ref sig .tc := ⟨.hbm, 338, rfl⟩
abbrev main_call11_v2 : Ref sig .tc := ⟨.hbm, 339, rfl⟩
abbrev main_call11_v3 : Ref sig .tc := ⟨.hbm, 340, rfl⟩
abbrev main_call11_v4 : Ref sig .tc := ⟨.hbm, 341, rfl⟩
abbrev main_call11_v5 : Ref sig .tc := ⟨.hbm, 342, rfl⟩
abbrev main_call11_v6 : Ref sig .tc := ⟨.hbm, 343, rfl⟩
abbrev main_call11_v7 : Ref sig .tc := ⟨.hbm, 344, rfl⟩
abbrev main_call11_cst_1 : Ref sig .tc := ⟨.hbm, 345, rfl⟩
abbrev main_call11_v8 : Ref sig .tc := ⟨.hbm, 346, rfl⟩
abbrev main_call11_cst_2 : Ref sig .tc := ⟨.hbm, 347, rfl⟩
abbrev main_call11_v9 : Ref sig .tc := ⟨.hbm, 348, rfl⟩
abbrev main_call11_v10 : Ref sig .tc := ⟨.hbm, 349, rfl⟩
abbrev main_call11_v11 : Ref sig .tc := ⟨.hbm, 350, rfl⟩
abbrev main_call11_cst_3 : Ref sig .tc := ⟨.hbm, 351, rfl⟩
abbrev main_call11_v12 : Ref sig .tc := ⟨.hbm, 352, rfl⟩
abbrev main_call11_cst_4 : Ref sig .tc := ⟨.hbm, 353, rfl⟩
abbrev main_call11_call0_v0 : Ref sig .tc := ⟨.hbm, 354, rfl⟩
abbrev main_call11_call0_v1 : Ref sig .tc := ⟨.hbm, 355, rfl⟩
abbrev main_v194 : Ref sig .tc := ⟨.hbm, 356, rfl⟩
abbrev main_v195 : Ref sig .tc := ⟨.hbm, 357, rfl⟩
abbrev main_v196 : Ref sig .tc := ⟨.hbm, 358, rfl⟩
abbrev main_v197 : Ref sig .tc := ⟨.hbm, 359, rfl⟩
abbrev main_cst_29 : Ref sig .tc := ⟨.hbm, 360, rfl⟩
abbrev main_v198 : Ref sig .tc := ⟨.hbm, 361, rfl⟩
abbrev main_v199 : Ref sig .tc := ⟨.hbm, 362, rfl⟩
abbrev main_v200 : Ref sig .tc := ⟨.hbm, 363, rfl⟩
abbrev main_v201 : Ref sig .tc := ⟨.hbm, 364, rfl⟩
abbrev main_v202 : Ref sig .tc := ⟨.hbm, 365, rfl⟩
abbrev main_v203 : Ref sig .tc := ⟨.hbm, 366, rfl⟩
abbrev main_v204 : Ref sig .tc := ⟨.hbm, 367, rfl⟩
abbrev main_v205 : Ref sig .tc := ⟨.hbm, 368, rfl⟩
abbrev main_v206 : Ref sig .tc := ⟨.hbm, 369, rfl⟩
abbrev main_v207 : Ref sig .tc := ⟨.hbm, 370, rfl⟩
abbrev main_v208 : Ref sig .tc := ⟨.hbm, 371, rfl⟩
abbrev main_v209 : Ref sig .tc := ⟨.hbm, 372, rfl⟩
abbrev main_call12_cst : Ref sig .tc := ⟨.hbm, 373, rfl⟩
abbrev main_call12_v0 : Ref sig .tc := ⟨.hbm, 374, rfl⟩
abbrev main_v210 : Ref sig .tc := ⟨.hbm, 375, rfl⟩
abbrev main_v211 : Ref sig .tc := ⟨.hbm, 376, rfl⟩
abbrev main_v212 : Ref sig .tc := ⟨.hbm, 377, rfl⟩
abbrev main_v213 : Ref sig .tc := ⟨.hbm, 378, rfl⟩
abbrev main_v214 : Ref sig .tc := ⟨.hbm, 379, rfl⟩
abbrev main_v215 : Ref sig .tc := ⟨.hbm, 380, rfl⟩
abbrev main_v216 : Ref sig .tc := ⟨.hbm, 381, rfl⟩
abbrev main_v217 : Ref sig .tc := ⟨.hbm, 382, rfl⟩
abbrev main_v218 : Ref sig .tc := ⟨.hbm, 383, rfl⟩
abbrev main_v219 : Ref sig .tc := ⟨.hbm, 384, rfl⟩
abbrev main_v220 : Ref sig .tc := ⟨.hbm, 385, rfl⟩
abbrev main_v221 : Ref sig .tc := ⟨.hbm, 386, rfl⟩
abbrev main_v222 : Ref sig .tc := ⟨.hbm, 387, rfl⟩
abbrev main_cst_30 : Ref sig .tc := ⟨.hbm, 388, rfl⟩
abbrev main_v223 : Ref sig .tc := ⟨.hbm, 389, rfl⟩
abbrev main_cst_31 : Ref sig .tc := ⟨.hbm, 390, rfl⟩
abbrev main_v224 : Ref sig .tc := ⟨.hbm, 391, rfl⟩
abbrev main_v225 : Ref sig .tc := ⟨.hbm, 392, rfl⟩
abbrev main_c_32 : Ref sig .tc := ⟨.hbm, 393, rfl⟩
abbrev main_call13_cst : Ref sig .tc := ⟨.hbm, 394, rfl⟩
abbrev main_call13_v0 : Ref sig .tc := ⟨.hbm, 395, rfl⟩
abbrev main_call13_v1 : Ref sig .tc := ⟨.hbm, 396, rfl⟩
abbrev main_call13_cst_0 : Ref sig .tc := ⟨.hbm, 397, rfl⟩
abbrev main_call13_v2 : Ref sig .tc := ⟨.hbm, 398, rfl⟩
abbrev main_call13_v3 : Ref sig .tc := ⟨.hbm, 399, rfl⟩
abbrev main_call13_v4 : Ref sig .tc := ⟨.hbm, 400, rfl⟩
abbrev main_call13_v5 : Ref sig .tc := ⟨.hbm, 401, rfl⟩
abbrev main_call13_v6 : Ref sig .tc := ⟨.hbm, 402, rfl⟩
abbrev main_call13_v7 : Ref sig .tc := ⟨.hbm, 403, rfl⟩
abbrev main_call13_cst_1 : Ref sig .tc := ⟨.hbm, 404, rfl⟩
abbrev main_call13_v8 : Ref sig .tc := ⟨.hbm, 405, rfl⟩
abbrev main_call13_cst_2 : Ref sig .tc := ⟨.hbm, 406, rfl⟩
abbrev main_call13_v9 : Ref sig .tc := ⟨.hbm, 407, rfl⟩
abbrev main_call13_v10 : Ref sig .tc := ⟨.hbm, 408, rfl⟩
abbrev main_call13_v11 : Ref sig .tc := ⟨.hbm, 409, rfl⟩
abbrev main_call13_cst_3 : Ref sig .tc := ⟨.hbm, 410, rfl⟩
abbrev main_call13_v12 : Ref sig .tc := ⟨.hbm, 411, rfl⟩
abbrev main_call13_cst_4 : Ref sig .tc := ⟨.hbm, 412, rfl⟩
abbrev main_call13_call0_v0 : Ref sig .tc := ⟨.hbm, 413, rfl⟩
abbrev main_call13_call0_v1 : Ref sig .tc := ⟨.hbm, 414, rfl⟩
abbrev main_v226 : Ref sig .tc := ⟨.hbm, 415, rfl⟩
abbrev main_v227 : Ref sig .tc := ⟨.hbm, 416, rfl⟩
abbrev main_v228 : Ref sig .tc := ⟨.hbm, 417, rfl⟩
abbrev main_v229 : Ref sig .tc := ⟨.hbm, 418, rfl⟩
abbrev main_cst_33 : Ref sig .tc := ⟨.hbm, 419, rfl⟩
abbrev main_v230 : Ref sig .tc := ⟨.hbm, 420, rfl⟩
abbrev main_v231 : Ref sig .tc := ⟨.hbm, 421, rfl⟩
abbrev main_v232 : Ref sig .tc := ⟨.hbm, 422, rfl⟩
abbrev main_v233 : Ref sig .tc := ⟨.hbm, 423, rfl⟩
abbrev main_v234 : Ref sig .tc := ⟨.hbm, 424, rfl⟩
abbrev main_v235 : Ref sig .tc := ⟨.hbm, 425, rfl⟩
abbrev main_v236 : Ref sig .tc := ⟨.hbm, 426, rfl⟩
abbrev main_v237 : Ref sig .tc := ⟨.hbm, 427, rfl⟩
abbrev main_v238 : Ref sig .tc := ⟨.hbm, 428, rfl⟩
abbrev main_v239 : Ref sig .tc := ⟨.hbm, 429, rfl⟩
abbrev main_v240 : Ref sig .tc := ⟨.hbm, 430, rfl⟩
abbrev main_v241 : Ref sig .tc := ⟨.hbm, 431, rfl⟩
abbrev main_call14_cst : Ref sig .tc := ⟨.hbm, 432, rfl⟩
abbrev main_call14_v0 : Ref sig .tc := ⟨.hbm, 433, rfl⟩
abbrev main_v242 : Ref sig .tc := ⟨.hbm, 434, rfl⟩
abbrev main_c_34 : Ref sig .tc := ⟨.hbm, 435, rfl⟩
abbrev main_v243 : Ref sig .tc := ⟨.hbm, 436, rfl⟩
abbrev main_v244 : Ref sig .tc := ⟨.hbm, 437, rfl⟩
abbrev main_c_35 : Ref sig .tc := ⟨.hbm, 438, rfl⟩
abbrev main_v245 : Ref sig .tc := ⟨.hbm, 439, rfl⟩
abbrev main_v246 : Ref sig .tc := ⟨.hbm, 440, rfl⟩
abbrev main_v247 : Ref sig .tc := ⟨.hbm, 441, rfl⟩
abbrev main_v248 : Ref sig .tc := ⟨.hbm, 442, rfl⟩
abbrev main_v249 : Ref sig .tc := ⟨.hbm, 443, rfl⟩
abbrev main_call15_cst : Ref sig .tc := ⟨.hbm, 444, rfl⟩
abbrev main_call15_v0 : Ref sig .tc := ⟨.hbm, 445, rfl⟩
abbrev main_v250 : Ref sig .tc := ⟨.hbm, 446, rfl⟩
abbrev main_cst_36 : Ref sig .tc := ⟨.hbm, 447, rfl⟩
abbrev main_v251 : Ref sig .tc := ⟨.hbm, 448, rfl⟩
abbrev main_v252 : Ref sig .tc := ⟨.hbm, 449, rfl⟩
abbrev main_v253 : Ref sig .tc := ⟨.hbm, 450, rfl⟩
abbrev main_v254 : Ref sig .tc := ⟨.hbm, 451, rfl⟩
abbrev main_v255 : Ref sig .tc := ⟨.hbm, 452, rfl⟩
abbrev main_cst_37 : Ref sig .tc := ⟨.hbm, 453, rfl⟩
abbrev main_v256 : Ref sig .tc := ⟨.hbm, 454, rfl⟩
abbrev main_v257 : Ref sig .tc := ⟨.hbm, 455, rfl⟩
abbrev main_v258 : Ref sig .tc := ⟨.hbm, 456, rfl⟩
abbrev main_v259 : Ref sig .tc := ⟨.hbm, 457, rfl⟩
abbrev main_v260 : Ref sig .tc := ⟨.hbm, 458, rfl⟩
abbrev main_v261 : Ref sig .tc := ⟨.hbm, 459, rfl⟩
abbrev main_v262 : Ref sig .tc := ⟨.hbm, 460, rfl⟩
abbrev main_v263 : Ref sig .tc := ⟨.hbm, 461, rfl⟩
abbrev main_v264 : Ref sig .tc := ⟨.hbm, 462, rfl⟩
abbrev main_v265 : Ref sig .tc := ⟨.hbm, 463, rfl⟩
abbrev main_v266 : Ref sig .tc := ⟨.hbm, 464, rfl⟩
abbrev main_v267 : Ref sig .tc := ⟨.hbm, 465, rfl⟩
abbrev main_v268 : Ref sig .tc := ⟨.hbm, 466, rfl⟩
abbrev main_v269 : Ref sig .tc := ⟨.hbm, 467, rfl⟩
abbrev main_v270 : Ref sig .tc := ⟨.hbm, 468, rfl⟩
abbrev main_v271 : Ref sig .tc := ⟨.hbm, 469, rfl⟩
abbrev main_cst_38 : Ref sig .tc := ⟨.hbm, 470, rfl⟩
abbrev main_v272 : Ref sig .tc := ⟨.hbm, 471, rfl⟩
abbrev main_cst_39 : Ref sig .tc := ⟨.hbm, 472, rfl⟩
abbrev main_v273 : Ref sig .tc := ⟨.hbm, 473, rfl⟩
abbrev main_v274 : Ref sig .tc := ⟨.hbm, 474, rfl⟩
abbrev main_c_40 : Ref sig .tc := ⟨.hbm, 475, rfl⟩
abbrev main_call16_cst : Ref sig .tc := ⟨.hbm, 476, rfl⟩
abbrev main_call16_v0 : Ref sig .tc := ⟨.hbm, 477, rfl⟩
abbrev main_call16_v1 : Ref sig .tc := ⟨.hbm, 478, rfl⟩
abbrev main_call16_cst_0 : Ref sig .tc := ⟨.hbm, 479, rfl⟩
abbrev main_call16_v2 : Ref sig .tc := ⟨.hbm, 480, rfl⟩
abbrev main_call16_v3 : Ref sig .tc := ⟨.hbm, 481, rfl⟩
abbrev main_call16_v4 : Ref sig .tc := ⟨.hbm, 482, rfl⟩
abbrev main_call16_v5 : Ref sig .tc := ⟨.hbm, 483, rfl⟩
abbrev main_call16_v6 : Ref sig .tc := ⟨.hbm, 484, rfl⟩
abbrev main_call16_v7 : Ref sig .tc := ⟨.hbm, 485, rfl⟩
abbrev main_call16_cst_1 : Ref sig .tc := ⟨.hbm, 486, rfl⟩
abbrev main_call16_v8 : Ref sig .tc := ⟨.hbm, 487, rfl⟩
abbrev main_call16_cst_2 : Ref sig .tc := ⟨.hbm, 488, rfl⟩
abbrev main_call16_v9 : Ref sig .tc := ⟨.hbm, 489, rfl⟩
abbrev main_call16_v10 : Ref sig .tc := ⟨.hbm, 490, rfl⟩
abbrev main_call16_v11 : Ref sig .tc := ⟨.hbm, 491, rfl⟩
abbrev main_call16_cst_3 : Ref sig .tc := ⟨.hbm, 492, rfl⟩
abbrev main_call16_v12 : Ref sig .tc := ⟨.hbm, 493, rfl⟩
abbrev main_call16_cst_4 : Ref sig .tc := ⟨.hbm, 494, rfl⟩
abbrev main_call16_call0_v0 : Ref sig .tc := ⟨.hbm, 495, rfl⟩
abbrev main_call16_call0_v1 : Ref sig .tc := ⟨.hbm, 496, rfl⟩
abbrev main_v275 : Ref sig .tc := ⟨.hbm, 497, rfl⟩
abbrev main_v276 : Ref sig .tc := ⟨.hbm, 498, rfl⟩
abbrev main_v277 : Ref sig .tc := ⟨.hbm, 499, rfl⟩
abbrev main_v278 : Ref sig .tc := ⟨.hbm, 500, rfl⟩
abbrev main_cst_41 : Ref sig .tc := ⟨.hbm, 501, rfl⟩
abbrev main_v279 : Ref sig .tc := ⟨.hbm, 502, rfl⟩
abbrev main_v280 : Ref sig .tc := ⟨.hbm, 503, rfl⟩
abbrev main_v281 : Ref sig .tc := ⟨.hbm, 504, rfl⟩
abbrev main_v282 : Ref sig .tc := ⟨.hbm, 505, rfl⟩
abbrev main_v283 : Ref sig .tc := ⟨.hbm, 506, rfl⟩
abbrev main_v284 : Ref sig .tc := ⟨.hbm, 507, rfl⟩
abbrev main_v285 : Ref sig .tc := ⟨.hbm, 508, rfl⟩
abbrev main_v286 : Ref sig .tc := ⟨.hbm, 509, rfl⟩
abbrev main_v287 : Ref sig .tc := ⟨.hbm, 510, rfl⟩
abbrev main_v288 : Ref sig .tc := ⟨.hbm, 511, rfl⟩
abbrev main_v289 : Ref sig .tc := ⟨.hbm, 512, rfl⟩
abbrev main_v290 : Ref sig .tc := ⟨.hbm, 513, rfl⟩
abbrev main_call17_cst : Ref sig .tc := ⟨.hbm, 514, rfl⟩
abbrev main_call17_v0 : Ref sig .tc := ⟨.hbm, 515, rfl⟩
abbrev main_v291 : Ref sig .tc := ⟨.hbm, 516, rfl⟩
abbrev main_v292 : Ref sig .tc := ⟨.hbm, 517, rfl⟩
abbrev main_v293 : Ref sig .tc := ⟨.hbm, 518, rfl⟩
abbrev main_v294 : Ref sig .tc := ⟨.hbm, 519, rfl⟩
abbrev main_v295 : Ref sig .tc := ⟨.hbm, 520, rfl⟩
abbrev main_v296 : Ref sig .tc := ⟨.hbm, 521, rfl⟩
abbrev main_v297 : Ref sig .tc := ⟨.hbm, 522, rfl⟩
abbrev main_v298 : Ref sig .tc := ⟨.hbm, 523, rfl⟩
abbrev main_v299 : Ref sig .tc := ⟨.hbm, 524, rfl⟩
abbrev main_v300 : Ref sig .tc := ⟨.hbm, 525, rfl⟩
abbrev main_v301 : Ref sig .tc := ⟨.hbm, 526, rfl⟩
abbrev main_v302 : Ref sig .tc := ⟨.hbm, 527, rfl⟩
abbrev main_v303 : Ref sig .tc := ⟨.hbm, 528, rfl⟩
abbrev main_cst_42 : Ref sig .tc := ⟨.hbm, 529, rfl⟩
abbrev main_v304 : Ref sig .tc := ⟨.hbm, 530, rfl⟩
abbrev main_cst_43 : Ref sig .tc := ⟨.hbm, 531, rfl⟩
abbrev main_v305 : Ref sig .tc := ⟨.hbm, 532, rfl⟩
abbrev main_v306 : Ref sig .tc := ⟨.hbm, 533, rfl⟩
abbrev main_c_44 : Ref sig .tc := ⟨.hbm, 534, rfl⟩
abbrev main_call18_cst : Ref sig .tc := ⟨.hbm, 535, rfl⟩
abbrev main_call18_v0 : Ref sig .tc := ⟨.hbm, 536, rfl⟩
abbrev main_call18_v1 : Ref sig .tc := ⟨.hbm, 537, rfl⟩
abbrev main_call18_cst_0 : Ref sig .tc := ⟨.hbm, 538, rfl⟩
abbrev main_call18_v2 : Ref sig .tc := ⟨.hbm, 539, rfl⟩
abbrev main_call18_v3 : Ref sig .tc := ⟨.hbm, 540, rfl⟩
abbrev main_call18_v4 : Ref sig .tc := ⟨.hbm, 541, rfl⟩
abbrev main_call18_v5 : Ref sig .tc := ⟨.hbm, 542, rfl⟩
abbrev main_call18_v6 : Ref sig .tc := ⟨.hbm, 543, rfl⟩
abbrev main_call18_v7 : Ref sig .tc := ⟨.hbm, 544, rfl⟩
abbrev main_call18_cst_1 : Ref sig .tc := ⟨.hbm, 545, rfl⟩
abbrev main_call18_v8 : Ref sig .tc := ⟨.hbm, 546, rfl⟩
abbrev main_call18_cst_2 : Ref sig .tc := ⟨.hbm, 547, rfl⟩
abbrev main_call18_v9 : Ref sig .tc := ⟨.hbm, 548, rfl⟩
abbrev main_call18_v10 : Ref sig .tc := ⟨.hbm, 549, rfl⟩
abbrev main_call18_v11 : Ref sig .tc := ⟨.hbm, 550, rfl⟩
abbrev main_call18_cst_3 : Ref sig .tc := ⟨.hbm, 551, rfl⟩
abbrev main_call18_v12 : Ref sig .tc := ⟨.hbm, 552, rfl⟩
abbrev main_call18_cst_4 : Ref sig .tc := ⟨.hbm, 553, rfl⟩
abbrev main_call18_call0_v0 : Ref sig .tc := ⟨.hbm, 554, rfl⟩
abbrev main_call18_call0_v1 : Ref sig .tc := ⟨.hbm, 555, rfl⟩
abbrev main_v307 : Ref sig .tc := ⟨.hbm, 556, rfl⟩
abbrev main_v308 : Ref sig .tc := ⟨.hbm, 557, rfl⟩
abbrev main_v309 : Ref sig .tc := ⟨.hbm, 558, rfl⟩
abbrev main_v310 : Ref sig .tc := ⟨.hbm, 559, rfl⟩
abbrev main_cst_45 : Ref sig .tc := ⟨.hbm, 560, rfl⟩
abbrev main_v311 : Ref sig .tc := ⟨.hbm, 561, rfl⟩
abbrev main_v312 : Ref sig .tc := ⟨.hbm, 562, rfl⟩
abbrev main_v313 : Ref sig .tc := ⟨.hbm, 563, rfl⟩
abbrev main_v314 : Ref sig .tc := ⟨.hbm, 564, rfl⟩
abbrev main_v315 : Ref sig .tc := ⟨.hbm, 565, rfl⟩
abbrev main_v316 : Ref sig .tc := ⟨.hbm, 566, rfl⟩
abbrev main_v317 : Ref sig .tc := ⟨.hbm, 567, rfl⟩
abbrev main_v318 : Ref sig .tc := ⟨.hbm, 568, rfl⟩
abbrev main_v319 : Ref sig .tc := ⟨.hbm, 569, rfl⟩
abbrev main_v320 : Ref sig .tc := ⟨.hbm, 570, rfl⟩
abbrev main_v321 : Ref sig .tc := ⟨.hbm, 571, rfl⟩
abbrev main_v322 : Ref sig .tc := ⟨.hbm, 572, rfl⟩
abbrev main_call19_cst : Ref sig .tc := ⟨.hbm, 573, rfl⟩
abbrev main_call19_v0 : Ref sig .tc := ⟨.hbm, 574, rfl⟩
abbrev main_v323 : Ref sig .tc := ⟨.hbm, 575, rfl⟩
abbrev main_c_46 : Ref sig .tc := ⟨.hbm, 576, rfl⟩
abbrev main_v324 : Ref sig .tc := ⟨.hbm, 577, rfl⟩
abbrev main_v325 : Ref sig .tc := ⟨.hbm, 578, rfl⟩
abbrev main_c_47 : Ref sig .tc := ⟨.hbm, 579, rfl⟩
abbrev main_v326 : Ref sig .tc := ⟨.hbm, 580, rfl⟩
abbrev main_v327 : Ref sig .tc := ⟨.hbm, 581, rfl⟩
abbrev main_v328 : Ref sig .tc := ⟨.hbm, 582, rfl⟩
abbrev main_v329 : Ref sig .tc := ⟨.hbm, 583, rfl⟩
abbrev main_v330 : Ref sig .tc := ⟨.hbm, 584, rfl⟩
abbrev main_call20_cst : Ref sig .tc := ⟨.hbm, 585, rfl⟩
abbrev main_call20_v0 : Ref sig .tc := ⟨.hbm, 586, rfl⟩
abbrev main_v331 : Ref sig .tc := ⟨.hbm, 587, rfl⟩
abbrev main_cst_48 : Ref sig .tc := ⟨.hbm, 588, rfl⟩
abbrev main_v332 : Ref sig .tc := ⟨.hbm, 589, rfl⟩
abbrev main_v333 : Ref sig .tc := ⟨.hbm, 590, rfl⟩
abbrev main_v334 : Ref sig .tc := ⟨.hbm, 591, rfl⟩
abbrev main_v335 : Ref sig .tc := ⟨.hbm, 592, rfl⟩
abbrev main_v336 : Ref sig .tc := ⟨.hbm, 593, rfl⟩
abbrev main_cst_49 : Ref sig .tc := ⟨.hbm, 594, rfl⟩
abbrev main_v337 : Ref sig .tc := ⟨.hbm, 595, rfl⟩
abbrev main_v338 : Ref sig .tc := ⟨.hbm, 596, rfl⟩
abbrev main_v339 : Ref sig .tc := ⟨.hbm, 597, rfl⟩
abbrev main_v340 : Ref sig .tc := ⟨.hbm, 598, rfl⟩
abbrev main_v341 : Ref sig .tc := ⟨.hbm, 599, rfl⟩
abbrev main_v342 : Ref sig .tc := ⟨.hbm, 600, rfl⟩
abbrev main_v343 : Ref sig .tc := ⟨.hbm, 601, rfl⟩
abbrev main_v344 : Ref sig .tc := ⟨.hbm, 602, rfl⟩
abbrev main_v345 : Ref sig .tc := ⟨.hbm, 603, rfl⟩
abbrev main_v346 : Ref sig .tc := ⟨.hbm, 604, rfl⟩
abbrev main_v347 : Ref sig .tc := ⟨.hbm, 605, rfl⟩
abbrev main_v348 : Ref sig .tc := ⟨.hbm, 606, rfl⟩
abbrev main_v349 : Ref sig .tc := ⟨.hbm, 607, rfl⟩
abbrev main_v350 : Ref sig .tc := ⟨.hbm, 608, rfl⟩
abbrev main_v351 : Ref sig .tc := ⟨.hbm, 609, rfl⟩
abbrev main_v352 : Ref sig .tc := ⟨.hbm, 610, rfl⟩
abbrev main_cst_50 : Ref sig .tc := ⟨.hbm, 611, rfl⟩
abbrev main_v353 : Ref sig .tc := ⟨.hbm, 612, rfl⟩
abbrev main_cst_51 : Ref sig .tc := ⟨.hbm, 613, rfl⟩
abbrev main_v354 : Ref sig .tc := ⟨.hbm, 614, rfl⟩
abbrev main_v355 : Ref sig .tc := ⟨.hbm, 615, rfl⟩
abbrev main_c_52 : Ref sig .tc := ⟨.hbm, 616, rfl⟩
abbrev main_call21_cst : Ref sig .tc := ⟨.hbm, 617, rfl⟩
abbrev main_call21_v0 : Ref sig .tc := ⟨.hbm, 618, rfl⟩
abbrev main_call21_v1 : Ref sig .tc := ⟨.hbm, 619, rfl⟩
abbrev main_call21_cst_0 : Ref sig .tc := ⟨.hbm, 620, rfl⟩
abbrev main_call21_v2 : Ref sig .tc := ⟨.hbm, 621, rfl⟩
abbrev main_call21_v3 : Ref sig .tc := ⟨.hbm, 622, rfl⟩
abbrev main_call21_v4 : Ref sig .tc := ⟨.hbm, 623, rfl⟩
abbrev main_call21_v5 : Ref sig .tc := ⟨.hbm, 624, rfl⟩
abbrev main_call21_v6 : Ref sig .tc := ⟨.hbm, 625, rfl⟩
abbrev main_call21_v7 : Ref sig .tc := ⟨.hbm, 626, rfl⟩
abbrev main_call21_cst_1 : Ref sig .tc := ⟨.hbm, 627, rfl⟩
abbrev main_call21_v8 : Ref sig .tc := ⟨.hbm, 628, rfl⟩
abbrev main_call21_cst_2 : Ref sig .tc := ⟨.hbm, 629, rfl⟩
abbrev main_call21_v9 : Ref sig .tc := ⟨.hbm, 630, rfl⟩
abbrev main_call21_v10 : Ref sig .tc := ⟨.hbm, 631, rfl⟩
abbrev main_call21_v11 : Ref sig .tc := ⟨.hbm, 632, rfl⟩
abbrev main_call21_cst_3 : Ref sig .tc := ⟨.hbm, 633, rfl⟩
abbrev main_call21_v12 : Ref sig .tc := ⟨.hbm, 634, rfl⟩
abbrev main_call21_cst_4 : Ref sig .tc := ⟨.hbm, 635, rfl⟩
abbrev main_call21_call0_v0 : Ref sig .tc := ⟨.hbm, 636, rfl⟩
abbrev main_call21_call0_v1 : Ref sig .tc := ⟨.hbm, 637, rfl⟩
abbrev main_v356 : Ref sig .tc := ⟨.hbm, 638, rfl⟩
abbrev main_v357 : Ref sig .tc := ⟨.hbm, 639, rfl⟩
abbrev main_v358 : Ref sig .tc := ⟨.hbm, 640, rfl⟩
abbrev main_v359 : Ref sig .tc := ⟨.hbm, 641, rfl⟩
abbrev main_cst_53 : Ref sig .tc := ⟨.hbm, 642, rfl⟩
abbrev main_v360 : Ref sig .tc := ⟨.hbm, 643, rfl⟩
abbrev main_v361 : Ref sig .tc := ⟨.hbm, 644, rfl⟩
abbrev main_v362 : Ref sig .tc := ⟨.hbm, 645, rfl⟩
abbrev main_v363 : Ref sig .tc := ⟨.hbm, 646, rfl⟩
abbrev main_v364 : Ref sig .tc := ⟨.hbm, 647, rfl⟩
abbrev main_v365 : Ref sig .tc := ⟨.hbm, 648, rfl⟩
abbrev main_v366 : Ref sig .tc := ⟨.hbm, 649, rfl⟩
abbrev main_v367 : Ref sig .tc := ⟨.hbm, 650, rfl⟩
abbrev main_v368 : Ref sig .tc := ⟨.hbm, 651, rfl⟩
abbrev main_v369 : Ref sig .tc := ⟨.hbm, 652, rfl⟩
abbrev main_v370 : Ref sig .tc := ⟨.hbm, 653, rfl⟩
abbrev main_v371 : Ref sig .tc := ⟨.hbm, 654, rfl⟩
abbrev main_call22_cst : Ref sig .tc := ⟨.hbm, 655, rfl⟩
abbrev main_call22_v0 : Ref sig .tc := ⟨.hbm, 656, rfl⟩
abbrev main_v372 : Ref sig .tc := ⟨.hbm, 657, rfl⟩
abbrev main_v373 : Ref sig .tc := ⟨.hbm, 658, rfl⟩
abbrev main_v374 : Ref sig .tc := ⟨.hbm, 659, rfl⟩
abbrev main_v375 : Ref sig .tc := ⟨.hbm, 660, rfl⟩
abbrev main_v376 : Ref sig .tc := ⟨.hbm, 661, rfl⟩
abbrev main_v377 : Ref sig .tc := ⟨.hbm, 662, rfl⟩
abbrev main_v378 : Ref sig .tc := ⟨.hbm, 663, rfl⟩
abbrev main_v379 : Ref sig .tc := ⟨.hbm, 664, rfl⟩
abbrev main_v380 : Ref sig .tc := ⟨.hbm, 665, rfl⟩
abbrev main_v381 : Ref sig .tc := ⟨.hbm, 666, rfl⟩
abbrev main_v382 : Ref sig .tc := ⟨.hbm, 667, rfl⟩
abbrev main_v383 : Ref sig .tc := ⟨.hbm, 668, rfl⟩
abbrev main_v384 : Ref sig .tc := ⟨.hbm, 669, rfl⟩
abbrev main_cst_54 : Ref sig .tc := ⟨.hbm, 670, rfl⟩
abbrev main_v385 : Ref sig .tc := ⟨.hbm, 671, rfl⟩
abbrev main_cst_55 : Ref sig .tc := ⟨.hbm, 672, rfl⟩
abbrev main_v386 : Ref sig .tc := ⟨.hbm, 673, rfl⟩
abbrev main_v387 : Ref sig .tc := ⟨.hbm, 674, rfl⟩
abbrev main_c_56 : Ref sig .tc := ⟨.hbm, 675, rfl⟩
abbrev main_call23_cst : Ref sig .tc := ⟨.hbm, 676, rfl⟩
abbrev main_call23_v0 : Ref sig .tc := ⟨.hbm, 677, rfl⟩
abbrev main_call23_v1 : Ref sig .tc := ⟨.hbm, 678, rfl⟩
abbrev main_call23_cst_0 : Ref sig .tc := ⟨.hbm, 679, rfl⟩
abbrev main_call23_v2 : Ref sig .tc := ⟨.hbm, 680, rfl⟩
abbrev main_call23_v3 : Ref sig .tc := ⟨.hbm, 681, rfl⟩
abbrev main_call23_v4 : Ref sig .tc := ⟨.hbm, 682, rfl⟩
abbrev main_call23_v5 : Ref sig .tc := ⟨.hbm, 683, rfl⟩
abbrev main_call23_v6 : Ref sig .tc := ⟨.hbm, 684, rfl⟩
abbrev main_call23_v7 : Ref sig .tc := ⟨.hbm, 685, rfl⟩
abbrev main_call23_cst_1 : Ref sig .tc := ⟨.hbm, 686, rfl⟩
abbrev main_call23_v8 : Ref sig .tc := ⟨.hbm, 687, rfl⟩
abbrev main_call23_cst_2 : Ref sig .tc := ⟨.hbm, 688, rfl⟩
abbrev main_call23_v9 : Ref sig .tc := ⟨.hbm, 689, rfl⟩
abbrev main_call23_v10 : Ref sig .tc := ⟨.hbm, 690, rfl⟩
abbrev main_call23_v11 : Ref sig .tc := ⟨.hbm, 691, rfl⟩
abbrev main_call23_cst_3 : Ref sig .tc := ⟨.hbm, 692, rfl⟩
abbrev main_call23_v12 : Ref sig .tc := ⟨.hbm, 693, rfl⟩
abbrev main_call23_cst_4 : Ref sig .tc := ⟨.hbm, 694, rfl⟩
abbrev main_call23_call0_v0 : Ref sig .tc := ⟨.hbm, 695, rfl⟩
abbrev main_call23_call0_v1 : Ref sig .tc := ⟨.hbm, 696, rfl⟩
abbrev main_v388 : Ref sig .tc := ⟨.hbm, 697, rfl⟩
abbrev main_v389 : Ref sig .tc := ⟨.hbm, 698, rfl⟩
abbrev main_v390 : Ref sig .tc := ⟨.hbm, 699, rfl⟩
abbrev main_v391 : Ref sig .tc := ⟨.hbm, 700, rfl⟩
abbrev main_cst_57 : Ref sig .tc := ⟨.hbm, 701, rfl⟩
abbrev main_v392 : Ref sig .tc := ⟨.hbm, 702, rfl⟩
abbrev main_v393 : Ref sig .tc := ⟨.hbm, 703, rfl⟩
abbrev main_v394 : Ref sig .tc := ⟨.hbm, 704, rfl⟩
abbrev main_v395 : Ref sig .tc := ⟨.hbm, 705, rfl⟩
abbrev main_v396 : Ref sig .tc := ⟨.hbm, 706, rfl⟩
abbrev main_v397 : Ref sig .tc := ⟨.hbm, 707, rfl⟩
abbrev main_v398 : Ref sig .tc := ⟨.hbm, 708, rfl⟩
abbrev main_v399 : Ref sig .tc := ⟨.hbm, 709, rfl⟩
abbrev main_v400 : Ref sig .tc := ⟨.hbm, 710, rfl⟩
abbrev main_v401 : Ref sig .tc := ⟨.hbm, 711, rfl⟩
abbrev main_v402 : Ref sig .tc := ⟨.hbm, 712, rfl⟩
abbrev main_v403 : Ref sig .tc := ⟨.hbm, 713, rfl⟩

abbrev nD : Nat := 1
abbrev τ : Topo := Topo.v7x

variable {F : FTy → Type} [FloatOps F]

class Facts₀ : Prop where
  bcast_S_S300000 : S_.BroadcastsInDim S300000 (![] : Fin 0 → Fin S300000.rank)
  bcast_S300000_S300000x1_0 : S300000.BroadcastsInDim S300000x1 (![0] : Fin 1 → Fin S300000x1.rank)
  bcast_S_S300000x256 : S_.BroadcastsInDim S300000x256 (![] : Fin 0 → Fin S300000x256.rank)
  bcast_S_S50000x256 : S_.BroadcastsInDim S50000x256 (![] : Fin 0 → Fin S50000x256.rank)
  slices_S5_S1_0 : S5.Slices ![0] S1
  shapeCasts_S1_S_ : S1.ShapeCasts S_
  slices_S5x256x256_S1x256x256_0_0_0 : S5x256x256.Slices ![0, 0, 0] S1x256x256
  shapeCasts_S1x256x256_S256x256 : S1x256x256.ShapeCasts S256x256
  slices_S5x256_S1x256_0_0 : S5x256.Slices ![0, 0] S1x256
  shapeCasts_S1x256_S256 : S1x256.ShapeCasts S256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  slices_S5_S1_1 : S5.Slices ![1] S1
  slices_S5x256x256_S1x256x256_1_0_0 : S5x256x256.Slices ![1, 0, 0] S1x256x256
  slices_S5x256_S1x256_1_0 : S5x256.Slices ![1, 0] S1x256
  slices_S5_S1_2 : S5.Slices ![2] S1
  slices_S5x256x256_S1x256x256_2_0_0 : S5x256x256.Slices ![2, 0, 0] S1x256x256
  slices_S5x256_S1x256_2_0 : S5x256.Slices ![2, 0] S1x256
  slices_S5_S1_3 : S5.Slices ![3] S1
  slices_S5x256x256_S1x256x256_3_0_0 : S5x256x256.Slices ![3, 0, 0] S1x256x256
  slices_S5x256_S1x256_3_0 : S5x256.Slices ![3, 0] S1x256
  slices_S5_S1_4 : S5.Slices ![4] S1
  slices_S5x256x256_S1x256x256_4_0_0 : S5x256x256.Slices ![4, 0, 0] S1x256x256
  slices_S5x256_S1x256_4_0 : S5x256.Slices ![4, 0] S1x256
  gather_S50000x256_S300000x1_S300000x256_1_0_n_n_0_1_1256_wf : GatherDims.WF S50000x256 S300000x1 S300000x256 [1] [0] [] [0] [] 1 ![1, 256]
  scatter_S50000x256_S300000x1_S300000x256_1_0_0_1_wf : ScatterDims.WF S50000x256 S300000x1 S300000x256 [1] [0] [0] 1
  dot_S50000x256_S256x256_S50000x256_1_0_0_1_n_n_wf : DotDims.WF S50000x256 S256x256 S50000x256 [1] [0] [0] [1] [] []

variable [Facts₀]

def gather_S50000x256_S300000x1_S300000x256_1_0_n_n_0_1_1256 : GatherDims S50000x256 S300000x1 S300000x256 where
  offsetDims := [1]
  collapsedSliceDims := [0]
  operandBatchingDims := []
  startIndicesBatchingDims := []
  startIndexMap := [0]
  indexVectorDim := 1
  sliceSizes := ![1, 256]
  wf := gather_S50000x256_S300000x1_S300000x256_1_0_n_n_0_1_1256_wf
def scatter_S50000x256_S300000x1_S300000x256_1_0_0_1 : ScatterDims S50000x256 S300000x1 S300000x256 where
  updateWindowDims := [1]
  insertedWindowDims := [0]
  scatterDimsToOperandDims := [0]
  indexVectorDim := 1
  wf := scatter_S50000x256_S300000x1_S300000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.RefCalls.lean ====
import proofs.«401895_j21930103014155_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev fn_relu.ops (arg0 : TRef sig ⟨S300000x256, .f32⟩) (φ : fn_relu.Bufs) : List (HloOp τ sig (Elt F)) :=
  [ TRef.nullary φ.cst (constant S_ .f32 0x00000000#32),
    TRef.unary φ.cst φ.v0 (broadcastInDim S300000x256 ![] bcast_S_S300000x256),
    TRef.binary arg0 φ.v0 φ.v1 maximumf ]

abbrev fn_where.ops (arg0 : TRef sig ⟨S_, .i1⟩) (arg1 : TRef sig ⟨S256, .f32⟩) (arg2 : TRef sig ⟨S_, .f32⟩) (φ : fn_where.Bufs) : List (HloOp τ sig (Elt F)) :=
  [ TRef.unary arg2 φ.v0 id,
    TRef.unary φ.v0 φ.v1 (broadcastInDim S256 ![] bcast_S_S256),
    TRef.ternary arg0 arg1 φ.v1 φ.v2 (fun p a b => select (broadcastInDim S256 ![] bcast_S_S256 p) a b) ]

abbrev fn_var.ops (arg0 : TRef sig ⟨S50000x256, .f32⟩) (arg1 : TRef sig ⟨S_, .i32⟩) (φ : fn_var.Bufs) : List (HloOp τ sig (Elt F)) :=
  [ TRef.nullary φ.cst (constant S_ .f32 0x00000000#32),
    TRef.binary arg0 φ.cst φ.v0 (fun x v => Host.reduceAdd x v reducesTo_S50000x256_S256_d0 h_S_),
    TRef.unary φ.v0 φ.v1 (broadcastInDim S1x256 ![1] bcast_S256_S1x256_1),
    TRef.nullary φ.cst_0 (constant S_ .f32 0x47435000#32),
    TRef.unary φ.cst_0 φ.v2 (broadcastInDim S1x256 ![] bcast_S_S1x256),
    TRef.binary φ.v1 φ.v2 φ.v3 Host.divf,
    TRef.unary φ.v3 φ.v4 (broadcastInDim S50000x256 ![0, 1] bcast_S1x256_S50000x256_0_1),
    TRef.binary arg0 φ.v4 φ.v5 subf,
    TRef.binary φ.v5 φ.v5 φ.v6 mulf,
    TRef.unary arg1 φ.v7 (sitofp .f32),
    TRef.nullary φ.cst_1 (constant S_ .f32 0x47435000#32),
    TRef.binary φ.cst_1 φ.v7 φ.v8 subf,
    TRef.nullary φ.cst_2 (constant S_ .f32 0x00000000#32),
    TRef.binary φ.v6 φ.cst_2 φ.v9 (fun x v => Host.reduceAdd x v reducesTo_S50000x256_S256_d0 h_S_),
    TRef.unary φ.v8 φ.v10 (broadcastInDim S256 ![] bcast_S_S256),
    TRef.binary φ.v9 φ.v10 φ.v11 Host.divf,
    TRef.nullary φ.cst_3 (constant S_ .f32 0x00000000#32),
    TRef.binary φ.v8 φ.cst_3 φ.v12 (cmpf .ogt),
    TRef.nullary φ.cst_4 (constant S_ .f32 0x7FC00000#32) ] ++
  fn_where.ops φ.v12 φ.v11 φ.cst_4 φ.call0

abbrev fn_relu_0.ops (arg0 : TRef sig ⟨S50000x256, .f32⟩) (φ : fn_relu_0.Bufs) : List (HloOp τ sig (Elt F)) :=
  [ TRef.nullary φ.cst (constant S_ .f32 0x00000000#32),
    TRef.unary φ.cst φ.v0 (broadcastInDim S50000x256 ![] bcast_S_S50000x256),
    TRef.binary arg0 φ.v0 φ.v1 maximumf ]

end Cert.ReferenceIdeal.RefRun

end
-- ==== Proof.RefOps0.lean ====
import proofs.«401895_j21930103014155_2_alg».proof.Proof.RefCalls

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev L0a : List (HloOp τ sig (Elt F)) :=
  [ nullary main_c (constantI S_ 32 0#32),
    unary main_c main_v0 (broadcastInDim S300000 ![] bcast_S_S300000),
    binary main_arg1 main_v0 main_v1 (cmpi .slt),
    nullary main_c_0 (constantI S_ 32 50000#32),
    unary main_c_0 main_v2 (broadcastInDim S300000 ![] bcast_S_S300000),
    binary main_arg1 main_v2 main_v3 addi,
    ternary main_v1 main_v3 main_arg1 main_v4 select,
    unary main_v4 main_v5 (broadcastInDim S300000x1 ![0] bcast_S300000_S300000x1_0),
    binary main_arg0 main_v5 main_v6 (fun x i => Host.gather gather_S50000x256_S300000x1_S300000x256_1_0_n_n_0_1_1256 x i) ] ++
  fn_relu.ops (.of main_v6) main_call0 ++
  [ nullary main_cst (constant S_ .f32 0x00000000#32),
    unary main_cst main_v8 (broadcastInDim S50000x256 ![] bcast_S_S50000x256),
    unary main_arg2 main_v9 (broadcastInDim S300000x1 ![0] bcast_S300000_S300000x1_0),
    ternary main_v8 main_v9 main_v7 main_v10 (fun x i u => Host.scatterAdd scatter_S50000x256_S300000x1_S300000x256_1_0_0_1 x i u),
    unary main_arg9 main_v11 (extractStridedSlice S1 ![0] · slices_S5_S1_0),
    reshape main_v11 main_v12 rfl shapeCasts_S1_S_,
    nullary main_cst_1 (constant S_ .f32 0x3F800000#32),
    binary main_cst_1 main_v12 main_v13 addf,
    unary main_v13 main_v14 (broadcastInDim S50000x256 ![] bcast_S_S50000x256),
    binary main_v14 main_arg0 main_v15 mulf,
    binary main_v15 main_v10 main_v16 addf,
    unary main_arg3 main_v17 (extractStridedSlice S1x256x256 ![0, 0, 0] · slices_S5x256x256_S1x256x256_0_0_0),
    reshape main_v17 main_v18 rfl shapeCasts_S1x256x256_S256x256,
    binary main_v16 main_v18 main_v19 (fun l r => Host.dotGeneral dot_S50000x256_S256x256_S50000x256_1_0_0_1_n_n none l r),
    unary main_arg4 main_v20 (extractStridedSlice S1x256 ![0, 0] · slices_S5x256_S1x256_0_0),
    reshape main_v20 main_v21 rfl shapeCasts_S1x256_S256,
    unary main_v21 main_v22 (broadcastInDim S1x256 ![1] bcast_S256_S1x256_1),
    unary main_v22 main_v23 (broadcastInDim S50000x256 ![0, 1] bcast_S1x256_S50000x256_0_1),
    binary main_v19 main_v23 main_v24 addf,
    unary main_arg5 main_v25 (extractStridedSlice S1x256 ![0, 0] · slices_S5x256_S1x256_0_0),
    reshape main_v25 main_v26 rfl shapeCasts_S1x256_S256,
    unary main_arg6 main_v27 (extractStridedSlice S1x256 ![0, 0] · slices_S5x256_S1x256_0_0),
    reshape main_v27 main_v28 rfl shapeCasts_S1x256_S256,
    nullary main_cst_2 (constant S_ .f32 0x00000000#32),
    binary main_v24 main_cst_2 main_v29 (fun x v => Host.reduceAdd x v reducesTo_S50000x256_S256_d0 h_S_),
    nullary main_cst_3 (constant S_ .f32 0x47435000#32),
    unary main_cst_3 main_v30 (broadcastInDim S256 ![] bcast_S_S256),
    binary main_v29 main_v30 main_v31 Host.divf,
    nullary main_c_4 (constantI S_ 32 0#32) ] ++
  fn_var.ops (.of main_v24) (.of main_c_4) main_call1 ++
  [ unary main_v31 main_v33 (broadcastInDim S1x256 ![1] bcast_S256_S1x256_1),
    unary main_v33 main_v34 (broadcastInDim S50000x256 ![0, 1] bcast_S1x256_S50000x256_0_1),
    binary main_v24 main_v34 main_v35 subf,
    nullary main_cst_5 (constant S_ .f32 0x3727C5AC#32),
    unary main_cst_5 main_v36 (broadcastInDim S256 ![] bcast_S_S256),
    binary main_v32 main_v36 main_v37 addf,
    unary main_v37 main_v38 Host.rsqrt,
    unary main_v38 main_v39 (broadcastInDim S1x256 ![1] bcast_S256_S1x256_1),
    unary main_v39 main_v40 (broadcastInDim S50000x256 ![0, 1] bcast_S1x256_S50000x256_0_1),
    binary main_v35 main_v40 main_v41 mulf,
    unary main_v26 main_v42 (broadcastInDim S1x256 ![1] bcast_S256_S1x256_1),
    unary main_v42 main_v43 (broadcastInDim S50000x256 ![0, 1] bcast_S1x256_S50000x256_0_1),
    binary main_v41 main_v43 main_v44 mulf,
    unary main_v28 main_v45 (broadcastInDim S1x256 ![1] bcast_S256_S1x256_1),
    unary main_v45 main_v46 (broadcastInDim S50000x256 ![0, 1] bcast_S1x256_S50000x256_0_1),
    binary main_v44 main_v46 main_v47 addf ] ++
  fn_relu_0.ops (.of main_v47) main_call2 ++
  [ unary main_arg7 main_v49 (extractStridedSlice S1x256x256 ![0, 0, 0] · slices_S5x256x256_S1x256x256_0_0_0),
    reshape main_v49 main_v50 rfl shapeCasts_S1x256x256_S256x256,
    binary main_v48 main_v50 main_v51 (fun l r => Host.dotGeneral dot_S50000x256_S256x256_S50000x256_1_0_0_1_n_n none l r) ]

abbrev L0b : List (HloOp τ sig (Elt F)) :=
  [ unary main_arg8 main_v52 (extractStridedSlice S1x256 ![0, 0] · slices_S5x256_S1x256_0_0),
    reshape main_v52 main_v53 rfl shapeCasts_S1x256_S256,
    unary main_v53 main_v54 (broadcastInDim S1x256 ![1] bcast_S256_S1x256_1),
    unary main_v54 main_v55 (broadcastInDim S50000x256 ![0, 1] bcast_S1x256_S50000x256_0_1),
    binary main_v51 main_v55 main_v56 addf,
    unary main_arg10 main_v57 (extractStridedSlice S1x256 ![0, 0] · slices_S5x256_S1x256_0_0),
    reshape main_v57 main_v58 rfl shapeCasts_S1x256_S256,
    unary main_arg11 main_v59 (extractStridedSlice S1x256 ![0, 0] · slices_S5x256_S1x256_0_0),
    reshape main_v59 main_v60 rfl shapeCasts_S1x256_S256,
    nullary main_cst_6 (constant S_ .f32 0x00000000#32),
    binary main_v56 main_cst_6 main_v61 (fun x v => Host.reduceAdd x v reducesTo_S50000x256_S256_d0 h_S_),
    nullary main_cst_7 (constant S_ .f32 0x47435000#32),
    unary main_cst_7 main_v62 (broadcastInDim S256 ![] bcast_S_S256),
    binary main_v61 main_v62 main_v63 Host.divf,
    nullary main_c_8 (constantI S_ 32 0#32) ] ++
  fn_var.ops (.of main_v56) (.of main_c_8) main_call3 ++
  [ unary main_v63 main_v65 (broadcastInDim S1x256 ![1] bcast_S256_S1x256_1),
    unary main_v65 main_v66 (broadcastInDim S50000x256 ![0, 1] bcast_S1x256_S50000x256_0_1),
    binary main_v56 main_v66 main_v67 subf,
    nullary main_cst_9 (constant S_ .f32 0x3727C5AC#32),
    unary main_cst_9 main_v68 (broadcastInDim S256 ![] bcast_S_S256),
    binary main_v64 main_v68 main_v69 addf,
    unary main_v69 main_v70 Host.rsqrt,
    unary main_v70 main_v71 (broadcastInDim S1x256 ![1] bcast_S256_S1x256_1),
    unary main_v71 main_v72 (broadcastInDim S50000x256 ![0, 1] bcast_S1x256_S50000x256_0_1),
    binary main_v67 main_v72 main_v73 mulf,
    unary main_v58 main_v74 (broadcastInDim S1x256 ![1] bcast_S256_S1x256_1),
    unary main_v74 main_v75 (broadcastInDim S50000x256 ![0, 1] bcast_S1x256_S50000x256_0_1),
    binary main_v73 main_v75 main_v76 mulf,
    unary main_v60 main_v77 (broadcastInDim S1x256 ![1] bcast_S256_S1x256_1),
    unary main_v77 main_v78 (broadcastInDim S50000x256 ![0, 1] bcast_S1x256_S50000x256_0_1),
    binary main_v76 main_v78 main_v79 addf ] ++
  fn_relu_0.ops (.of main_v79) main_call4

abbrev L0 : List (HloOp τ sig (Elt F)) := L0a ++ L0b

set_option maxRecDepth 8192 in
theorem L0_sub : (L0 : List (HloOp τ sig (Elt F))).Forall fun op => op.bufs ⊆ tcRefs τ sig := by
  repeat' first
    | refine ⟨?_, ?_⟩
    | with_reducible exact nullary_bufs_sub ..
    | with_reducible exact unary_bufs_sub ..
    | with_reducible exact binary_bufs_sub ..
    | with_reducible exact ternary_bufs_sub ..
    | with_reducible exact reshape_bufs_sub ..
    | show (_ : Finset (DevRef τ sig)) ⊆ _

set_option maxRecDepth 8192 in
theorem L0_fresh : (L0 : List (HloOp τ sig (Elt F))).Forall fun op => op.fresh = ∅ := by
  repeat' first | refine ⟨rfl, ?_⟩ | exact rfl

-- used to show that a layer leaves the twelve arguments as they were
set_option maxRecDepth 8192 in
theorem L0_writes : (L0 : List (HloOp τ sig (Elt F))).Forall fun op =>
    ∃ y : Ref sig .tc, op.writes = {Proc.devRef (τ := τ) .tc y} ∧ 12 ≤ y.idx.val := by
  repeat' first | refine ⟨⟨_, rfl, by decide⟩, ?_⟩ | exact ⟨_, rfl, by decide⟩

end Cert.ReferenceIdeal.RefRun

end
-- ==== Proof.RefOps1.lean ====
import proofs.«401895_j21930103014155_2_alg».proof.Proof.RefCalls

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev L1a : List (HloOp τ sig (Elt F)) :=
  [ nullary main_c_10 (constantI S_ 32 0#32),
    unary main_c_10 main_v81 (broadcastInDim S300000 ![] bcast_S_S300000),
    binary main_arg1 main_v81 main_v82 (cmpi .slt),
    nullary main_c_11 (constantI S_ 32 50000#32),
    unary main_c_11 main_v83 (broadcastInDim S300000 ![] bcast_S_S300000),
    binary main_arg1 main_v83 main_v84 addi,
    ternary main_v82 main_v84 main_arg1 main_v85 select,
    unary main_v85 main_v86 (broadcastInDim S300000x1 ![0] bcast_S300000_S300000x1_0),
    binary main_v80 main_v86 main_v87 (fun x i => Host.gather gather_S50000x256_S300000x1_S300000x256_1_0_n_n_0_1_1256 x i) ] ++
  fn_relu.ops (.of main_v87) main_call5 ++
  [ nullary main_cst_12 (constant S_ .f32 0x00000000#32),
    unary main_cst_12 main_v89 (broadcastInDim S50000x256 ![] bcast_S_S50000x256),
    unary main_arg2 main_v90 (broadcastInDim S300000x1 ![0] bcast_S300000_S300000x1_0),
    ternary main_v89 main_v90 main_v88 main_v91 (fun x i u => Host.scatterAdd scatter_S50000x256_S300000x1_S300000x256_1_0_0_1 x i u),
    unary main_arg9 main_v92 (extractStridedSlice S1 ![1] · slices_S5_S1_1),
    reshape main_v92 main_v93 rfl shapeCasts_S1_S_,
    nullary main_cst_13 (constant S_ .f32 0x3F800000#32),
    binary main_cst_13 main_v93 main_v94 addf,
    unary main_v94 main_v95 (broadcastInDim S50000x256 ![] bcast_S_S50000x256),
    binary main_v95 main_v80 main_v96 mulf,
    binary main_v96 main_v91 main_v97 addf,
    unary main_arg3 main_v98 (extractStridedSlice S1x256x256 ![1, 0, 0] · slices_S5x256x256_S1x256x256_1_0_0),
    reshape main_v98 main_v99 rfl shapeCasts_S1x256x256_S256x256,
    binary main_v97 main_v99 main_v100 (fun l r => Host.dotGeneral dot_S50000x256_S256x256_S50000x256_1_0_0_1_n_n none l r),
    unary main_arg4 main_v101 (extractStridedSlice S1x256 ![1, 0] · slices_S5x256_S1x256_1_0),
    reshape main_v101 main_v102 rfl shapeCasts_S1x256_S256,
    unary main_v102 main_v103 (broadcastInDim S1x256 ![1] bcast_S256_S1x256_1) ]

abbrev L1b : List (HloOp τ sig (Elt F)) :=
  [ unary main_v103 main_v104 (broadcastInDim S50000x256 ![0, 1] bcast_S1x256_S50000x256_0_1),
    binary main_v100 main_v104 main_v105 addf,
    unary main_arg5 main_v106 (extractStridedSlice S1x256 ![1, 0] · slices_S5x256_S1x256_1_0),
    reshape main_v106 main_v107 rfl shapeCasts_S1x256_S256,
    unary main_arg6 main_v108 (extractStridedSlice S1x256 ![1, 0] · slices_S5x256_S1x256_1_0),
    reshape main_v108 main_v109 rfl shapeCasts_S1x256_S256,
    nullary main_cst_14 (constant S_ .f32 0x00000000#32),
    binary main_v105 main_cst_14 main_v110 (fun x v => Host.reduceAdd x v reducesTo_S50000x256_S256_d0 h_S_),
    nullary main_cst_15 (constant S_ .f32 0x47435000#32),
    unary main_cst_15 main_v111 (broadcastInDim S256 ![] bcast_S_S256),
    binary main_v110 main_v111 main_v112 Host.divf,
    nullary main_c_16 (constantI S_ 32 0#32) ] ++
  fn_var.ops (.of main_v105) (.of main_c_16) main_call6 ++
  [ unary main_v112 main_v114 (broadcastInDim S1x256 ![1] bcast_S256_S1x256_1),
    unary main_v114 main_v115 (broadcastInDim S50000x256 ![0, 1] bcast_S1x256_S50000x256_0_1),
    binary main_v105 main_v115 main_v116 subf,
    nullary main_cst_17 (constant S_ .f32 0x3727C5AC#32),
    unary main_cst_17 main_v117 (broadcastInDim S256 ![] bcast_S_S256),
    binary main_v113 main_v117 main_v118 addf,
    unary main_v118 main_v119 Host.rsqrt,
    unary main_v119 main_v120 (broadcastInDim S1x256 ![1] bcast_S256_S1x256_1),
    unary main_v120 main_v121 (broadcastInDim S50000x256 ![0, 1] bcast_S1x256_S50000x256_0_1),
    binary main_v116 main_v121 main_v122 mulf,
    unary main_v107 main_v123 (broadcastInDim S1x256 ![1] bcast_S256_S1x256_1),
    unary main_v123 main_v124 (broadcastInDim S50000x256 ![0, 1] bcast_S1x256_S50000x256_0_1),
    binary main_v122 main_v124 main_v125 mulf,
    unary main_v109 main_v126 (broadcastInDim S1x256 ![1] bcast_S256_S1x256_1),
    unary main_v126 main_v127 (broadcastInDim S50000x256 ![0, 1] bcast_S1x256_S50000x256_0_1),
    binary main_v125 main_v127 main_v128 addf ] ++
  fn_relu_0.ops (.of main_v128) main_call7 ++
  [ unary main_arg7 main_v130 (extractStridedSlice S1x256x256 ![1, 0, 0] · slices_S5x256x256_S1x256x256_1_0_0),
    reshape main_v130 main_v131 rfl shapeCasts_S1x256x256_S256x256,
    binary main_v129 main_v131 main_v132 (fun l r => Host.dotGeneral dot_S50000x256_S256x256_S50000x256_1_0_0_1_n_n none l r),
    unary main_arg8 main_v133 (extractStridedSlice S1x256 ![1, 0] · slices_S5x256_S1x256_1_0),
    reshape main_v133 main_v134 rfl shapeCasts_S1x256_S256,
    unary main_v134 main_v135 (broadcastInDim S1x256 ![1] bcast_S256_S1x256_1),
    unary main_v135 main_v136 (broadcastInDim S50000x256 ![0, 1] bcast_S1x256_S50000x256_0_1),
    binary main_v132 main_v136 main_v137 addf,
    unary main_arg10 main_v138 (extractStridedSlice S1x256 ![1, 0] · slices_S5x256_S1x256_1_0),
    reshape main_v138 main_v139 rfl shapeCasts_S1x256_S256,
    unary main_arg11 main_v140 (extractStridedSlice S1x256 ![1, 0] · slices_S5x256_S1x256_1_0),
    reshape main_v140 main_v141 rfl shapeCasts_S1x256_S256,
    nullary main_cst_18 (constant S_ .f32 0x00000000#32),
    binary main_v137 main_cst_18 main_v142 (fun x v => Host.reduceAdd x v reducesTo_S50000x256_S256_d0 h_S_),
    nullary main_cst_19 (constant S_ .f32 0x47435000#32),
    unary main_cst_19 main_v143 (broadcastInDim S256 ![] bcast_S_S256),
    binary main_v142 main_v143 main_v144 Host.divf,
    nullary main_c_20 (constantI S_ 32 0#32) ] ++
  fn_var.ops (.of main_v137) (.of main_c_20) main_call8 ++
  [ unary main_v144 main_v146 (broadcastInDim S1x256 ![1] bcast_S256_S1x256_1),
    unary main_v146 main_v147 (broadcastInDim S50000x256 ![0, 1] bcast_S1x256_S50000x256_0_1),
    binary main_v137 main_v147 main_v148 subf,
    nullary main_cst_21 (constant S_ .f32 0x3727C5AC#32),
    unary main_cst_21 main_v149 (broadcastInDim S256 ![] bcast_S_S256),
    binary main_v145 main_v149 main_v150 addf,
    unary main_v150 main_v151 Host.rsqrt,
    unary main_v151 main_v152 (broadcastInDim S1x256 ![1] bcast_S256_S1x256_1),
    unary main_v152 main_v153 (broadcastInDim S50000x256 ![0, 1] bcast_S1x256_S50000x256_0_1),
    binary main_v148 main_v153 main_v154 mulf,
    unary main_v139 main_v155 (broadcastInDim S1x256 ![1] bcast_S256_S1x256_1) ]

abbrev L1c : List (HloOp τ sig (Elt F)) :=
  [ unary main_v155 main_v156 (broadcastInDim S50000x256 ![0, 1] bcast_S1x256_S50000x256_0_1),
    binary main_v154 main_v156 main_v157 mulf,
    unary main_v141 main_v158 (broadcastInDim S1x256 ![1] bcast_S256_S1x256_1),
    unary main_v158 main_v159 (broadcastInDim S50000x256 ![0, 1] bcast_S1x256_S50000x256_0_1),
    binary main_v157 main_v159 main_v160 addf ] ++
  fn_relu_0.ops (.of main_v160) main_call9

abbrev L1 : List (HloOp τ sig (Elt F)) := L1a ++ L1b ++ L1c

set_option maxRecDepth 8192 in
theorem L1_sub : (L1 : List (HloOp τ sig (Elt F))).Forall fun op => op.bufs ⊆ tcRefs τ sig := by
  repeat' first
    | refine ⟨?_, ?_⟩
    | with_reducible exact nullary_bufs_sub ..
    | with_reducible exact unary_bufs_sub ..
    | with_reducible exact binary_bufs_sub ..
    | with_reducible exact ternary_bufs_sub ..
    | with_reducible exact reshape_bufs_sub ..
    | show (_ : Finset (DevRef τ sig)) ⊆ _

set_option maxRecDepth 8192 in
theorem L1_fresh : (L1 : List (HloOp τ sig (Elt F))).Forall fun op => op.fresh = ∅ := by
  repeat' first | refine ⟨rfl, ?_⟩ | exact rfl

-- used to show that a layer leaves the twelve arguments as they were
set_option maxRecDepth 8192 in
theorem L1_writes : (L1 : List (HloOp τ sig (Elt F))).Forall fun op =>
    ∃ y : Ref sig .tc, op.writes = {Proc.devRef (τ := τ) .tc y} ∧ 12 ≤ y.idx.val := by
  repeat' first | refine ⟨⟨_, rfl, by decide⟩, ?_⟩ | exact ⟨_, rfl, by decide⟩

end Cert.ReferenceIdeal.RefRun

end
-- ==== Proof.RefOps2.lean ====
import proofs.«401895_j21930103014155_2_alg».proof.Proof.RefCalls

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev L2a : List (HloOp τ sig (Elt F)) :=
  [ nullary main_c_22 (constantI S_ 32 0#32),
    unary main_c_22 main_v162 (broadcastInDim S300000 ![] bcast_S_S300000),
    binary main_arg1 main_v162 main_v163 (cmpi .slt),
    nullary main_c_23 (constantI S_ 32 50000#32),
    unary main_c_23 main_v164 (broadcastInDim S300000 ![] bcast_S_S300000),
    binary main_arg1 main_v164 main_v165 addi,
    ternary main_v163 main_v165 main_arg1 main_v166 select,
    unary main_v166 main_v167 (broadcastInDim S300000x1 ![0] bcast_S300000_S300000x1_0),
    binary main_v161 main_v167 main_v168 (fun x i => Host.gather gather_S50000x256_S300000x1_S300000x256_1_0_n_n_0_1_1256 x i) ] ++
  fn_relu.ops (.of main_v168) main_call10 ++
  [ nullary main_cst_24 (constant S_ .f32 0x00000000#32),
    unary main_cst_24 main_v170 (broadcastInDim S50000x256 ![] bcast_S_S50000x256),
    unary main_arg2 main_v171 (broadcastInDim S300000x1 ![0] bcast_S300000_S300000x1_0),
    ternary main_v170 main_v171 main_v169 main_v172 (fun x i u => Host.scatterAdd scatter_S50000x256_S300000x1_S300000x256_1_0_0_1 x i u),
    unary main_arg9 main_v173 (extractStridedSlice S1 ![2] · slices_S5_S1_2),
    reshape main_v173 main_v174 rfl shapeCasts_S1_S_,
    nullary main_cst_25 (constant S_ .f32 0x3F800000#32),
    binary main_cst_25 main_v174 main_v175 addf,
    unary main_v175 main_v176 (broadcastInDim S50000x256 ![] bcast_S_S50000x256),
    binary main_v176 main_v161 main_v177 mulf,
    binary main_v177 main_v172 main_v178 addf,
    unary main_arg3 main_v179 (extractStridedSlice S1x256x256 ![2, 0, 0] · slices_S5x256x256_S1x256x256_2_0_0),
    reshape main_v179 main_v180 rfl shapeCasts_S1x256x256_S256x256,
    binary main_v178 main_v180 main_v181 (fun l r => Host.dotGeneral dot_S50000x256_S256x256_S50000x256_1_0_0_1_n_n none l r),
    unary main_arg4 main_v182 (extractStridedSlice S1x256 ![2, 0] · slices_S5x256_S1x256_2_0),
    reshape main_v182 main_v183 rfl shapeCasts_S1x256_S256,
    unary main_v183 main_v184 (broadcastInDim S1x256 ![1] bcast_S256_S1x256_1),
    unary main_v184 main_v185 (broadcastInDim S50000x256 ![0, 1] bcast_S1x256_S50000x256_0_1),
    binary main_v181 main_v185 main_v186 addf,
    unary main_arg5 main_v187 (extractStridedSlice S1x256 ![2, 0] · slices_S5x256_S1x256_2_0),
    reshape main_v187 main_v188 rfl shapeCasts_S1x256_S256,
    unary main_arg6 main_v189 (extractStridedSlice S1x256 ![2, 0] · slices_S5x256_S1x256_2_0),
    reshape main_v189 main_v190 rfl shapeCasts_S1x256_S256,
    nullary main_cst_26 (constant S_ .f32 0x00000000#32),
    binary main_v186 main_cst_26 main_v191 (fun x v => Host.reduceAdd x v reducesTo_S50000x256_S256_d0 h_S_),
    nullary main_cst_27 (constant S_ .f32 0x47435000#32),
    unary main_cst_27 main_v192 (broadcastInDim S256 ![] bcast_S_S256),
    binary main_v191 main_v192 main_v193 Host.divf,
    nullary main_c_28 (constantI S_ 32 0#32) ] ++
  fn_var.ops (.of main_v186) (.of main_c_28) main_call11 ++
  [ unary main_v193 main_v195 (broadcastInDim S1x256 ![1] bcast_S256_S1x256_1),
    unary main_v195 main_v196 (broadcastInDim S50000x256 ![0, 1] bcast_S1x256_S50000x256_0_1),
    binary main_v186 main_v196 main_v197 subf,
    nullary main_cst_29 (constant S_ .f32 0x3727C5AC#32),
    unary main_cst_29 main_v198 (broadcastInDim S256 ![] bcast_S_S256),
    binary main_v194 main_v198 main_v199 addf,
    unary main_v199 main_v200 Host.rsqrt,
    unary main_v200 main_v201 (broadcastInDim S1x256 ![1] bcast_S256_S1x256_1),
    unary main_v201 main_v202 (broadcastInDim S50000x256 ![0, 1] bcast_S1x256_S50000x256_0_1),
    binary main_v197 main_v202 main_v203 mulf,
    unary main_v188 main_v204 (broadcastInDim S1x256 ![1] bcast_S256_S1x256_1),
    unary main_v204 main_v205 (broadcastInDim S50000x256 ![0, 1] bcast_S1x256_S50000x256_0_1),
    binary main_v203 main_v205 main_v206 mulf,
    unary main_v190 main_v207 (broadcastInDim S1x256 ![1] bcast_S256_S1x256_1) ]

abbrev L2b : List (HloOp τ sig (Elt F)) :=
  [ unary main_v207 main_v208 (broadcastInDim S50000x256 ![0, 1] bcast_S1x256_S50000x256_0_1),
    binary main_v206 main_v208 main_v209 addf ] ++
  fn_relu_0.ops (.of main_v209) main_call12 ++
  [ unary main_arg7 main_v211 (extractStridedSlice S1x256x256 ![2, 0, 0] · slices_S5x256x256_S1x256x256_2_0_0),
    reshape main_v211 main_v212 rfl shapeCasts_S1x256x256_S256x256,
    binary main_v210 main_v212 main_v213 (fun l r => Host.dotGeneral dot_S50000x256_S256x256_S50000x256_1_0_0_1_n_n none l r),
    unary main_arg8 main_v214 (extractStridedSlice S1x256 ![2, 0] · slices_S5x256_S1x256_2_0),
    reshape main_v214 main_v215 rfl shapeCasts_S1x256_S256,
    unary main_v215 main_v216 (broadcastInDim S1x256 ![1] bcast_S256_S1x256_1),
    unary main_v216 main_v217 (broadcastInDim S50000x256 ![0, 1] bcast_S1x256_S50000x256_0_1),
    binary main_v213 main_v217 main_v218 addf,
    unary main_arg10 main_v219 (extractStridedSlice S1x256 ![2, 0] · slices_S5x256_S1x256_2_0),
    reshape main_v219 main_v220 rfl shapeCasts_S1x256_S256,
    unary main_arg11 main_v221 (extractStridedSlice S1x256 ![2, 0] · slices_S5x256_S1x256_2_0),
    reshape main_v221 main_v222 rfl shapeCasts_S1x256_S256,
    nullary main_cst_30 (constant S_ .f32 0x00000000#32),
    binary main_v218 main_cst_30 main_v223 (fun x v => Host.reduceAdd x v reducesTo_S50000x256_S256_d0 h_S_),
    nullary main_cst_31 (constant S_ .f32 0x47435000#32),
    unary main_cst_31 main_v224 (broadcastInDim S256 ![] bcast_S_S256),
    binary main_v223 main_v224 main_v225 Host.divf,
    nullary main_c_32 (constantI S_ 32 0#32) ] ++
  fn_var.ops (.of main_v218) (.of main_c_32) main_call13 ++
  [ unary main_v225 main_v227 (broadcastInDim S1x256 ![1] bcast_S256_S1x256_1),
    unary main_v227 main_v228 (broadcastInDim S50000x256 ![0, 1] bcast_S1x256_S50000x256_0_1),
    binary main_v218 main_v228 main_v229 subf,
    nullary main_cst_33 (constant S_ .f32 0x3727C5AC#32),
    unary main_cst_33 main_v230 (broadcastInDim S256 ![] bcast_S_S256),
    binary main_v226 main_v230 main_v231 addf,
    unary main_v231 main_v232 Host.rsqrt,
    unary main_v232 main_v233 (broadcastInDim S1x256 ![1] bcast_S256_S1x256_1),
    unary main_v233 main_v234 (broadcastInDim S50000x256 ![0, 1] bcast_S1x256_S50000x256_0_1),
    binary main_v229 main_v234 main_v235 mulf,
    unary main_v220 main_v236 (broadcastInDim S1x256 ![1] bcast_S256_S1x256_1),
    unary main_v236 main_v237 (broadcastInDim S50000x256 ![0, 1] bcast_S1x256_S50000x256_0_1),
    binary main_v235 main_v237 main_v238 mulf,
    unary main_v222 main_v239 (broadcastInDim S1x256 ![1] bcast_S256_S1x256_1),
    unary main_v239 main_v240 (broadcastInDim S50000x256 ![0, 1] bcast_S1x256_S50000x256_0_1),
    binary main_v238 main_v240 main_v241 addf ] ++
  fn_relu_0.ops (.of main_v241) main_call14

abbrev L2 : List (HloOp τ sig (Elt F)) := L2a ++ L2b

set_option maxRecDepth 8192 in
theorem L2_sub : (L2 : List (HloOp τ sig (Elt F))).Forall fun op => op.bufs ⊆ tcRefs τ sig := by
  repeat' first
    | refine ⟨?_, ?_⟩
    | with_reducible exact nullary_bufs_sub ..
    | with_reducible exact unary_bufs_sub ..
    | with_reducible exact binary_bufs_sub ..
    | with_reducible exact ternary_bufs_sub ..
    | with_reducible exact reshape_bufs_sub ..
    | show (_ : Finset (DevRef τ sig)) ⊆ _

set_option maxRecDepth 8192 in
theorem L2_fresh : (L2 : List (HloOp τ sig (Elt F))).Forall fun op => op.fresh = ∅ := by
  repeat' first | refine ⟨rfl, ?_⟩ | exact rfl

-- used to show that a layer leaves the twelve arguments as they were
set_option maxRecDepth 8192 in
theorem L2_writes : (L2 : List (HloOp τ sig (Elt F))).Forall fun op =>
    ∃ y : Ref sig .tc, op.writes = {Proc.devRef (τ := τ) .tc y} ∧ 12 ≤ y.idx.val := by
  repeat' first | refine ⟨⟨_, rfl, by decide⟩, ?_⟩ | exact ⟨_, rfl, by decide⟩

end Cert.ReferenceIdeal.RefRun

end
-- ==== Proof.RefOps3.lean ====
import proofs.«401895_j21930103014155_2_alg».proof.Proof.RefCalls

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev L3a : List (HloOp τ sig (Elt F)) :=
  [ nullary main_c_34 (constantI S_ 32 0#32),
    unary main_c_34 main_v243 (broadcastInDim S300000 ![] bcast_S_S300000),
    binary main_arg1 main_v243 main_v244 (cmpi .slt),
    nullary main_c_35 (constantI S_ 32 50000#32),
    unary main_c_35 main_v245 (broadcastInDim S300000 ![] bcast_S_S300000),
    binary main_arg1 main_v245 main_v246 addi,
    ternary main_v244 main_v246 main_arg1 main_v247 select,
    unary main_v247 main_v248 (broadcastInDim S300000x1 ![0] bcast_S300000_S300000x1_0),
    binary main_v242 main_v248 main_v249 (fun x i => Host.gather gather_S50000x256_S300000x1_S300000x256_1_0_n_n_0_1_1256 x i) ] ++
  fn_relu.ops (.of main_v249) main_call15 ++
  [ nullary main_cst_36 (constant S_ .f32 0x00000000#32),
    unary main_cst_36 main_v251 (broadcastInDim S50000x256 ![] bcast_S_S50000x256),
    unary main_arg2 main_v252 (broadcastInDim S300000x1 ![0] bcast_S300000_S300000x1_0),
    ternary main_v251 main_v252 main_v250 main_v253 (fun x i u => Host.scatterAdd scatter_S50000x256_S300000x1_S300000x256_1_0_0_1 x i u),
    unary main_arg9 main_v254 (extractStridedSlice S1 ![3] · slices_S5_S1_3),
    reshape main_v254 main_v255 rfl shapeCasts_S1_S_,
    nullary main_cst_37 (constant S_ .f32 0x3F800000#32),
    binary main_cst_37 main_v255 main_v256 addf,
    unary main_v256 main_v257 (broadcastInDim S50000x256 ![] bcast_S_S50000x256),
    binary main_v257 main_v242 main_v258 mulf,
    binary main_v258 main_v253 main_v259 addf ]

abbrev L3b : List (HloOp τ sig (Elt F)) :=
  [ unary main_arg3 main_v260 (extractStridedSlice S1x256x256 ![3, 0, 0] · slices_S5x256x256_S1x256x256_3_0_0),
    reshape main_v260 main_v261 rfl shapeCasts_S1x256x256_S256x256,
    binary main_v259 main_v261 main_v262 (fun l r => Host.dotGeneral dot_S50000x256_S256x256_S50000x256_1_0_0_1_n_n none l r),
    unary main_arg4 main_v263 (extractStridedSlice S1x256 ![3, 0] · slices_S5x256_S1x256_3_0),
    reshape main_v263 main_v264 rfl shapeCasts_S1x256_S256,
    unary main_v264 main_v265 (broadcastInDim S1x256 ![1] bcast_S256_S1x256_1),
    unary main_v265 main_v266 (broadcastInDim S50000x256 ![0, 1] bcast_S1x256_S50000x256_0_1),
    binary main_v262 main_v266 main_v267 addf,
    unary main_arg5 main_v268 (extractStridedSlice S1x256 ![3, 0] · slices_S5x256_S1x256_3_0),
    reshape main_v268 main_v269 rfl shapeCasts_S1x256_S256,
    unary main_arg6 main_v270 (extractStridedSlice S1x256 ![3, 0] · slices_S5x256_S1x256_3_0),
    reshape main_v270 main_v271 rfl shapeCasts_S1x256_S256,
    nullary main_cst_38 (constant S_ .f32 0x00000000#32),
    binary main_v267 main_cst_38 main_v272 (fun x v => Host.reduceAdd x v reducesTo_S50000x256_S256_d0 h_S_),
    nullary main_cst_39 (constant S_ .f32 0x47435000#32),
    unary main_cst_39 main_v273 (broadcastInDim S256 ![] bcast_S_S256),
    binary main_v272 main_v273 main_v274 Host.divf,
    nullary main_c_40 (constantI S_ 32 0#32) ] ++
  fn_var.ops (.of main_v267) (.of main_c_40) main_call16 ++
  [ unary main_v274 main_v276 (broadcastInDim S1x256 ![1] bcast_S256_S1x256_1),
    unary main_v276 main_v277 (broadcastInDim S50000x256 ![0, 1] bcast_S1x256_S50000x256_0_1),
    binary main_v267 main_v277 main_v278 subf,
    nullary main_cst_41 (constant S_ .f32 0x3727C5AC#32),
    unary main_cst_41 main_v279 (broadcastInDim S256 ![] bcast_S_S256),
    binary main_v275 main_v279 main_v280 addf,
    unary main_v280 main_v281 Host.rsqrt,
    unary main_v281 main_v282 (broadcastInDim S1x256 ![1] bcast_S256_S1x256_1),
    unary main_v282 main_v283 (broadcastInDim S50000x256 ![0, 1] bcast_S1x256_S50000x256_0_1),
    binary main_v278 main_v283 main_v284 mulf,
    unary main_v269 main_v285 (broadcastInDim S1x256 ![1] bcast_S256_S1x256_1),
    unary main_v285 main_v286 (broadcastInDim S50000x256 ![0, 1] bcast_S1x256_S50000x256_0_1),
    binary main_v284 main_v286 main_v287 mulf,
    unary main_v271 main_v288 (broadcastInDim S1x256 ![1] bcast_S256_S1x256_1),
    unary main_v288 main_v289 (broadcastInDim S50000x256 ![0, 1] bcast_S1x256_S50000x256_0_1),
    binary main_v287 main_v289 main_v290 addf ] ++
  fn_relu_0.ops (.of main_v290) main_call17 ++
  [ unary main_arg7 main_v292 (extractStridedSlice S1x256x256 ![3, 0, 0] · slices_S5x256x256_S1x256x256_3_0_0),
    reshape main_v292 main_v293 rfl shapeCasts_S1x256x256_S256x256,
    binary main_v291 main_v293 main_v294 (fun l r => Host.dotGeneral dot_S50000x256_S256x256_S50000x256_1_0_0_1_n_n none l r),
    unary main_arg8 main_v295 (extractStridedSlice S1x256 ![3, 0] · slices_S5x256_S1x256_3_0),
    reshape main_v295 main_v296 rfl shapeCasts_S1x256_S256,
    unary main_v296 main_v297 (broadcastInDim S1x256 ![1] bcast_S256_S1x256_1),
    unary main_v297 main_v298 (broadcastInDim S50000x256 ![0, 1] bcast_S1x256_S50000x256_0_1),
    binary main_v294 main_v298 main_v299 addf,
    unary main_arg10 main_v300 (extractStridedSlice S1x256 ![3, 0] · slices_S5x256_S1x256_3_0),
    reshape main_v300 main_v301 rfl shapeCasts_S1x256_S256,
    unary main_arg11 main_v302 (extractStridedSlice S1x256 ![3, 0] · slices_S5x256_S1x256_3_0),
    reshape main_v302 main_v303 rfl shapeCasts_S1x256_S256,
    nullary main_cst_42 (constant S_ .f32 0x00000000#32),
    binary main_v299 main_cst_42 main_v304 (fun x v => Host.reduceAdd x v reducesTo_S50000x256_S256_d0 h_S_),
    nullary main_cst_43 (constant S_ .f32 0x47435000#32),
    unary main_cst_43 main_v305 (broadcastInDim S256 ![] bcast_S_S256),
    binary main_v304 main_v305 main_v306 Host.divf,
    nullary main_c_44 (constantI S_ 32 0#32) ] ++
  fn_var.ops (.of main_v299) (.of main_c_44) main_call18 ++
  [ unary main_v306 main_v308 (broadcastInDim S1x256 ![1] bcast_S256_S1x256_1),
    unary main_v308 main_v309 (broadcastInDim S50000x256 ![0, 1] bcast_S1x256_S50000x256_0_1),
    binary main_v299 main_v309 main_v310 subf,
    nullary main_cst_45 (constant S_ .f32 0x3727C5AC#32),
    unary main_cst_45 main_v311 (broadcastInDim S256 ![] bcast_S_S256) ]

abbrev L3c : List (HloOp τ sig (Elt F)) :=
  [ binary main_v307 main_v311 main_v312 addf,
    unary main_v312 main_v313 Host.rsqrt,
    unary main_v313 main_v314 (broadcastInDim S1x256 ![1] bcast_S256_S1x256_1),
    unary main_v314 main_v315 (broadcastInDim S50000x256 ![0, 1] bcast_S1x256_S50000x256_0_1),
    binary main_v310 main_v315 main_v316 mulf,
    unary main_v301 main_v317 (broadcastInDim S1x256 ![1] bcast_S256_S1x256_1),
    unary main_v317 main_v318 (broadcastInDim S50000x256 ![0, 1] bcast_S1x256_S50000x256_0_1),
    binary main_v316 main_v318 main_v319 mulf,
    unary main_v303 main_v320 (broadcastInDim S1x256 ![1] bcast_S256_S1x256_1),
    unary main_v320 main_v321 (broadcastInDim S50000x256 ![0, 1] bcast_S1x256_S50000x256_0_1),
    binary main_v319 main_v321 main_v322 addf ] ++
  fn_relu_0.ops (.of main_v322) main_call19

abbrev L3 : List (HloOp τ sig (Elt F)) := L3a ++ L3b ++ L3c

set_option maxRecDepth 8192 in
theorem L3_sub : (L3 : List (HloOp τ sig (Elt F))).Forall fun op => op.bufs ⊆ tcRefs τ sig := by
  repeat' first
    | refine ⟨?_, ?_⟩
    | with_reducible exact nullary_bufs_sub ..
    | with_reducible exact unary_bufs_sub ..
    | with_reducible exact binary_bufs_sub ..
    | with_reducible exact ternary_bufs_sub ..
    | with_reducible exact reshape_bufs_sub ..
    | show (_ : Finset (DevRef τ sig)) ⊆ _

set_option maxRecDepth 8192 in
theorem L3_fresh : (L3 : List (HloOp τ sig (Elt F))).Forall fun op => op.fresh = ∅ := by
  repeat' first | refine ⟨rfl, ?_⟩ | exact rfl

-- used to show that a layer leaves the twelve arguments as they were
set_option maxRecDepth 8192 in
theorem L3_writes : (L3 : List (HloOp τ sig (Elt F))).Forall fun op =>
    ∃ y : Ref sig .tc, op.writes = {Proc.devRef (τ := τ) .tc y} ∧ 12 ≤ y.idx.val := by
  repeat' first | refine ⟨⟨_, rfl, by decide⟩, ?_⟩ | exact ⟨_, rfl, by decide⟩

end Cert.ReferenceIdeal.RefRun

end
-- ==== Proof.RefOps4.lean ====
import proofs.«401895_j21930103014155_2_alg».proof.Proof.RefCalls

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev L4a : List (HloOp τ sig (Elt F)) :=
  [ nullary main_c_46 (constantI S_ 32 0#32),
    unary main_c_46 main_v324 (broadcastInDim S300000 ![] bcast_S_S300000),
    binary main_arg1 main_v324 main_v325 (cmpi .slt),
    nullary main_c_47 (constantI S_ 32 50000#32),
    unary main_c_47 main_v326 (broadcastInDim S300000 ![] bcast_S_S300000),
    binary main_arg1 main_v326 main_v327 addi,
    ternary main_v325 main_v327 main_arg1 main_v328 select,
    unary main_v328 main_v329 (broadcastInDim S300000x1 ![0] bcast_S300000_S300000x1_0),
    binary main_v323 main_v329 main_v330 (fun x i => Host.gather gather_S50000x256_S300000x1_S300000x256_1_0_n_n_0_1_1256 x i) ] ++
  fn_relu.ops (.of main_v330) main_call20 ++
  [ nullary main_cst_48 (constant S_ .f32 0x00000000#32),
    unary main_cst_48 main_v332 (broadcastInDim S50000x256 ![] bcast_S_S50000x256),
    unary main_arg2 main_v333 (broadcastInDim S300000x1 ![0] bcast_S300000_S300000x1_0),
    ternary main_v332 main_v333 main_v331 main_v334 (fun x i u => Host.scatterAdd scatter_S50000x256_S300000x1_S300000x256_1_0_0_1 x i u),
    unary main_arg9 main_v335 (extractStridedSlice S1 ![4] · slices_S5_S1_4),
    reshape main_v335 main_v336 rfl shapeCasts_S1_S_,
    nullary main_cst_49 (constant S_ .f32 0x3F800000#32),
    binary main_cst_49 main_v336 main_v337 addf,
    unary main_v337 main_v338 (broadcastInDim S50000x256 ![] bcast_S_S50000x256),
    binary main_v338 main_v323 main_v339 mulf,
    binary main_v339 main_v334 main_v340 addf,
    unary main_arg3 main_v341 (extractStridedSlice S1x256x256 ![4, 0, 0] · slices_S5x256x256_S1x256x256_4_0_0),
    reshape main_v341 main_v342 rfl shapeCasts_S1x256x256_S256x256,
    binary main_v340 main_v342 main_v343 (fun l r => Host.dotGeneral dot_S50000x256_S256x256_S50000x256_1_0_0_1_n_n none l r),
    unary main_arg4 main_v344 (extractStridedSlice S1x256 ![4, 0] · slices_S5x256_S1x256_4_0),
    reshape main_v344 main_v345 rfl shapeCasts_S1x256_S256,
    unary main_v345 main_v346 (broadcastInDim S1x256 ![1] bcast_S256_S1x256_1),
    unary main_v346 main_v347 (broadcastInDim S50000x256 ![0, 1] bcast_S1x256_S50000x256_0_1),
    binary main_v343 main_v347 main_v348 addf,
    unary main_arg5 main_v349 (extractStridedSlice S1x256 ![4, 0] · slices_S5x256_S1x256_4_0),
    reshape main_v349 main_v350 rfl shapeCasts_S1x256_S256,
    unary main_arg6 main_v351 (extractStridedSlice S1x256 ![4, 0] · slices_S5x256_S1x256_4_0),
    reshape main_v351 main_v352 rfl shapeCasts_S1x256_S256,
    nullary main_cst_50 (constant S_ .f32 0x00000000#32),
    binary main_v348 main_cst_50 main_v353 (fun x v => Host.reduceAdd x v reducesTo_S50000x256_S256_d0 h_S_),
    nullary main_cst_51 (constant S_ .f32 0x47435000#32),
    unary main_cst_51 main_v354 (broadcastInDim S256 ![] bcast_S_S256),
    binary main_v353 main_v354 main_v355 Host.divf,
    nullary main_c_52 (constantI S_ 32 0#32) ] ++
  fn_var.ops (.of main_v348) (.of main_c_52) main_call21 ++
  [ unary main_v355 main_v357 (broadcastInDim S1x256 ![1] bcast_S256_S1x256_1),
    unary main_v357 main_v358 (broadcastInDim S50000x256 ![0, 1] bcast_S1x256_S50000x256_0_1),
    binary main_v348 main_v358 main_v359 subf,
    nullary main_cst_53 (constant S_ .f32 0x3727C5AC#32),
    unary main_cst_53 main_v360 (broadcastInDim S256 ![] bcast_S_S256),
    binary main_v356 main_v360 main_v361 addf,
    unary main_v361 main_v362 Host.rsqrt,
    unary main_v362 main_v363 (broadcastInDim S1x256 ![1] bcast_S256_S1x256_1) ]

abbrev L4b : List (HloOp τ sig (Elt F)) :=
  [ unary main_v363 main_v364 (broadcastInDim S50000x256 ![0, 1] bcast_S1x256_S50000x256_0_1),
    binary main_v359 main_v364 main_v365 mulf,
    unary main_v350 main_v366 (broadcastInDim S1x256 ![1] bcast_S256_S1x256_1),
    unary main_v366 main_v367 (broadcastInDim S50000x256 ![0, 1] bcast_S1x256_S50000x256_0_1),
    binary main_v365 main_v367 main_v368 mulf,
    unary main_v352 main_v369 (broadcastInDim S1x256 ![1] bcast_S256_S1x256_1),
    unary main_v369 main_v370 (broadcastInDim S50000x256 ![0, 1] bcast_S1x256_S50000x256_0_1),
    binary main_v368 main_v370 main_v371 addf ] ++
  fn_relu_0.ops (.of main_v371) main_call22 ++
  [ unary main_arg7 main_v373 (extractStridedSlice S1x256x256 ![4, 0, 0] · slices_S5x256x256_S1x256x256_4_0_0),
    reshape main_v373 main_v374 rfl shapeCasts_S1x256x256_S256x256,
    binary main_v372 main_v374 main_v375 (fun l r => Host.dotGeneral dot_S50000x256_S256x256_S50000x256_1_0_0_1_n_n none l r),
    unary main_arg8 main_v376 (extractStridedSlice S1x256 ![4, 0] · slices_S5x256_S1x256_4_0),
    reshape main_v376 main_v377 rfl shapeCasts_S1x256_S256,
    unary main_v377 main_v378 (broadcastInDim S1x256 ![1] bcast_S256_S1x256_1),
    unary main_v378 main_v379 (broadcastInDim S50000x256 ![0, 1] bcast_S1x256_S50000x256_0_1),
    binary main_v375 main_v379 main_v380 addf,
    unary main_arg10 main_v381 (extractStridedSlice S1x256 ![4, 0] · slices_S5x256_S1x256_4_0),
    reshape main_v381 main_v382 rfl shapeCasts_S1x256_S256,
    unary main_arg11 main_v383 (extractStridedSlice S1x256 ![4, 0] · slices_S5x256_S1x256_4_0),
    reshape main_v383 main_v384 rfl shapeCasts_S1x256_S256,
    nullary main_cst_54 (constant S_ .f32 0x00000000#32),
    binary main_v380 main_cst_54 main_v385 (fun x v => Host.reduceAdd x v reducesTo_S50000x256_S256_d0 h_S_),
    nullary main_cst_55 (constant S_ .f32 0x47435000#32),
    unary main_cst_55 main_v386 (broadcastInDim S256 ![] bcast_S_S256),
    binary main_v385 main_v386 main_v387 Host.divf,
    nullary main_c_56 (constantI S_ 32 0#32) ] ++
  fn_var.ops (.of main_v380) (.of main_c_56) main_call23 ++
  [ unary main_v387 main_v389 (broadcastInDim S1x256 ![1] bcast_S256_S1x256_1),
    unary main_v389 main_v390 (broadcastInDim S50000x256 ![0, 1] bcast_S1x256_S50000x256_0_1),
    binary main_v380 main_v390 main_v391 subf,
    nullary main_cst_57 (constant S_ .f32 0x3727C5AC#32),
    unary main_cst_57 main_v392 (broadcastInDim S256 ![] bcast_S_S256),
    binary main_v388 main_v392 main_v393 addf,
    unary main_v393 main_v394 Host.rsqrt,
    unary main_v394 main_v395 (broadcastInDim S1x256 ![1] bcast_S256_S1x256_1),
    unary main_v395 main_v396 (broadcastInDim S50000x256 ![0, 1] bcast_S1x256_S50000x256_0_1),
    binary main_v391 main_v396 main_v397 mulf,
    unary main_v382 main_v398 (broadcastInDim S1x256 ![1] bcast_S256_S1x256_1),
    unary main_v398 main_v399 (broadcastInDim S50000x256 ![0, 1] bcast_S1x256_S50000x256_0_1),
    binary main_v397 main_v399 main_v400 mulf,
    unary main_v384 main_v401 (broadcastInDim S1x256 ![1] bcast_S256_S1x256_1),
    unary main_v401 main_v402 (broadcastInDim S50000x256 ![0, 1] bcast_S1x256_S50000x256_0_1),
    binary main_v400 main_v402 main_v403 addf ]

abbrev L4 : List (HloOp τ sig (Elt F)) := L4a ++ L4b

set_option maxRecDepth 8192 in
theorem L4_sub : (L4 : List (HloOp τ sig (Elt F))).Forall fun op => op.bufs ⊆ tcRefs τ sig := by
  repeat' first
    | refine ⟨?_, ?_⟩
    | with_reducible exact nullary_bufs_sub ..
    | with_reducible exact unary_bufs_sub ..
    | with_reducible exact binary_bufs_sub ..
    | with_reducible exact ternary_bufs_sub ..
    | with_reducible exact reshape_bufs_sub ..
    | show (_ : Finset (DevRef τ sig)) ⊆ _

set_option maxRecDepth 8192 in
theorem L4_fresh : (L4 : List (HloOp τ sig (Elt F))).Forall fun op => op.fresh = ∅ := by
  repeat' first | refine ⟨rfl, ?_⟩ | exact rfl

-- used to show that a layer leaves the twelve arguments as they were
set_option maxRecDepth 8192 in
theorem L4_writes : (L4 : List (HloOp τ sig (Elt F))).Forall fun op =>
    ∃ y : Ref sig .tc, op.writes = {Proc.devRef (τ := τ) .tc y} ∧ 12 ≤ y.idx.val := by
  repeat' first | refine ⟨⟨_, rfl, by decide⟩, ?_⟩ | exact ⟨_, rfl, by decide⟩

end Cert.ReferenceIdeal.RefRun

end
-- ==== Proof.RefRun.lean ====
import proofs.«401895_j21930103014155_2_alg».proof.Proof.RefOps0
import proofs.«401895_j21930103014155_2_alg».proof.Proof.RefOps1
import proofs.«401895_j21930103014155_2_alg».proof.Proof.RefOps2
import proofs.«401895_j21930103014155_2_alg».proof.Proof.RefOps3
import proofs.«401895_j21930103014155_2_alg».proof.Proof.RefOps4
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem part0_eq (c : Dev nD) : main_part0 (F := F) c = StableHlo.seq L0a := rfl

theorem part1_eq (c : Dev nD) : main_part1 (F := F) c = StableHlo.seq (L0b ++ L1a) := rfl

theorem part2_eq (c : Dev nD) : main_part2 (F := F) c = StableHlo.seq L1b := rfl

theorem part3_eq (c : Dev nD) : main_part3 (F := F) c = StableHlo.seq (L1c ++ L2a) := rfl

theorem part4_eq (c : Dev nD) : main_part4 (F := F) c = StableHlo.seq (L2b ++ L3a) := rfl

theorem part5_eq (c : Dev nD) : main_part5 (F := F) c = StableHlo.seq L3b := rfl

theorem part6_eq (c : Dev nD) : main_part6 (F := F) c = StableHlo.seq (L3c ++ L4a) := rfl

theorem part7_eq (c : Dev nD) : main_part7 (F := F) c = StableHlo.seq L4b := rfl

theorem main_eq (c : Dev nD) : main (F := F) c = StableHlo.seq (L0 ++ L1 ++ L2 ++ L3 ++ L4) := by
  simp only [main, part0_eq, part1_eq, part2_eq, part3_eq, part4_eq, part5_eq, part6_eq, part7_eq,
    L0, L1, L2, L3, L4, StableHlo.seq_append, bind_assoc]

theorem scopedRefs_eq : (Finset.univ.filter fun b : Ref sig .tc => b.isScoped) = ∅ := by decide
theorem scopedSems_eq : (Finset.univ.filter fun sm : SemLoc sig => sm.isScoped .tc) = ∅ := by decide

theorem ops_sub : (L0 ++ L1 ++ L2 ++ L3 ++ L4 : List (HloOp τ sig (Elt F))).Forall fun op => op.bufs ⊆ tcRefs τ sig :=
  List.forall_append.2 ⟨List.forall_append.2 ⟨List.forall_append.2 ⟨List.forall_append.2 ⟨L0_sub, L1_sub⟩, L2_sub⟩, L3_sub⟩, L4_sub⟩

theorem ops_fresh : (L0 ++ L1 ++ L2 ++ L3 ++ L4 : List (HloOp τ sig (Elt F))).Forall fun op => op.fresh = ∅ :=
  List.forall_append.2 ⟨List.forall_append.2 ⟨List.forall_append.2 ⟨List.forall_append.2 ⟨L0_fresh, L1_fresh⟩, L2_fresh⟩, L3_fresh⟩, L4_fresh⟩

theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = StableHlo.after (L0 ++ L1 ++ L2 ++ L3 ++ L4) (StableHlo.launchContents m c) (b : DevRef τ sig) :=
  run_seq scopedRefs_eq scopedSems_eq defs main (fun _ => L0 ++ L1 ++ L2 ++ L3 ++ L4) main_eq (fun _ => ops_sub) m ρ
    (fun _ => List.forall_iff_forall_mem.mp ops_fresh)

theorem after_of_writes_ge {ops : List (HloOp τ sig (Elt F))}
    (h : ops.Forall fun op => ∃ y : Ref sig .tc, op.writes = {Proc.devRef (τ := τ) .tc y} ∧ 12 ≤ y.idx.val)
    {r : Ref sig .tc} (hr : r.idx.val < 12) (V : Valuation τ sig (Elt F)) :
    StableHlo.after ops V (Proc.devRef .tc r) = V (Proc.devRef .tc r) :=
  after_of_forall_not_mem ops V fun op hop hb => by
    obtain ⟨y, hw, hy⟩ := List.forall_iff_forall_mem.mp h op hop
    rw [hw, Finset.mem_singleton] at hb
    have e : r = y := Proc.devRef_injective _ hb
    subst e
    exact absurd hy (Nat.not_le.mpr hr)

end Cert.ReferenceIdeal.RefRun

end
-- ==== Proof.RefArgs.lean ====
import proofs.«401895_j21930103014155_2_alg».proof.Proof.RefRun

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem L0_keeps {r : Ref sig .tc} (hr : r.idx.val < 12) (V : Valuation τ sig (Elt F)) :
    StableHlo.after L0 V (r : DevRef τ sig) = V (r : DevRef τ sig) := after_of_writes_ge L0_writes hr V

theorem L1_keeps {r : Ref sig .tc} (hr : r.idx.val < 12) (V : Valuation τ sig (Elt F)) :
    StableHlo.after L1 V (r : DevRef τ sig) = V (r : DevRef τ sig) := after_of_writes_ge L1_writes hr V

theorem L2_keeps {r : Ref sig .tc} (hr : r.idx.val < 12) (V : Valuation τ sig (Elt F)) :
    StableHlo.after L2 V (r : DevRef τ sig) = V (r : DevRef τ sig) := after_of_writes_ge L2_writes hr V

theorem L3_keeps {r : Ref sig .tc} (hr : r.idx.val < 12) (V : Valuation τ sig (Elt F)) :
    StableHlo.after L3 V (r : DevRef τ sig) = V (r : DevRef τ sig) := after_of_writes_ge L3_writes hr V

theorem L4_keeps {r : Ref sig .tc} (hr : r.idx.val < 12) (V : Valuation τ sig (Elt F)) :
    StableHlo.after L4 V (r : DevRef τ sig) = V (r : DevRef τ sig) := after_of_writes_ge L4_writes hr V

end Cert.ReferenceIdeal.RefRun

end
-- ==== Proof.RefFrame.lean ====
import proofs.«401895_j21930103014155_2_alg».proof.Proof.RefRun
import proofs.«401895_j21930103014155_2_alg».proof.Proof.RefArgs
import proofs.«401895_j21930103014155_2_alg».proof.Defs
import proofs.«401895_j21930103014155_2_alg».proof.Proof.Gen.Pre_finite_inputs
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem after_all (V : Valuation τ sig (Elt F)) :
    StableHlo.after (L0 ++ L1 ++ L2 ++ L3 ++ L4) V
      = StableHlo.after L4 (StableHlo.after L3 (StableHlo.after L2 (StableHlo.after L1 (StableHlo.after L0 V)))) :=
  (after_append (L0 ++ L1 ++ L2 ++ L3) L4 V).trans <| congrArg (StableHlo.after L4) <|
    (after_append (L0 ++ L1 ++ L2) L3 V).trans <| congrArg (StableHlo.after L3) <|
      (after_append (L0 ++ L1) L2 V).trans <| congrArg (StableHlo.after L2) (after_append L0 L1 V)

theorem all_keeps {r : Ref sig .tc} (hr : r.idx.val < 12) (V : Valuation τ sig (Elt F)) :
    StableHlo.after (L0 ++ L1 ++ L2 ++ L3 ++ L4) V (r : DevRef τ sig) = V (r : DevRef τ sig) := by
  rw [after_all, L4_keeps hr, L3_keeps hr, L2_keeps hr, L1_keeps hr, L0_keeps hr]

theorem frame_ref : Cert.frame_ReferenceIdeal :=
  fun m g _ => (θ_run (Cert.ReferenceIdeal.defs (F := Ideal)) _ _).mono
    (fun _ h c =>
      ⟨(h c main_arg0).trans (all_keeps (by decide) _),
       (h c main_arg1).trans (all_keeps (by decide) _),
       (h c main_arg2).trans (all_keeps (by decide) _),
       (h c main_arg3).trans (all_keeps (by decide) _),
       (h c main_arg4).trans (all_keeps (by decide) _),
       (h c main_arg5).trans (all_keeps (by decide) _),
       (h c main_arg6).trans (all_keeps (by decide) _),
       (h c main_arg7).trans (all_keeps (by decide) _),
       (h c main_arg8).trans (all_keeps (by decide) _),
       (h c main_arg9).trans (all_keeps (by decide) _),
       (h c main_arg10).trans (all_keeps (by decide) _),
       (h c main_arg11).trans (all_keeps (by decide) _)⟩)
    (run (F := Ideal) m g)

end Cert.ReferenceIdeal.RefRun

end
-- ==== Proof.KTake.lean ====
import proofs.«401895_j21930103014155_2_alg».proof.KernelIdeal
import Idealize.ShloMosaic.Lib.ValueIdx
import Idealize.ShloMosaic.Lib.Affine
import Idealize.ShloMosaic.PureOps.Reduce

noncomputable section

namespace Cert.KernelIdeal.KLayer

open Idealize.ShloMosaic
open Cert.KernelIdeal Cert.KernelIdeal.Facts₀

theorem wrap_toInt (w : BitVec 32) (h1 : (-50000 : Int) ≤ w.toInt) (h2 : w.toInt < 50000) :
    (0 : Int) ≤ (Scalar.select (IntOp.cmpi .slt w 0#32) (IntOp.addi w 50000#32) w).toInt
      ∧ (Scalar.select (IntOp.cmpi .slt w 0#32) (IntOp.addi w 50000#32) w).toInt ≤ 49999 := by
  have h0 : (0#32 : BitVec 32).toInt = 0 := by decide
  by_cases hneg : w.toInt < 0
  · have hc : IntOp.cmpi .slt w 0#32 = 1#1 := IntOp.cmpi_slt.2 (by rw [h0]; exact hneg)
    rw [hc, ValueIdx.select_one]
    have hadd : (IntOp.addi w 50000#32).toInt = w.toInt + 50000 := by
      show (w + 50000#32).toInt = _
      have h5 : (50000#32 : BitVec 32).toInt = 50000 := by decide
      rw [BitVec.toInt_add, h5, Int.bmod_eq_of_le (by omega) (by omega)]
    rw [hadd]; omega
  · have hc : ¬ IntOp.cmpi .slt w 0#32 = 1#1 := fun h => hneg (by have := IntOp.cmpi_slt.1 h; rwa [h0] at this)
    rw [ValueIdx.eq_zero_of_ne_one hc, ValueIdx.select_zero]
    omega

theorem foldl_andi_all_one {ι : Type} (f : ι → BitVec 1) (hf : ∀ n, f n = 1#1) :
    ∀ l : List ι, l.foldl (fun r n => IntOp.andi r (f n)) 1#1 = 1#1
  | [] => rfl
  | a :: l => by
    have e : IntOp.andi 1#1 1#1 = 1#1 := by decide
    rw [List.foldl_cons, hf a, e]
    exact foldl_andi_all_one f hf l

theorem reduce_andi_all_one {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1)
    (j : t.Idx) : Host.reduce IntOp.andi x init h hu j = 1#1 := by
  rw [Host.reduce_eq_foldl, hinit]
  exact foldl_andi_all_one x hx _

theorem broadcastInDim_all {α : Type} {s t : Shape} {dims : Fin s.rank → Fin t.rank} {h : s.BroadcastsInDim t dims}
    {x : s.Idx → α} {c : α} (hx : ∀ i, x i = c) (j : t.Idx) : broadcastInDim t dims h x j = c :=
  hx _

theorem select_all_one {α : Type} {s : Shape} (c : IVec s 1) (a b : s.Idx → α) (hc : ∀ i, c i = 1#1) :
    select c a b = a := by
  funext i
  rw [ValueIdx.select_apply, hc i, ValueIdx.select_one]

variable [Facts₀]

def idx (src : IVec S300000 32) : IVec S300000x1 32 :=
  have c : IVec S_ 32 := constantI S_ 32 0#32
  have v0 : IVec S300000 32 := broadcastInDim S300000 ![] bcast_S_S300000 c
  have v1 : IVec S300000 1 := cmpi .slt src v0
  have c_0 : IVec S_ 32 := constantI S_ 32 50000#32
  have v2 : IVec S300000 32 := broadcastInDim S300000 ![] bcast_S_S300000 c_0
  have v3 : IVec S300000 32 := addi src v2
  have v4 : IVec S300000 32 := select v1 v3 src
  broadcastInDim S300000x1 ![0] bcast_S300000_S300000x1_0 v4

def msgs (h : FVec Ideal S50000x256 .f32) (src : IVec S300000 32) : FVec Ideal S300000x256 .f32 :=
  have v5 : IVec S300000x1 32 := idx src
  have c_1 : IVec S1 32 := constantI S1 32 49999#32
  have c_2 : IVec S_ 32 := constantI S_ 32 0#32
  have v6 : IVec S300000x1 32 := broadcastInDim S300000x1 ![] bcast_S_S300000x1 c_2
  have v7 : IVec S300000x1 1 := cmpi .sge v5 v6
  have v8 : IVec S1x1 32 := broadcastInDim S1x1 ![1] bcast_S1_S1x1_1 c_1
  have v9 : IVec S300000x1 32 := broadcastInDim S300000x1 ![0, 1] bcast_S1x1_S300000x1_0_1 v8
  have v10 : IVec S300000x1 1 := cmpi .sle v5 v9
  have v11 : IVec S300000x1 1 := andi v7 v10
  have c_3 : IVec S_ 1 := constantI S_ 1 1#1
  have v12 : IVec S300000 1 := Host.reduce IntOp.andi v11 c_3 reducesTo_S300000x1_S300000_d1 h_S_
  have v13 : FVec Ideal S300000x256 .f32 := Host.gather gather_S50000x256_S300000x1_S300000x256_1_0_n_n_0_1_1256 h v5
  have v14 : IVec S300000x256 1 := broadcastInDim S300000x256 ![0] bcast_S300000_S300000x256_0 v12
  have cst : FVec Ideal S_ .f32 := constant (F := Ideal) S_ .f32 0x7FC00000#32
  have v15 : FVec Ideal S300000x256 .f32 := broadcastInDim S300000x256 ![] bcast_S_S300000x256 cst
  select v14 v13 v15

def agg (h : FVec Ideal S50000x256 .f32) (src dst : IVec S300000 32) : FVec Ideal S50000x256 .f32 :=
  have v0 : FVec Ideal S300000x256 .f32 := msgs h src
  have r_cst : FVec Ideal S_ .f32 := constant (F := Ideal) S_ .f32 0x00000000#32
  have r_v0 : FVec Ideal S300000x256 .f32 := broadcastInDim S300000x256 ![] bcast_S_S300000x256 r_cst
  have v1 : FVec Ideal S300000x256 .f32 := maximumf v0 r_v0
  have cst : FVec Ideal S_ .f32 := constant (F := Ideal) S_ .f32 0x00000000#32
  have v2 : FVec Ideal S50000x256 .f32 := broadcastInDim S50000x256 ![] bcast_S_S50000x256 cst
  have v3 : IVec S300000x1 32 := broadcastInDim S300000x1 ![0] bcast_S300000_S300000x1_0 dst
  Host.scatterAdd (F := Ideal) scatter_S50000x256_S300000x1_S300000x256_1_0_0_1 v2 v3 v1

theorem idx_range (src : IVec S300000 32)
    (hsrc : ∀ e : Fin 300000, (-50000 : Int) ≤ (src (ValueIdx.ix1 e)).toInt ∧ (src (ValueIdx.ix1 e)).toInt < 50000)
    (i : S300000x1.Idx) : (0 : Int) ≤ (idx src i).toInt ∧ (idx src i).toInt ≤ 49999 := by

  obtain ⟨k, hk⟩ : ∃ k : S300000.Idx,
      idx src i = Scalar.select (IntOp.cmpi .slt (src k) 0#32) (IntOp.addi (src k) 50000#32) (src k) := ⟨_, rfl⟩
  rw [hk, ValueIdx.eq_ix1 k]
  exact wrap_toInt _ (hsrc (k 0)).1 (hsrc (k 0)).2

theorem msgs_eq (h : FVec Ideal S50000x256 .f32) (src : IVec S300000 32)
    (hsrc : ∀ e : Fin 300000, (-50000 : Int) ≤ (src (ValueIdx.ix1 e)).toInt ∧ (src (ValueIdx.ix1 e)).toInt < 50000) :
    msgs h src = Host.gather gather_S50000x256_S300000x1_S300000x256_1_0_n_n_0_1_1256 h (idx src) := by
  unfold msgs
  dsimp only

  refine select_all_one _ _ _ (broadcastInDim_all (reduce_andi_all_one _ _ _ _ (fun i => ?_) rfl))
  show IntOp.andi (IntOp.cmpi .sge (idx src i) 0#32) (IntOp.cmpi .sle (idx src i) 49999#32) = 1#1
  have h0 : (0#32 : BitVec 32).toInt = 0 := by decide
  have h9 : (49999#32 : BitVec 32).toInt = 49999 := by decide
  have hi := idx_range src hsrc i
  exact IntOp.andi_eq_one.2 ⟨IntOp.cmpi_sge.2 (by rw [h0]; exact hi.1), IntOp.cmpi_sle.2 (by rw [h9]; exact hi.2)⟩

end Cert.KernelIdeal.KLayer

end
-- ==== Proof.Spec.lean ====
import Idealize.ShloMosaic.PureOps.Ideal

noncomputable section

namespace Cert.Spec

open Idealize.ShloMosaic
open scoped BigOperators

abbrev Mat (n m : ℕ) := Fin n → Fin m → EReal
abbrev Row (m : ℕ) := Fin m → EReal

def IsReal {n m : ℕ} (x : Mat n m) : Prop := ∀ p q, ∃ r : ℝ, x p q = (r : EReal)
def IsRealRow {m : ℕ} (x : Row m) : Prop := ∀ q, ∃ r : ℝ, x q = (r : EReal)

def c0 : EReal := Ideal.ofBits .f32 0x00000000#32
def c1 : EReal := Ideal.ofBits .f32 0x3F800000#32
def cN : EReal := Ideal.ofBits .f32 0x47435000#32
def cEps : EReal := Ideal.ofBits .f32 0x3727C5AC#32

def relu (x : EReal) : EReal := max x c0

-- (1 + e) · h + agg, the scale given per column.
def zpreRow (e : Row 256) (h agg : Mat 50000 256) : Mat 50000 256 := fun p k => (c1 + e k) * h p k + agg p k
def zpre (e : EReal) (h agg : Mat 50000 256) : Mat 50000 256 := zpreRow (fun _ => e) h agg

def lin (a : Mat 50000 256) (W : Mat 256 256) (b : Row 256) : Mat 50000 256 :=
  fun p q => (∑ k : Fin 256, a p k * W k q) + b q

def norm (z : Mat 50000 256) (mean var g bt : Row 256) : Mat 50000 256 :=
  fun p q => (z p q - mean q) * Ideal.rsqrt (var q + cEps) * g q + bt q

-- Tiles are 5000 consecutive rows.
def tileRow (t : Fin 10) (r : Fin 5000) : Fin 50000 := ⟨t.val * 5000 + r.val, by omega⟩

def tileSum (z : Mat 50000 256) : Mat 10 256 := fun t q => c0 + ∑ r : Fin 5000, z (tileRow t r) q
def tileSumSq (z : Mat 50000 256) : Mat 10 256 := fun t q => c0 + ∑ r : Fin 5000, z (tileRow t r) q * z (tileRow t r) q

-- Column statistics from the ten tiles' partial sums: the mean, and E[z²] − (E z)².
def meanT (ps : Mat 10 256) : Row 256 := fun q => Ideal.div (c0 + ∑ t : Fin 10, ps t q) cN
def varT (ps pss : Mat 10 256) : Row 256 := fun q => Ideal.div (c0 + ∑ t : Fin 10, pss t q) cN - meanT ps q * meanT ps q
def kmean (z : Mat 50000 256) : Row 256 := meanT (tileSum z)
def kvar (z : Mat 50000 256) : Row 256 := varT (tileSum z) (tileSumSq z)

-- Column statistics over all rows: the mean, and the mean of the centred squares.
def rmean (z : Mat 50000 256) : Row 256 := fun q => Ideal.div (c0 + ∑ p : Fin 50000, z p q) cN
def rvar (z : Mat 50000 256) : Row 256 :=
  fun q => Ideal.div (c0 + ∑ p : Fin 50000, (z p q - rmean z q) * (z p q - rmean z q)) cN

def kbn (z : Mat 50000 256) (g bt : Row 256) : Mat 50000 256 := norm z (kmean z) (kvar z) g bt
def rbn (z : Mat 50000 256) (g bt : Row 256) : Mat 50000 256 := norm z (rmean z) (rvar z) g bt

def reluM (x : Mat 50000 256) : Mat 50000 256 := fun p q => relu (x p q)

-- One layer with the tile-wise statistics; `last` leaves the final relu out.
def kLayer (last : Bool) (e : EReal) (h agg : Mat 50000 256) (W1 : Mat 256 256) (b1 g1 bt1 : Row 256)
    (W2 : Mat 256 256) (b2 bng bnb : Row 256) : Mat 50000 256 :=
  let z1 := lin (zpre e h agg) W1 b1
  let z2 := lin (reluM (kbn z1 g1 bt1)) W2 b2
  if last then kbn z2 bng bnb else reluM (kbn z2 bng bnb)

-- One layer with the whole-column statistics.
def rLayer (last : Bool) (e : EReal) (h agg : Mat 50000 256) (W1 : Mat 256 256) (b1 g1 bt1 : Row 256)
    (W2 : Mat 256 256) (b2 bng bnb : Row 256) : Mat 50000 256 :=
  let z1 := lin (zpre e h agg) W1 b1
  let z2 := lin (reluM (rbn z1 g1 bt1)) W2 b2
  if last then rbn z2 bng bnb else reluM (rbn z2 bng bnb)

end Cert.Spec

end
-- ==== Proof.KLayerRead.lean ====
import proofs.«401895_j21930103014155_2_alg».proof.KernelIdeal
import proofs.«401895_j21930103014155_2_alg».proof.Proof.Spec
import Idealize.ShloMosaic.Lib.ValueLayout
import Idealize.ShloMosaic.Lib.IdealHost

noncomputable section

namespace Cert.KernelIdeal.KLayerRead

open Idealize.ShloMosaic Idealize.ShloMosaic.ValueIdx
open Cert.KernelIdeal
open scoped BigOperators

theorem scal_read (l : Nat) (x : FVec Ideal S5 .f32) (hs : S5.Slices ![l] S1) (h1 : S1.ShapeCasts S_)
    (hb : S_.BroadcastsInDim S1x256 ![]) (i : Fin 5) (hi : i.val = l) (k : Fin 256) :
    broadcastInDim S1x256 ![] hb (shapeCast S_ (extractStridedSlice S1 ![l] x hs) h1) (ix2 0 k) = x (ix1 i) := by
  rw [broadcastInDim_scalar_apply,
    shapeCast_apply (extractStridedSlice S1 ![l] x hs) h1 ix0 (ix1 (0 : Fin 1)) rfl,
    extractStridedSlice_apply ![l] x hs (ix1 (0 : Fin 1)) (ix1 i) (fun a => by
      match a with
      | ⟨0, _⟩ => show i.val = l + 0; omega)]

theorem mat_read (l : Nat) (x : FVec Ideal S5x256x256 .f32) (hs : S5x256x256.Slices ![l, 0, 0] S1x256x256)
    (h1 : S1x256x256.ShapeCasts S256x256) (i : Fin 5) (hi : i.val = l) (k q : Fin 256) :
    shapeCast S256x256 (extractStridedSlice S1x256x256 ![l, 0, 0] x hs) h1 (ix2 k q) = x (ix3 i k q) := by
  rw [shapeCast_1ab_ab_apply,
    extractStridedSlice_apply ![l, 0, 0] x hs (ix3 (0 : Fin 1) k q) (ix3 i k q) (fun a => by
      match a with
      | ⟨0, _⟩ => show i.val = l + 0; omega
      | ⟨1, _⟩ => show k.val = 0 + k.val; omega
      | ⟨2, _⟩ => show q.val = 0 + q.val; omega)]

theorem row_read (l : Nat) (x : FVec Ideal S5x256 .f32) (hs : S5x256.Slices ![l, 0] S1x256)
    (h1 : S1x256.ShapeCasts S256) (h2 : S256.ShapeCasts S1x256) (i : Fin 5) (hi : i.val = l) (q : Fin 256) :
    shapeCast S1x256 (shapeCast S256 (extractStridedSlice S1x256 ![l, 0] x hs) h1) h2 (ix2 0 q) = x (ix2 i q) := by
  rw [shapeCast_a_1a_apply, shapeCast_1a_a_apply,
    extractStridedSlice_apply ![l, 0] x hs (ix2 (0 : Fin 1) q) (ix2 i q) (fun a => by
      match a with
      | ⟨0, _⟩ => show i.val = l + 0; omega
      | ⟨1, _⟩ => show q.val = 0 + q.val; omega)]

theorem sum10_read (ps : FVec Ideal S10x1x256 .f32) (h' : S10x1x256.ReducesTo [0] S1x256) (hu : 0 < S_.numel)
    (q : Fin 256) :
    Host.reduceAdd ps (constant (F := Ideal) S_ .f32 0x00000000#32) h' hu (ix2 0 q)
      = Spec.c0 + ∑ t : Fin 10, ps (ix3 t 0 q) := by
  have hr : S10x1x256.Reduces [0] S1x256 := by decide
  rw [hostReduceAdd_apply, Ideal.hostReduceAdd_single h' hr]
  show Spec.c0 + ∑ t : Fin 10, ps (hr.lift (ix2 0 q) t) = _
  refine congrArg (Spec.c0 + ·) (Finset.sum_congr rfl fun t _ => congrArg ps ?_)
  funext a
  match a with
  | ⟨0, _⟩ => exact Fin.ext rfl
  | ⟨1, _⟩ => exact Fin.ext rfl
  | ⟨2, _⟩ => exact Fin.ext rfl

theorem mean_read (ps : FVec Ideal S10x1x256 .f32) (h' : S10x1x256.ReducesTo [0] S1x256) (hu : 0 < S_.numel)
    (hb : S_.BroadcastsInDim S1x256 ![]) (q : Fin 256) :
    Host.divf (Host.reduceAdd ps (constant (F := Ideal) S_ .f32 0x00000000#32) h' hu)
        (broadcastInDim S1x256 ![] hb (constant (F := Ideal) S_ .f32 0x47435000#32)) (ix2 0 q)
      = Spec.meanT (fun t q => ps (ix3 t 0 q)) q := by
  rw [hostDivf_apply, sum10_read, broadcastInDim_scalar_apply]
  rfl

theorem var_read (ps pss : FVec Ideal S10x1x256 .f32) (h' : S10x1x256.ReducesTo [0] S1x256) (hu : 0 < S_.numel)
    (hb : S_.BroadcastsInDim S1x256 ![]) (q : Fin 256) :
    subf (Host.divf (Host.reduceAdd pss (constant (F := Ideal) S_ .f32 0x00000000#32) h' hu)
          (broadcastInDim S1x256 ![] hb (constant (F := Ideal) S_ .f32 0x47435000#32)))
        (mulf (Host.divf (Host.reduceAdd ps (constant (F := Ideal) S_ .f32 0x00000000#32) h' hu)
            (broadcastInDim S1x256 ![] hb (constant (F := Ideal) S_ .f32 0x47435000#32)))
          (Host.divf (Host.reduceAdd ps (constant (F := Ideal) S_ .f32 0x00000000#32) h' hu)
            (broadcastInDim S1x256 ![] hb (constant (F := Ideal) S_ .f32 0x47435000#32)))) (ix2 0 q)
      = Spec.varT (fun t q => ps (ix3 t 0 q)) (fun t q => pss (ix3 t 0 q)) q := by
  rw [subf_apply, mulf_apply, mean_read, hostDivf_apply, sum10_read, broadcastInDim_scalar_apply]
  rfl

end Cert.KernelIdeal.KLayerRead

namespace Cert.Spec

/-- A layer is a linear map, a batch norm with a second linear map, and a last batch norm, each fed by the one before. -/
theorem kLayer_of_regions {last : Bool} {e : EReal} {h agg z1 z2 hA aggA zB zC : Mat 50000 256}
    {W1 W2 W1A W2B : Mat 256 256} {b1 g1 bt1 b2 g b er b1A mB vB g1B bt1B b2B mC vC gC bC : Row 256}
    (hz1 : z1 = lin (zpreRow er hA aggA) W1A b1A) (hz2 : z2 = lin (reluM (norm zB mB vB g1B bt1B)) W2B b2B)
    (ha0 : hA = h) (ha1 : aggA = agg) (ha2 : er = fun _ => e) (ha3 : W1A = W1) (ha4 : b1A = b1)
    (hb0 : zB = z1) (hb1 : mB = kmean z1) (hb2 : vB = kvar z1) (hb3 : g1B = g1) (hb4 : bt1B = bt1)
    (hb5 : W2B = W2) (hb6 : b2B = b2)
    (hc0 : zC = z2) (hc1 : mC = kmean z2) (hc2 : vC = kvar z2) (hc3 : gC = g) (hc4 : bC = b) :
    (bif last then norm zC mC vC gC bC else reluM (norm zC mC vC gC bC))
      = kLayer last e h agg W1 b1 g1 bt1 W2 b2 g b := by
  subst_vars; cases last <;> rfl

end Cert.Spec

end
-- ==== Proof.KLayer4Host.lean ====
import proofs.«401895_j21930103014155_2_alg».proof.Proof.Gen.KernelIdeal.Launch
import proofs.«401895_j21930103014155_2_alg».proof.Proof.KTake
import proofs.«401895_j21930103014155_2_alg».proof.Proof.KLayerRead
import Idealize.ShloMosaic.Lib.StableHlo.Run

noncomputable section

namespace Cert.KernelIdeal.KLayer4

open Idealize.ShloMosaic Idealize.ShloMosaic.TcCoe Idealize.ShloMosaic.ValueIdx
open Cert.KernelIdeal Cert.KernelIdeal.Gen

variable (V : Valuation τ sig (Elt Ideal))

abbrev pre : Valuation τ sig (Elt Ideal) :=
  StableHlo.after hostOps12_2 (StableHlo.after hostOps12_1 (StableHlo.after hostOps12 V))

theorem in_at : pre V (Proc.devRef .tc main_v195) = V (Proc.devRef .tc main_v195) := by
  dsimp only [pre, hostOps12, hostOps12_1, hostOps12_2]; after_results

theorem agg_arr :
    (pre V (Proc.devRef .tc main_v200) : FVec Ideal S50000x256 .f32)
      = KLayer.agg (V (Proc.devRef .tc main_v195)) (V (Proc.devRef .tc main_arg1)) (V (Proc.devRef .tc main_arg2)) := by
  dsimp only [pre, hostOps12, hostOps12_1, hostOps12_2]
  after_results_simp <;> (try simp only [StableHlo.TRef.ofBuf, StableHlo.TRef.toBuf, cast_eq]) <;> rfl

theorem eps_at (k : Fin 256) :
    (pre V (Proc.devRef .tc main_v203) : FVec Ideal S1x256 .f32) (ix2 0 k)
      = (V (Proc.devRef .tc main_arg9) : FVec Ideal S5 .f32) (ix1 (4 : Fin 5)) := by
  dsimp only [pre, hostOps12, hostOps12_1, hostOps12_2]; after_results; exact KLayerRead.scal_read (4 : ℕ) _ _ _ _ (4 : Fin 5) rfl k

theorem w1_at (k q : Fin 256) :
    (pre V (Proc.devRef .tc main_v205) : FVec Ideal S256x256 .f32) (ix2 k q)
      = (V (Proc.devRef .tc main_arg3) : FVec Ideal S5x256x256 .f32) (ix3 (4 : Fin 5) k q) := by
  dsimp only [pre, hostOps12, hostOps12_1, hostOps12_2]; after_results; exact KLayerRead.mat_read (4 : ℕ) _ _ _ (4 : Fin 5) rfl k q

theorem b1_at (q : Fin 256) :
    (pre V (Proc.devRef .tc main_v208) : FVec Ideal S1x256 .f32) (ix2 0 q)
      = (V (Proc.devRef .tc main_arg4) : FVec Ideal S5x256 .f32) (ix2 (4 : Fin 5) q) := by
  dsimp only [pre, hostOps12, hostOps12_1, hostOps12_2]; after_results; exact KLayerRead.row_read (4 : ℕ) _ _ _ _ (4 : Fin 5) rfl q

theorem z1_at : StableHlo.after (hostOps13 (F := Ideal)) V (Proc.devRef .tc main_v209_0) = V (Proc.devRef .tc main_v209_0) := by
  dsimp only [hostOps13]; after_results

theorem mean1_at (q : Fin 256) :
    (StableHlo.after (hostOps13 (F := Ideal)) V (Proc.devRef .tc main_v213) : FVec Ideal S1x256 .f32) (ix2 0 q)
      = Spec.meanT (fun t q => (V (Proc.devRef .tc main_v209_1) : FVec Ideal S10x1x256 .f32) (ix3 t 0 q)) q := by
  dsimp only [hostOps13]; after_results; exact KLayerRead.mean_read _ _ _ _ q

theorem var1_at (q : Fin 256) :
    (StableHlo.after (hostOps13 (F := Ideal)) V (Proc.devRef .tc main_v217) : FVec Ideal S1x256 .f32) (ix2 0 q)
      = Spec.varT (fun t q => (V (Proc.devRef .tc main_v209_1) : FVec Ideal S10x1x256 .f32) (ix3 t 0 q))
          (fun t q => (V (Proc.devRef .tc main_v209_2) : FVec Ideal S10x1x256 .f32) (ix3 t 0 q)) q := by
  dsimp only [hostOps13]; after_results; exact KLayerRead.var_read _ _ _ _ _ q

theorem g1_at (q : Fin 256) :
    (StableHlo.after (hostOps13 (F := Ideal)) V (Proc.devRef .tc main_v220) : FVec Ideal S1x256 .f32) (ix2 0 q)
      = (V (Proc.devRef .tc main_arg5) : FVec Ideal S5x256 .f32) (ix2 (4 : Fin 5) q) := by
  dsimp only [hostOps13]; after_results; exact KLayerRead.row_read (4 : ℕ) _ _ _ _ (4 : Fin 5) rfl q

theorem bt1_at (q : Fin 256) :
    (StableHlo.after (hostOps13 (F := Ideal)) V (Proc.devRef .tc main_v223) : FVec Ideal S1x256 .f32) (ix2 0 q)
      = (V (Proc.devRef .tc main_arg6) : FVec Ideal S5x256 .f32) (ix2 (4 : Fin 5) q) := by
  dsimp only [hostOps13]; after_results; exact KLayerRead.row_read (4 : ℕ) _ _ _ _ (4 : Fin 5) rfl q

theorem w2_at (k q : Fin 256) :
    (StableHlo.after (hostOps13 (F := Ideal)) V (Proc.devRef .tc main_v225) : FVec Ideal S256x256 .f32) (ix2 k q)
      = (V (Proc.devRef .tc main_arg7) : FVec Ideal S5x256x256 .f32) (ix3 (4 : Fin 5) k q) := by
  dsimp only [hostOps13]; after_results; exact KLayerRead.mat_read (4 : ℕ) _ _ _ (4 : Fin 5) rfl k q

theorem b2_at (q : Fin 256) :
    (StableHlo.after (hostOps13 (F := Ideal)) V (Proc.devRef .tc main_v228) : FVec Ideal S1x256 .f32) (ix2 0 q)
      = (V (Proc.devRef .tc main_arg8) : FVec Ideal S5x256 .f32) (ix2 (4 : Fin 5) q) := by
  dsimp only [hostOps13]; after_results; exact KLayerRead.row_read (4 : ℕ) _ _ _ _ (4 : Fin 5) rfl q

theorem z2_at : StableHlo.after (hostOps14 (F := Ideal)) V (Proc.devRef .tc main_v229_0) = V (Proc.devRef .tc main_v229_0) := by
  dsimp only [hostOps14]; after_results

theorem mean2_at (q : Fin 256) :
    (StableHlo.after (hostOps14 (F := Ideal)) V (Proc.devRef .tc main_v233) : FVec Ideal S1x256 .f32) (ix2 0 q)
      = Spec.meanT (fun t q => (V (Proc.devRef .tc main_v229_1) : FVec Ideal S10x1x256 .f32) (ix3 t 0 q)) q := by
  dsimp only [hostOps14]; after_results; exact KLayerRead.mean_read _ _ _ _ q

theorem var2_at (q : Fin 256) :
    (StableHlo.after (hostOps14 (F := Ideal)) V (Proc.devRef .tc main_v237) : FVec Ideal S1x256 .f32) (ix2 0 q)
      = Spec.varT (fun t q => (V (Proc.devRef .tc main_v229_1) : FVec Ideal S10x1x256 .f32) (ix3 t 0 q))
          (fun t q => (V (Proc.devRef .tc main_v229_2) : FVec Ideal S10x1x256 .f32) (ix3 t 0 q)) q := by
  dsimp only [hostOps14]; after_results; exact KLayerRead.var_read _ _ _ _ _ q

theorem bng_at (q : Fin 256) :
    (StableHlo.after (hostOps14 (F := Ideal)) V (Proc.devRef .tc main_v240) : FVec Ideal S1x256 .f32) (ix2 0 q)
      = (V (Proc.devRef .tc main_arg10) : FVec Ideal S5x256 .f32) (ix2 (4 : Fin 5) q) := by
  dsimp only [hostOps14]; after_results; exact KLayerRead.row_read (4 : ℕ) _ _ _ _ (4 : Fin 5) rfl q

theorem bnb_at (q : Fin 256) :
    (StableHlo.after (hostOps14 (F := Ideal)) V (Proc.devRef .tc main_v243) : FVec Ideal S1x256 .f32) (ix2 0 q)
      = (V (Proc.devRef .tc main_arg11) : FVec Ideal S5x256 .f32) (ix2 (4 : Fin 5) q) := by
  dsimp only [hostOps14]; after_results; exact KLayerRead.row_read (4 : ℕ) _ _ _ _ (4 : Fin 5) rfl q

/-- The index vectors and the stacked parameters. -/
abbrev pars : List (Ref sig .tc) :=
  [main_arg1, main_arg2, main_arg3, main_arg4, main_arg5, main_arg6, main_arg7, main_arg8, main_arg9, main_arg10, main_arg11]

local macro "keeps_tac" : tactic => `(tactic|
  (intro r hr
   refine StableHlo.after_of_forall_not_mem _ _ (List.forall_iff_forall_mem.mp ?_)
   simp only [hostOps12, hostOps12_1, hostOps12_2, hostOps13, hostOps14, List.Forall, StableHlo.nullary_writes,
     StableHlo.unary_writes, StableHlo.binary_writes, StableHlo.ternary_writes, StableHlo.reshape_writes,
     Finset.mem_singleton, (Proc.devRef_injective _).eq_iff]
   revert r; decide))

theorem keeps_a : ∀ r ∈ pars, StableHlo.after (hostOps12 (F := Ideal)) V (Proc.devRef .tc r) = V (Proc.devRef .tc r) := by keeps_tac
theorem keeps_b : ∀ r ∈ pars, StableHlo.after (hostOps12_1 (F := Ideal)) V (Proc.devRef .tc r) = V (Proc.devRef .tc r) := by keeps_tac
theorem keeps_c : ∀ r ∈ pars, StableHlo.after (hostOps12_2 (F := Ideal)) V (Proc.devRef .tc r) = V (Proc.devRef .tc r) := by keeps_tac
theorem keeps_d : ∀ r ∈ pars, StableHlo.after (hostOps13 (F := Ideal)) V (Proc.devRef .tc r) = V (Proc.devRef .tc r) := by keeps_tac
theorem keeps_e : ∀ r ∈ pars, StableHlo.after (hostOps14 (F := Ideal)) V (Proc.devRef .tc r) = V (Proc.devRef .tc r) := by keeps_tac

theorem keeps_pre (r : Ref sig .tc) (hr : r ∈ pars) : pre V (Proc.devRef .tc r) = V (Proc.devRef .tc r) :=
  (keeps_c _ r hr).trans ((keeps_b _ r hr).trans (keeps_a V r hr))

end Cert.KernelIdeal.KLayer4

end
-- ==== Proof.KLayer3Host.lean ====
import proofs.«401895_j21930103014155_2_alg».proof.Proof.Gen.KernelIdeal.Launch
import proofs.«401895_j21930103014155_2_alg».proof.Proof.KTake
import proofs.«401895_j21930103014155_2_alg».proof.Proof.KLayerRead
import Idealize.ShloMosaic.Lib.StableHlo.Run

noncomputable section

namespace Cert.KernelIdeal.KLayer3

open Idealize.ShloMosaic Idealize.ShloMosaic.TcCoe Idealize.ShloMosaic.ValueIdx
open Cert.KernelIdeal Cert.KernelIdeal.Gen

variable (V : Valuation τ sig (Elt Ideal))

abbrev pre : Valuation τ sig (Elt Ideal) :=
  StableHlo.after hostOps9_2 (StableHlo.after hostOps9_1 (StableHlo.after hostOps9 V))

theorem in_at : pre V (Proc.devRef .tc main_v146) = V (Proc.devRef .tc main_v146) := by
  dsimp only [pre, hostOps9, hostOps9_1, hostOps9_2]; after_results

theorem agg_arr :
    (pre V (Proc.devRef .tc main_v151) : FVec Ideal S50000x256 .f32)
      = KLayer.agg (V (Proc.devRef .tc main_v146)) (V (Proc.devRef .tc main_arg1)) (V (Proc.devRef .tc main_arg2)) := by
  dsimp only [pre, hostOps9, hostOps9_1, hostOps9_2]
  after_results_simp <;> (try simp only [StableHlo.TRef.ofBuf, StableHlo.TRef.toBuf, cast_eq]) <;> rfl

theorem eps_at (k : Fin 256) :
    (pre V (Proc.devRef .tc main_v154) : FVec Ideal S1x256 .f32) (ix2 0 k)
      = (V (Proc.devRef .tc main_arg9) : FVec Ideal S5 .f32) (ix1 (3 : Fin 5)) := by
  dsimp only [pre, hostOps9, hostOps9_1, hostOps9_2]; after_results; exact KLayerRead.scal_read (3 : ℕ) _ _ _ _ (3 : Fin 5) rfl k

theorem w1_at (k q : Fin 256) :
    (pre V (Proc.devRef .tc main_v156) : FVec Ideal S256x256 .f32) (ix2 k q)
      = (V (Proc.devRef .tc main_arg3) : FVec Ideal S5x256x256 .f32) (ix3 (3 : Fin 5) k q) := by
  dsimp only [pre, hostOps9, hostOps9_1, hostOps9_2]; after_results; exact KLayerRead.mat_read (3 : ℕ) _ _ _ (3 : Fin 5) rfl k q

theorem b1_at (q : Fin 256) :
    (pre V (Proc.devRef .tc main_v159) : FVec Ideal S1x256 .f32) (ix2 0 q)
      = (V (Proc.devRef .tc main_arg4) : FVec Ideal S5x256 .f32) (ix2 (3 : Fin 5) q) := by
  dsimp only [pre, hostOps9, hostOps9_1, hostOps9_2]; after_results; exact KLayerRead.row_read (3 : ℕ) _ _ _ _ (3 : Fin 5) rfl q

theorem z1_at : StableHlo.after (hostOps10 (F := Ideal)) V (Proc.devRef .tc main_v160_0) = V (Proc.devRef .tc main_v160_0) := by
  dsimp only [hostOps10]; after_results

theorem mean1_at (q : Fin 256) :
    (StableHlo.after (hostOps10 (F := Ideal)) V (Proc.devRef .tc main_v164) : FVec Ideal S1x256 .f32) (ix2 0 q)
      = Spec.meanT (fun t q => (V (Proc.devRef .tc main_v160_1) : FVec Ideal S10x1x256 .f32) (ix3 t 0 q)) q := by
  dsimp only [hostOps10]; after_results; exact KLayerRead.mean_read _ _ _ _ q

theorem var1_at (q : Fin 256) :
    (StableHlo.after (hostOps10 (F := Ideal)) V (Proc.devRef .tc main_v168) : FVec Ideal S1x256 .f32) (ix2 0 q)
      = Spec.varT (fun t q => (V (Proc.devRef .tc main_v160_1) : FVec Ideal S10x1x256 .f32) (ix3 t 0 q))
          (fun t q => (V (Proc.devRef .tc main_v160_2) : FVec Ideal S10x1x256 .f32) (ix3 t 0 q)) q := by
  dsimp only [hostOps10]; after_results; exact KLayerRead.var_read _ _ _ _ _ q

theorem g1_at (q : Fin 256) :
    (StableHlo.after (hostOps10 (F := Ideal)) V (Proc.devRef .tc main_v171) : FVec Ideal S1x256 .f32) (ix2 0 q)
      = (V (Proc.devRef .tc main_arg5) : FVec Ideal S5x256 .f32) (ix2 (3 : Fin 5) q) := by
  dsimp only [hostOps10]; after_results; exact KLayerRead.row_read (3 : ℕ) _ _ _ _ (3 : Fin 5) rfl q

theorem bt1_at (q : Fin 256) :
    (StableHlo.after (hostOps10 (F := Ideal)) V (Proc.devRef .tc main_v174) : FVec Ideal S1x256 .f32) (ix2 0 q)
      = (V (Proc.devRef .tc main_arg6) : FVec Ideal S5x256 .f32) (ix2 (3 : Fin 5) q) := by
  dsimp only [hostOps10]; after_results; exact KLayerRead.row_read (3 : ℕ) _ _ _ _ (3 : Fin 5) rfl q

theorem w2_at (k q : Fin 256) :
    (StableHlo.after (hostOps10 (F := Ideal)) V (Proc.devRef .tc main_v176) : FVec Ideal S256x256 .f32) (ix2 k q)
      = (V (Proc.devRef .tc main_arg7) : FVec Ideal S5x256x256 .f32) (ix3 (3 : Fin 5) k q) := by
  dsimp only [hostOps10]; after_results; exact KLayerRead.mat_read (3 : ℕ) _ _ _ (3 : Fin 5) rfl k q

theorem b2_at (q : Fin 256) :
    (StableHlo.after (hostOps10 (F := Ideal)) V (Proc.devRef .tc main_v179) : FVec Ideal S1x256 .f32) (ix2 0 q)
      = (V (Proc.devRef .tc main_arg8) : FVec Ideal S5x256 .f32) (ix2 (3 : Fin 5) q) := by
  dsimp only [hostOps10]; after_results; exact KLayerRead.row_read (3 : ℕ) _ _ _ _ (3 : Fin 5) rfl q

theorem z2_at : StableHlo.after (hostOps11 (F := Ideal)) V (Proc.devRef .tc main_v180_0) = V (Proc.devRef .tc main_v180_0) := by
  dsimp only [hostOps11]; after_results

theorem mean2_at (q : Fin 256) :
    (StableHlo.after (hostOps11 (F := Ideal)) V (Proc.devRef .tc main_v184) : FVec Ideal S1x256 .f32) (ix2 0 q)
      = Spec.meanT (fun t q => (V (Proc.devRef .tc main_v180_1) : FVec Ideal S10x1x256 .f32) (ix3 t 0 q)) q := by
  dsimp only [hostOps11]; after_results; exact KLayerRead.mean_read _ _ _ _ q

theorem var2_at (q : Fin 256) :
    (StableHlo.after (hostOps11 (F := Ideal)) V (Proc.devRef .tc main_v188) : FVec Ideal S1x256 .f32) (ix2 0 q)
      = Spec.varT (fun t q => (V (Proc.devRef .tc main_v180_1) : FVec Ideal S10x1x256 .f32) (ix3 t 0 q))
          (fun t q => (V (Proc.devRef .tc main_v180_2) : FVec Ideal S10x1x256 .f32) (ix3 t 0 q)) q := by
  dsimp only [hostOps11]; after_results; exact KLayerRead.var_read _ _ _ _ _ q

theorem bng_at (q : Fin 256) :
    (StableHlo.after (hostOps11 (F := Ideal)) V (Proc.devRef .tc main_v191) : FVec Ideal S1x256 .f32) (ix2 0 q)
      = (V (Proc.devRef .tc main_arg10) : FVec Ideal S5x256 .f32) (ix2 (3 : Fin 5) q) := by
  dsimp only [hostOps11]; after_results; exact KLayerRead.row_read (3 : ℕ) _ _ _ _ (3 : Fin 5) rfl q

theorem bnb_at (q : Fin 256) :
    (StableHlo.after (hostOps11 (F := Ideal)) V (Proc.devRef .tc main_v194) : FVec Ideal S1x256 .f32) (ix2 0 q)
      = (V (Proc.devRef .tc main_arg11) : FVec Ideal S5x256 .f32) (ix2 (3 : Fin 5) q) := by
  dsimp only [hostOps11]; after_results; exact KLayerRead.row_read (3 : ℕ) _ _ _ _ (3 : Fin 5) rfl q

/-- The index vectors and the stacked parameters. -/
abbrev pars : List (Ref sig .tc) :=
  [main_arg1, main_arg2, main_arg3, main_arg4, main_arg5, main_arg6, main_arg7, main_arg8, main_arg9, main_arg10, main_arg11]

local macro "keeps_tac" : tactic => `(tactic|
  (intro r hr
   refine StableHlo.after_of_forall_not_mem _ _ (List.forall_iff_forall_mem.mp ?_)
   simp only [hostOps9, hostOps9_1, hostOps9_2, hostOps10, hostOps11, List.Forall, StableHlo.nullary_writes,
     StableHlo.unary_writes, StableHlo.binary_writes, StableHlo.ternary_writes, StableHlo.reshape_writes,
     Finset.mem_singleton, (Proc.devRef_injective _).eq_iff]
   revert r; decide))

theorem keeps_a : ∀ r ∈ pars, StableHlo.after (hostOps9 (F := Ideal)) V (Proc.devRef .tc r) = V (Proc.devRef .tc r) := by keeps_tac
theorem keeps_b : ∀ r ∈ pars, StableHlo.after (hostOps9_1 (F := Ideal)) V (Proc.devRef .tc r) = V (Proc.devRef .tc r) := by keeps_tac
theorem keeps_c : ∀ r ∈ pars, StableHlo.after (hostOps9_2 (F := Ideal)) V (Proc.devRef .tc r) = V (Proc.devRef .tc r) := by keeps_tac
theorem keeps_d : ∀ r ∈ pars, StableHlo.after (hostOps10 (F := Ideal)) V (Proc.devRef .tc r) = V (Proc.devRef .tc r) := by keeps_tac
theorem keeps_e : ∀ r ∈ pars, StableHlo.after (hostOps11 (F := Ideal)) V (Proc.devRef .tc r) = V (Proc.devRef .tc r) := by keeps_tac

theorem keeps_pre (r : Ref sig .tc) (hr : r ∈ pars) : pre V (Proc.devRef .tc r) = V (Proc.devRef .tc r) :=
  (keeps_c _ r hr).trans ((keeps_b _ r hr).trans (keeps_a V r hr))

end Cert.KernelIdeal.KLayer3

end
-- ==== Proof.KLayer2Host.lean ====
import proofs.«401895_j21930103014155_2_alg».proof.Proof.Gen.KernelIdeal.Launch
import proofs.«401895_j21930103014155_2_alg».proof.Proof.KTake
import proofs.«401895_j21930103014155_2_alg».proof.Proof.KLayerRead
import Idealize.ShloMosaic.Lib.StableHlo.Run

noncomputable section

namespace Cert.KernelIdeal.KLayer2

open Idealize.ShloMosaic Idealize.ShloMosaic.TcCoe Idealize.ShloMosaic.ValueIdx
open Cert.KernelIdeal Cert.KernelIdeal.Gen

variable (V : Valuation τ sig (Elt Ideal))

abbrev pre : Valuation τ sig (Elt Ideal) :=
  StableHlo.after hostOps6_2 (StableHlo.after hostOps6_1 (StableHlo.after hostOps6 V))

theorem in_at : pre V (Proc.devRef .tc main_v97) = V (Proc.devRef .tc main_v97) := by
  dsimp only [pre, hostOps6, hostOps6_1, hostOps6_2]; after_results

theorem agg_arr :
    (pre V (Proc.devRef .tc main_v102) : FVec Ideal S50000x256 .f32)
      = KLayer.agg (V (Proc.devRef .tc main_v97)) (V (Proc.devRef .tc main_arg1)) (V (Proc.devRef .tc main_arg2)) := by
  dsimp only [pre, hostOps6, hostOps6_1, hostOps6_2]
  after_results_simp <;> (try simp only [StableHlo.TRef.ofBuf, StableHlo.TRef.toBuf, cast_eq]) <;> rfl

theorem eps_at (k : Fin 256) :
    (pre V (Proc.devRef .tc main_v105) : FVec Ideal S1x256 .f32) (ix2 0 k)
      = (V (Proc.devRef .tc main_arg9) : FVec Ideal S5 .f32) (ix1 (2 : Fin 5)) := by
  dsimp only [pre, hostOps6, hostOps6_1, hostOps6_2]; after_results; exact KLayerRead.scal_read (2 : ℕ) _ _ _ _ (2 : Fin 5) rfl k

theorem w1_at (k q : Fin 256) :
    (pre V (Proc.devRef .tc main_v107) : FVec Ideal S256x256 .f32) (ix2 k q)
      = (V (Proc.devRef .tc main_arg3) : FVec Ideal S5x256x256 .f32) (ix3 (2 : Fin 5) k q) := by
  dsimp only [pre, hostOps6, hostOps6_1, hostOps6_2]; after_results; exact KLayerRead.mat_read (2 : ℕ) _ _ _ (2 : Fin 5) rfl k q

theorem b1_at (q : Fin 256) :
    (pre V (Proc.devRef .tc main_v110) : FVec Ideal S1x256 .f32) (ix2 0 q)
      = (V (Proc.devRef .tc main_arg4) : FVec Ideal S5x256 .f32) (ix2 (2 : Fin 5) q) := by
  dsimp only [pre, hostOps6, hostOps6_1, hostOps6_2]; after_results; exact KLayerRead.row_read (2 : ℕ) _ _ _ _ (2 : Fin 5) rfl q

theorem z1_at : StableHlo.after (hostOps7 (F := Ideal)) V (Proc.devRef .tc main_v111_0) = V (Proc.devRef .tc main_v111_0) := by
  dsimp only [hostOps7]; after_results

theorem mean1_at (q : Fin 256) :
    (StableHlo.after (hostOps7 (F := Ideal)) V (Proc.devRef .tc main_v115) : FVec Ideal S1x256 .f32) (ix2 0 q)
      = Spec.meanT (fun t q => (V (Proc.devRef .tc main_v111_1) : FVec Ideal S10x1x256 .f32) (ix3 t 0 q)) q := by
  dsimp only [hostOps7]; after_results; exact KLayerRead.mean_read _ _ _ _ q

theorem var1_at (q : Fin 256) :
    (StableHlo.after (hostOps7 (F := Ideal)) V (Proc.devRef .tc main_v119) : FVec Ideal S1x256 .f32) (ix2 0 q)
      = Spec.varT (fun t q => (V (Proc.devRef .tc main_v111_1) : FVec Ideal S10x1x256 .f32) (ix3 t 0 q))
          (fun t q => (V (Proc.devRef .tc main_v111_2) : FVec Ideal S10x1x256 .f32) (ix3 t 0 q)) q := by
  dsimp only [hostOps7]; after_results; exact KLayerRead.var_read _ _ _ _ _ q

theorem g1_at (q : Fin 256) :
    (StableHlo.after (hostOps7 (F := Ideal)) V (Proc.devRef .tc main_v122) : FVec Ideal S1x256 .f32) (ix2 0 q)
      = (V (Proc.devRef .tc main_arg5) : FVec Ideal S5x256 .f32) (ix2 (2 : Fin 5) q) := by
  dsimp only [hostOps7]; after_results; exact KLayerRead.row_read (2 : ℕ) _ _ _ _ (2 : Fin 5) rfl q

theorem bt1_at (q : Fin 256) :
    (StableHlo.after (hostOps7 (F := Ideal)) V (Proc.devRef .tc main_v125) : FVec Ideal S1x256 .f32) (ix2 0 q)
      = (V (Proc.devRef .tc main_arg6) : FVec Ideal S5x256 .f32) (ix2 (2 : Fin 5) q) := by
  dsimp only [hostOps7]; after_results; exact KLayerRead.row_read (2 : ℕ) _ _ _ _ (2 : Fin 5) rfl q

theorem w2_at (k q : Fin 256) :
    (StableHlo.after (hostOps7 (F := Ideal)) V (Proc.devRef .tc main_v127) : FVec Ideal S256x256 .f32) (ix2 k q)
      = (V (Proc.devRef .tc main_arg7) : FVec Ideal S5x256x256 .f32) (ix3 (2 : Fin 5) k q) := by
  dsimp only [hostOps7]; after_results; exact KLayerRead.mat_read (2 : ℕ) _ _ _ (2 : Fin 5) rfl k q

theorem b2_at (q : Fin 256) :
    (StableHlo.after (hostOps7 (F := Ideal)) V (Proc.devRef .tc main_v130) : FVec Ideal S1x256 .f32) (ix2 0 q)
      = (V (Proc.devRef .tc main_arg8) : FVec Ideal S5x256 .f32) (ix2 (2 : Fin 5) q) := by
  dsimp only [hostOps7]; after_results; exact KLayerRead.row_read (2 : ℕ) _ _ _ _ (2 : Fin 5) rfl q

theorem z2_at : StableHlo.after (hostOps8 (F := Ideal)) V (Proc.devRef .tc main_v131_0) = V (Proc.devRef .tc main_v131_0) := by
  dsimp only [hostOps8]; after_results

theorem mean2_at (q : Fin 256) :
    (StableHlo.after (hostOps8 (F := Ideal)) V (Proc.devRef .tc main_v135) : FVec Ideal S1x256 .f32) (ix2 0 q)
      = Spec.meanT (fun t q => (V (Proc.devRef .tc main_v131_1) : FVec Ideal S10x1x256 .f32) (ix3 t 0 q)) q := by
  dsimp only [hostOps8]; after_results; exact KLayerRead.mean_read _ _ _ _ q

theorem var2_at (q : Fin 256) :
    (StableHlo.after (hostOps8 (F := Ideal)) V (Proc.devRef .tc main_v139) : FVec Ideal S1x256 .f32) (ix2 0 q)
      = Spec.varT (fun t q => (V (Proc.devRef .tc main_v131_1) : FVec Ideal S10x1x256 .f32) (ix3 t 0 q))
          (fun t q => (V (Proc.devRef .tc main_v131_2) : FVec Ideal S10x1x256 .f32) (ix3 t 0 q)) q := by
  dsimp only [hostOps8]; after_results; exact KLayerRead.var_read _ _ _ _ _ q

theorem bng_at (q : Fin 256) :
    (StableHlo.after (hostOps8 (F := Ideal)) V (Proc.devRef .tc main_v142) : FVec Ideal S1x256 .f32) (ix2 0 q)
      = (V (Proc.devRef .tc main_arg10) : FVec Ideal S5x256 .f32) (ix2 (2 : Fin 5) q) := by
  dsimp only [hostOps8]; after_results; exact KLayerRead.row_read (2 : ℕ) _ _ _ _ (2 : Fin 5) rfl q

theorem bnb_at (q : Fin 256) :
    (StableHlo.after (hostOps8 (F := Ideal)) V (Proc.devRef .tc main_v145) : FVec Ideal S1x256 .f32) (ix2 0 q)
      = (V (Proc.devRef .tc main_arg11) : FVec Ideal S5x256 .f32) (ix2 (2 : Fin 5) q) := by
  dsimp only [hostOps8]; after_results; exact KLayerRead.row_read (2 : ℕ) _ _ _ _ (2 : Fin 5) rfl q

/-- The index vectors and the stacked parameters. -/
abbrev pars : List (Ref sig .tc) :=
  [main_arg1, main_arg2, main_arg3, main_arg4, main_arg5, main_arg6, main_arg7, main_arg8, main_arg9, main_arg10, main_arg11]

local macro "keeps_tac" : tactic => `(tactic|
  (intro r hr
   refine StableHlo.after_of_forall_not_mem _ _ (List.forall_iff_forall_mem.mp ?_)
   simp only [hostOps6, hostOps6_1, hostOps6_2, hostOps7, hostOps8, List.Forall, StableHlo.nullary_writes,
     StableHlo.unary_writes, StableHlo.binary_writes, StableHlo.ternary_writes, StableHlo.reshape_writes,
     Finset.mem_singleton, (Proc.devRef_injective _).eq_iff]
   revert r; decide))

theorem keeps_a : ∀ r ∈ pars, StableHlo.after (hostOps6 (F := Ideal)) V (Proc.devRef .tc r) = V (Proc.devRef .tc r) := by keeps_tac
theorem keeps_b : ∀ r ∈ pars, StableHlo.after (hostOps6_1 (F := Ideal)) V (Proc.devRef .tc r) = V (Proc.devRef .tc r) := by keeps_tac
theorem keeps_c : ∀ r ∈ pars, StableHlo.after (hostOps6_2 (F := Ideal)) V (Proc.devRef .tc r) = V (Proc.devRef .tc r) := by keeps_tac
theorem keeps_d : ∀ r ∈ pars, StableHlo.after (hostOps7 (F := Ideal)) V (Proc.devRef .tc r) = V (Proc.devRef .tc r) := by keeps_tac
theorem keeps_e : ∀ r ∈ pars, StableHlo.after (hostOps8 (F := Ideal)) V (Proc.devRef .tc r) = V (Proc.devRef .tc r) := by keeps_tac

theorem keeps_pre (r : Ref sig .tc) (hr : r ∈ pars) : pre V (Proc.devRef .tc r) = V (Proc.devRef .tc r) :=
  (keeps_c _ r hr).trans ((keeps_b _ r hr).trans (keeps_a V r hr))

end Cert.KernelIdeal.KLayer2

end
-- ==== Proof.KLayer1Host.lean ====
import proofs.«401895_j21930103014155_2_alg».proof.Proof.Gen.KernelIdeal.Launch
import proofs.«401895_j21930103014155_2_alg».proof.Proof.KTake
import proofs.«401895_j21930103014155_2_alg».proof.Proof.KLayerRead
import Idealize.ShloMosaic.Lib.StableHlo.Run

noncomputable section

namespace Cert.KernelIdeal.KLayer1

open Idealize.ShloMosaic Idealize.ShloMosaic.TcCoe Idealize.ShloMosaic.ValueIdx
open Cert.KernelIdeal Cert.KernelIdeal.Gen

variable (V : Valuation τ sig (Elt Ideal))

abbrev pre : Valuation τ sig (Elt Ideal) :=
  StableHlo.after hostOps3_2 (StableHlo.after hostOps3_1 (StableHlo.after hostOps3 V))

theorem in_at : pre V (Proc.devRef .tc main_v48) = V (Proc.devRef .tc main_v48) := by
  dsimp only [pre, hostOps3, hostOps3_1, hostOps3_2]; after_results

theorem agg_arr :
    (pre V (Proc.devRef .tc main_v53) : FVec Ideal S50000x256 .f32)
      = KLayer.agg (V (Proc.devRef .tc main_v48)) (V (Proc.devRef .tc main_arg1)) (V (Proc.devRef .tc main_arg2)) := by
  dsimp only [pre, hostOps3, hostOps3_1, hostOps3_2]
  after_results_simp <;> (try simp only [StableHlo.TRef.ofBuf, StableHlo.TRef.toBuf, cast_eq]) <;> rfl

theorem eps_at (k : Fin 256) :
    (pre V (Proc.devRef .tc main_v56) : FVec Ideal S1x256 .f32) (ix2 0 k)
      = (V (Proc.devRef .tc main_arg9) : FVec Ideal S5 .f32) (ix1 (1 : Fin 5)) := by
  dsimp only [pre, hostOps3, hostOps3_1, hostOps3_2]; after_results; exact KLayerRead.scal_read (1 : ℕ) _ _ _ _ (1 : Fin 5) rfl k

theorem w1_at (k q : Fin 256) :
    (pre V (Proc.devRef .tc main_v58) : FVec Ideal S256x256 .f32) (ix2 k q)
      = (V (Proc.devRef .tc main_arg3) : FVec Ideal S5x256x256 .f32) (ix3 (1 : Fin 5) k q) := by
  dsimp only [pre, hostOps3, hostOps3_1, hostOps3_2]; after_results; exact KLayerRead.mat_read (1 : ℕ) _ _ _ (1 : Fin 5) rfl k q

theorem b1_at (q : Fin 256) :
    (pre V (Proc.devRef .tc main_v61) : FVec Ideal S1x256 .f32) (ix2 0 q)
      = (V (Proc.devRef .tc main_arg4) : FVec Ideal S5x256 .f32) (ix2 (1 : Fin 5) q) := by
  dsimp only [pre, hostOps3, hostOps3_1, hostOps3_2]; after_results; exact KLayerRead.row_read (1 : ℕ) _ _ _ _ (1 : Fin 5) rfl q

theorem z1_at : StableHlo.after (hostOps4 (F := Ideal)) V (Proc.devRef .tc main_v62_0) = V (Proc.devRef .tc main_v62_0) := by
  dsimp only [hostOps4]; after_results

theorem mean1_at (q : Fin 256) :
    (StableHlo.after (hostOps4 (F := Ideal)) V (Proc.devRef .tc main_v66) : FVec Ideal S1x256 .f32) (ix2 0 q)
      = Spec.meanT (fun t q => (V (Proc.devRef .tc main_v62_1) : FVec Ideal S10x1x256 .f32) (ix3 t 0 q)) q := by
  dsimp only [hostOps4]; after_results; exact KLayerRead.mean_read _ _ _ _ q

theorem var1_at (q : Fin 256) :
    (StableHlo.after (hostOps4 (F := Ideal)) V (Proc.devRef .tc main_v70) : FVec Ideal S1x256 .f32) (ix2 0 q)
      = Spec.varT (fun t q => (V (Proc.devRef .tc main_v62_1) : FVec Ideal S10x1x256 .f32) (ix3 t 0 q))
          (fun t q => (V (Proc.devRef .tc main_v62_2) : FVec Ideal S10x1x256 .f32) (ix3 t 0 q)) q := by
  dsimp only [hostOps4]; after_results; exact KLayerRead.var_read _ _ _ _ _ q

theorem g1_at (q : Fin 256) :
    (StableHlo.after (hostOps4 (F := Ideal)) V (Proc.devRef .tc main_v73) : FVec Ideal S1x256 .f32) (ix2 0 q)
      = (V (Proc.devRef .tc main_arg5) : FVec Ideal S5x256 .f32) (ix2 (1 : Fin 5) q) := by
  dsimp only [hostOps4]; after_results; exact KLayerRead.row_read (1 : ℕ) _ _ _ _ (1 : Fin 5) rfl q

theorem bt1_at (q : Fin 256) :
    (StableHlo.after (hostOps4 (F := Ideal)) V (Proc.devRef .tc main_v76) : FVec Ideal S1x256 .f32) (ix2 0 q)
      = (V (Proc.devRef .tc main_arg6) : FVec Ideal S5x256 .f32) (ix2 (1 : Fin 5) q) := by
  dsimp only [hostOps4]; after_results; exact KLayerRead.row_read (1 : ℕ) _ _ _ _ (1 : Fin 5) rfl q

theorem w2_at (k q : Fin 256) :
    (StableHlo.after (hostOps4 (F := Ideal)) V (Proc.devRef .tc main_v78) : FVec Ideal S256x256 .f32) (ix2 k q)
      = (V (Proc.devRef .tc main_arg7) : FVec Ideal S5x256x256 .f32) (ix3 (1 : Fin 5) k q) := by
  dsimp only [hostOps4]; after_results; exact KLayerRead.mat_read (1 : ℕ) _ _ _ (1 : Fin 5) rfl k q

theorem b2_at (q : Fin 256) :
    (StableHlo.after (hostOps4 (F := Ideal)) V (Proc.devRef .tc main_v81) : FVec Ideal S1x256 .f32) (ix2 0 q)
      = (V (Proc.devRef .tc main_arg8) : FVec Ideal S5x256 .f32) (ix2 (1 : Fin 5) q) := by
  dsimp only [hostOps4]; after_results; exact KLayerRead.row_read (1 : ℕ) _ _ _ _ (1 : Fin 5) rfl q

theorem z2_at : StableHlo.after (hostOps5 (F := Ideal)) V (Proc.devRef .tc main_v82_0) = V (Proc.devRef .tc main_v82_0) := by
  dsimp only [hostOps5]; after_results

theorem mean2_at (q : Fin 256) :
    (StableHlo.after (hostOps5 (F := Ideal)) V (Proc.devRef .tc main_v86) : FVec Ideal S1x256 .f32) (ix2 0 q)
      = Spec.meanT (fun t q => (V (Proc.devRef .tc main_v82_1) : FVec Ideal S10x1x256 .f32) (ix3 t 0 q)) q := by
  dsimp only [hostOps5]; after_results; exact KLayerRead.mean_read _ _ _ _ q

theorem var2_at (q : Fin 256) :
    (StableHlo.after (hostOps5 (F := Ideal)) V (Proc.devRef .tc main_v90) : FVec Ideal S1x256 .f32) (ix2 0 q)
      = Spec.varT (fun t q => (V (Proc.devRef .tc main_v82_1) : FVec Ideal S10x1x256 .f32) (ix3 t 0 q))
          (fun t q => (V (Proc.devRef .tc main_v82_2) : FVec Ideal S10x1x256 .f32) (ix3 t 0 q)) q := by
  dsimp only [hostOps5]; after_results; exact KLayerRead.var_read _ _ _ _ _ q

theorem bng_at (q : Fin 256) :
    (StableHlo.after (hostOps5 (F := Ideal)) V (Proc.devRef .tc main_v93) : FVec Ideal S1x256 .f32) (ix2 0 q)
      = (V (Proc.devRef .tc main_arg10) : FVec Ideal S5x256 .f32) (ix2 (1 : Fin 5) q) := by
  dsimp only [hostOps5]; after_results; exact KLayerRead.row_read (1 : ℕ) _ _ _ _ (1 : Fin 5) rfl q

theorem bnb_at (q : Fin 256) :
    (StableHlo.after (hostOps5 (F := Ideal)) V (Proc.devRef .tc main_v96) : FVec Ideal S1x256 .f32) (ix2 0 q)
      = (V (Proc.devRef .tc main_arg11) : FVec Ideal S5x256 .f32) (ix2 (1 : Fin 5) q) := by
  dsimp only [hostOps5]; after_results; exact KLayerRead.row_read (1 : ℕ) _ _ _ _ (1 : Fin 5) rfl q

/-- The index vectors and the stacked parameters. -/
abbrev pars : List (Ref sig .tc) :=
  [main_arg1, main_arg2, main_arg3, main_arg4, main_arg5, main_arg6, main_arg7, main_arg8, main_arg9, main_arg10, main_arg11]

local macro "keeps_tac" : tactic => `(tactic|
  (intro r hr
   refine StableHlo.after_of_forall_not_mem _ _ (List.forall_iff_forall_mem.mp ?_)
   simp only [hostOps3, hostOps3_1, hostOps3_2, hostOps4, hostOps5, List.Forall, StableHlo.nullary_writes,
     StableHlo.unary_writes, StableHlo.binary_writes, StableHlo.ternary_writes, StableHlo.reshape_writes,
     Finset.mem_singleton, (Proc.devRef_injective _).eq_iff]
   revert r; decide))

theorem keeps_a : ∀ r ∈ pars, StableHlo.after (hostOps3 (F := Ideal)) V (Proc.devRef .tc r) = V (Proc.devRef .tc r) := by keeps_tac
theorem keeps_b : ∀ r ∈ pars, StableHlo.after (hostOps3_1 (F := Ideal)) V (Proc.devRef .tc r) = V (Proc.devRef .tc r) := by keeps_tac
theorem keeps_c : ∀ r ∈ pars, StableHlo.after (hostOps3_2 (F := Ideal)) V (Proc.devRef .tc r) = V (Proc.devRef .tc r) := by keeps_tac
theorem keeps_d : ∀ r ∈ pars, StableHlo.after (hostOps4 (F := Ideal)) V (Proc.devRef .tc r) = V (Proc.devRef .tc r) := by keeps_tac
theorem keeps_e : ∀ r ∈ pars, StableHlo.after (hostOps5 (F := Ideal)) V (Proc.devRef .tc r) = V (Proc.devRef .tc r) := by keeps_tac

theorem keeps_pre (r : Ref sig .tc) (hr : r ∈ pars) : pre V (Proc.devRef .tc r) = V (Proc.devRef .tc r) :=
  (keeps_c _ r hr).trans ((keeps_b _ r hr).trans (keeps_a V r hr))

end Cert.KernelIdeal.KLayer1

end
-- ==== Proof.KLayer0Host.lean ====
import proofs.«401895_j21930103014155_2_alg».proof.Proof.Gen.KernelIdeal.Launch
import proofs.«401895_j21930103014155_2_alg».proof.Proof.KTake
import proofs.«401895_j21930103014155_2_alg».proof.Proof.KLayerRead
import Idealize.ShloMosaic.Lib.StableHlo.Run

noncomputable section

namespace Cert.KernelIdeal.KLayer0

open Idealize.ShloMosaic Idealize.ShloMosaic.TcCoe Idealize.ShloMosaic.ValueIdx
open Cert.KernelIdeal Cert.KernelIdeal.Gen

variable (V : Valuation τ sig (Elt Ideal))

abbrev pre : Valuation τ sig (Elt Ideal) :=
  StableHlo.after hostOps0_2 (StableHlo.after hostOps0_1 (StableHlo.after hostOps0 V))

theorem in_at : pre V (Proc.devRef .tc main_arg0) = V (Proc.devRef .tc main_arg0) := by
  dsimp only [pre, hostOps0, hostOps0_1, hostOps0_2]; after_results

theorem agg_arr :
    (pre V (Proc.devRef .tc main_v4) : FVec Ideal S50000x256 .f32)
      = KLayer.agg (V (Proc.devRef .tc main_arg0)) (V (Proc.devRef .tc main_arg1)) (V (Proc.devRef .tc main_arg2)) := by
  dsimp only [pre, hostOps0, hostOps0_1, hostOps0_2]
  after_results_simp <;> (try simp only [StableHlo.TRef.ofBuf, StableHlo.TRef.toBuf, cast_eq]) <;> rfl

theorem eps_at (k : Fin 256) :
    (pre V (Proc.devRef .tc main_v7) : FVec Ideal S1x256 .f32) (ix2 0 k)
      = (V (Proc.devRef .tc main_arg9) : FVec Ideal S5 .f32) (ix1 (0 : Fin 5)) := by
  dsimp only [pre, hostOps0, hostOps0_1, hostOps0_2]; after_results; exact KLayerRead.scal_read (0 : ℕ) _ _ _ _ (0 : Fin 5) rfl k

theorem w1_at (k q : Fin 256) :
    (pre V (Proc.devRef .tc main_v9) : FVec Ideal S256x256 .f32) (ix2 k q)
      = (V (Proc.devRef .tc main_arg3) : FVec Ideal S5x256x256 .f32) (ix3 (0 : Fin 5) k q) := by
  dsimp only [pre, hostOps0, hostOps0_1, hostOps0_2]; after_results; exact KLayerRead.mat_read (0 : ℕ) _ _ _ (0 : Fin 5) rfl k q

theorem b1_at (q : Fin 256) :
    (pre V (Proc.devRef .tc main_v12) : FVec Ideal S1x256 .f32) (ix2 0 q)
      = (V (Proc.devRef .tc main_arg4) : FVec Ideal S5x256 .f32) (ix2 (0 : Fin 5) q) := by
  dsimp only [pre, hostOps0, hostOps0_1, hostOps0_2]; after_results; exact KLayerRead.row_read (0 : ℕ) _ _ _ _ (0 : Fin 5) rfl q

theorem z1_at : StableHlo.after (hostOps1 (F := Ideal)) V (Proc.devRef .tc main_v13_0) = V (Proc.devRef .tc main_v13_0) := by
  dsimp only [hostOps1]; after_results

theorem mean1_at (q : Fin 256) :
    (StableHlo.after (hostOps1 (F := Ideal)) V (Proc.devRef .tc main_v17) : FVec Ideal S1x256 .f32) (ix2 0 q)
      = Spec.meanT (fun t q => (V (Proc.devRef .tc main_v13_1) : FVec Ideal S10x1x256 .f32) (ix3 t 0 q)) q := by
  dsimp only [hostOps1]; after_results; exact KLayerRead.mean_read _ _ _ _ q

theorem var1_at (q : Fin 256) :
    (StableHlo.after (hostOps1 (F := Ideal)) V (Proc.devRef .tc main_v21) : FVec Ideal S1x256 .f32) (ix2 0 q)
      = Spec.varT (fun t q => (V (Proc.devRef .tc main_v13_1) : FVec Ideal S10x1x256 .f32) (ix3 t 0 q))
          (fun t q => (V (Proc.devRef .tc main_v13_2) : FVec Ideal S10x1x256 .f32) (ix3 t 0 q)) q := by
  dsimp only [hostOps1]; after_results; exact KLayerRead.var_read _ _ _ _ _ q

theorem g1_at (q : Fin 256) :
    (StableHlo.after (hostOps1 (F := Ideal)) V (Proc.devRef .tc main_v24) : FVec Ideal S1x256 .f32) (ix2 0 q)
      = (V (Proc.devRef .tc main_arg5) : FVec Ideal S5x256 .f32) (ix2 (0 : Fin 5) q) := by
  dsimp only [hostOps1]; after_results; exact KLayerRead.row_read (0 : ℕ) _ _ _ _ (0 : Fin 5) rfl q

theorem bt1_at (q : Fin 256) :
    (StableHlo.after (hostOps1 (F := Ideal)) V (Proc.devRef .tc main_v27) : FVec Ideal S1x256 .f32) (ix2 0 q)
      = (V (Proc.devRef .tc main_arg6) : FVec Ideal S5x256 .f32) (ix2 (0 : Fin 5) q) := by
  dsimp only [hostOps1]; after_results; exact KLayerRead.row_read (0 : ℕ) _ _ _ _ (0 : Fin 5) rfl q

theorem w2_at (k q : Fin 256) :
    (StableHlo.after (hostOps1 (F := Ideal)) V (Proc.devRef .tc main_v29) : FVec Ideal S256x256 .f32) (ix2 k q)
      = (V (Proc.devRef .tc main_arg7) : FVec Ideal S5x256x256 .f32) (ix3 (0 : Fin 5) k q) := by
  dsimp only [hostOps1]; after_results; exact KLayerRead.mat_read (0 : ℕ) _ _ _ (0 : Fin 5) rfl k q

theorem b2_at (q : Fin 256) :
    (StableHlo.after (hostOps1 (F := Ideal)) V (Proc.devRef .tc main_v32) : FVec Ideal S1x256 .f32) (ix2 0 q)
      = (V (Proc.devRef .tc main_arg8) : FVec Ideal S5x256 .f32) (ix2 (0 : Fin 5) q) := by
  dsimp only [hostOps1]; after_results; exact KLayerRead.row_read (0 : ℕ) _ _ _ _ (0 : Fin 5) rfl q

theorem z2_at : StableHlo.after (hostOps2 (F := Ideal)) V (Proc.devRef .tc main_v33_0) = V (Proc.devRef .tc main_v33_0) := by
  dsimp only [hostOps2]; after_results

theorem mean2_at (q : Fin 256) :
    (StableHlo.after (hostOps2 (F := Ideal)) V (Proc.devRef .tc main_v37) : FVec Ideal S1x256 .f32) (ix2 0 q)
      = Spec.meanT (fun t q => (V (Proc.devRef .tc main_v33_1) : FVec Ideal S10x1x256 .f32) (ix3 t 0 q)) q := by
  dsimp only [hostOps2]; after_results; exact KLayerRead.mean_read _ _ _ _ q

theorem var2_at (q : Fin 256) :
    (StableHlo.after (hostOps2 (F := Ideal)) V (Proc.devRef .tc main_v41) : FVec Ideal S1x256 .f32) (ix2 0 q)
      = Spec.varT (fun t q => (V (Proc.devRef .tc main_v33_1) : FVec Ideal S10x1x256 .f32) (ix3 t 0 q))
          (fun t q => (V (Proc.devRef .tc main_v33_2) : FVec Ideal S10x1x256 .f32) (ix3 t 0 q)) q := by
  dsimp only [hostOps2]; after_results; exact KLayerRead.var_read _ _ _ _ _ q

theorem bng_at (q : Fin 256) :
    (StableHlo.after (hostOps2 (F := Ideal)) V (Proc.devRef .tc main_v44) : FVec Ideal S1x256 .f32) (ix2 0 q)
      = (V (Proc.devRef .tc main_arg10) : FVec Ideal S5x256 .f32) (ix2 (0 : Fin 5) q) := by
  dsimp only [hostOps2]; after_results; exact KLayerRead.row_read (0 : ℕ) _ _ _ _ (0 : Fin 5) rfl q

theorem bnb_at (q : Fin 256) :
    (StableHlo.after (hostOps2 (F := Ideal)) V (Proc.devRef .tc main_v47) : FVec Ideal S1x256 .f32) (ix2 0 q)
      = (V (Proc.devRef .tc main_arg11) : FVec Ideal S5x256 .f32) (ix2 (0 : Fin 5) q) := by
  dsimp only [hostOps2]; after_results; exact KLayerRead.row_read (0 : ℕ) _ _ _ _ (0 : Fin 5) rfl q

/-- The index vectors and the stacked parameters. -/
abbrev pars : List (Ref sig .tc) :=
  [main_arg1, main_arg2, main_arg3, main_arg4, main_arg5, main_arg6, main_arg7, main_arg8, main_arg9, main_arg10, main_arg11]

local macro "keeps_tac" : tactic => `(tactic|
  (intro r hr
   refine StableHlo.after_of_forall_not_mem _ _ (List.forall_iff_forall_mem.mp ?_)
   simp only [hostOps0, hostOps0_1, hostOps0_2, hostOps1, hostOps2, List.Forall, StableHlo.nullary_writes,
     StableHlo.unary_writes, StableHlo.binary_writes, StableHlo.ternary_writes, StableHlo.reshape_writes,
     Finset.mem_singleton, (Proc.devRef_injective _).eq_iff]
   revert r; decide))

theorem keeps_a : ∀ r ∈ pars, StableHlo.after (hostOps0 (F := Ideal)) V (Proc.devRef .tc r) = V (Proc.devRef .tc r) := by keeps_tac
theorem keeps_b : ∀ r ∈ pars, StableHlo.after (hostOps0_1 (F := Ideal)) V (Proc.devRef .tc r) = V (Proc.devRef .tc r) := by keeps_tac
theorem keeps_c : ∀ r ∈ pars, StableHlo.after (hostOps0_2 (F := Ideal)) V (Proc.devRef .tc r) = V (Proc.devRef .tc r) := by keeps_tac
theorem keeps_d : ∀ r ∈ pars, StableHlo.after (hostOps1 (F := Ideal)) V (Proc.devRef .tc r) = V (Proc.devRef .tc r) := by keeps_tac
theorem keeps_e : ∀ r ∈ pars, StableHlo.after (hostOps2 (F := Ideal)) V (Proc.devRef .tc r) = V (Proc.devRef .tc r) := by keeps_tac

theorem keeps_pre (r : Ref sig .tc) (hr : r ∈ pars) : pre V (Proc.devRef .tc r) = V (Proc.devRef .tc r) :=
  (keeps_c _ r hr).trans ((keeps_b _ r hr).trans (keeps_a V r hr))

end Cert.KernelIdeal.KLayer0

end
-- ==== Proof.PayA0.lean ====
import proofs.«401895_j21930103014155_2_alg».proof.Proof.Gen.KernelIdeal.Skeleton
import proofs.«401895_j21930103014155_2_alg».proof.Proof.Spec
import Idealize.ShloMosaic.Lib.ValueIdx
import Idealize.ShloMosaic.Lib.ValueLayout
import Idealize.ShloMosaic.PureOps.Ideal.Laws

noncomputable section

namespace Cert.KernelIdeal.PayA0

open Cert.KernelIdeal Cert.KernelIdeal.Gen Idealize.ShloMosaic Idealize.ShloMosaic.ValueIdx
open scoped BigOperators

theorem lhs_mm_0 (i : S5000x256.Idx) (q : dot_S5000x256_S256x256_S5000x256_1_0_0_1_n_n.contr.Idx) :
    (dot_S5000x256_S256x256_S5000x256_1_0_0_1_n_n.lhsIdx i q 0).val = (i 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
theorem rhs_mm_1 (i : S5000x256.Idx) (q : dot_S5000x256_S256x256_S5000x256_1_0_0_1_n_n.contr.Idx) :
    (dot_S5000x256_S256x256_S5000x256_1_0_0_1_n_n.rhsIdx i q 1).val = (i 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

-- A block product into the zero accumulator is the sum over the contracted axis of row times column.
theorem mm_apply (a : FVec Ideal S5000x256 .f32) (b : FVec Ideal S256x256 .f32) (r : Fin 5000) (q : Fin 256) :
    matmul dot_S5000x256_S256x256_S5000x256_1_0_0_1_n_n (some .fp32) a b (constant (F := Ideal) S5000x256 .f32 0x00000000#32) (ix2 r q)
      = ∑ k : Fin 256, a (ix2 r k) * b (ix2 k q) := by
  simp only [matmul]
  rw [Ideal.matmul_constant_zero_apply, ← Equiv.sum_comp (contrEquiv1 dot_S5000x256_S256x256_S5000x256_1_0_0_1_n_n 256 rfl rfl).symm]
  refine Finset.sum_congr rfl fun k _ => ?_
  have hk := contrEquiv1_symm_val dot_S5000x256_S256x256_S5000x256_1_0_0_1_n_n 256 rfl rfl k
  rw [show dot_S5000x256_S256x256_S5000x256_1_0_0_1_n_n.lhsIdx (ix2 r q) ((contrEquiv1 dot_S5000x256_S256x256_S5000x256_1_0_0_1_n_n 256 rfl rfl).symm k) = ix2 r k from
      Shape.idx_ext₂ (lhs_mm_0 _ _) ((dot_S5000x256_S256x256_S5000x256_1_0_0_1_n_n.lhsIdx_val_of_single rfl _ _).trans hk),
    show dot_S5000x256_S256x256_S5000x256_1_0_0_1_n_n.rhsIdx (ix2 r q) ((contrEquiv1 dot_S5000x256_S256x256_S5000x256_1_0_0_1_n_n 256 rfl rfl).symm k) = ix2 k q from
      Shape.idx_ext₂ ((dot_S5000x256_S256x256_S5000x256_1_0_0_1_n_n.rhsIdx_val_of_single rfl _ _).trans hk) (rhs_mm_1 _ _)]

theorem pay1_apply (x0 x1 : Vec Ideal S5000x256 .f32) (x2 : Vec Ideal S1x256 .f32) (x3 : Vec Ideal S256x256 .f32)
    (x4 : Vec Ideal S1x256 .f32) (r : Fin 5000) (q : Fin 256) :
    k0_pay1 x0 x1 x2 x3 x4 (ix2 r q)
      = (∑ k : Fin 256, ((Cert.Spec.c1 + x2 (ix2 0 k)) * x0 (ix2 r k) + x1 (ix2 r k)) * x3 (ix2 k q)) + x4 (ix2 0 q) := by
  unfold k0_pay1
  simp only [shapeCast_self]
  refine (addf_apply _ _ (ix2 r q)).trans ?_
  refine congrArg₂ (· + ·) ?_ (broadcastTo_1b_ab_apply x4 broadcasts_S1x256_S5000x256 r q)
  refine (mm_apply _ _ r q).trans (Finset.sum_congr rfl fun k _ => congrArg (· * x3 (ix2 k q)) ?_)
  refine (addf_apply _ _ (ix2 r k)).trans (congrArg (· + x1 (ix2 r k)) ?_)
  exact (mulf_apply _ _ (ix2 r k)).trans (congrArg (· * x0 (ix2 r k)) (broadcastTo_1b_ab_apply _ broadcasts_S1x256_S5000x256 r k))

-- A column sum of a [5000,256] tile kept as [1,1,256], read at (0, 0, q).
theorem colsum_apply (v : FVec Ideal S5000x256 .f32) (q : Fin 256) :
    shapeCast S1x1x256 (shapeCast S1x256 (multiReduction .add [0] S256 v 0x00000000#32 reduces_S5000x256_S256 (.inl rfl) rfl)
        shapeCasts_S256_S1x256) shapeCasts_S1x256_S1x1x256 (ix3 0 0 q)
      = ∑ r : Fin 5000, v (ix2 r q) := by
  refine (shapeCast_ab_1ab_apply _ shapeCasts_S1x256_S1x1x256 0 0 q).trans ?_
  refine (shapeCast_a_1a_apply _ shapeCasts_S256_S1x256 0 q).trans ?_
  refine (Ideal.multiReduction_add_single v 0x00000000#32 reduces_S5000x256_S256 (.inl rfl) rfl (ix1 q)).trans ?_
  exact Finset.sum_congr rfl fun r _ => congrArg v (Shape.idx_ext₂ rfl rfl)

theorem pay2_apply (x0 x1 : Vec Ideal S5000x256 .f32) (x2 : Vec Ideal S1x256 .f32) (x3 : Vec Ideal S256x256 .f32)
    (x4 : Vec Ideal S1x256 .f32) (q : Fin 256) :
    k0_pay2 x0 x1 x2 x3 x4 (ix3 0 0 q) = ∑ r : Fin 5000, k0_pay1 x0 x1 x2 x3 x4 (ix2 r q) :=
  colsum_apply _ q

theorem pay3_apply (x0 x1 : Vec Ideal S5000x256 .f32) (x2 : Vec Ideal S1x256 .f32) (x3 : Vec Ideal S256x256 .f32)
    (x4 : Vec Ideal S1x256 .f32) (q : Fin 256) :
    k0_pay3 x0 x1 x2 x3 x4 (ix3 0 0 q)
      = ∑ r : Fin 5000, k0_pay1 x0 x1 x2 x3 x4 (ix2 r q) * k0_pay1 x0 x1 x2 x3 x4 (ix2 r q) :=
  colsum_apply _ q

theorem hz2 : (![0, 0] : Fin 2 → Nat) = fun _ => 0 := funext fun a => by fin_cases a <;> rfl
theorem hz3 : (![0, 0, 0] : Fin 3 → Nat) = fun _ => 0 := funext fun a => by fin_cases a <;> rfl

theorem c0_add (x : EReal) : Cert.Spec.c0 + x = x := by
  rw [show Cert.Spec.c0 = 0 from Ideal.ofBits_zero_f32, zero_add]

-- Functions on a [1,1,256] block agree when they agree at every (0, 0, q).
theorem ext_1x1 {α : Type} {f g : S1x1x256.Idx → α} (h : ∀ q : Fin 256, f (ix3 0 0 q) = g (ix3 0 0 q)) : f = g :=
  funext fun j => by
    obtain ⟨u, v, q, rfl⟩ : ∃ (u v : Fin 1) (q : Fin 256), j = ix3 u v q := ⟨j 0, j 1, j 2, eq_ix3 j⟩
    rw [Subsingleton.elim u 0, Subsingleton.elim v 0]
    exact h q

-- An index of a [10,1,256] array is its row and its column.
theorem ix3_mid (i : S10x1x256.Idx) : ix3 (i 0 : Fin 10) (0 : Fin 1) (i 2 : Fin 256) = i :=
  (congrArg (fun b : Fin 1 => ix3 (i 0 : Fin 10) b (i 2 : Fin 256)) (Subsingleton.elim (0 : Fin 1) (i 1))).trans (eq_ix3 i).symm

-- An index a block element lands on lies in the block.
theorem mem_set_of_emb {sig : RefSig} {κ : Kind} {sp : Space} {S : Shape} {e : EltTy} (v : View sig κ sp S e) {y : S.Idx}
    {i : v.ty.Idx} (h : v.emb y = i) : i ∈ v.set := h ▸ v.emb_mem_set y

end Cert.KernelIdeal.PayA0

end
-- ==== Proof.LiftA0.lean ====
import proofs.«401895_j21930103014155_2_alg».proof.Proof.Gen.KernelIdeal.Frame
import proofs.«401895_j21930103014155_2_alg».proof.Proof.PayA0
import Idealize.ShloMosaic.Lib.Pipeline.Value

noncomputable section

namespace Cert.KernelIdeal.LiftA0

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

abbrev Z1 (c : Dev nD) : Cert.Spec.Mat 50000 256 :=
  Cert.Spec.lin (Cert.Spec.zpreRow (fun k => V c (Pipeline.arrRef spec0 2) (ix2 0 k)) (fun p k => V c (Pipeline.arrRef spec0 0) (ix2 p k)) (fun p k => V c (Pipeline.arrRef spec0 1) (ix2 p k))) (fun k q => V c (Pipeline.arrRef spec0 3) (ix2 k q)) (fun q => V c (Pipeline.arrRef spec0 4) (ix2 0 q))

abbrev tile (t : Fin cfg0.N) : Fin 10 := ⟨t.val, lt_of_lt_of_eq t.isLt N_0⟩

theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 3) = t.val ∧ win0_6.index t (1 : Fin 3) = 0 ∧ win0_6.index t (2 : Fin 3) = 0)
    ∧ (win0_7.index t (0 : Fin 3) = t.val ∧ win0_7.index t (1 : Fin 3) = 0 ∧ win0_7.index t (2 : Fin 3) = 0) :=
  (by decide +kernel : ∀ t : Fin grid0.N, _)

theorem blk0_apply (c : Dev nD) (t : Fin cfg0.N) (r : Fin 5000) (k : Fin 256) :
    (iblk0 V c 0 t : Vec Ideal S5000x256 .f32) (ix2 r k)
      = (V c (Pipeline.arrRef spec0 0) : Vec Ideal S50000x256 .f32) (ix2 (Cert.Spec.tileRow (tile t) r) k) := by
  obtain ⟨⟨e0, e1⟩, -⟩ := idx_facts t
  unfold iblk0
  rw [View.read_apply]
  show (V c (Pipeline.arrRef spec0 0) : Vec Ideal S50000x256 .f32) (((cfg0.win 0).blk t).view.emb (ix2 r k)) = _
  refine congrArg _ ?_
  exact Shape.idx_ext₂ ((win0_0.rect_emb_val t _ (0 : Fin 2)).trans (congrArg (· * 5000 + r.val) e0))
    (win0_0.rect_emb_val_of_index_zero t (1 : Fin 2) e1 _)

theorem blk1_apply (c : Dev nD) (t : Fin cfg0.N) (r : Fin 5000) (k : Fin 256) :
    (iblk0 V c 1 t : Vec Ideal S5000x256 .f32) (ix2 r k)
      = (V c (Pipeline.arrRef spec0 1) : Vec Ideal S50000x256 .f32) (ix2 (Cert.Spec.tileRow (tile t) r) k) := by
  obtain ⟨-, ⟨e0, e1⟩, -⟩ := idx_facts t
  unfold iblk0
  rw [View.read_apply]
  show (V c (Pipeline.arrRef spec0 1) : Vec Ideal S50000x256 .f32) (((cfg0.win 1).blk t).view.emb (ix2 r k)) = _
  refine congrArg _ ?_
  exact Shape.idx_ext₂ ((win0_1.rect_emb_val t _ (0 : Fin 2)).trans (congrArg (· * 5000 + r.val) e0))
    (win0_1.rect_emb_val_of_index_zero t (1 : Fin 2) e1 _)

theorem blk2 (c : Dev nD) (t : Fin cfg0.N) :
    (iblk0 V c 2 t : Vec Ideal S1x256 .f32) = V c (Pipeline.arrRef spec0 2) := by
  obtain ⟨-, -, ⟨e0, e1⟩, -⟩ := idx_facts t
  unfold iblk0
  funext y
  rw [View.read_apply]
  show (V c (Pipeline.arrRef spec0 2) : Vec Ideal S1x256 .f32) (((cfg0.win 2).blk t).view.emb y) = _
  exact congrArg _ (Shape.idx_ext₂ (win0_2.rect_emb_val_of_index_zero t (0 : Fin 2) e0 y) (win0_2.rect_emb_val_of_index_zero t (1 : Fin 2) e1 y))

theorem blk3 (c : Dev nD) (t : Fin cfg0.N) :
    (iblk0 V c 3 t : Vec Ideal S256x256 .f32) = V c (Pipeline.arrRef spec0 3) := by
  obtain ⟨-, -, -, ⟨e0, e1⟩, -⟩ := idx_facts t
  unfold iblk0
  funext y
  rw [View.read_apply]
  show (V c (Pipeline.arrRef spec0 3) : Vec Ideal S256x256 .f32) (((cfg0.win 3).blk t).view.emb y) = _
  exact congrArg _ (Shape.idx_ext₂ (win0_3.rect_emb_val_of_index_zero t (0 : Fin 2) e0 y) (win0_3.rect_emb_val_of_index_zero t (1 : Fin 2) e1 y))

theorem blk4 (c : Dev nD) (t : Fin cfg0.N) :
    (iblk0 V c 4 t : Vec Ideal S1x256 .f32) = V c (Pipeline.arrRef spec0 4) := by
  obtain ⟨-, -, -, -, ⟨e0, e1⟩, -⟩ := idx_facts t
  unfold iblk0
  funext y
  rw [View.read_apply]
  show (V c (Pipeline.arrRef spec0 4) : Vec Ideal S1x256 .f32) (((cfg0.win 4).blk t).view.emb y) = _
  exact congrArg _ (Shape.idx_ext₂ (win0_4.rect_emb_val_of_index_zero t (0 : Fin 2) e0 y) (win0_4.rect_emb_val_of_index_zero t (1 : Fin 2) e1 y))

-- Point t's tile is rows 5000·t … 5000·t + 4999 of Z1.
theorem tile_apply (c : Dev nD) (t : Fin cfg0.N) (r : Fin 5000) (q : Fin 256) :
    Gen.k0_pay1 (iblk0 V c 0 t) (iblk0 V c 1 t) (iblk0 V c 2 t) (iblk0 V c 3 t) (iblk0 V c 4 t) (ix2 r q)
      = Z1 V c (Cert.Spec.tileRow (tile t) r) q := by
  refine (PayA0.pay1_apply _ _ _ _ _ r q).trans ?_
  refine congrArg₂ (· + ·) (Finset.sum_congr rfl fun k _ => ?_) (congrFun (blk4 V c t) _)
  exact congrArg₂ (· * ·) (congrArg₂ (· + ·) (congrArg₂ (· * ·) (congrArg (Cert.Spec.c1 + ·) (congrFun (blk2 V c t) _))
    (blk0_apply V c t r k)) (blk1_apply V c t r k)) (congrFun (blk3 V c t) _)

theorem out5_eq (x0 x1 : Vec Ideal S5000x256 .f32) (x2 : Vec Ideal S1x256 .f32) (x3 : Vec Ideal S256x256 .f32) (x4 : Vec Ideal S1x256 .f32) :
    out0_5 x0 x1 x2 x3 x4 = Gen.k0_pay1 x0 x1 x2 x3 x4 := by
  unfold out0_5
  rw [View.canon_unit_zero PayA0.hz2]
  simp only [View.ld_unit_zero (S := S5000x256) PayA0.hz2, View.ld_unit_zero (S := S1x256) PayA0.hz2, View.ld_unit_zero (S := S256x256) PayA0.hz2, k0_pay1, Gen.k0_pay1, shapeCast_self]

theorem out6_eq (x0 x1 : Vec Ideal S5000x256 .f32) (x2 : Vec Ideal S1x256 .f32) (x3 : Vec Ideal S256x256 .f32) (x4 : Vec Ideal S1x256 .f32) :
    out0_6 x0 x1 x2 x3 x4 = Gen.k0_pay2 x0 x1 x2 x3 x4 := by
  unfold out0_6
  rw [View.canon_unit_zero PayA0.hz3]
  simp only [View.ld_unit_zero (S := S5000x256) PayA0.hz2, View.ld_unit_zero (S := S1x256) PayA0.hz2, View.ld_unit_zero (S := S256x256) PayA0.hz2, k0_pay2, Gen.k0_pay2, k0_pay1, Gen.k0_pay1, shapeCast_self]

theorem out7_eq (x0 x1 : Vec Ideal S5000x256 .f32) (x2 : Vec Ideal S1x256 .f32) (x3 : Vec Ideal S256x256 .f32) (x4 : Vec Ideal S1x256 .f32) :
    out0_7 x0 x1 x2 x3 x4 = Gen.k0_pay3 x0 x1 x2 x3 x4 := by
  unfold out0_7
  rw [View.canon_unit_zero PayA0.hz3]
  simp only [View.ld_unit_zero (S := S5000x256) PayA0.hz2, View.ld_unit_zero (S := S1x256) PayA0.hz2, View.ld_unit_zero (S := S256x256) PayA0.hz2, k0_pay3, Gen.k0_pay3, k0_pay1, Gen.k0_pay1, shapeCast_self]

abbrev G5 (c : Dev nD) : S50000x256.Idx → Elt Ideal .f32 := fun i => Z1 V c (i 0) (i 1)
abbrev G6 (c : Dev nD) : S10x1x256.Idx → Elt Ideal .f32 := fun i => Cert.Spec.tileSum (Z1 V c) (i 0) (i 2)
abbrev G7 (c : Dev nD) : S10x1x256.Idx → Elt Ideal .f32 := fun i => Cert.Spec.tileSumSq (Z1 V c) (i 0) (i 2)

theorem emb5 (t : Fin cfg0.N) (r : Fin 5000) (q : Fin 256) :
    ((cfg0.win 5).blk t).view.emb (ix2 r q) = ix2 (Cert.Spec.tileRow (tile t) r) q := by
  obtain ⟨-, -, -, -, -, ⟨e0, e1⟩, -⟩ := idx_facts t
  exact Shape.idx_ext₂ ((win0_5.rect_emb_val t _ (0 : Fin 2)).trans (congrArg (· * 5000 + r.val) e0))
    (win0_5.rect_emb_val_of_index_zero t (1 : Fin 2) e1 _)

theorem emb6 (t : Fin cfg0.N) (q : Fin 256) :
    ((cfg0.win 6).blk t).view.emb (ix3 0 0 q) = ix3 (tile t) 0 q := by
  obtain ⟨-, -, -, -, -, -, ⟨e0, e1, e2⟩, -⟩ := idx_facts t
  refine funext fun a => Fin.ext ((win0_6.rect_emb_val t _ a).trans ?_)
  match a with
  | ⟨0, _⟩ => exact (congrArg (· * 1 + 0) e0).trans (Nat.mul_one _)
  | ⟨1, _⟩ => exact congrArg (· * 1 + 0) e1
  | ⟨2, _⟩ => exact (congrArg (· * 256 + q.val) e2).trans (Nat.zero_add _)

theorem emb7 (t : Fin cfg0.N) (q : Fin 256) :
    ((cfg0.win 7).blk t).view.emb (ix3 0 0 q) = ix3 (tile t) 0 q := by
  obtain ⟨-, -, -, -, -, -, -, ⟨e0, e1, e2⟩⟩ := idx_facts t
  refine funext fun a => Fin.ext ((win0_7.rect_emb_val t _ a).trans ?_)
  match a with
  | ⟨0, _⟩ => exact (congrArg (· * 1 + 0) e0).trans (Nat.mul_one _)
  | ⟨1, _⟩ => exact congrArg (· * 1 + 0) e1
  | ⟨2, _⟩ => exact (congrArg (· * 256 + q.val) e2).trans (Nat.zero_add _)

theorem flushed5_eq (c : Dev nD) (t : Fin cfg0.N) :
    (dat0 V c).flushed 5 t = ((cfg0.win 5).blk t).view.read (Elt Ideal) (G5 V c) := by
  show (cfg0.win 5).cut (grid0.coords t) ((dat0 V c).after 5 t) = _
  rw [after0_5, out5_eq]
  show (Gen.k0_pay1 (iblk0 V c 0 t) (iblk0 V c 1 t) (iblk0 V c 2 t) (iblk0 V c 3 t) (iblk0 V c 4 t) : Vec Ideal S5000x256 .f32) = _
  funext j
  obtain ⟨r, q, rfl⟩ : ∃ (r : Fin 5000) (q : Fin 256), j = ix2 r q := ⟨j 0, j 1, eq_ix2 j⟩
  refine (tile_apply V c t r q).trans ?_
  show _ = G5 V c (((cfg0.win 5).blk t).view.emb (ix2 r q))
  rw [emb5]

theorem flushed6_eq (c : Dev nD) (t : Fin cfg0.N) :
    (dat0 V c).flushed 6 t = ((cfg0.win 6).blk t).view.read (Elt Ideal) (G6 V c) := by
  show (cfg0.win 6).cut (grid0.coords t) ((dat0 V c).after 6 t) = _
  rw [after0_6, out6_eq]
  show (Gen.k0_pay2 (iblk0 V c 0 t) (iblk0 V c 1 t) (iblk0 V c 2 t) (iblk0 V c 3 t) (iblk0 V c 4 t) : Vec Ideal S1x1x256 .f32) = _
  refine PayA0.ext_1x1 fun q => (PayA0.pay2_apply _ _ _ _ _ q).trans ?_
  show _ = G6 V c (((cfg0.win 6).blk t).view.emb (ix3 0 0 q))
  rw [emb6 t q]
  show _ = Cert.Spec.c0 + ∑ r : Fin 5000, Z1 V c (Cert.Spec.tileRow (tile t) r) q
  rw [PayA0.c0_add]
  exact Finset.sum_congr rfl fun r _ => tile_apply V c t r q

theorem flushed7_eq (c : Dev nD) (t : Fin cfg0.N) :
    (dat0 V c).flushed 7 t = ((cfg0.win 7).blk t).view.read (Elt Ideal) (G7 V c) := by
  show (cfg0.win 7).cut (grid0.coords t) ((dat0 V c).after 7 t) = _
  rw [after0_7, out7_eq]
  show (Gen.k0_pay3 (iblk0 V c 0 t) (iblk0 V c 1 t) (iblk0 V c 2 t) (iblk0 V c 3 t) (iblk0 V c 4 t) : Vec Ideal S1x1x256 .f32) = _
  refine PayA0.ext_1x1 fun q => (PayA0.pay3_apply _ _ _ _ _ q).trans ?_
  show _ = G7 V c (((cfg0.win 7).blk t).view.emb (ix3 0 0 q))
  rw [emb7 t q]
  show _ = Cert.Spec.c0 + ∑ r : Fin 5000, Z1 V c (Cert.Spec.tileRow (tile t) r) q * Z1 V c (Cert.Spec.tileRow (tile t) r) q
  rw [PayA0.c0_add]
  exact Finset.sum_congr rfl fun r _ => congrArg₂ (· * ·) (tile_apply V c t r q) (tile_apply V c t r q)

-- Row p of the array lies in tile p / 5000, at row p % 5000 of it.
theorem cover5 (i : S50000x256.Idx) :
    ∃ t : Fin cfg0.N, (cfg0.win 5).flush t = true ∧ i ∈ ((cfg0.win 5).blk t).view.set :=
  ⟨⟨(i 0).val / 5000, lt_of_lt_of_eq (Nat.div_lt_of_lt_mul (i 0).isLt) N_0.symm⟩, flush0_5 _,
    PayA0.mem_set_of_emb _ ((emb5 _ ⟨(i 0).val % 5000, Nat.mod_lt _ (by decide)⟩ (i 1)).trans
      (Shape.idx_ext₂ (by exact Nat.div_add_mod' _ _) (by rfl)))⟩

theorem cover6 (i : S10x1x256.Idx) :
    ∃ t : Fin cfg0.N, (cfg0.win 6).flush t = true ∧ i ∈ ((cfg0.win 6).blk t).view.set :=
  ⟨⟨(i 0).val, lt_of_lt_of_eq (i 0).isLt N_0.symm⟩, flush0_6 _, PayA0.mem_set_of_emb _ ((emb6 _ (i 2)).trans (PayA0.ix3_mid i))⟩

theorem cover7 (i : S10x1x256.Idx) :
    ∃ t : Fin cfg0.N, (cfg0.win 7).flush t = true ∧ i ∈ ((cfg0.win 7).blk t).view.set :=
  ⟨⟨(i 0).val, lt_of_lt_of_eq (i 0).isLt N_0.symm⟩, flush0_7 _, PayA0.mem_set_of_emb _ ((emb7 _ (i 2)).trans (PayA0.ix3_mid i))⟩

theorem final5 (c : Dev nD) : (dat0 V c).arrAt 5 cfg0.N = G5 V c :=
  (dat0 V c).arrAt_eq_of_cover 5 (G5 V c) (fun t _ => flushed5_eq V c t) cover5

theorem final6 (c : Dev nD) : (dat0 V c).arrAt 6 cfg0.N = G6 V c :=
  (dat0 V c).arrAt_eq_of_cover 6 (G6 V c) (fun t _ => flushed6_eq V c t) cover6

theorem final7 (c : Dev nD) : (dat0 V c).arrAt 7 cfg0.N = G7 V c :=
  (dat0 V c).arrAt_eq_of_cover 7 (G7 V c) (fun t _ => flushed7_eq V c t) cover7

theorem z1 (c : Dev nD) (p : Fin 50000) (q : Fin 256) :
    (dat0 (F := Ideal) V c).arrAt 5 cfg0.N (ix2 p q) = Z1 V c p q :=
  congrFun (final5 V c) (ix2 p q)

theorem psum (c : Dev nD) (t : Fin 10) (q : Fin 256) :
    (dat0 (F := Ideal) V c).arrAt 6 cfg0.N (ix3 t 0 q) = Cert.Spec.tileSum (Z1 V c) t q :=
  congrFun (final6 V c) (ix3 t 0 q)

theorem psumsq (c : Dev nD) (t : Fin 10) (q : Fin 256) :
    (dat0 (F := Ideal) V c).arrAt 7 cfg0.N (ix3 t 0 q) = Cert.Spec.tileSumSq (Z1 V c) t q :=
  congrFun (final7 V c) (ix3 t 0 q)

end Cert.KernelIdeal.LiftA0

end
-- ==== Proof.PayB1.lean ====
import proofs.«401895_j21930103014155_2_alg».proof.Proof.Gen.KernelIdeal.Skeleton
import proofs.«401895_j21930103014155_2_alg».proof.Proof.Spec
import Idealize.ShloMosaic.Lib.ValueIdx
import Idealize.ShloMosaic.Lib.Pipeline.Value
import Idealize.ShloMosaic.PureOps.Ideal.Laws

noncomputable section

namespace Cert.KernelIdeal.PayB1

open Idealize.ShloMosaic ValueIdx Cert.KernelIdeal Cert.KernelIdeal.Gen
open scoped BigOperators

theorem lhs_0 (i : S5000x256.Idx) (k : dot_S5000x256_S256x256_S5000x256_1_0_0_1_n_n.contr.Idx) : (dot_S5000x256_S256x256_S5000x256_1_0_0_1_n_n.lhsIdx i k 0).val = (i 0).val := by
  unfold DotDims.lhsIdx
  rw [dif_neg (show ¬(0 : Fin S5000x256.rank) ∈ dot_S5000x256_S256x256_S5000x256_1_0_0_1_n_n.lhsBatch by decide),
    dif_pos (show (0 : Fin S5000x256.rank) ∈ dot_S5000x256_S256x256_S5000x256_1_0_0_1_n_n.lhsNonContracting by decide)]
  rfl

theorem rhs_1 (i : S5000x256.Idx) (k : dot_S5000x256_S256x256_S5000x256_1_0_0_1_n_n.contr.Idx) : (dot_S5000x256_S256x256_S5000x256_1_0_0_1_n_n.rhsIdx i k 1).val = (i 1).val := by
  unfold DotDims.rhsIdx
  rw [dif_neg (show ¬(1 : Fin S256x256.rank) ∈ dot_S5000x256_S256x256_S5000x256_1_0_0_1_n_n.rhsBatch by decide),
    dif_pos (show (1 : Fin S256x256.rank) ∈ dot_S5000x256_S256x256_S5000x256_1_0_0_1_n_n.rhsNonContracting by decide)]
  rfl

/-- A product into the zero accumulator contracts the one shared axis of extent 256. -/
theorem matmul_apply (a : FVec Ideal S5000x256 .f32) (w : FVec Ideal S256x256 .f32) (r : Fin 5000) (q : Fin 256) :
    matmul dot_S5000x256_S256x256_S5000x256_1_0_0_1_n_n (some .fp32) a w (constant (F := Ideal) S5000x256 .f32 0x00000000#32) (ix2 r q)
      = ∑ k : Fin 256, a (ix2 r k) * w (ix2 k q) := by
  simp only [matmul]
  rw [Ideal.matmul_constant_zero_apply, ← Equiv.sum_comp (contrEquiv1 dot_S5000x256_S256x256_S5000x256_1_0_0_1_n_n 256 rfl rfl).symm]
  refine Finset.sum_congr rfl fun k _ => ?_
  have hk := contrEquiv1_symm_val dot_S5000x256_S256x256_S5000x256_1_0_0_1_n_n 256 rfl rfl k
  rw [show dot_S5000x256_S256x256_S5000x256_1_0_0_1_n_n.lhsIdx (ix2 r q) ((contrEquiv1 dot_S5000x256_S256x256_S5000x256_1_0_0_1_n_n 256 rfl rfl).symm k) = ix2 r k from
      funext fun a => Fin.ext (by
        match a with
        | ⟨0, _⟩ => exact lhs_0 _ _
        | ⟨1, _⟩ => exact (dot_S5000x256_S256x256_S5000x256_1_0_0_1_n_n.lhsIdx_val_of_single rfl _ _).trans hk),
    show dot_S5000x256_S256x256_S5000x256_1_0_0_1_n_n.rhsIdx (ix2 r q) ((contrEquiv1 dot_S5000x256_S256x256_S5000x256_1_0_0_1_n_n 256 rfl rfl).symm k) = ix2 k q from
      funext fun a => Fin.ext (by
        match a with
        | ⟨0, _⟩ => exact (dot_S5000x256_S256x256_S5000x256_1_0_0_1_n_n.rhsIdx_val_of_single rfl _ _).trans hk
        | ⟨1, _⟩ => exact rhs_1 _ _)]

theorem row_bcast {α : Type} (x : S1x256.Idx → α) (r : Fin 5000) (q : Fin 256) :
    broadcastTo S5000x256 x broadcasts_S1x256_S5000x256 (ix2 r q) = x (ix2 0 q) :=
  broadcastTo_apply x broadcasts_S1x256_S5000x256 (ix2 r q) (ix2 0 q) (fun a => by
    match a with
    | ⟨0, _⟩ => rfl
    | ⟨1, _⟩ => rfl)

/-- What row `r` of a tile feeds the second linear layer at column `k`: the batch norm with the given statistics, then the relu. -/
def act (x0 : Vec Ideal S5000x256 .f32) (x1 x2 x3 x4 : Vec Ideal S1x256 .f32) (r : Fin 5000) (k : Fin 256) : EReal :=
  Spec.relu ((x0 (ix2 r k) - x1 (ix2 0 k)) * Ideal.rsqrt (x2 (ix2 0 k) + Spec.cEps) * x3 (ix2 0 k) + x4 (ix2 0 k))

theorem pay2_apply (x0 : Vec Ideal S5000x256 .f32) (x1 x2 x3 x4 : Vec Ideal S1x256 .f32) (x5 : Vec Ideal S256x256 .f32)
    (x6 : Vec Ideal S1x256 .f32) (r : Fin 5000) (q : Fin 256) :
    k1_pay2 x0 x1 x2 x3 x4 x5 x6 (ix2 r q)
      = (∑ k : Fin 256, act x0 x1 x2 x3 x4 r k * x5 (ix2 k q)) + x6 (ix2 0 q) := by
  unfold k1_pay2
  simp only [shapeCast_self]
  rw [addf_apply, matmul_apply, row_bcast]
  refine congrArg (· + x6 (ix2 0 q)) (Finset.sum_congr rfl fun k _ => ?_)
  rw [maximumf_apply, addf_apply, mulf_apply, mulf_apply, subf_apply, row_bcast, row_bcast, row_bcast, row_bcast]
  rfl

theorem cast_row_block {α : Type} (x : S1x256.Idx → α) (q : Fin 256) :
    shapeCast S1x1x256 x shapeCasts_S1x256_S1x1x256 (ix3 0 0 q) = x (ix2 0 q) :=
  shapeCast_apply x shapeCasts_S1x256_S1x1x256 (ix3 0 0 q) (ix2 0 q) (by
    rw [Shape.rowMajor_val_two, Shape.rowMajor_val_three]; rfl)

theorem cast_vec_row {α : Type} (x : S256.Idx → α) (q : Fin 256) :
    shapeCast S1x256 x shapeCasts_S256_S1x256 (ix2 0 q) = x (ix1 q) :=
  shapeCast_apply x shapeCasts_S256_S1x256 (ix2 0 q) (ix1 q) (by
    rw [Shape.rowMajor_val_one, Shape.rowMajor_val_two]
    show (q : ℕ) = 0 * 256 + q
    omega)

theorem colsum_apply (src : FVec Ideal S5000x256 .f32) (hacc : (0x00000000#32 : BitVec 32) = 0x00000000#32) (q : Fin 256) :
    multiReduction (F := Ideal) .add [0] S256 src 0x00000000#32 reduces_S5000x256_S256 (.inl rfl) hacc (ix1 q)
      = ∑ r : Fin 5000, src (ix2 r q) := by
  refine (Ideal.multiReduction_add_single src 0x00000000#32 reduces_S5000x256_S256 (.inl rfl) hacc (ix1 q)).trans ?_
  show ∑ r : Fin 5000, src (reduces_S5000x256_S256.lift (ix1 q) r) = _
  refine Finset.sum_congr rfl fun r _ => congrArg src (funext fun a => Fin.ext ?_)
  match a with
  | ⟨0, _⟩ => rfl
  | ⟨1, _⟩ => rfl

/-- A tile's column sums, `(0, 0, q)` of the 1 × 1 × 256 block, are those of its second-layer output … -/
theorem pay4_apply (x0 : Vec Ideal S5000x256 .f32) (x1 x2 x3 x4 : Vec Ideal S1x256 .f32) (x5 : Vec Ideal S256x256 .f32)
    (x6 : Vec Ideal S1x256 .f32) (q : Fin 256) :
    k1_pay4 x0 x1 x2 x3 x4 x5 x6 (ix3 0 0 q) = ∑ r : Fin 5000, k1_pay2 x0 x1 x2 x3 x4 x5 x6 (ix2 r q) := by
  unfold k1_pay4
  exact (cast_row_block _ q).trans ((cast_vec_row _ q).trans (colsum_apply _ _ q))

/-- … and its column sums of squares those of its squares. -/
theorem pay13_apply (x0 : Vec Ideal S5000x256 .f32) (x1 x2 x3 x4 : Vec Ideal S1x256 .f32) (x5 : Vec Ideal S256x256 .f32)
    (x6 : Vec Ideal S1x256 .f32) (q : Fin 256) :
    k1_pay1 (k1_pay3 x0 x1 x2 x3 x4 x5 x6) (ix3 0 0 q)
      = ∑ r : Fin 5000, k1_pay2 x0 x1 x2 x3 x4 x5 x6 (ix2 r q) * k1_pay2 x0 x1 x2 x3 x4 x5 x6 (ix2 r q) := by
  unfold k1_pay1 k1_pay3
  exact (cast_row_block _ q).trans ((cast_vec_row _ q).trans (colsum_apply _ _ q))

end Cert.KernelIdeal.PayB1

end
-- ==== Proof.LiftB1.lean ====
import proofs.«401895_j21930103014155_2_alg».proof.Proof.Gen.KernelIdeal.Frame
import proofs.«401895_j21930103014155_2_alg».proof.Proof.PayB1

set_option maxRecDepth 16384

noncomputable section

namespace Cert.KernelIdeal.LiftB1

open Idealize.ShloMosaic Idealize.ShloMosaic.TcCoe ValueIdx Cert.KernelIdeal Cert.KernelIdeal.Gen
open Idealize.ShloMosaic.Pipeline (Dat)
open scoped BigOperators

variable (V : (c : Dev nD) → (b : Ref sig .tc) → Buf (Elt Ideal) ((c : Thread nD τ).loc b))

abbrev row1 (c : Dev nD) : Cert.Spec.Row 256 := fun q => V c (Pipeline.arrRef spec1 1) (ix2 0 q)
abbrev row2 (c : Dev nD) : Cert.Spec.Row 256 := fun q => V c (Pipeline.arrRef spec1 2) (ix2 0 q)
abbrev row3 (c : Dev nD) : Cert.Spec.Row 256 := fun q => V c (Pipeline.arrRef spec1 3) (ix2 0 q)
abbrev row4 (c : Dev nD) : Cert.Spec.Row 256 := fun q => V c (Pipeline.arrRef spec1 4) (ix2 0 q)
abbrev row6 (c : Dev nD) : Cert.Spec.Row 256 := fun q => V c (Pipeline.arrRef spec1 6) (ix2 0 q)

/-- The second linear layer's output over all 50000 rows. -/
abbrev Z2 (c : Dev nD) : Cert.Spec.Mat 50000 256 :=
  Cert.Spec.lin (Cert.Spec.reluM (Cert.Spec.norm (fun p k => V c (Pipeline.arrRef spec1 0) (ix2 p k))
    (row1 V c) (row2 V c) (row3 V c) (row4 V c))) (fun k q => V c (Pipeline.arrRef spec1 5) (ix2 k q)) (row6 V c)

abbrev tile (t : Fin cfg1.N) : Fin 10 := t.cast N_1

theorem idx_fix : ∀ (t : Fin cfg1.N) (w : Fin 10) (a : Fin (cfg1.win w).shape.rank),
    (w ≠ 0 ∧ w < 7) ∨ a.val ≠ 0 → (cfg1.win w).index t a = 0 :=
  (by decide +kernel : ∀ t : Fin grid1.N, _)

theorem idx_mov : ∀ (t : Fin cfg1.N) (w : Fin 10) (a : Fin (cfg1.win w).shape.rank),
    w = 0 ∨ 7 ≤ w → a.val = 0 → (cfg1.win w).index t a = t.val :=
  (by decide +kernel : ∀ t : Fin grid1.N, _)

/-- Entry `(r, k)` of tile `t` is entry `(t · 5000 + r, k)` of the whole matrix. -/
theorem emb0 (t : Fin cfg1.N) (r : Fin 5000) (k : Fin 256) :
    ((cfg1.win 0).blk t).view.emb (ix2 r k) = ix2 (Cert.Spec.tileRow (tile t) r) k :=
  funext fun a => Fin.ext <| (win1_0.rect_emb_val t (ix2 r k) a).trans <| by
    match a with
    | ⟨0, _⟩ => exact congrArg (· * 5000 + r.val) (idx_mov t 0 (0 : Fin 2) (by decide) rfl)
    | ⟨1, _⟩ => exact (congrArg (· * 256 + k.val) (idx_fix t 0 (1 : Fin 2) (.inr (by decide)))).trans (Nat.zero_add _)

theorem emb7 (t : Fin cfg1.N) (r : Fin 5000) (k : Fin 256) :
    ((cfg1.win 7).blk t).view.emb (ix2 r k) = ix2 (Cert.Spec.tileRow (tile t) r) k :=
  funext fun a => Fin.ext <| (win1_7.rect_emb_val t (ix2 r k) a).trans <| by
    match a with
    | ⟨0, _⟩ => exact congrArg (· * 5000 + r.val) (idx_mov t 7 (0 : Fin 2) (by decide) rfl)
    | ⟨1, _⟩ => exact (congrArg (· * 256 + k.val) (idx_fix t 7 (1 : Fin 2) (.inr (by decide)))).trans (Nat.zero_add _)

/-- Tile `t`'s row of column sums is row `t` of the 10 × 1 × 256 array. -/
theorem emb8 (t : Fin cfg1.N) (q : Fin 256) :
    ((cfg1.win 8).blk t).view.emb (ix3 0 0 q) = ix3 (tile t) 0 q :=
  funext fun a => Fin.ext <| (win1_8.rect_emb_val t (ix3 0 0 q) a).trans <| by
    match a with
    | ⟨0, _⟩ => exact congrArg (· * 1 + 0) (idx_mov t 8 (0 : Fin 3) (by decide) rfl) |>.trans (Nat.mul_one _)
    | ⟨1, _⟩ => exact congrArg (· * 1 + 0) (idx_fix t 8 (1 : Fin 3) (.inr (by decide)))
    | ⟨2, _⟩ => exact (congrArg (· * 256 + q.val) (idx_fix t 8 (2 : Fin 3) (.inr (by decide)))).trans (Nat.zero_add _)

theorem emb9 (t : Fin cfg1.N) (q : Fin 256) :
    ((cfg1.win 9).blk t).view.emb (ix3 0 0 q) = ix3 (tile t) 0 q :=
  funext fun a => Fin.ext <| (win1_9.rect_emb_val t (ix3 0 0 q) a).trans <| by
    match a with
    | ⟨0, _⟩ => exact congrArg (· * 1 + 0) (idx_mov t 9 (0 : Fin 3) (by decide) rfl) |>.trans (Nat.mul_one _)
    | ⟨1, _⟩ => exact congrArg (· * 1 + 0) (idx_fix t 9 (1 : Fin 3) (.inr (by decide)))
    | ⟨2, _⟩ => exact (congrArg (· * 256 + q.val) (idx_fix t 9 (2 : Fin 3) (.inr (by decide)))).trans (Nat.zero_add _)

theorem rd0 (c : Dev nD) (t : Fin cfg1.N) (r : Fin 5000) (k : Fin 256) :
    (iblk1 V c 0 t : Vec Ideal S5000x256 .f32) (ix2 r k)
      = V c (Pipeline.arrRef spec1 0) (ix2 (Cert.Spec.tileRow (tile t) r) k) :=
  congrArg (V c (Pipeline.arrRef spec1 0)) (emb0 t r k)

theorem rd1 (c : Dev nD) (t : Fin cfg1.N) (k : Fin 256) :
    (iblk1 V c 1 t : Vec Ideal S1x256 .f32) (ix2 0 k) = row1 V c k :=
  congrArg (V c (Pipeline.arrRef spec1 1)) (funext fun a => Fin.ext
    (win1_1.rect_emb_val_of_index_zero t a (idx_fix t 1 a (.inl (by decide))) (ix2 0 k)))

theorem rd2 (c : Dev nD) (t : Fin cfg1.N) (k : Fin 256) :
    (iblk1 V c 2 t : Vec Ideal S1x256 .f32) (ix2 0 k) = row2 V c k :=
  congrArg (V c (Pipeline.arrRef spec1 2)) (funext fun a => Fin.ext
    (win1_2.rect_emb_val_of_index_zero t a (idx_fix t 2 a (.inl (by decide))) (ix2 0 k)))

theorem rd3 (c : Dev nD) (t : Fin cfg1.N) (k : Fin 256) :
    (iblk1 V c 3 t : Vec Ideal S1x256 .f32) (ix2 0 k) = row3 V c k :=
  congrArg (V c (Pipeline.arrRef spec1 3)) (funext fun a => Fin.ext
    (win1_3.rect_emb_val_of_index_zero t a (idx_fix t 3 a (.inl (by decide))) (ix2 0 k)))

theorem rd4 (c : Dev nD) (t : Fin cfg1.N) (k : Fin 256) :
    (iblk1 V c 4 t : Vec Ideal S1x256 .f32) (ix2 0 k) = row4 V c k :=
  congrArg (V c (Pipeline.arrRef spec1 4)) (funext fun a => Fin.ext
    (win1_4.rect_emb_val_of_index_zero t a (idx_fix t 4 a (.inl (by decide))) (ix2 0 k)))

theorem rd5 (c : Dev nD) (t : Fin cfg1.N) (k q : Fin 256) :
    (iblk1 V c 5 t : Vec Ideal S256x256 .f32) (ix2 k q) = V c (Pipeline.arrRef spec1 5) (ix2 k q) :=
  congrArg (V c (Pipeline.arrRef spec1 5)) (funext fun a => Fin.ext
    (win1_5.rect_emb_val_of_index_zero t a (idx_fix t 5 a (.inl (by decide))) (ix2 k q)))

theorem rd6 (c : Dev nD) (t : Fin cfg1.N) (k : Fin 256) :
    (iblk1 V c 6 t : Vec Ideal S1x256 .f32) (ix2 0 k) = row6 V c k :=
  congrArg (V c (Pipeline.arrRef spec1 6)) (funext fun a => Fin.ext
    (win1_6.rect_emb_val_of_index_zero t a (idx_fix t 6 a (.inl (by decide))) (ix2 0 k)))

/-- Entry `(r, q)` of the tile computed for `t` is entry `(t · 5000 + r, q)` of the second layer's output. -/
theorem tile_entry (c : Dev nD) (t : Fin cfg1.N) (r : Fin 5000) (q : Fin 256) :
    k1_pay2 (iblk1 V c 0 t) (iblk1 V c 1 t) (iblk1 V c 2 t) (iblk1 V c 3 t) (iblk1 V c 4 t) (iblk1 V c 5 t) (iblk1 V c 6 t) (ix2 r q)
      = Z2 V c (Cert.Spec.tileRow (tile t) r) q := by
  refine (PayB1.pay2_apply _ _ _ _ _ _ _ r q).trans ?_
  unfold PayB1.act
  simp only [rd0 V c t, rd1 V c t, rd2 V c t, rd3 V c t, rd4 V c t, rd5 V c t, rd6 V c t]
  rfl

theorem hz2 : (![0, 0] : Fin 2 → Nat) = fun _ => 0 := funext fun a => by fin_cases a <;> rfl
theorem hz3 : (![0, 0, 0] : Fin 3 → Nat) = fun _ => 0 := funext fun a => by fin_cases a <;> rfl

/-- The second layer's output, and per tile its column sums and column sums of squares. -/
abbrev G7 (c : Dev nD) : S50000x256.Idx → Elt Ideal .f32 := fun i => Z2 V c (i 0) (i 1)
abbrev G8 (c : Dev nD) : S10x1x256.Idx → Elt Ideal .f32 := fun i => Cert.Spec.tileSum (Z2 V c) (i 0) (i 2)
abbrev G9 (c : Dev nD) : S10x1x256.Idx → Elt Ideal .f32 := fun i => Cert.Spec.tileSumSq (Z2 V c) (i 0) (i 2)

theorem wb7 (c : Dev nD) (t : Fin cfg1.N) :
    (dat1 (F := Ideal) V c).flushed 7 t = ((cfg1.win 7).blk t).view.read (Elt Ideal) (G7 V c) := by
  show (cfg1.win 7).cut (grid1.coords t) ((dat1 (F := Ideal) V c).after 7 t) = _
  rw [after1_7]
  unfold out1_7
  rw [View.canon_unit_zero hz2]
  simp only [View.ld_unit_zero (S := S5000x256) hz2, View.ld_unit_zero (S := S1x256) hz2, View.ld_unit_zero (S := S256x256) hz2]
  funext j
  obtain ⟨r, q, rfl⟩ : ∃ (r : Fin 5000) (q : Fin 256), j = ix2 r q := ⟨j 0, j 1, eq_ix2 j⟩
  exact (tile_entry V c t r q).trans (congrArg (G7 V c) (emb7 t r q)).symm

theorem wb8 (c : Dev nD) (t : Fin cfg1.N) :
    (dat1 (F := Ideal) V c).flushed 8 t = ((cfg1.win 8).blk t).view.read (Elt Ideal) (G8 V c) := by
  show (cfg1.win 8).cut (grid1.coords t) ((dat1 (F := Ideal) V c).after 8 t) = _
  rw [after1_8]
  unfold out1_8
  rw [View.canon_unit_zero hz3]
  simp only [View.ld_unit_zero (S := S5000x256) hz2, View.ld_unit_zero (S := S1x256) hz2, View.ld_unit_zero (S := S256x256) hz2]
  funext j
  obtain ⟨a, b, q, rfl⟩ : ∃ (a b : Fin 1) (q : Fin 256), j = ix3 a b q := ⟨j 0, j 1, j 2, eq_ix3 j⟩
  obtain rfl : a = 0 := Subsingleton.elim _ _
  obtain rfl : b = 0 := Subsingleton.elim _ _
  refine (PayB1.pay4_apply (iblk1 V c 0 t) (iblk1 V c 1 t) (iblk1 V c 2 t) (iblk1 V c 3 t) (iblk1 V c 4 t) (iblk1 V c 5 t) (iblk1 V c 6 t) q).trans (.trans ?_ (congrArg (G8 V c) (emb8 t q)).symm)
  refine (zero_add _).symm.trans (congrArg₂ (· + ·) Ideal.ofBits_zero_f32.symm (Finset.sum_congr rfl fun r _ => ?_))
  exact tile_entry V c t r q

theorem wb9 (c : Dev nD) (t : Fin cfg1.N) :
    (dat1 (F := Ideal) V c).flushed 9 t = ((cfg1.win 9).blk t).view.read (Elt Ideal) (G9 V c) := by
  show (cfg1.win 9).cut (grid1.coords t) ((dat1 (F := Ideal) V c).after 9 t) = _
  rw [after1_9]
  unfold out1_9
  rw [View.canon_unit_zero hz3]
  simp only [View.ld_unit_zero (S := S5000x256) hz2, View.ld_unit_zero (S := S1x256) hz2, View.ld_unit_zero (S := S256x256) hz2]
  funext j
  obtain ⟨a, b, q, rfl⟩ : ∃ (a b : Fin 1) (q : Fin 256), j = ix3 a b q := ⟨j 0, j 1, j 2, eq_ix3 j⟩
  obtain rfl : a = 0 := Subsingleton.elim _ _
  obtain rfl : b = 0 := Subsingleton.elim _ _
  refine (PayB1.pay13_apply (iblk1 V c 0 t) (iblk1 V c 1 t) (iblk1 V c 2 t) (iblk1 V c 3 t) (iblk1 V c 4 t) (iblk1 V c 5 t) (iblk1 V c 6 t) q).trans (.trans ?_ (congrArg (G9 V c) (emb9 t q)).symm)
  refine (zero_add _).symm.trans (congrArg₂ (· + ·) Ideal.ofBits_zero_f32.symm (Finset.sum_congr rfl fun r _ => ?_))
  exact congrArg₂ (· * ·) (tile_entry V c t r q) (tile_entry V c t r q)

/-- Row `p` lies in tile `p / 5000`. -/
theorem cover7 (i : S50000x256.Idx) :
    ∃ t : Fin cfg1.N, (cfg1.win 7).flush t = true ∧ i ∈ ((cfg1.win 7).blk t).view.set := by
  obtain ⟨p, q, rfl⟩ : ∃ (p : Fin 50000) (q : Fin 256), i = ix2 p q := ⟨i 0, i 1, eq_ix2 i⟩
  have hp := p.isLt
  let t : Fin cfg1.N := Fin.cast N_1.symm ⟨p.val / 5000, by omega⟩
  let r : Fin 5000 := ⟨p.val % 5000, Nat.mod_lt _ (by decide)⟩
  have h := ((cfg1.win 7).blk t).view.emb_mem_set (ix2 r q)
  rw [emb7, show Cert.Spec.tileRow (tile t) r = p from Fin.ext (Nat.div_add_mod' _ _)] at h
  exact ⟨t, flush1_7 t, h⟩

theorem cover8 (i : S10x1x256.Idx) :
    ∃ t : Fin cfg1.N, (cfg1.win 8).flush t = true ∧ i ∈ ((cfg1.win 8).blk t).view.set := by
  obtain ⟨a, b, q, rfl⟩ : ∃ (a : Fin 10) (b : Fin 1) (q : Fin 256), i = ix3 a b q := ⟨i 0, i 1, i 2, eq_ix3 i⟩
  obtain rfl : b = 0 := Subsingleton.elim _ _
  have h := ((cfg1.win 8).blk (a.cast N_1.symm)).view.emb_mem_set (ix3 0 0 q)
  rw [emb8] at h
  exact ⟨_, flush1_8 _, h⟩

theorem cover9 (i : S10x1x256.Idx) :
    ∃ t : Fin cfg1.N, (cfg1.win 9).flush t = true ∧ i ∈ ((cfg1.win 9).blk t).view.set := by
  obtain ⟨a, b, q, rfl⟩ : ∃ (a : Fin 10) (b : Fin 1) (q : Fin 256), i = ix3 a b q := ⟨i 0, i 1, i 2, eq_ix3 i⟩
  obtain rfl : b = 0 := Subsingleton.elim _ _
  have h := ((cfg1.win 9).blk (a.cast N_1.symm)).view.emb_mem_set (ix3 0 0 q)
  rw [emb9] at h
  exact ⟨_, flush1_9 _, h⟩

theorem z2 (c : Dev nD) (p : Fin 50000) (q : Fin 256) :
    (dat1 (F := Ideal) V c).arrAt 7 cfg1.N (ix2 p q) = Z2 V c p q :=
  congrFun ((dat1 (F := Ideal) V c).arrAt_eq_of_cover 7 (G7 V c) (fun t _ => wb7 V c t) cover7) (ix2 p q)

theorem psum (c : Dev nD) (t : Fin 10) (q : Fin 256) :
    (dat1 (F := Ideal) V c).arrAt 8 cfg1.N (ix3 t 0 q) = Cert.Spec.tileSum (Z2 V c) t q :=
  congrFun ((dat1 (F := Ideal) V c).arrAt_eq_of_cover 8 (G8 V c) (fun t _ => wb8 V c t) cover8) (ix3 t 0 q)

theorem psumsq (c : Dev nD) (t : Fin 10) (q : Fin 256) :
    (dat1 (F := Ideal) V c).arrAt 9 cfg1.N (ix3 t 0 q) = Cert.Spec.tileSumSq (Z2 V c) t q :=
  congrFun ((dat1 (F := Ideal) V c).arrAt_eq_of_cover 9 (G9 V c) (fun t _ => wb9 V c t) cover9) (ix3 t 0 q)

end Cert.KernelIdeal.LiftB1

end
-- ==== Proof.LiftC.lean ====
import proofs.«401895_j21930103014155_2_alg».proof.Proof.Gen.KernelIdeal.Frame
import proofs.«401895_j21930103014155_2_alg».proof.Proof.Spec
import Idealize.ShloMosaic.Lib.ValueIdx
import Idealize.ShloMosaic.Lib.ValueLayout
import Idealize.ShloMosaic.Lib.Pipeline.Value

noncomputable section

namespace Cert.KernelIdeal.LiftC

open Idealize.ShloMosaic Idealize.ShloMosaic.TcCoe ValueIdx
open Cert.KernelIdeal Cert.KernelIdeal.Gen
open Idealize.ShloMosaic.Pipeline (Window Grid)

-- Entry (r, q) of the tile a point of the last layer stores: each of the four rows acts through its entry in column q.
theorem pay_lin (x0 : Vec Ideal S5000x256 .f32) (x1 x2 x3 x4 : Vec Ideal S1x256 .f32) (r : Fin 5000) (q : Fin 256) :
    k14_pay1 (F := Ideal) x0 x1 x2 x3 x4 (ix2 r q)
      = (x0 (ix2 r q) - x1 (ix2 (0 : Fin 1) q)) * Ideal.rsqrt (x2 (ix2 (0 : Fin 1) q) + Cert.Spec.cEps)
          * x3 (ix2 (0 : Fin 1) q) + x4 (ix2 (0 : Fin 1) q) := by
  unfold k14_pay1
  simp only [shapeCast_self]
  rw [addf_apply, mulf_apply, mulf_apply, subf_apply]
  rw [broadcastTo_1b_ab_apply, broadcastTo_1b_ab_apply, broadcastTo_1b_ab_apply, broadcastTo_1b_ab_apply]
  rfl

-- The other layers store the maximum of the same expression and zero.
theorem pay_relu (x0 : Vec Ideal S5000x256 .f32) (x1 x2 x3 x4 : Vec Ideal S1x256 .f32) (r : Fin 5000) (q : Fin 256) :
    k2_pay1 (F := Ideal) x0 x1 x2 x3 x4 (ix2 r q)
      = Cert.Spec.relu ((x0 (ix2 r q) - x1 (ix2 (0 : Fin 1) q)) * Ideal.rsqrt (x2 (ix2 (0 : Fin 1) q) + Cert.Spec.cEps)
          * x3 (ix2 (0 : Fin 1) q) + x4 (ix2 (0 : Fin 1) q)) :=
  (show _ = Cert.Spec.relu (k14_pay1 (F := Ideal) x0 x1 x2 x3 x4 (ix2 r q)) from rfl).trans
    (congrArg Cert.Spec.relu (pay_lin x0 x1 x2 x3 x4 r q))

theorem zero_off : (![0, 0] : Fin 2 → Nat) = fun _ => 0 := funext fun a => by fin_cases a <;> rfl

-- A block whose index is zero on every axis keeps every coordinate.
theorem emb_eq_self {G : Grid} (w : Window sig G) (t : Fin G.N) (h : ∀ a, w.index t a = 0)
    (y : (w.xblock (G.coords t)).Idx) {j : w.shape.Idx} (hj : ∀ a, (y a : ℕ) = j a) : (w.rect t).emb y = j :=
  funext fun a => Fin.ext ((w.rect_emb_val_of_index_zero t a (h a) y).trans (hj a))

end Cert.KernelIdeal.LiftC

end
-- ==== Proof.LiftC2.lean ====
import proofs.«401895_j21930103014155_2_alg».proof.Proof.Gen.KernelIdeal.Frame
import proofs.«401895_j21930103014155_2_alg».proof.Proof.Spec
import proofs.«401895_j21930103014155_2_alg».proof.Proof.LiftC
import Idealize.ShloMosaic.Lib.ValueIdx
import Idealize.ShloMosaic.Lib.ValueLayout
import Idealize.ShloMosaic.Lib.Pipeline.Value

noncomputable section

namespace Cert.KernelIdeal.LiftC2

open Idealize.ShloMosaic Idealize.ShloMosaic.TcCoe ValueIdx
open Cert.KernelIdeal Cert.KernelIdeal.Gen
open Idealize.ShloMosaic.Pipeline (Dat)

variable (V : (c : Dev nD) → (b : Ref sig .tc) → Buf (Elt Ideal) ((c : Thread nD τ).loc b))

abbrev row1 (c : Dev nD) : Cert.Spec.Row 256 := fun q => V c (Pipeline.arrRef spec2 1) (ix2 0 q)
abbrev row2 (c : Dev nD) : Cert.Spec.Row 256 := fun q => V c (Pipeline.arrRef spec2 2) (ix2 0 q)
abbrev row3 (c : Dev nD) : Cert.Spec.Row 256 := fun q => V c (Pipeline.arrRef spec2 3) (ix2 0 q)
abbrev row4 (c : Dev nD) : Cert.Spec.Row 256 := fun q => V c (Pipeline.arrRef spec2 4) (ix2 0 q)

abbrev BN (c : Dev nD) : Cert.Spec.Mat 50000 256 :=
  Cert.Spec.norm (fun p k => V c (Pipeline.arrRef spec2 0) (ix2 p k)) (row1 V c) (row2 V c) (row3 V c) (row4 V c)

abbrev res (c : Dev nD) : S50000x256.Idx → EReal := fun i => Cert.Spec.reluM (BN V c) (i 0) (i 1)

theorem npoints : cfg2.N = 10 := by decide

abbrev rowOf (t : Fin cfg2.N) (r : Fin 5000) : Fin 50000 :=
  ⟨t.val * 5000 + r.val, by have h : t.val < 10 := Nat.lt_of_lt_of_eq t.isLt npoints; omega⟩

-- The [50000, 256] operand and the result move down one tile of 5000 rows per grid point; the four rows stay.
theorem idx_maps : ∀ t : Fin cfg2.N,
    (win2_0.index t (0 : Fin 2) = t.val ∧ win2_0.index t (1 : Fin 2) = 0)
    ∧ (∀ a : Fin 2, win2_1.index t a = 0) ∧ (∀ a : Fin 2, win2_2.index t a = 0)
    ∧ (∀ a : Fin 2, win2_3.index t a = 0) ∧ (∀ a : Fin 2, win2_4.index t a = 0)
    ∧ win2_5.index t (0 : Fin 2) = t.val ∧ win2_5.index t (1 : Fin 2) = 0 :=
  (by decide +kernel : ∀ t : Fin grid2.N, _)

theorem emb0 (t : Fin cfg2.N) (r : Fin 5000) (q : Fin 256) :
    ((cfg2.win 0).blk t).view.emb (ix2 r q) = ix2 (rowOf t r) q := by
  refine Shape.idx_ext₂ ?_ ?_
  exacts [(win2_0.rect_emb_val t (ix2 r q) (0 : Fin 2)).trans (congrArg (fun k : ℕ => k * 5000 + r.val) (idx_maps t).1.1),
    win2_0.rect_emb_val_of_index_zero t (1 : Fin 2) (idx_maps t).1.2 (ix2 r q)]

theorem emb5 (t : Fin cfg2.N) (r : Fin 5000) (q : Fin 256) :
    ((cfg2.win 5).blk t).view.emb (ix2 r q) = ix2 (rowOf t r) q := by
  refine Shape.idx_ext₂ ?_ ?_
  exacts [(win2_5.rect_emb_val t (ix2 r q) (0 : Fin 2)).trans (congrArg (fun k : ℕ => k * 5000 + r.val) (idx_maps t).2.2.2.2.2.1),
    win2_5.rect_emb_val_of_index_zero t (1 : Fin 2) (idx_maps t).2.2.2.2.2.2 (ix2 r q)]

-- Point t writes back tile t of res: the body loads rows 5000·t … of the operand and the four rows whole.
theorem flushed_eq (c : Dev nD) (t : Fin cfg2.N) :
    (dat2 (F := Ideal) V c).flushed 5 t = ((cfg2.win 5).blk t).view.read (Elt Ideal) (res V c) := by
  obtain ⟨-, h1, h2, h3, h4, -⟩ := idx_maps t
  show (cfg2.win 5).cut (grid2.coords t) ((dat2 (F := Ideal) V c).after 5 t) = _
  rw [after2_5]
  unfold out2_5
  rw [View.canon_unit_zero LiftC.zero_off]
  simp only [View.ld_unit_zero (S := S5000x256) LiftC.zero_off, View.ld_unit_zero (S := S1x256) LiftC.zero_off]
  funext j
  obtain ⟨r, q, rfl⟩ : ∃ (r : Fin 5000) (q : Fin 256), j = ix2 r q := ⟨j 0, j 1, eq_ix2 j⟩
  have e0 : iblk2 V c 0 t (ix2 r q) = V c (Pipeline.arrRef spec2 0) (ix2 (rowOf t r) q) :=
    congrArg (V c (Pipeline.arrRef spec2 0)) (emb0 t r q)
  have e1 : iblk2 V c 1 t (ix2 (0 : Fin 1) q) = row1 V c q :=
    congrArg (V c (Pipeline.arrRef spec2 1)) (LiftC.emb_eq_self win2_1 t h1 (ix2 (0 : Fin 1) q) fun _ => rfl)
  have e2 : iblk2 V c 2 t (ix2 (0 : Fin 1) q) = row2 V c q :=
    congrArg (V c (Pipeline.arrRef spec2 2)) (LiftC.emb_eq_self win2_2 t h2 (ix2 (0 : Fin 1) q) fun _ => rfl)
  have e3 : iblk2 V c 3 t (ix2 (0 : Fin 1) q) = row3 V c q :=
    congrArg (V c (Pipeline.arrRef spec2 3)) (LiftC.emb_eq_self win2_3 t h3 (ix2 (0 : Fin 1) q) fun _ => rfl)
  have e4 : iblk2 V c 4 t (ix2 (0 : Fin 1) q) = row4 V c q :=
    congrArg (V c (Pipeline.arrRef spec2 4)) (LiftC.emb_eq_self win2_4 t h4 (ix2 (0 : Fin 1) q) fun _ => rfl)
  show k2_pay1 (F := Ideal) (iblk2 V c 0 t) (iblk2 V c 1 t) (iblk2 V c 2 t) (iblk2 V c 3 t) (iblk2 V c 4 t) (ix2 r q)
    = res V c (((cfg2.win 5).blk t).view.emb (ix2 r q))
  rw [emb5, LiftC.pay_relu, e0, e1, e2, e3, e4]
  rfl

-- Row p lies in tile p / 5000, so the ten blocks cover the result.
theorem cover (i : S50000x256.Idx) :
    ∃ t : Fin cfg2.N, (cfg2.win 5).flush t = true ∧ i ∈ ((cfg2.win 5).blk t).view.set := by
  have hi : (i 0).val < 50000 := idx2_lt0 i
  obtain ⟨t, ht⟩ : ∃ t : Fin cfg2.N, t.val = (i 0).val / 5000 := ⟨⟨(i 0).val / 5000, by rw [npoints]; omega⟩, rfl⟩
  obtain ⟨r, hr⟩ : ∃ r : Fin 5000, r.val = (i 0).val % 5000 := ⟨⟨(i 0).val % 5000, Nat.mod_lt _ (by norm_num)⟩, rfl⟩
  obtain ⟨q, hq⟩ : ∃ q : Fin 256, q.val = (i 1).val := ⟨i 1, rfl⟩
  have h : ix2 (rowOf t r) q = i := by
    refine Shape.idx_ext₂ ?_ hq
    show t.val * 5000 + r.val = (i 0).val
    omega
  refine ⟨t, flush2_5 t, ?_⟩
  rw [← h, ← emb5]
  exact View.emb_mem_set _ _

theorem out (c : Dev nD) (p : Fin 50000) (q : Fin 256) :
    (dat2 (F := Ideal) V c).arrAt 5 cfg2.N (ix2 p q) = Cert.Spec.reluM (BN V c) p q :=
  congrFun ((dat2 (F := Ideal) V c).arrAt_eq_of_cover 5 (res V c) (fun t _ => flushed_eq V c t) cover) (ix2 p q)

end Cert.KernelIdeal.LiftC2

end
-- ==== Proof.KLayer0.lean ====
import proofs.«401895_j21930103014155_2_alg».proof.Proof.Gen.KernelIdeal.Frame
import proofs.«401895_j21930103014155_2_alg».proof.Proof.KLayer0Host
import proofs.«401895_j21930103014155_2_alg».proof.Proof.LiftA0
import proofs.«401895_j21930103014155_2_alg».proof.Proof.LiftB1
import proofs.«401895_j21930103014155_2_alg».proof.Proof.LiftC2

noncomputable section

namespace Cert.KernelIdeal.KLayer0

open Idealize.ShloMosaic Idealize.ShloMosaic.TcCoe Idealize.ShloMosaic.ValueIdx
open Cert.KernelIdeal Cert.KernelIdeal.Gen

variable (m : (ℓ : Loc nD τ sig) → Buf (Elt Ideal) ℓ) (ρ : Dev nD → PrngReg) (c : Dev nD)

theorem par_in (r : Ref sig .tc) (hr : r ∈ pars) :
    W0 m ρ c (Proc.devRef .tc r) = m ((c : Thread nD τ).loc r) :=
  rfl

theorem par_a (r : Ref sig .tc) (hr : r ∈ pars) :
    W4 m ρ c (Proc.devRef .tc r) = m ((c : Thread nD τ).loc r) := by
  refine Eq.trans ?_ ((keeps_pre (W0 m ρ c) r hr).trans (par_in m ρ c r hr))
  simp only [pars, List.mem_cons, List.not_mem_nil, or_false] at hr
  rcases hr with rfl | rfl | rfl | rfl | rfl | rfl | rfl | rfl | rfl | rfl | rfl <;> exact W4_of_ne m ρ c _ (by decide)

theorem par_b (r : Ref sig .tc) (hr : r ∈ pars) :
    W6 m ρ c (Proc.devRef .tc r) = m ((c : Thread nD τ).loc r) := by
  refine Eq.trans ?_ ((keeps_d (W4 m ρ c) r hr).trans (par_a m ρ c r hr))
  simp only [pars, List.mem_cons, List.not_mem_nil, or_false] at hr
  rcases hr with rfl | rfl | rfl | rfl | rfl | rfl | rfl | rfl | rfl | rfl | rfl <;> exact W6_of_ne m ρ c _ (by decide)

theorem par_W8 (r : Ref sig .tc) (hr : r ∈ pars) :
    W8 m ρ c (Proc.devRef .tc r) = m ((c : Thread nD τ).loc r) := by
  refine Eq.trans ?_ ((keeps_e (W6 m ρ c) r hr).trans (par_b m ρ c r hr))
  simp only [pars, List.mem_cons, List.not_mem_nil, or_false] at hr
  rcases hr with rfl | rfl | rfl | rfl | rfl | rfl | rfl | rfl | rfl | rfl | rfl <;> exact W8_of_ne m ρ c _ (by decide)

theorem step (p : Fin 50000) (q : Fin 256) :
    W8 m ρ c (Proc.devRef .tc main_v48) (ix2 p q)
      = Spec.kLayer false (m ((c : Thread nD τ).loc main_arg9) (ix1 (0 : Fin 5)))
          (fun p k => m ((c : Thread nD τ).loc main_arg0) (ix2 p k))
          (fun p k => KLayer.agg (m ((c : Thread nD τ).loc main_arg0)) (m ((c : Thread nD τ).loc main_arg1))
            (m ((c : Thread nD τ).loc main_arg2)) (ix2 p k))
          (fun k q => m ((c : Thread nD τ).loc main_arg3) (ix3 (0 : Fin 5) k q))
          (fun q => m ((c : Thread nD τ).loc main_arg4) (ix2 (0 : Fin 5) q))
          (fun q => m ((c : Thread nD τ).loc main_arg5) (ix2 (0 : Fin 5) q))
          (fun q => m ((c : Thread nD τ).loc main_arg6) (ix2 (0 : Fin 5) q))
          (fun k q => m ((c : Thread nD τ).loc main_arg7) (ix3 (0 : Fin 5) k q))
          (fun q => m ((c : Thread nD τ).loc main_arg8) (ix2 (0 : Fin 5) q))
          (fun q => m ((c : Thread nD τ).loc main_arg10) (ix2 (0 : Fin 5) q))
          (fun q => m ((c : Thread nD τ).loc main_arg11) (ix2 (0 : Fin 5) q)) p q := by
  have ps1 : (fun (t : Fin 10) (q : Fin 256) => W4 m ρ c (Proc.devRef .tc main_v13_1) (ix3 t 0 q))
      = Spec.tileSum (LiftA0.Z1 (V3 m ρ) c) :=
    funext fun t => funext fun q => (congrFun (W4_arr m ρ c 6) _).trans (LiftA0.psum (V3 m ρ) c t q)
  have pss1 : (fun (t : Fin 10) (q : Fin 256) => W4 m ρ c (Proc.devRef .tc main_v13_2) (ix3 t 0 q))
      = Spec.tileSumSq (LiftA0.Z1 (V3 m ρ) c) :=
    funext fun t => funext fun q => (congrFun (W4_arr m ρ c 7) _).trans (LiftA0.psumsq (V3 m ρ) c t q)
  have ps2 : (fun (t : Fin 10) (q : Fin 256) => W6 m ρ c (Proc.devRef .tc main_v33_1) (ix3 t 0 q))
      = Spec.tileSum (LiftB1.Z2 (V5 m ρ) c) :=
    funext fun t => funext fun q => (congrFun (W6_arr m ρ c 8) _).trans (LiftB1.psum (V5 m ρ) c t q)
  have pss2 : (fun (t : Fin 10) (q : Fin 256) => W6 m ρ c (Proc.devRef .tc main_v33_2) (ix3 t 0 q))
      = Spec.tileSumSq (LiftB1.Z2 (V5 m ρ) c) :=
    funext fun t => funext fun q => (congrFun (W6_arr m ρ c 9) _).trans (LiftB1.psumsq (V5 m ρ) c t q)
  have H := Spec.kLayer_of_regions (last := false) (z1 := LiftA0.Z1 (V3 m ρ) c) (z2 := LiftB1.Z2 (V5 m ρ) c) rfl rfl
    (funext fun p => funext fun k => congrFun (in_at (W0 m ρ c)) (ix2 p k))
    (funext fun p => funext fun k => congrFun ((agg_arr (W0 m ρ c)).trans
      (congr (congrArg (KLayer.agg (W0 m ρ c (Proc.devRef .tc main_arg0))) (par_in m ρ c main_arg1 (by decide))) (par_in m ρ c main_arg2 (by decide)))) (ix2 p k))
    (funext fun k => (eps_at (W0 m ρ c) k).trans (congrFun (par_in m ρ c main_arg9 (by decide)) _))
    (funext fun k => funext fun q => (w1_at (W0 m ρ c) k q).trans (congrFun (par_in m ρ c main_arg3 (by decide)) _))
    (funext fun q => (b1_at (W0 m ρ c) q).trans (congrFun (par_in m ρ c main_arg4 (by decide)) _))
    (funext fun p => funext fun k =>
      (congrFun ((z1_at (W4 m ρ c)).trans (W4_arr m ρ c 5)) _).trans (LiftA0.z1 (V3 m ρ) c p k))
    (funext fun q => (mean1_at (W4 m ρ c) q).trans (congrFun (congrArg Spec.meanT ps1) q))
    (funext fun q => (var1_at (W4 m ρ c) q).trans (congrFun (congr (congrArg Spec.varT ps1) pss1) q))
    (funext fun q => (g1_at (W4 m ρ c) q).trans (congrFun (par_a m ρ c main_arg5 (by decide)) _))
    (funext fun q => (bt1_at (W4 m ρ c) q).trans (congrFun (par_a m ρ c main_arg6 (by decide)) _))
    (funext fun k => funext fun q => (w2_at (W4 m ρ c) k q).trans (congrFun (par_a m ρ c main_arg7 (by decide)) _))
    (funext fun q => (b2_at (W4 m ρ c) q).trans (congrFun (par_a m ρ c main_arg8 (by decide)) _))
    (funext fun p => funext fun k =>
      (congrFun ((z2_at (W6 m ρ c)).trans (W6_arr m ρ c 7)) _).trans (LiftB1.z2 (V5 m ρ) c p k))
    (funext fun q => (mean2_at (W6 m ρ c) q).trans (congrFun (congrArg Spec.meanT ps2) q))
    (funext fun q => (var2_at (W6 m ρ c) q).trans (congrFun (congr (congrArg Spec.varT ps2) pss2) q))
    (funext fun q => (bng_at (W6 m ρ c) q).trans (congrFun (par_b m ρ c main_arg10 (by decide)) _))
    (funext fun q => (bnb_at (W6 m ρ c) q).trans (congrFun (par_b m ρ c main_arg11 (by decide)) _))
  rw [show W8 m ρ c (Proc.devRef .tc main_v48) = _ from W8_arr m ρ c 5]
  exact (LiftC2.out (V7 m ρ) c p q).trans (congrFun (congrFun H p) q)

end Cert.KernelIdeal.KLayer0

end
-- ==== Proof.LiftA3.lean ====
import proofs.«401895_j21930103014155_2_alg».proof.Proof.Gen.KernelIdeal.Frame
import proofs.«401895_j21930103014155_2_alg».proof.Proof.PayA0
import Idealize.ShloMosaic.Lib.Pipeline.Value

noncomputable section

namespace Cert.KernelIdeal.LiftA3

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

abbrev Z1 (c : Dev nD) : Cert.Spec.Mat 50000 256 :=
  Cert.Spec.lin (Cert.Spec.zpreRow (fun k => V c (Pipeline.arrRef spec3 2) (ix2 0 k)) (fun p k => V c (Pipeline.arrRef spec3 0) (ix2 p k)) (fun p k => V c (Pipeline.arrRef spec3 1) (ix2 p k))) (fun k q => V c (Pipeline.arrRef spec3 3) (ix2 k q)) (fun q => V c (Pipeline.arrRef spec3 4) (ix2 0 q))

abbrev tile (t : Fin cfg3.N) : Fin 10 := ⟨t.val, lt_of_lt_of_eq t.isLt N_3⟩

theorem idx_facts : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = t.val ∧ win3_5.index t (1 : Fin 2) = 0)
    ∧ (win3_6.index t (0 : Fin 3) = t.val ∧ win3_6.index t (1 : Fin 3) = 0 ∧ win3_6.index t (2 : Fin 3) = 0)
    ∧ (win3_7.index t (0 : Fin 3) = t.val ∧ win3_7.index t (1 : Fin 3) = 0 ∧ win3_7.index t (2 : Fin 3) = 0) :=
  (by decide +kernel : ∀ t : Fin grid3.N, _)

theorem blk0_apply (c : Dev nD) (t : Fin cfg3.N) (r : Fin 5000) (k : Fin 256) :
    (iblk3 V c 0 t : Vec Ideal S5000x256 .f32) (ix2 r k)
      = (V c (Pipeline.arrRef spec3 0) : Vec Ideal S50000x256 .f32) (ix2 (Cert.Spec.tileRow (tile t) r) k) := by
  obtain ⟨⟨e0, e1⟩, -⟩ := idx_facts t
  unfold iblk3
  rw [View.read_apply]
  show (V c (Pipeline.arrRef spec3 0) : Vec Ideal S50000x256 .f32) (((cfg3.win 0).blk t).view.emb (ix2 r k)) = _
  refine congrArg _ ?_
  exact Shape.idx_ext₂ ((win3_0.rect_emb_val t _ (0 : Fin 2)).trans (congrArg (· * 5000 + r.val) e0))
    (win3_0.rect_emb_val_of_index_zero t (1 : Fin 2) e1 _)

theorem blk1_apply (c : Dev nD) (t : Fin cfg3.N) (r : Fin 5000) (k : Fin 256) :
    (iblk3 V c 1 t : Vec Ideal S5000x256 .f32) (ix2 r k)
      = (V c (Pipeline.arrRef spec3 1) : Vec Ideal S50000x256 .f32) (ix2 (Cert.Spec.tileRow (tile t) r) k) := by
  obtain ⟨-, ⟨e0, e1⟩, -⟩ := idx_facts t
  unfold iblk3
  rw [View.read_apply]
  show (V c (Pipeline.arrRef spec3 1) : Vec Ideal S50000x256 .f32) (((cfg3.win 1).blk t).view.emb (ix2 r k)) = _
  refine congrArg _ ?_
  exact Shape.idx_ext₂ ((win3_1.rect_emb_val t _ (0 : Fin 2)).trans (congrArg (· * 5000 + r.val) e0))
    (win3_1.rect_emb_val_of_index_zero t (1 : Fin 2) e1 _)

theorem blk2 (c : Dev nD) (t : Fin cfg3.N) :
    (iblk3 V c 2 t : Vec Ideal S1x256 .f32) = V c (Pipeline.arrRef spec3 2) := by
  obtain ⟨-, -, ⟨e0, e1⟩, -⟩ := idx_facts t
  unfold iblk3
  funext y
  rw [View.read_apply]
  show (V c (Pipeline.arrRef spec3 2) : Vec Ideal S1x256 .f32) (((cfg3.win 2).blk t).view.emb y) = _
  exact congrArg _ (Shape.idx_ext₂ (win3_2.rect_emb_val_of_index_zero t (0 : Fin 2) e0 y) (win3_2.rect_emb_val_of_index_zero t (1 : Fin 2) e1 y))

theorem blk3 (c : Dev nD) (t : Fin cfg3.N) :
    (iblk3 V c 3 t : Vec Ideal S256x256 .f32) = V c (Pipeline.arrRef spec3 3) := by
  obtain ⟨-, -, -, ⟨e0, e1⟩, -⟩ := idx_facts t
  unfold iblk3
  funext y
  rw [View.read_apply]
  show (V c (Pipeline.arrRef spec3 3) : Vec Ideal S256x256 .f32) (((cfg3.win 3).blk t).view.emb y) = _
  exact congrArg _ (Shape.idx_ext₂ (win3_3.rect_emb_val_of_index_zero t (0 : Fin 2) e0 y) (win3_3.rect_emb_val_of_index_zero t (1 : Fin 2) e1 y))

theorem blk4 (c : Dev nD) (t : Fin cfg3.N) :
    (iblk3 V c 4 t : Vec Ideal S1x256 .f32) = V c (Pipeline.arrRef spec3 4) := by
  obtain ⟨-, -, -, -, ⟨e0, e1⟩, -⟩ := idx_facts t
  unfold iblk3
  funext y
  rw [View.read_apply]
  show (V c (Pipeline.arrRef spec3 4) : Vec Ideal S1x256 .f32) (((cfg3.win 4).blk t).view.emb y) = _
  exact congrArg _ (Shape.idx_ext₂ (win3_4.rect_emb_val_of_index_zero t (0 : Fin 2) e0 y) (win3_4.rect_emb_val_of_index_zero t (1 : Fin 2) e1 y))

-- Point t's tile is rows 5000·t … 5000·t + 4999 of Z1.
theorem tile_apply (c : Dev nD) (t : Fin cfg3.N) (r : Fin 5000) (q : Fin 256) :
    Gen.k0_pay1 (iblk3 V c 0 t) (iblk3 V c 1 t) (iblk3 V c 2 t) (iblk3 V c 3 t) (iblk3 V c 4 t) (ix2 r q)
      = Z1 V c (Cert.Spec.tileRow (tile t) r) q := by
  refine (PayA0.pay1_apply _ _ _ _ _ r q).trans ?_
  refine congrArg₂ (· + ·) (Finset.sum_congr rfl fun k _ => ?_) (congrFun (blk4 V c t) _)
  exact congrArg₂ (· * ·) (congrArg₂ (· + ·) (congrArg₂ (· * ·) (congrArg (Cert.Spec.c1 + ·) (congrFun (blk2 V c t) _))
    (blk0_apply V c t r k)) (blk1_apply V c t r k)) (congrFun (blk3 V c t) _)

theorem out5_eq (x0 x1 : Vec Ideal S5000x256 .f32) (x2 : Vec Ideal S1x256 .f32) (x3 : Vec Ideal S256x256 .f32) (x4 : Vec Ideal S1x256 .f32) :
    out3_5 x0 x1 x2 x3 x4 = Gen.k0_pay1 x0 x1 x2 x3 x4 := by
  unfold out3_5
  rw [View.canon_unit_zero PayA0.hz2]
  simp only [View.ld_unit_zero (S := S5000x256) PayA0.hz2, View.ld_unit_zero (S := S1x256) PayA0.hz2, View.ld_unit_zero (S := S256x256) PayA0.hz2, k3_pay1, Gen.k0_pay1, shapeCast_self]

theorem out6_eq (x0 x1 : Vec Ideal S5000x256 .f32) (x2 : Vec Ideal S1x256 .f32) (x3 : Vec Ideal S256x256 .f32) (x4 : Vec Ideal S1x256 .f32) :
    out3_6 x0 x1 x2 x3 x4 = Gen.k0_pay2 x0 x1 x2 x3 x4 := by
  unfold out3_6
  rw [View.canon_unit_zero PayA0.hz3]
  simp only [View.ld_unit_zero (S := S5000x256) PayA0.hz2, View.ld_unit_zero (S := S1x256) PayA0.hz2, View.ld_unit_zero (S := S256x256) PayA0.hz2, k3_pay2, Gen.k0_pay2, k3_pay1, Gen.k0_pay1, shapeCast_self]

theorem out7_eq (x0 x1 : Vec Ideal S5000x256 .f32) (x2 : Vec Ideal S1x256 .f32) (x3 : Vec Ideal S256x256 .f32) (x4 : Vec Ideal S1x256 .f32) :
    out3_7 x0 x1 x2 x3 x4 = Gen.k0_pay3 x0 x1 x2 x3 x4 := by
  unfold out3_7
  rw [View.canon_unit_zero PayA0.hz3]
  simp only [View.ld_unit_zero (S := S5000x256) PayA0.hz2, View.ld_unit_zero (S := S1x256) PayA0.hz2, View.ld_unit_zero (S := S256x256) PayA0.hz2, k3_pay3, Gen.k0_pay3, k3_pay1, Gen.k0_pay1, shapeCast_self]

abbrev G5 (c : Dev nD) : S50000x256.Idx → Elt Ideal .f32 := fun i => Z1 V c (i 0) (i 1)
abbrev G6 (c : Dev nD) : S10x1x256.Idx → Elt Ideal .f32 := fun i => Cert.Spec.tileSum (Z1 V c) (i 0) (i 2)
abbrev G7 (c : Dev nD) : S10x1x256.Idx → Elt Ideal .f32 := fun i => Cert.Spec.tileSumSq (Z1 V c) (i 0) (i 2)

theorem emb5 (t : Fin cfg3.N) (r : Fin 5000) (q : Fin 256) :
    ((cfg3.win 5).blk t).view.emb (ix2 r q) = ix2 (Cert.Spec.tileRow (tile t) r) q := by
  obtain ⟨-, -, -, -, -, ⟨e0, e1⟩, -⟩ := idx_facts t
  exact Shape.idx_ext₂ ((win3_5.rect_emb_val t _ (0 : Fin 2)).trans (congrArg (· * 5000 + r.val) e0))
    (win3_5.rect_emb_val_of_index_zero t (1 : Fin 2) e1 _)

theorem emb6 (t : Fin cfg3.N) (q : Fin 256) :
    ((cfg3.win 6).blk t).view.emb (ix3 0 0 q) = ix3 (tile t) 0 q := by
  obtain ⟨-, -, -, -, -, -, ⟨e0, e1, e2⟩, -⟩ := idx_facts t
  refine funext fun a => Fin.ext ((win3_6.rect_emb_val t _ a).trans ?_)
  match a with
  | ⟨0, _⟩ => exact (congrArg (· * 1 + 0) e0).trans (Nat.mul_one _)
  | ⟨1, _⟩ => exact congrArg (· * 1 + 0) e1
  | ⟨2, _⟩ => exact (congrArg (· * 256 + q.val) e2).trans (Nat.zero_add _)

theorem emb7 (t : Fin cfg3.N) (q : Fin 256) :
    ((cfg3.win 7).blk t).view.emb (ix3 0 0 q) = ix3 (tile t) 0 q := by
  obtain ⟨-, -, -, -, -, -, -, ⟨e0, e1, e2⟩⟩ := idx_facts t
  refine funext fun a => Fin.ext ((win3_7.rect_emb_val t _ a).trans ?_)
  match a with
  | ⟨0, _⟩ => exact (congrArg (· * 1 + 0) e0).trans (Nat.mul_one _)
  | ⟨1, _⟩ => exact congrArg (· * 1 + 0) e1
  | ⟨2, _⟩ => exact (congrArg (· * 256 + q.val) e2).trans (Nat.zero_add _)

theorem flushed5_eq (c : Dev nD) (t : Fin cfg3.N) :
    (dat3 V c).flushed 5 t = ((cfg3.win 5).blk t).view.read (Elt Ideal) (G5 V c) := by
  show (cfg3.win 5).cut (grid3.coords t) ((dat3 V c).after 5 t) = _
  rw [after3_5, out5_eq]
  show (Gen.k0_pay1 (iblk3 V c 0 t) (iblk3 V c 1 t) (iblk3 V c 2 t) (iblk3 V c 3 t) (iblk3 V c 4 t) : Vec Ideal S5000x256 .f32) = _
  funext j
  obtain ⟨r, q, rfl⟩ : ∃ (r : Fin 5000) (q : Fin 256), j = ix2 r q := ⟨j 0, j 1, eq_ix2 j⟩
  refine (tile_apply V c t r q).trans ?_
  show _ = G5 V c (((cfg3.win 5).blk t).view.emb (ix2 r q))
  rw [emb5]

theorem flushed6_eq (c : Dev nD) (t : Fin cfg3.N) :
    (dat3 V c).flushed 6 t = ((cfg3.win 6).blk t).view.read (Elt Ideal) (G6 V c) := by
  show (cfg3.win 6).cut (grid3.coords t) ((dat3 V c).after 6 t) = _
  rw [after3_6, out6_eq]
  show (Gen.k0_pay2 (iblk3 V c 0 t) (iblk3 V c 1 t) (iblk3 V c 2 t) (iblk3 V c 3 t) (iblk3 V c 4 t) : Vec Ideal S1x1x256 .f32) = _
  refine PayA0.ext_1x1 fun q => (PayA0.pay2_apply _ _ _ _ _ q).trans ?_
  show _ = G6 V c (((cfg3.win 6).blk t).view.emb (ix3 0 0 q))
  rw [emb6 t q]
  show _ = Cert.Spec.c0 + ∑ r : Fin 5000, Z1 V c (Cert.Spec.tileRow (tile t) r) q
  rw [PayA0.c0_add]
  exact Finset.sum_congr rfl fun r _ => tile_apply V c t r q

theorem flushed7_eq (c : Dev nD) (t : Fin cfg3.N) :
    (dat3 V c).flushed 7 t = ((cfg3.win 7).blk t).view.read (Elt Ideal) (G7 V c) := by
  show (cfg3.win 7).cut (grid3.coords t) ((dat3 V c).after 7 t) = _
  rw [after3_7, out7_eq]
  show (Gen.k0_pay3 (iblk3 V c 0 t) (iblk3 V c 1 t) (iblk3 V c 2 t) (iblk3 V c 3 t) (iblk3 V c 4 t) : Vec Ideal S1x1x256 .f32) = _
  refine PayA0.ext_1x1 fun q => (PayA0.pay3_apply _ _ _ _ _ q).trans ?_
  show _ = G7 V c (((cfg3.win 7).blk t).view.emb (ix3 0 0 q))
  rw [emb7 t q]
  show _ = Cert.Spec.c0 + ∑ r : Fin 5000, Z1 V c (Cert.Spec.tileRow (tile t) r) q * Z1 V c (Cert.Spec.tileRow (tile t) r) q
  rw [PayA0.c0_add]
  exact Finset.sum_congr rfl fun r _ => congrArg₂ (· * ·) (tile_apply V c t r q) (tile_apply V c t r q)

-- Row p of the array lies in tile p / 5000, at row p % 5000 of it.
theorem cover5 (i : S50000x256.Idx) :
    ∃ t : Fin cfg3.N, (cfg3.win 5).flush t = true ∧ i ∈ ((cfg3.win 5).blk t).view.set :=
  ⟨⟨(i 0).val / 5000, lt_of_lt_of_eq (Nat.div_lt_of_lt_mul (i 0).isLt) N_3.symm⟩, flush3_5 _,
    PayA0.mem_set_of_emb _ ((emb5 _ ⟨(i 0).val % 5000, Nat.mod_lt _ (by decide)⟩ (i 1)).trans
      (Shape.idx_ext₂ (by exact Nat.div_add_mod' _ _) (by rfl)))⟩

theorem cover6 (i : S10x1x256.Idx) :
    ∃ t : Fin cfg3.N, (cfg3.win 6).flush t = true ∧ i ∈ ((cfg3.win 6).blk t).view.set :=
  ⟨⟨(i 0).val, lt_of_lt_of_eq (i 0).isLt N_3.symm⟩, flush3_6 _, PayA0.mem_set_of_emb _ ((emb6 _ (i 2)).trans (PayA0.ix3_mid i))⟩

theorem cover7 (i : S10x1x256.Idx) :
    ∃ t : Fin cfg3.N, (cfg3.win 7).flush t = true ∧ i ∈ ((cfg3.win 7).blk t).view.set :=
  ⟨⟨(i 0).val, lt_of_lt_of_eq (i 0).isLt N_3.symm⟩, flush3_7 _, PayA0.mem_set_of_emb _ ((emb7 _ (i 2)).trans (PayA0.ix3_mid i))⟩

theorem final5 (c : Dev nD) : (dat3 V c).arrAt 5 cfg3.N = G5 V c :=
  (dat3 V c).arrAt_eq_of_cover 5 (G5 V c) (fun t _ => flushed5_eq V c t) cover5

theorem final6 (c : Dev nD) : (dat3 V c).arrAt 6 cfg3.N = G6 V c :=
  (dat3 V c).arrAt_eq_of_cover 6 (G6 V c) (fun t _ => flushed6_eq V c t) cover6

theorem final7 (c : Dev nD) : (dat3 V c).arrAt 7 cfg3.N = G7 V c :=
  (dat3 V c).arrAt_eq_of_cover 7 (G7 V c) (fun t _ => flushed7_eq V c t) cover7

theorem z1 (c : Dev nD) (p : Fin 50000) (q : Fin 256) :
    (dat3 (F := Ideal) V c).arrAt 5 cfg3.N (ix2 p q) = Z1 V c p q :=
  congrFun (final5 V c) (ix2 p q)

theorem psum (c : Dev nD) (t : Fin 10) (q : Fin 256) :
    (dat3 (F := Ideal) V c).arrAt 6 cfg3.N (ix3 t 0 q) = Cert.Spec.tileSum (Z1 V c) t q :=
  congrFun (final6 V c) (ix3 t 0 q)

theorem psumsq (c : Dev nD) (t : Fin 10) (q : Fin 256) :
    (dat3 (F := Ideal) V c).arrAt 7 cfg3.N (ix3 t 0 q) = Cert.Spec.tileSumSq (Z1 V c) t q :=
  congrFun (final7 V c) (ix3 t 0 q)

end Cert.KernelIdeal.LiftA3

end
-- ==== Proof.LiftB4.lean ====
import proofs.«401895_j21930103014155_2_alg».proof.Proof.Gen.KernelIdeal.Frame
import proofs.«401895_j21930103014155_2_alg».proof.Proof.PayB1

set_option maxRecDepth 16384

noncomputable section

namespace Cert.KernelIdeal.LiftB4

open Idealize.ShloMosaic Idealize.ShloMosaic.TcCoe ValueIdx Cert.KernelIdeal Cert.KernelIdeal.Gen
open Idealize.ShloMosaic.Pipeline (Dat)
open scoped BigOperators

variable (V : (c : Dev nD) → (b : Ref sig .tc) → Buf (Elt Ideal) ((c : Thread nD τ).loc b))

abbrev row1 (c : Dev nD) : Cert.Spec.Row 256 := fun q => V c (Pipeline.arrRef spec4 1) (ix2 0 q)
abbrev row2 (c : Dev nD) : Cert.Spec.Row 256 := fun q => V c (Pipeline.arrRef spec4 2) (ix2 0 q)
abbrev row3 (c : Dev nD) : Cert.Spec.Row 256 := fun q => V c (Pipeline.arrRef spec4 3) (ix2 0 q)
abbrev row4 (c : Dev nD) : Cert.Spec.Row 256 := fun q => V c (Pipeline.arrRef spec4 4) (ix2 0 q)
abbrev row6 (c : Dev nD) : Cert.Spec.Row 256 := fun q => V c (Pipeline.arrRef spec4 6) (ix2 0 q)

/-- The second linear layer's output over all 50000 rows. -/
abbrev Z2 (c : Dev nD) : Cert.Spec.Mat 50000 256 :=
  Cert.Spec.lin (Cert.Spec.reluM (Cert.Spec.norm (fun p k => V c (Pipeline.arrRef spec4 0) (ix2 p k))
    (row1 V c) (row2 V c) (row3 V c) (row4 V c))) (fun k q => V c (Pipeline.arrRef spec4 5) (ix2 k q)) (row6 V c)

abbrev tile (t : Fin cfg4.N) : Fin 10 := t.cast N_4

theorem idx_fix : ∀ (t : Fin cfg4.N) (w : Fin 10) (a : Fin (cfg4.win w).shape.rank),
    (w ≠ 0 ∧ w < 7) ∨ a.val ≠ 0 → (cfg4.win w).index t a = 0 :=
  (by decide +kernel : ∀ t : Fin grid4.N, _)

theorem idx_mov : ∀ (t : Fin cfg4.N) (w : Fin 10) (a : Fin (cfg4.win w).shape.rank),
    w = 0 ∨ 7 ≤ w → a.val = 0 → (cfg4.win w).index t a = t.val :=
  (by decide +kernel : ∀ t : Fin grid4.N, _)

/-- Entry `(r, k)` of tile `t` is entry `(t · 5000 + r, k)` of the whole matrix. -/
theorem emb0 (t : Fin cfg4.N) (r : Fin 5000) (k : Fin 256) :
    ((cfg4.win 0).blk t).view.emb (ix2 r k) = ix2 (Cert.Spec.tileRow (tile t) r) k :=
  funext fun a => Fin.ext <| (win4_0.rect_emb_val t (ix2 r k) a).trans <| by
    match a with
    | ⟨0, _⟩ => exact congrArg (· * 5000 + r.val) (idx_mov t 0 (0 : Fin 2) (by decide) rfl)
    | ⟨1, _⟩ => exact (congrArg (· * 256 + k.val) (idx_fix t 0 (1 : Fin 2) (.inr (by decide)))).trans (Nat.zero_add _)

theorem emb7 (t : Fin cfg4.N) (r : Fin 5000) (k : Fin 256) :
    ((cfg4.win 7).blk t).view.emb (ix2 r k) = ix2 (Cert.Spec.tileRow (tile t) r) k :=
  funext fun a => Fin.ext <| (win4_7.rect_emb_val t (ix2 r k) a).trans <| by
    match a with
    | ⟨0, _⟩ => exact congrArg (· * 5000 + r.val) (idx_mov t 7 (0 : Fin 2) (by decide) rfl)
    | ⟨1, _⟩ => exact (congrArg (· * 256 + k.val) (idx_fix t 7 (1 : Fin 2) (.inr (by decide)))).trans (Nat.zero_add _)

/-- Tile `t`'s row of column sums is row `t` of the 10 × 1 × 256 array. -/
theorem emb8 (t : Fin cfg4.N) (q : Fin 256) :
    ((cfg4.win 8).blk t).view.emb (ix3 0 0 q) = ix3 (tile t) 0 q :=
  funext fun a => Fin.ext <| (win4_8.rect_emb_val t (ix3 0 0 q) a).trans <| by
    match a with
    | ⟨0, _⟩ => exact congrArg (· * 1 + 0) (idx_mov t 8 (0 : Fin 3) (by decide) rfl) |>.trans (Nat.mul_one _)
    | ⟨1, _⟩ => exact congrArg (· * 1 + 0) (idx_fix t 8 (1 : Fin 3) (.inr (by decide)))
    | ⟨2, _⟩ => exact (congrArg (· * 256 + q.val) (idx_fix t 8 (2 : Fin 3) (.inr (by decide)))).trans (Nat.zero_add _)

theorem emb9 (t : Fin cfg4.N) (q : Fin 256) :
    ((cfg4.win 9).blk t).view.emb (ix3 0 0 q) = ix3 (tile t) 0 q :=
  funext fun a => Fin.ext <| (win4_9.rect_emb_val t (ix3 0 0 q) a).trans <| by
    match a with
    | ⟨0, _⟩ => exact congrArg (· * 1 + 0) (idx_mov t 9 (0 : Fin 3) (by decide) rfl) |>.trans (Nat.mul_one _)
    | ⟨1, _⟩ => exact congrArg (· * 1 + 0) (idx_fix t 9 (1 : Fin 3) (.inr (by decide)))
    | ⟨2, _⟩ => exact (congrArg (· * 256 + q.val) (idx_fix t 9 (2 : Fin 3) (.inr (by decide)))).trans (Nat.zero_add _)

theorem rd0 (c : Dev nD) (t : Fin cfg4.N) (r : Fin 5000) (k : Fin 256) :
    (iblk4 V c 0 t : Vec Ideal S5000x256 .f32) (ix2 r k)
      = V c (Pipeline.arrRef spec4 0) (ix2 (Cert.Spec.tileRow (tile t) r) k) :=
  congrArg (V c (Pipeline.arrRef spec4 0)) (emb0 t r k)

theorem rd1 (c : Dev nD) (t : Fin cfg4.N) (k : Fin 256) :
    (iblk4 V c 1 t : Vec Ideal S1x256 .f32) (ix2 0 k) = row1 V c k :=
  congrArg (V c (Pipeline.arrRef spec4 1)) (funext fun a => Fin.ext
    (win4_1.rect_emb_val_of_index_zero t a (idx_fix t 1 a (.inl (by decide))) (ix2 0 k)))

theorem rd2 (c : Dev nD) (t : Fin cfg4.N) (k : Fin 256) :
    (iblk4 V c 2 t : Vec Ideal S1x256 .f32) (ix2 0 k) = row2 V c k :=
  congrArg (V c (Pipeline.arrRef spec4 2)) (funext fun a => Fin.ext
    (win4_2.rect_emb_val_of_index_zero t a (idx_fix t 2 a (.inl (by decide))) (ix2 0 k)))

theorem rd3 (c : Dev nD) (t : Fin cfg4.N) (k : Fin 256) :
    (iblk4 V c 3 t : Vec Ideal S1x256 .f32) (ix2 0 k) = row3 V c k :=
  congrArg (V c (Pipeline.arrRef spec4 3)) (funext fun a => Fin.ext
    (win4_3.rect_emb_val_of_index_zero t a (idx_fix t 3 a (.inl (by decide))) (ix2 0 k)))

theorem rd4 (c : Dev nD) (t : Fin cfg4.N) (k : Fin 256) :
    (iblk4 V c 4 t : Vec Ideal S1x256 .f32) (ix2 0 k) = row4 V c k :=
  congrArg (V c (Pipeline.arrRef spec4 4)) (funext fun a => Fin.ext
    (win4_4.rect_emb_val_of_index_zero t a (idx_fix t 4 a (.inl (by decide))) (ix2 0 k)))

theorem rd5 (c : Dev nD) (t : Fin cfg4.N) (k q : Fin 256) :
    (iblk4 V c 5 t : Vec Ideal S256x256 .f32) (ix2 k q) = V c (Pipeline.arrRef spec4 5) (ix2 k q) :=
  congrArg (V c (Pipeline.arrRef spec4 5)) (funext fun a => Fin.ext
    (win4_5.rect_emb_val_of_index_zero t a (idx_fix t 5 a (.inl (by decide))) (ix2 k q)))

theorem rd6 (c : Dev nD) (t : Fin cfg4.N) (k : Fin 256) :
    (iblk4 V c 6 t : Vec Ideal S1x256 .f32) (ix2 0 k) = row6 V c k :=
  congrArg (V c (Pipeline.arrRef spec4 6)) (funext fun a => Fin.ext
    (win4_6.rect_emb_val_of_index_zero t a (idx_fix t 6 a (.inl (by decide))) (ix2 0 k)))

/-- Entry `(r, q)` of the tile computed for `t` is entry `(t · 5000 + r, q)` of the second layer's output. -/
theorem tile_entry (c : Dev nD) (t : Fin cfg4.N) (r : Fin 5000) (q : Fin 256) :
    k4_pay2 (iblk4 V c 0 t) (iblk4 V c 1 t) (iblk4 V c 2 t) (iblk4 V c 3 t) (iblk4 V c 4 t) (iblk4 V c 5 t) (iblk4 V c 6 t) (ix2 r q)
      = Z2 V c (Cert.Spec.tileRow (tile t) r) q := by
  refine (PayB1.pay2_apply _ _ _ _ _ _ _ r q).trans ?_
  unfold PayB1.act
  simp only [rd0 V c t, rd1 V c t, rd2 V c t, rd3 V c t, rd4 V c t, rd5 V c t, rd6 V c t]
  rfl

theorem hz2 : (![0, 0] : Fin 2 → Nat) = fun _ => 0 := funext fun a => by fin_cases a <;> rfl
theorem hz3 : (![0, 0, 0] : Fin 3 → Nat) = fun _ => 0 := funext fun a => by fin_cases a <;> rfl

/-- The second layer's output, and per tile its column sums and column sums of squares. -/
abbrev G7 (c : Dev nD) : S50000x256.Idx → Elt Ideal .f32 := fun i => Z2 V c (i 0) (i 1)
abbrev G8 (c : Dev nD) : S10x1x256.Idx → Elt Ideal .f32 := fun i => Cert.Spec.tileSum (Z2 V c) (i 0) (i 2)
abbrev G9 (c : Dev nD) : S10x1x256.Idx → Elt Ideal .f32 := fun i => Cert.Spec.tileSumSq (Z2 V c) (i 0) (i 2)

theorem wb7 (c : Dev nD) (t : Fin cfg4.N) :
    (dat4 (F := Ideal) V c).flushed 7 t = ((cfg4.win 7).blk t).view.read (Elt Ideal) (G7 V c) := by
  show (cfg4.win 7).cut (grid4.coords t) ((dat4 (F := Ideal) V c).after 7 t) = _
  rw [after4_7]
  unfold out4_7
  rw [View.canon_unit_zero hz2]
  simp only [View.ld_unit_zero (S := S5000x256) hz2, View.ld_unit_zero (S := S1x256) hz2, View.ld_unit_zero (S := S256x256) hz2]
  funext j
  obtain ⟨r, q, rfl⟩ : ∃ (r : Fin 5000) (q : Fin 256), j = ix2 r q := ⟨j 0, j 1, eq_ix2 j⟩
  exact (tile_entry V c t r q).trans (congrArg (G7 V c) (emb7 t r q)).symm

theorem wb8 (c : Dev nD) (t : Fin cfg4.N) :
    (dat4 (F := Ideal) V c).flushed 8 t = ((cfg4.win 8).blk t).view.read (Elt Ideal) (G8 V c) := by
  show (cfg4.win 8).cut (grid4.coords t) ((dat4 (F := Ideal) V c).after 8 t) = _
  rw [after4_8]
  unfold out4_8
  rw [View.canon_unit_zero hz3]
  simp only [View.ld_unit_zero (S := S5000x256) hz2, View.ld_unit_zero (S := S1x256) hz2, View.ld_unit_zero (S := S256x256) hz2]
  funext j
  obtain ⟨a, b, q, rfl⟩ : ∃ (a b : Fin 1) (q : Fin 256), j = ix3 a b q := ⟨j 0, j 1, j 2, eq_ix3 j⟩
  obtain rfl : a = 0 := Subsingleton.elim _ _
  obtain rfl : b = 0 := Subsingleton.elim _ _
  refine (PayB1.pay4_apply (iblk4 V c 0 t) (iblk4 V c 1 t) (iblk4 V c 2 t) (iblk4 V c 3 t) (iblk4 V c 4 t) (iblk4 V c 5 t) (iblk4 V c 6 t) q).trans (.trans ?_ (congrArg (G8 V c) (emb8 t q)).symm)
  refine (zero_add _).symm.trans (congrArg₂ (· + ·) Ideal.ofBits_zero_f32.symm (Finset.sum_congr rfl fun r _ => ?_))
  exact tile_entry V c t r q

theorem wb9 (c : Dev nD) (t : Fin cfg4.N) :
    (dat4 (F := Ideal) V c).flushed 9 t = ((cfg4.win 9).blk t).view.read (Elt Ideal) (G9 V c) := by
  show (cfg4.win 9).cut (grid4.coords t) ((dat4 (F := Ideal) V c).after 9 t) = _
  rw [after4_9]
  unfold out4_9
  rw [View.canon_unit_zero hz3]
  simp only [View.ld_unit_zero (S := S5000x256) hz2, View.ld_unit_zero (S := S1x256) hz2, View.ld_unit_zero (S := S256x256) hz2]
  funext j
  obtain ⟨a, b, q, rfl⟩ : ∃ (a b : Fin 1) (q : Fin 256), j = ix3 a b q := ⟨j 0, j 1, j 2, eq_ix3 j⟩
  obtain rfl : a = 0 := Subsingleton.elim _ _
  obtain rfl : b = 0 := Subsingleton.elim _ _
  refine (PayB1.pay13_apply (iblk4 V c 0 t) (iblk4 V c 1 t) (iblk4 V c 2 t) (iblk4 V c 3 t) (iblk4 V c 4 t) (iblk4 V c 5 t) (iblk4 V c 6 t) q).trans (.trans ?_ (congrArg (G9 V c) (emb9 t q)).symm)
  refine (zero_add _).symm.trans (congrArg₂ (· + ·) Ideal.ofBits_zero_f32.symm (Finset.sum_congr rfl fun r _ => ?_))
  exact congrArg₂ (· * ·) (tile_entry V c t r q) (tile_entry V c t r q)

/-- Row `p` lies in tile `p / 5000`. -/
theorem cover7 (i : S50000x256.Idx) :
    ∃ t : Fin cfg4.N, (cfg4.win 7).flush t = true ∧ i ∈ ((cfg4.win 7).blk t).view.set := by
  obtain ⟨p, q, rfl⟩ : ∃ (p : Fin 50000) (q : Fin 256), i = ix2 p q := ⟨i 0, i 1, eq_ix2 i⟩
  have hp := p.isLt
  let t : Fin cfg4.N := Fin.cast N_4.symm ⟨p.val / 5000, by omega⟩
  let r : Fin 5000 := ⟨p.val % 5000, Nat.mod_lt _ (by decide)⟩
  have h := ((cfg4.win 7).blk t).view.emb_mem_set (ix2 r q)
  rw [emb7, show Cert.Spec.tileRow (tile t) r = p from Fin.ext (Nat.div_add_mod' _ _)] at h
  exact ⟨t, flush4_7 t, h⟩

theorem cover8 (i : S10x1x256.Idx) :
    ∃ t : Fin cfg4.N, (cfg4.win 8).flush t = true ∧ i ∈ ((cfg4.win 8).blk t).view.set := by
  obtain ⟨a, b, q, rfl⟩ : ∃ (a : Fin 10) (b : Fin 1) (q : Fin 256), i = ix3 a b q := ⟨i 0, i 1, i 2, eq_ix3 i⟩
  obtain rfl : b = 0 := Subsingleton.elim _ _
  have h := ((cfg4.win 8).blk (a.cast N_4.symm)).view.emb_mem_set (ix3 0 0 q)
  rw [emb8] at h
  exact ⟨_, flush4_8 _, h⟩

theorem cover9 (i : S10x1x256.Idx) :
    ∃ t : Fin cfg4.N, (cfg4.win 9).flush t = true ∧ i ∈ ((cfg4.win 9).blk t).view.set := by
  obtain ⟨a, b, q, rfl⟩ : ∃ (a : Fin 10) (b : Fin 1) (q : Fin 256), i = ix3 a b q := ⟨i 0, i 1, i 2, eq_ix3 i⟩
  obtain rfl : b = 0 := Subsingleton.elim _ _
  have h := ((cfg4.win 9).blk (a.cast N_4.symm)).view.emb_mem_set (ix3 0 0 q)
  rw [emb9] at h
  exact ⟨_, flush4_9 _, h⟩

theorem z2 (c : Dev nD) (p : Fin 50000) (q : Fin 256) :
    (dat4 (F := Ideal) V c).arrAt 7 cfg4.N (ix2 p q) = Z2 V c p q :=
  congrFun ((dat4 (F := Ideal) V c).arrAt_eq_of_cover 7 (G7 V c) (fun t _ => wb7 V c t) cover7) (ix2 p q)

theorem psum (c : Dev nD) (t : Fin 10) (q : Fin 256) :
    (dat4 (F := Ideal) V c).arrAt 8 cfg4.N (ix3 t 0 q) = Cert.Spec.tileSum (Z2 V c) t q :=
  congrFun ((dat4 (F := Ideal) V c).arrAt_eq_of_cover 8 (G8 V c) (fun t _ => wb8 V c t) cover8) (ix3 t 0 q)

theorem psumsq (c : Dev nD) (t : Fin 10) (q : Fin 256) :
    (dat4 (F := Ideal) V c).arrAt 9 cfg4.N (ix3 t 0 q) = Cert.Spec.tileSumSq (Z2 V c) t q :=
  congrFun ((dat4 (F := Ideal) V c).arrAt_eq_of_cover 9 (G9 V c) (fun t _ => wb9 V c t) cover9) (ix3 t 0 q)

end Cert.KernelIdeal.LiftB4

end
-- ==== Proof.LiftC5.lean ====
import proofs.«401895_j21930103014155_2_alg».proof.Proof.Gen.KernelIdeal.Frame
import proofs.«401895_j21930103014155_2_alg».proof.Proof.Spec
import proofs.«401895_j21930103014155_2_alg».proof.Proof.LiftC
import Idealize.ShloMosaic.Lib.ValueIdx
import Idealize.ShloMosaic.Lib.ValueLayout
import Idealize.ShloMosaic.Lib.Pipeline.Value

noncomputable section

namespace Cert.KernelIdeal.LiftC5

open Idealize.ShloMosaic Idealize.ShloMosaic.TcCoe ValueIdx
open Cert.KernelIdeal Cert.KernelIdeal.Gen
open Idealize.ShloMosaic.Pipeline (Dat)

variable (V : (c : Dev nD) → (b : Ref sig .tc) → Buf (Elt Ideal) ((c : Thread nD τ).loc b))

abbrev row1 (c : Dev nD) : Cert.Spec.Row 256 := fun q => V c (Pipeline.arrRef spec5 1) (ix2 0 q)
abbrev row2 (c : Dev nD) : Cert.Spec.Row 256 := fun q => V c (Pipeline.arrRef spec5 2) (ix2 0 q)
abbrev row3 (c : Dev nD) : Cert.Spec.Row 256 := fun q => V c (Pipeline.arrRef spec5 3) (ix2 0 q)
abbrev row4 (c : Dev nD) : Cert.Spec.Row 256 := fun q => V c (Pipeline.arrRef spec5 4) (ix2 0 q)

abbrev BN (c : Dev nD) : Cert.Spec.Mat 50000 256 :=
  Cert.Spec.norm (fun p k => V c (Pipeline.arrRef spec5 0) (ix2 p k)) (row1 V c) (row2 V c) (row3 V c) (row4 V c)

abbrev res (c : Dev nD) : S50000x256.Idx → EReal := fun i => Cert.Spec.reluM (BN V c) (i 0) (i 1)

theorem npoints : cfg5.N = 10 := by decide

abbrev rowOf (t : Fin cfg5.N) (r : Fin 5000) : Fin 50000 :=
  ⟨t.val * 5000 + r.val, by have h : t.val < 10 := Nat.lt_of_lt_of_eq t.isLt npoints; omega⟩

-- The [50000, 256] operand and the result move down one tile of 5000 rows per grid point; the four rows stay.
theorem idx_maps : ∀ t : Fin cfg5.N,
    (win5_0.index t (0 : Fin 2) = t.val ∧ win5_0.index t (1 : Fin 2) = 0)
    ∧ (∀ a : Fin 2, win5_1.index t a = 0) ∧ (∀ a : Fin 2, win5_2.index t a = 0)
    ∧ (∀ a : Fin 2, win5_3.index t a = 0) ∧ (∀ a : Fin 2, win5_4.index t a = 0)
    ∧ win5_5.index t (0 : Fin 2) = t.val ∧ win5_5.index t (1 : Fin 2) = 0 :=
  (by decide +kernel : ∀ t : Fin grid5.N, _)

theorem emb0 (t : Fin cfg5.N) (r : Fin 5000) (q : Fin 256) :
    ((cfg5.win 0).blk t).view.emb (ix2 r q) = ix2 (rowOf t r) q := by
  refine Shape.idx_ext₂ ?_ ?_
  exacts [(win5_0.rect_emb_val t (ix2 r q) (0 : Fin 2)).trans (congrArg (fun k : ℕ => k * 5000 + r.val) (idx_maps t).1.1),
    win5_0.rect_emb_val_of_index_zero t (1 : Fin 2) (idx_maps t).1.2 (ix2 r q)]

theorem emb5 (t : Fin cfg5.N) (r : Fin 5000) (q : Fin 256) :
    ((cfg5.win 5).blk t).view.emb (ix2 r q) = ix2 (rowOf t r) q := by
  refine Shape.idx_ext₂ ?_ ?_
  exacts [(win5_5.rect_emb_val t (ix2 r q) (0 : Fin 2)).trans (congrArg (fun k : ℕ => k * 5000 + r.val) (idx_maps t).2.2.2.2.2.1),
    win5_5.rect_emb_val_of_index_zero t (1 : Fin 2) (idx_maps t).2.2.2.2.2.2 (ix2 r q)]

-- Point t writes back tile t of res: the body loads rows 5000·t … of the operand and the four rows whole.
theorem flushed_eq (c : Dev nD) (t : Fin cfg5.N) :
    (dat5 (F := Ideal) V c).flushed 5 t = ((cfg5.win 5).blk t).view.read (Elt Ideal) (res V c) := by
  obtain ⟨-, h1, h2, h3, h4, -⟩ := idx_maps t
  show (cfg5.win 5).cut (grid5.coords t) ((dat5 (F := Ideal) V c).after 5 t) = _
  rw [after5_5]
  unfold out5_5
  rw [View.canon_unit_zero LiftC.zero_off]
  simp only [View.ld_unit_zero (S := S5000x256) LiftC.zero_off, View.ld_unit_zero (S := S1x256) LiftC.zero_off]
  funext j
  obtain ⟨r, q, rfl⟩ : ∃ (r : Fin 5000) (q : Fin 256), j = ix2 r q := ⟨j 0, j 1, eq_ix2 j⟩
  have e0 : iblk5 V c 0 t (ix2 r q) = V c (Pipeline.arrRef spec5 0) (ix2 (rowOf t r) q) :=
    congrArg (V c (Pipeline.arrRef spec5 0)) (emb0 t r q)
  have e1 : iblk5 V c 1 t (ix2 (0 : Fin 1) q) = row1 V c q :=
    congrArg (V c (Pipeline.arrRef spec5 1)) (LiftC.emb_eq_self win5_1 t h1 (ix2 (0 : Fin 1) q) fun _ => rfl)
  have e2 : iblk5 V c 2 t (ix2 (0 : Fin 1) q) = row2 V c q :=
    congrArg (V c (Pipeline.arrRef spec5 2)) (LiftC.emb_eq_self win5_2 t h2 (ix2 (0 : Fin 1) q) fun _ => rfl)
  have e3 : iblk5 V c 3 t (ix2 (0 : Fin 1) q) = row3 V c q :=
    congrArg (V c (Pipeline.arrRef spec5 3)) (LiftC.emb_eq_self win5_3 t h3 (ix2 (0 : Fin 1) q) fun _ => rfl)
  have e4 : iblk5 V c 4 t (ix2 (0 : Fin 1) q) = row4 V c q :=
    congrArg (V c (Pipeline.arrRef spec5 4)) (LiftC.emb_eq_self win5_4 t h4 (ix2 (0 : Fin 1) q) fun _ => rfl)
  show k2_pay1 (F := Ideal) (iblk5 V c 0 t) (iblk5 V c 1 t) (iblk5 V c 2 t) (iblk5 V c 3 t) (iblk5 V c 4 t) (ix2 r q)
    = res V c (((cfg5.win 5).blk t).view.emb (ix2 r q))
  rw [emb5, LiftC.pay_relu, e0, e1, e2, e3, e4]
  rfl

-- Row p lies in tile p / 5000, so the ten blocks cover the result.
theorem cover (i : S50000x256.Idx) :
    ∃ t : Fin cfg5.N, (cfg5.win 5).flush t = true ∧ i ∈ ((cfg5.win 5).blk t).view.set := by
  have hi : (i 0).val < 50000 := idx2_lt0 i
  obtain ⟨t, ht⟩ : ∃ t : Fin cfg5.N, t.val = (i 0).val / 5000 := ⟨⟨(i 0).val / 5000, by rw [npoints]; omega⟩, rfl⟩
  obtain ⟨r, hr⟩ : ∃ r : Fin 5000, r.val = (i 0).val % 5000 := ⟨⟨(i 0).val % 5000, Nat.mod_lt _ (by norm_num)⟩, rfl⟩
  obtain ⟨q, hq⟩ : ∃ q : Fin 256, q.val = (i 1).val := ⟨i 1, rfl⟩
  have h : ix2 (rowOf t r) q = i := by
    refine Shape.idx_ext₂ ?_ hq
    show t.val * 5000 + r.val = (i 0).val
    omega
  refine ⟨t, flush5_5 t, ?_⟩
  rw [← h, ← emb5]
  exact View.emb_mem_set _ _

theorem out (c : Dev nD) (p : Fin 50000) (q : Fin 256) :
    (dat5 (F := Ideal) V c).arrAt 5 cfg5.N (ix2 p q) = Cert.Spec.reluM (BN V c) p q :=
  congrFun ((dat5 (F := Ideal) V c).arrAt_eq_of_cover 5 (res V c) (fun t _ => flushed_eq V c t) cover) (ix2 p q)

end Cert.KernelIdeal.LiftC5

end
-- ==== Proof.KLayer1.lean ====
import proofs.«401895_j21930103014155_2_alg».proof.Proof.Gen.KernelIdeal.Frame
import proofs.«401895_j21930103014155_2_alg».proof.Proof.KLayer1Host
import proofs.«401895_j21930103014155_2_alg».proof.Proof.KLayer0
import proofs.«401895_j21930103014155_2_alg».proof.Proof.LiftA3
import proofs.«401895_j21930103014155_2_alg».proof.Proof.LiftB4
import proofs.«401895_j21930103014155_2_alg».proof.Proof.LiftC5

noncomputable section

namespace Cert.KernelIdeal.KLayer1

open Idealize.ShloMosaic Idealize.ShloMosaic.TcCoe Idealize.ShloMosaic.ValueIdx
open Cert.KernelIdeal Cert.KernelIdeal.Gen

variable (m : (ℓ : Loc nD τ sig) → Buf (Elt Ideal) ℓ) (ρ : Dev nD → PrngReg) (c : Dev nD)

theorem par_in (r : Ref sig .tc) (hr : r ∈ pars) :
    W8 m ρ c (Proc.devRef .tc r) = m ((c : Thread nD τ).loc r) :=
  KLayer0.par_W8 m ρ c r hr

theorem par_a (r : Ref sig .tc) (hr : r ∈ pars) :
    W12 m ρ c (Proc.devRef .tc r) = m ((c : Thread nD τ).loc r) := by
  refine Eq.trans ?_ ((keeps_pre (W8 m ρ c) r hr).trans (par_in m ρ c r hr))
  simp only [pars, List.mem_cons, List.not_mem_nil, or_false] at hr
  rcases hr with rfl | rfl | rfl | rfl | rfl | rfl | rfl | rfl | rfl | rfl | rfl <;> exact W12_of_ne m ρ c _ (by decide)

theorem par_b (r : Ref sig .tc) (hr : r ∈ pars) :
    W14 m ρ c (Proc.devRef .tc r) = m ((c : Thread nD τ).loc r) := by
  refine Eq.trans ?_ ((keeps_d (W12 m ρ c) r hr).trans (par_a m ρ c r hr))
  simp only [pars, List.mem_cons, List.not_mem_nil, or_false] at hr
  rcases hr with rfl | rfl | rfl | rfl | rfl | rfl | rfl | rfl | rfl | rfl | rfl <;> exact W14_of_ne m ρ c _ (by decide)

theorem par_W16 (r : Ref sig .tc) (hr : r ∈ pars) :
    W16 m ρ c (Proc.devRef .tc r) = m ((c : Thread nD τ).loc r) := by
  refine Eq.trans ?_ ((keeps_e (W14 m ρ c) r hr).trans (par_b m ρ c r hr))
  simp only [pars, List.mem_cons, List.not_mem_nil, or_false] at hr
  rcases hr with rfl | rfl | rfl | rfl | rfl | rfl | rfl | rfl | rfl | rfl | rfl <;> exact W16_of_ne m ρ c _ (by decide)

theorem step (p : Fin 50000) (q : Fin 256) :
    W16 m ρ c (Proc.devRef .tc main_v97) (ix2 p q)
      = Spec.kLayer false (m ((c : Thread nD τ).loc main_arg9) (ix1 (1 : Fin 5)))
          (fun p k => W8 m ρ c (Proc.devRef .tc main_v48) (ix2 p k))
          (fun p k => KLayer.agg (W8 m ρ c (Proc.devRef .tc main_v48)) (m ((c : Thread nD τ).loc main_arg1))
            (m ((c : Thread nD τ).loc main_arg2)) (ix2 p k))
          (fun k q => m ((c : Thread nD τ).loc main_arg3) (ix3 (1 : Fin 5) k q))
          (fun q => m ((c : Thread nD τ).loc main_arg4) (ix2 (1 : Fin 5) q))
          (fun q => m ((c : Thread nD τ).loc main_arg5) (ix2 (1 : Fin 5) q))
          (fun q => m ((c : Thread nD τ).loc main_arg6) (ix2 (1 : Fin 5) q))
          (fun k q => m ((c : Thread nD τ).loc main_arg7) (ix3 (1 : Fin 5) k q))
          (fun q => m ((c : Thread nD τ).loc main_arg8) (ix2 (1 : Fin 5) q))
          (fun q => m ((c : Thread nD τ).loc main_arg10) (ix2 (1 : Fin 5) q))
          (fun q => m ((c : Thread nD τ).loc main_arg11) (ix2 (1 : Fin 5) q)) p q := by
  have ps1 : (fun (t : Fin 10) (q : Fin 256) => W12 m ρ c (Proc.devRef .tc main_v62_1) (ix3 t 0 q))
      = Spec.tileSum (LiftA3.Z1 (V11 m ρ) c) :=
    funext fun t => funext fun q => (congrFun (W12_arr m ρ c 6) _).trans (LiftA3.psum (V11 m ρ) c t q)
  have pss1 : (fun (t : Fin 10) (q : Fin 256) => W12 m ρ c (Proc.devRef .tc main_v62_2) (ix3 t 0 q))
      = Spec.tileSumSq (LiftA3.Z1 (V11 m ρ) c) :=
    funext fun t => funext fun q => (congrFun (W12_arr m ρ c 7) _).trans (LiftA3.psumsq (V11 m ρ) c t q)
  have ps2 : (fun (t : Fin 10) (q : Fin 256) => W14 m ρ c (Proc.devRef .tc main_v82_1) (ix3 t 0 q))
      = Spec.tileSum (LiftB4.Z2 (V13 m ρ) c) :=
    funext fun t => funext fun q => (congrFun (W14_arr m ρ c 8) _).trans (LiftB4.psum (V13 m ρ) c t q)
  have pss2 : (fun (t : Fin 10) (q : Fin 256) => W14 m ρ c (Proc.devRef .tc main_v82_2) (ix3 t 0 q))
      = Spec.tileSumSq (LiftB4.Z2 (V13 m ρ) c) :=
    funext fun t => funext fun q => (congrFun (W14_arr m ρ c 9) _).trans (LiftB4.psumsq (V13 m ρ) c t q)
  have H := Spec.kLayer_of_regions (last := false) (z1 := LiftA3.Z1 (V11 m ρ) c) (z2 := LiftB4.Z2 (V13 m ρ) c) rfl rfl
    (funext fun p => funext fun k => congrFun (in_at (W8 m ρ c)) (ix2 p k))
    (funext fun p => funext fun k => congrFun ((agg_arr (W8 m ρ c)).trans
      (congr (congrArg (KLayer.agg (W8 m ρ c (Proc.devRef .tc main_v48))) (par_in m ρ c main_arg1 (by decide))) (par_in m ρ c main_arg2 (by decide)))) (ix2 p k))
    (funext fun k => (eps_at (W8 m ρ c) k).trans (congrFun (par_in m ρ c main_arg9 (by decide)) _))
    (funext fun k => funext fun q => (w1_at (W8 m ρ c) k q).trans (congrFun (par_in m ρ c main_arg3 (by decide)) _))
    (funext fun q => (b1_at (W8 m ρ c) q).trans (congrFun (par_in m ρ c main_arg4 (by decide)) _))
    (funext fun p => funext fun k =>
      (congrFun ((z1_at (W12 m ρ c)).trans (W12_arr m ρ c 5)) _).trans (LiftA3.z1 (V11 m ρ) c p k))
    (funext fun q => (mean1_at (W12 m ρ c) q).trans (congrFun (congrArg Spec.meanT ps1) q))
    (funext fun q => (var1_at (W12 m ρ c) q).trans (congrFun (congr (congrArg Spec.varT ps1) pss1) q))
    (funext fun q => (g1_at (W12 m ρ c) q).trans (congrFun (par_a m ρ c main_arg5 (by decide)) _))
    (funext fun q => (bt1_at (W12 m ρ c) q).trans (congrFun (par_a m ρ c main_arg6 (by decide)) _))
    (funext fun k => funext fun q => (w2_at (W12 m ρ c) k q).trans (congrFun (par_a m ρ c main_arg7 (by decide)) _))
    (funext fun q => (b2_at (W12 m ρ c) q).trans (congrFun (par_a m ρ c main_arg8 (by decide)) _))
    (funext fun p => funext fun k =>
      (congrFun ((z2_at (W14 m ρ c)).trans (W14_arr m ρ c 7)) _).trans (LiftB4.z2 (V13 m ρ) c p k))
    (funext fun q => (mean2_at (W14 m ρ c) q).trans (congrFun (congrArg Spec.meanT ps2) q))
    (funext fun q => (var2_at (W14 m ρ c) q).trans (congrFun (congr (congrArg Spec.varT ps2) pss2) q))
    (funext fun q => (bng_at (W14 m ρ c) q).trans (congrFun (par_b m ρ c main_arg10 (by decide)) _))
    (funext fun q => (bnb_at (W14 m ρ c) q).trans (congrFun (par_b m ρ c main_arg11 (by decide)) _))
  rw [show W16 m ρ c (Proc.devRef .tc main_v97) = _ from W16_arr m ρ c 5]
  exact (LiftC5.out (V15 m ρ) c p q).trans (congrFun (congrFun H p) q)

end Cert.KernelIdeal.KLayer1

end
-- ==== Proof.LiftA6.lean ====
import proofs.«401895_j21930103014155_2_alg».proof.Proof.Gen.KernelIdeal.Frame
import proofs.«401895_j21930103014155_2_alg».proof.Proof.PayA0
import Idealize.ShloMosaic.Lib.Pipeline.Value

noncomputable section

namespace Cert.KernelIdeal.LiftA6

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

abbrev Z1 (c : Dev nD) : Cert.Spec.Mat 50000 256 :=
  Cert.Spec.lin (Cert.Spec.zpreRow (fun k => V c (Pipeline.arrRef spec6 2) (ix2 0 k)) (fun p k => V c (Pipeline.arrRef spec6 0) (ix2 p k)) (fun p k => V c (Pipeline.arrRef spec6 1) (ix2 p k))) (fun k q => V c (Pipeline.arrRef spec6 3) (ix2 k q)) (fun q => V c (Pipeline.arrRef spec6 4) (ix2 0 q))

abbrev tile (t : Fin cfg6.N) : Fin 10 := ⟨t.val, lt_of_lt_of_eq t.isLt N_6⟩

theorem idx_facts : ∀ t : Fin cfg6.N,
    (win6_0.index t (0 : Fin 2) = t.val ∧ win6_0.index t (1 : Fin 2) = 0)
    ∧ (win6_1.index t (0 : Fin 2) = t.val ∧ win6_1.index t (1 : Fin 2) = 0)
    ∧ (win6_2.index t (0 : Fin 2) = 0 ∧ win6_2.index t (1 : Fin 2) = 0)
    ∧ (win6_3.index t (0 : Fin 2) = 0 ∧ win6_3.index t (1 : Fin 2) = 0)
    ∧ (win6_4.index t (0 : Fin 2) = 0 ∧ win6_4.index t (1 : Fin 2) = 0)
    ∧ (win6_5.index t (0 : Fin 2) = t.val ∧ win6_5.index t (1 : Fin 2) = 0)
    ∧ (win6_6.index t (0 : Fin 3) = t.val ∧ win6_6.index t (1 : Fin 3) = 0 ∧ win6_6.index t (2 : Fin 3) = 0)
    ∧ (win6_7.index t (0 : Fin 3) = t.val ∧ win6_7.index t (1 : Fin 3) = 0 ∧ win6_7.index t (2 : Fin 3) = 0) :=
  (by decide +kernel : ∀ t : Fin grid6.N, _)

theorem blk0_apply (c : Dev nD) (t : Fin cfg6.N) (r : Fin 5000) (k : Fin 256) :
    (iblk6 V c 0 t : Vec Ideal S5000x256 .f32) (ix2 r k)
      = (V c (Pipeline.arrRef spec6 0) : Vec Ideal S50000x256 .f32) (ix2 (Cert.Spec.tileRow (tile t) r) k) := by
  obtain ⟨⟨e0, e1⟩, -⟩ := idx_facts t
  unfold iblk6
  rw [View.read_apply]
  show (V c (Pipeline.arrRef spec6 0) : Vec Ideal S50000x256 .f32) (((cfg6.win 0).blk t).view.emb (ix2 r k)) = _
  refine congrArg _ ?_
  exact Shape.idx_ext₂ ((win6_0.rect_emb_val t _ (0 : Fin 2)).trans (congrArg (· * 5000 + r.val) e0))
    (win6_0.rect_emb_val_of_index_zero t (1 : Fin 2) e1 _)

theorem blk1_apply (c : Dev nD) (t : Fin cfg6.N) (r : Fin 5000) (k : Fin 256) :
    (iblk6 V c 1 t : Vec Ideal S5000x256 .f32) (ix2 r k)
      = (V c (Pipeline.arrRef spec6 1) : Vec Ideal S50000x256 .f32) (ix2 (Cert.Spec.tileRow (tile t) r) k) := by
  obtain ⟨-, ⟨e0, e1⟩, -⟩ := idx_facts t
  unfold iblk6
  rw [View.read_apply]
  show (V c (Pipeline.arrRef spec6 1) : Vec Ideal S50000x256 .f32) (((cfg6.win 1).blk t).view.emb (ix2 r k)) = _
  refine congrArg _ ?_
  exact Shape.idx_ext₂ ((win6_1.rect_emb_val t _ (0 : Fin 2)).trans (congrArg (· * 5000 + r.val) e0))
    (win6_1.rect_emb_val_of_index_zero t (1 : Fin 2) e1 _)

theorem blk2 (c : Dev nD) (t : Fin cfg6.N) :
    (iblk6 V c 2 t : Vec Ideal S1x256 .f32) = V c (Pipeline.arrRef spec6 2) := by
  obtain ⟨-, -, ⟨e0, e1⟩, -⟩ := idx_facts t
  unfold iblk6
  funext y
  rw [View.read_apply]
  show (V c (Pipeline.arrRef spec6 2) : Vec Ideal S1x256 .f32) (((cfg6.win 2).blk t).view.emb y) = _
  exact congrArg _ (Shape.idx_ext₂ (win6_2.rect_emb_val_of_index_zero t (0 : Fin 2) e0 y) (win6_2.rect_emb_val_of_index_zero t (1 : Fin 2) e1 y))

theorem blk3 (c : Dev nD) (t : Fin cfg6.N) :
    (iblk6 V c 3 t : Vec Ideal S256x256 .f32) = V c (Pipeline.arrRef spec6 3) := by
  obtain ⟨-, -, -, ⟨e0, e1⟩, -⟩ := idx_facts t
  unfold iblk6
  funext y
  rw [View.read_apply]
  show (V c (Pipeline.arrRef spec6 3) : Vec Ideal S256x256 .f32) (((cfg6.win 3).blk t).view.emb y) = _
  exact congrArg _ (Shape.idx_ext₂ (win6_3.rect_emb_val_of_index_zero t (0 : Fin 2) e0 y) (win6_3.rect_emb_val_of_index_zero t (1 : Fin 2) e1 y))

theorem blk4 (c : Dev nD) (t : Fin cfg6.N) :
    (iblk6 V c 4 t : Vec Ideal S1x256 .f32) = V c (Pipeline.arrRef spec6 4) := by
  obtain ⟨-, -, -, -, ⟨e0, e1⟩, -⟩ := idx_facts t
  unfold iblk6
  funext y
  rw [View.read_apply]
  show (V c (Pipeline.arrRef spec6 4) : Vec Ideal S1x256 .f32) (((cfg6.win 4).blk t).view.emb y) = _
  exact congrArg _ (Shape.idx_ext₂ (win6_4.rect_emb_val_of_index_zero t (0 : Fin 2) e0 y) (win6_4.rect_emb_val_of_index_zero t (1 : Fin 2) e1 y))

-- Point t's tile is rows 5000·t … 5000·t + 4999 of Z1.
theorem tile_apply (c : Dev nD) (t : Fin cfg6.N) (r : Fin 5000) (q : Fin 256) :
    Gen.k0_pay1 (iblk6 V c 0 t) (iblk6 V c 1 t) (iblk6 V c 2 t) (iblk6 V c 3 t) (iblk6 V c 4 t) (ix2 r q)
      = Z1 V c (Cert.Spec.tileRow (tile t) r) q := by
  refine (PayA0.pay1_apply _ _ _ _ _ r q).trans ?_
  refine congrArg₂ (· + ·) (Finset.sum_congr rfl fun k _ => ?_) (congrFun (blk4 V c t) _)
  exact congrArg₂ (· * ·) (congrArg₂ (· + ·) (congrArg₂ (· * ·) (congrArg (Cert.Spec.c1 + ·) (congrFun (blk2 V c t) _))
    (blk0_apply V c t r k)) (blk1_apply V c t r k)) (congrFun (blk3 V c t) _)

theorem out5_eq (x0 x1 : Vec Ideal S5000x256 .f32) (x2 : Vec Ideal S1x256 .f32) (x3 : Vec Ideal S256x256 .f32) (x4 : Vec Ideal S1x256 .f32) :
    out6_5 x0 x1 x2 x3 x4 = Gen.k0_pay1 x0 x1 x2 x3 x4 := by
  unfold out6_5
  rw [View.canon_unit_zero PayA0.hz2]
  simp only [View.ld_unit_zero (S := S5000x256) PayA0.hz2, View.ld_unit_zero (S := S1x256) PayA0.hz2, View.ld_unit_zero (S := S256x256) PayA0.hz2, k6_pay1, Gen.k0_pay1, shapeCast_self]

theorem out6_eq (x0 x1 : Vec Ideal S5000x256 .f32) (x2 : Vec Ideal S1x256 .f32) (x3 : Vec Ideal S256x256 .f32) (x4 : Vec Ideal S1x256 .f32) :
    out6_6 x0 x1 x2 x3 x4 = Gen.k0_pay2 x0 x1 x2 x3 x4 := by
  unfold out6_6
  rw [View.canon_unit_zero PayA0.hz3]
  simp only [View.ld_unit_zero (S := S5000x256) PayA0.hz2, View.ld_unit_zero (S := S1x256) PayA0.hz2, View.ld_unit_zero (S := S256x256) PayA0.hz2, k6_pay2, Gen.k0_pay2, k6_pay1, Gen.k0_pay1, shapeCast_self]

theorem out7_eq (x0 x1 : Vec Ideal S5000x256 .f32) (x2 : Vec Ideal S1x256 .f32) (x3 : Vec Ideal S256x256 .f32) (x4 : Vec Ideal S1x256 .f32) :
    out6_7 x0 x1 x2 x3 x4 = Gen.k0_pay3 x0 x1 x2 x3 x4 := by
  unfold out6_7
  rw [View.canon_unit_zero PayA0.hz3]
  simp only [View.ld_unit_zero (S := S5000x256) PayA0.hz2, View.ld_unit_zero (S := S1x256) PayA0.hz2, View.ld_unit_zero (S := S256x256) PayA0.hz2, k6_pay3, Gen.k0_pay3, k6_pay1, Gen.k0_pay1, shapeCast_self]

abbrev G5 (c : Dev nD) : S50000x256.Idx → Elt Ideal .f32 := fun i => Z1 V c (i 0) (i 1)
abbrev G6 (c : Dev nD) : S10x1x256.Idx → Elt Ideal .f32 := fun i => Cert.Spec.tileSum (Z1 V c) (i 0) (i 2)
abbrev G7 (c : Dev nD) : S10x1x256.Idx → Elt Ideal .f32 := fun i => Cert.Spec.tileSumSq (Z1 V c) (i 0) (i 2)

theorem emb5 (t : Fin cfg6.N) (r : Fin 5000) (q : Fin 256) :
    ((cfg6.win 5).blk t).view.emb (ix2 r q) = ix2 (Cert.Spec.tileRow (tile t) r) q := by
  obtain ⟨-, -, -, -, -, ⟨e0, e1⟩, -⟩ := idx_facts t
  exact Shape.idx_ext₂ ((win6_5.rect_emb_val t _ (0 : Fin 2)).trans (congrArg (· * 5000 + r.val) e0))
    (win6_5.rect_emb_val_of_index_zero t (1 : Fin 2) e1 _)

theorem emb6 (t : Fin cfg6.N) (q : Fin 256) :
    ((cfg6.win 6).blk t).view.emb (ix3 0 0 q) = ix3 (tile t) 0 q := by
  obtain ⟨-, -, -, -, -, -, ⟨e0, e1, e2⟩, -⟩ := idx_facts t
  refine funext fun a => Fin.ext ((win6_6.rect_emb_val t _ a).trans ?_)
  match a with
  | ⟨0, _⟩ => exact (congrArg (· * 1 + 0) e0).trans (Nat.mul_one _)
  | ⟨1, _⟩ => exact congrArg (· * 1 + 0) e1
  | ⟨2, _⟩ => exact (congrArg (· * 256 + q.val) e2).trans (Nat.zero_add _)

theorem emb7 (t : Fin cfg6.N) (q : Fin 256) :
    ((cfg6.win 7).blk t).view.emb (ix3 0 0 q) = ix3 (tile t) 0 q := by
  obtain ⟨-, -, -, -, -, -, -, ⟨e0, e1, e2⟩⟩ := idx_facts t
  refine funext fun a => Fin.ext ((win6_7.rect_emb_val t _ a).trans ?_)
  match a with
  | ⟨0, _⟩ => exact (congrArg (· * 1 + 0) e0).trans (Nat.mul_one _)
  | ⟨1, _⟩ => exact congrArg (· * 1 + 0) e1
  | ⟨2, _⟩ => exact (congrArg (· * 256 + q.val) e2).trans (Nat.zero_add _)

theorem flushed5_eq (c : Dev nD) (t : Fin cfg6.N) :
    (dat6 V c).flushed 5 t = ((cfg6.win 5).blk t).view.read (Elt Ideal) (G5 V c) := by
  show (cfg6.win 5).cut (grid6.coords t) ((dat6 V c).after 5 t) = _
  rw [after6_5, out5_eq]
  show (Gen.k0_pay1 (iblk6 V c 0 t) (iblk6 V c 1 t) (iblk6 V c 2 t) (iblk6 V c 3 t) (iblk6 V c 4 t) : Vec Ideal S5000x256 .f32) = _
  funext j
  obtain ⟨r, q, rfl⟩ : ∃ (r : Fin 5000) (q : Fin 256), j = ix2 r q := ⟨j 0, j 1, eq_ix2 j⟩
  refine (tile_apply V c t r q).trans ?_
  show _ = G5 V c (((cfg6.win 5).blk t).view.emb (ix2 r q))
  rw [emb5]

theorem flushed6_eq (c : Dev nD) (t : Fin cfg6.N) :
    (dat6 V c).flushed 6 t = ((cfg6.win 6).blk t).view.read (Elt Ideal) (G6 V c) := by
  show (cfg6.win 6).cut (grid6.coords t) ((dat6 V c).after 6 t) = _
  rw [after6_6, out6_eq]
  show (Gen.k0_pay2 (iblk6 V c 0 t) (iblk6 V c 1 t) (iblk6 V c 2 t) (iblk6 V c 3 t) (iblk6 V c 4 t) : Vec Ideal S1x1x256 .f32) = _
  refine PayA0.ext_1x1 fun q => (PayA0.pay2_apply _ _ _ _ _ q).trans ?_
  show _ = G6 V c (((cfg6.win 6).blk t).view.emb (ix3 0 0 q))
  rw [emb6 t q]
  show _ = Cert.Spec.c0 + ∑ r : Fin 5000, Z1 V c (Cert.Spec.tileRow (tile t) r) q
  rw [PayA0.c0_add]
  exact Finset.sum_congr rfl fun r _ => tile_apply V c t r q

theorem flushed7_eq (c : Dev nD) (t : Fin cfg6.N) :
    (dat6 V c).flushed 7 t = ((cfg6.win 7).blk t).view.read (Elt Ideal) (G7 V c) := by
  show (cfg6.win 7).cut (grid6.coords t) ((dat6 V c).after 7 t) = _
  rw [after6_7, out7_eq]
  show (Gen.k0_pay3 (iblk6 V c 0 t) (iblk6 V c 1 t) (iblk6 V c 2 t) (iblk6 V c 3 t) (iblk6 V c 4 t) : Vec Ideal S1x1x256 .f32) = _
  refine PayA0.ext_1x1 fun q => (PayA0.pay3_apply _ _ _ _ _ q).trans ?_
  show _ = G7 V c (((cfg6.win 7).blk t).view.emb (ix3 0 0 q))
  rw [emb7 t q]
  show _ = Cert.Spec.c0 + ∑ r : Fin 5000, Z1 V c (Cert.Spec.tileRow (tile t) r) q * Z1 V c (Cert.Spec.tileRow (tile t) r) q
  rw [PayA0.c0_add]
  exact Finset.sum_congr rfl fun r _ => congrArg₂ (· * ·) (tile_apply V c t r q) (tile_apply V c t r q)

-- Row p of the array lies in tile p / 5000, at row p % 5000 of it.
theorem cover5 (i : S50000x256.Idx) :
    ∃ t : Fin cfg6.N, (cfg6.win 5).flush t = true ∧ i ∈ ((cfg6.win 5).blk t).view.set :=
  ⟨⟨(i 0).val / 5000, lt_of_lt_of_eq (Nat.div_lt_of_lt_mul (i 0).isLt) N_6.symm⟩, flush6_5 _,
    PayA0.mem_set_of_emb _ ((emb5 _ ⟨(i 0).val % 5000, Nat.mod_lt _ (by decide)⟩ (i 1)).trans
      (Shape.idx_ext₂ (by exact Nat.div_add_mod' _ _) (by rfl)))⟩

theorem cover6 (i : S10x1x256.Idx) :
    ∃ t : Fin cfg6.N, (cfg6.win 6).flush t = true ∧ i ∈ ((cfg6.win 6).blk t).view.set :=
  ⟨⟨(i 0).val, lt_of_lt_of_eq (i 0).isLt N_6.symm⟩, flush6_6 _, PayA0.mem_set_of_emb _ ((emb6 _ (i 2)).trans (PayA0.ix3_mid i))⟩

theorem cover7 (i : S10x1x256.Idx) :
    ∃ t : Fin cfg6.N, (cfg6.win 7).flush t = true ∧ i ∈ ((cfg6.win 7).blk t).view.set :=
  ⟨⟨(i 0).val, lt_of_lt_of_eq (i 0).isLt N_6.symm⟩, flush6_7 _, PayA0.mem_set_of_emb _ ((emb7 _ (i 2)).trans (PayA0.ix3_mid i))⟩

theorem final5 (c : Dev nD) : (dat6 V c).arrAt 5 cfg6.N = G5 V c :=
  (dat6 V c).arrAt_eq_of_cover 5 (G5 V c) (fun t _ => flushed5_eq V c t) cover5

theorem final6 (c : Dev nD) : (dat6 V c).arrAt 6 cfg6.N = G6 V c :=
  (dat6 V c).arrAt_eq_of_cover 6 (G6 V c) (fun t _ => flushed6_eq V c t) cover6

theorem final7 (c : Dev nD) : (dat6 V c).arrAt 7 cfg6.N = G7 V c :=
  (dat6 V c).arrAt_eq_of_cover 7 (G7 V c) (fun t _ => flushed7_eq V c t) cover7

theorem z1 (c : Dev nD) (p : Fin 50000) (q : Fin 256) :
    (dat6 (F := Ideal) V c).arrAt 5 cfg6.N (ix2 p q) = Z1 V c p q :=
  congrFun (final5 V c) (ix2 p q)

theorem psum (c : Dev nD) (t : Fin 10) (q : Fin 256) :
    (dat6 (F := Ideal) V c).arrAt 6 cfg6.N (ix3 t 0 q) = Cert.Spec.tileSum (Z1 V c) t q :=
  congrFun (final6 V c) (ix3 t 0 q)

theorem psumsq (c : Dev nD) (t : Fin 10) (q : Fin 256) :
    (dat6 (F := Ideal) V c).arrAt 7 cfg6.N (ix3 t 0 q) = Cert.Spec.tileSumSq (Z1 V c) t q :=
  congrFun (final7 V c) (ix3 t 0 q)

end Cert.KernelIdeal.LiftA6

end
-- ==== Proof.LiftB7.lean ====
import proofs.«401895_j21930103014155_2_alg».proof.Proof.Gen.KernelIdeal.Frame
import proofs.«401895_j21930103014155_2_alg».proof.Proof.PayB1

set_option maxRecDepth 16384

noncomputable section

namespace Cert.KernelIdeal.LiftB7

open Idealize.ShloMosaic Idealize.ShloMosaic.TcCoe ValueIdx Cert.KernelIdeal Cert.KernelIdeal.Gen
open Idealize.ShloMosaic.Pipeline (Dat)
open scoped BigOperators

variable (V : (c : Dev nD) → (b : Ref sig .tc) → Buf (Elt Ideal) ((c : Thread nD τ).loc b))

abbrev row1 (c : Dev nD) : Cert.Spec.Row 256 := fun q => V c (Pipeline.arrRef spec7 1) (ix2 0 q)
abbrev row2 (c : Dev nD) : Cert.Spec.Row 256 := fun q => V c (Pipeline.arrRef spec7 2) (ix2 0 q)
abbrev row3 (c : Dev nD) : Cert.Spec.Row 256 := fun q => V c (Pipeline.arrRef spec7 3) (ix2 0 q)
abbrev row4 (c : Dev nD) : Cert.Spec.Row 256 := fun q => V c (Pipeline.arrRef spec7 4) (ix2 0 q)
abbrev row6 (c : Dev nD) : Cert.Spec.Row 256 := fun q => V c (Pipeline.arrRef spec7 6) (ix2 0 q)

/-- The second linear layer's output over all 50000 rows. -/
abbrev Z2 (c : Dev nD) : Cert.Spec.Mat 50000 256 :=
  Cert.Spec.lin (Cert.Spec.reluM (Cert.Spec.norm (fun p k => V c (Pipeline.arrRef spec7 0) (ix2 p k))
    (row1 V c) (row2 V c) (row3 V c) (row4 V c))) (fun k q => V c (Pipeline.arrRef spec7 5) (ix2 k q)) (row6 V c)

abbrev tile (t : Fin cfg7.N) : Fin 10 := t.cast N_7

theorem idx_fix : ∀ (t : Fin cfg7.N) (w : Fin 10) (a : Fin (cfg7.win w).shape.rank),
    (w ≠ 0 ∧ w < 7) ∨ a.val ≠ 0 → (cfg7.win w).index t a = 0 :=
  (by decide +kernel : ∀ t : Fin grid7.N, _)

theorem idx_mov : ∀ (t : Fin cfg7.N) (w : Fin 10) (a : Fin (cfg7.win w).shape.rank),
    w = 0 ∨ 7 ≤ w → a.val = 0 → (cfg7.win w).index t a = t.val :=
  (by decide +kernel : ∀ t : Fin grid7.N, _)

/-- Entry `(r, k)` of tile `t` is entry `(t · 5000 + r, k)` of the whole matrix. -/
theorem emb0 (t : Fin cfg7.N) (r : Fin 5000) (k : Fin 256) :
    ((cfg7.win 0).blk t).view.emb (ix2 r k) = ix2 (Cert.Spec.tileRow (tile t) r) k :=
  funext fun a => Fin.ext <| (win7_0.rect_emb_val t (ix2 r k) a).trans <| by
    match a with
    | ⟨0, _⟩ => exact congrArg (· * 5000 + r.val) (idx_mov t 0 (0 : Fin 2) (by decide) rfl)
    | ⟨1, _⟩ => exact (congrArg (· * 256 + k.val) (idx_fix t 0 (1 : Fin 2) (.inr (by decide)))).trans (Nat.zero_add _)

theorem emb7 (t : Fin cfg7.N) (r : Fin 5000) (k : Fin 256) :
    ((cfg7.win 7).blk t).view.emb (ix2 r k) = ix2 (Cert.Spec.tileRow (tile t) r) k :=
  funext fun a => Fin.ext <| (win7_7.rect_emb_val t (ix2 r k) a).trans <| by
    match a with
    | ⟨0, _⟩ => exact congrArg (· * 5000 + r.val) (idx_mov t 7 (0 : Fin 2) (by decide) rfl)
    | ⟨1, _⟩ => exact (congrArg (· * 256 + k.val) (idx_fix t 7 (1 : Fin 2) (.inr (by decide)))).trans (Nat.zero_add _)

/-- Tile `t`'s row of column sums is row `t` of the 10 × 1 × 256 array. -/
theorem emb8 (t : Fin cfg7.N) (q : Fin 256) :
    ((cfg7.win 8).blk t).view.emb (ix3 0 0 q) = ix3 (tile t) 0 q :=
  funext fun a => Fin.ext <| (win7_8.rect_emb_val t (ix3 0 0 q) a).trans <| by
    match a with
    | ⟨0, _⟩ => exact congrArg (· * 1 + 0) (idx_mov t 8 (0 : Fin 3) (by decide) rfl) |>.trans (Nat.mul_one _)
    | ⟨1, _⟩ => exact congrArg (· * 1 + 0) (idx_fix t 8 (1 : Fin 3) (.inr (by decide)))
    | ⟨2, _⟩ => exact (congrArg (· * 256 + q.val) (idx_fix t 8 (2 : Fin 3) (.inr (by decide)))).trans (Nat.zero_add _)

theorem emb9 (t : Fin cfg7.N) (q : Fin 256) :
    ((cfg7.win 9).blk t).view.emb (ix3 0 0 q) = ix3 (tile t) 0 q :=
  funext fun a => Fin.ext <| (win7_9.rect_emb_val t (ix3 0 0 q) a).trans <| by
    match a with
    | ⟨0, _⟩ => exact congrArg (· * 1 + 0) (idx_mov t 9 (0 : Fin 3) (by decide) rfl) |>.trans (Nat.mul_one _)
    | ⟨1, _⟩ => exact congrArg (· * 1 + 0) (idx_fix t 9 (1 : Fin 3) (.inr (by decide)))
    | ⟨2, _⟩ => exact (congrArg (· * 256 + q.val) (idx_fix t 9 (2 : Fin 3) (.inr (by decide)))).trans (Nat.zero_add _)

theorem rd0 (c : Dev nD) (t : Fin cfg7.N) (r : Fin 5000) (k : Fin 256) :
    (iblk7 V c 0 t : Vec Ideal S5000x256 .f32) (ix2 r k)
      = V c (Pipeline.arrRef spec7 0) (ix2 (Cert.Spec.tileRow (tile t) r) k) :=
  congrArg (V c (Pipeline.arrRef spec7 0)) (emb0 t r k)

theorem rd1 (c : Dev nD) (t : Fin cfg7.N) (k : Fin 256) :
    (iblk7 V c 1 t : Vec Ideal S1x256 .f32) (ix2 0 k) = row1 V c k :=
  congrArg (V c (Pipeline.arrRef spec7 1)) (funext fun a => Fin.ext
    (win7_1.rect_emb_val_of_index_zero t a (idx_fix t 1 a (.inl (by decide))) (ix2 0 k)))

theorem rd2 (c : Dev nD) (t : Fin cfg7.N) (k : Fin 256) :
    (iblk7 V c 2 t : Vec Ideal S1x256 .f32) (ix2 0 k) = row2 V c k :=
  congrArg (V c (Pipeline.arrRef spec7 2)) (funext fun a => Fin.ext
    (win7_2.rect_emb_val_of_index_zero t a (idx_fix t 2 a (.inl (by decide))) (ix2 0 k)))

theorem rd3 (c : Dev nD) (t : Fin cfg7.N) (k : Fin 256) :
    (iblk7 V c 3 t : Vec Ideal S1x256 .f32) (ix2 0 k) = row3 V c k :=
  congrArg (V c (Pipeline.arrRef spec7 3)) (funext fun a => Fin.ext
    (win7_3.rect_emb_val_of_index_zero t a (idx_fix t 3 a (.inl (by decide))) (ix2 0 k)))

theorem rd4 (c : Dev nD) (t : Fin cfg7.N) (k : Fin 256) :
    (iblk7 V c 4 t : Vec Ideal S1x256 .f32) (ix2 0 k) = row4 V c k :=
  congrArg (V c (Pipeline.arrRef spec7 4)) (funext fun a => Fin.ext
    (win7_4.rect_emb_val_of_index_zero t a (idx_fix t 4 a (.inl (by decide))) (ix2 0 k)))

theorem rd5 (c : Dev nD) (t : Fin cfg7.N) (k q : Fin 256) :
    (iblk7 V c 5 t : Vec Ideal S256x256 .f32) (ix2 k q) = V c (Pipeline.arrRef spec7 5) (ix2 k q) :=
  congrArg (V c (Pipeline.arrRef spec7 5)) (funext fun a => Fin.ext
    (win7_5.rect_emb_val_of_index_zero t a (idx_fix t 5 a (.inl (by decide))) (ix2 k q)))

theorem rd6 (c : Dev nD) (t : Fin cfg7.N) (k : Fin 256) :
    (iblk7 V c 6 t : Vec Ideal S1x256 .f32) (ix2 0 k) = row6 V c k :=
  congrArg (V c (Pipeline.arrRef spec7 6)) (funext fun a => Fin.ext
    (win7_6.rect_emb_val_of_index_zero t a (idx_fix t 6 a (.inl (by decide))) (ix2 0 k)))

/-- Entry `(r, q)` of the tile computed for `t` is entry `(t · 5000 + r, q)` of the second layer's output. -/
theorem tile_entry (c : Dev nD) (t : Fin cfg7.N) (r : Fin 5000) (q : Fin 256) :
    k7_pay2 (iblk7 V c 0 t) (iblk7 V c 1 t) (iblk7 V c 2 t) (iblk7 V c 3 t) (iblk7 V c 4 t) (iblk7 V c 5 t) (iblk7 V c 6 t) (ix2 r q)
      = Z2 V c (Cert.Spec.tileRow (tile t) r) q := by
  refine (PayB1.pay2_apply _ _ _ _ _ _ _ r q).trans ?_
  unfold PayB1.act
  simp only [rd0 V c t, rd1 V c t, rd2 V c t, rd3 V c t, rd4 V c t, rd5 V c t, rd6 V c t]
  rfl

theorem hz2 : (![0, 0] : Fin 2 → Nat) = fun _ => 0 := funext fun a => by fin_cases a <;> rfl
theorem hz3 : (![0, 0, 0] : Fin 3 → Nat) = fun _ => 0 := funext fun a => by fin_cases a <;> rfl

/-- The second layer's output, and per tile its column sums and column sums of squares. -/
abbrev G7 (c : Dev nD) : S50000x256.Idx → Elt Ideal .f32 := fun i => Z2 V c (i 0) (i 1)
abbrev G8 (c : Dev nD) : S10x1x256.Idx → Elt Ideal .f32 := fun i => Cert.Spec.tileSum (Z2 V c) (i 0) (i 2)
abbrev G9 (c : Dev nD) : S10x1x256.Idx → Elt Ideal .f32 := fun i => Cert.Spec.tileSumSq (Z2 V c) (i 0) (i 2)

theorem wb7 (c : Dev nD) (t : Fin cfg7.N) :
    (dat7 (F := Ideal) V c).flushed 7 t = ((cfg7.win 7).blk t).view.read (Elt Ideal) (G7 V c) := by
  show (cfg7.win 7).cut (grid7.coords t) ((dat7 (F := Ideal) V c).after 7 t) = _
  rw [after7_7]
  unfold out7_7
  rw [View.canon_unit_zero hz2]
  simp only [View.ld_unit_zero (S := S5000x256) hz2, View.ld_unit_zero (S := S1x256) hz2, View.ld_unit_zero (S := S256x256) hz2]
  funext j
  obtain ⟨r, q, rfl⟩ : ∃ (r : Fin 5000) (q : Fin 256), j = ix2 r q := ⟨j 0, j 1, eq_ix2 j⟩
  exact (tile_entry V c t r q).trans (congrArg (G7 V c) (emb7 t r q)).symm

theorem wb8 (c : Dev nD) (t : Fin cfg7.N) :
    (dat7 (F := Ideal) V c).flushed 8 t = ((cfg7.win 8).blk t).view.read (Elt Ideal) (G8 V c) := by
  show (cfg7.win 8).cut (grid7.coords t) ((dat7 (F := Ideal) V c).after 8 t) = _
  rw [after7_8]
  unfold out7_8
  rw [View.canon_unit_zero hz3]
  simp only [View.ld_unit_zero (S := S5000x256) hz2, View.ld_unit_zero (S := S1x256) hz2, View.ld_unit_zero (S := S256x256) hz2]
  funext j
  obtain ⟨a, b, q, rfl⟩ : ∃ (a b : Fin 1) (q : Fin 256), j = ix3 a b q := ⟨j 0, j 1, j 2, eq_ix3 j⟩
  obtain rfl : a = 0 := Subsingleton.elim _ _
  obtain rfl : b = 0 := Subsingleton.elim _ _
  refine (PayB1.pay4_apply (iblk7 V c 0 t) (iblk7 V c 1 t) (iblk7 V c 2 t) (iblk7 V c 3 t) (iblk7 V c 4 t) (iblk7 V c 5 t) (iblk7 V c 6 t) q).trans (.trans ?_ (congrArg (G8 V c) (emb8 t q)).symm)
  refine (zero_add _).symm.trans (congrArg₂ (· + ·) Ideal.ofBits_zero_f32.symm (Finset.sum_congr rfl fun r _ => ?_))
  exact tile_entry V c t r q

theorem wb9 (c : Dev nD) (t : Fin cfg7.N) :
    (dat7 (F := Ideal) V c).flushed 9 t = ((cfg7.win 9).blk t).view.read (Elt Ideal) (G9 V c) := by
  show (cfg7.win 9).cut (grid7.coords t) ((dat7 (F := Ideal) V c).after 9 t) = _
  rw [after7_9]
  unfold out7_9
  rw [View.canon_unit_zero hz3]
  simp only [View.ld_unit_zero (S := S5000x256) hz2, View.ld_unit_zero (S := S1x256) hz2, View.ld_unit_zero (S := S256x256) hz2]
  funext j
  obtain ⟨a, b, q, rfl⟩ : ∃ (a b : Fin 1) (q : Fin 256), j = ix3 a b q := ⟨j 0, j 1, j 2, eq_ix3 j⟩
  obtain rfl : a = 0 := Subsingleton.elim _ _
  obtain rfl : b = 0 := Subsingleton.elim _ _
  refine (PayB1.pay13_apply (iblk7 V c 0 t) (iblk7 V c 1 t) (iblk7 V c 2 t) (iblk7 V c 3 t) (iblk7 V c 4 t) (iblk7 V c 5 t) (iblk7 V c 6 t) q).trans (.trans ?_ (congrArg (G9 V c) (emb9 t q)).symm)
  refine (zero_add _).symm.trans (congrArg₂ (· + ·) Ideal.ofBits_zero_f32.symm (Finset.sum_congr rfl fun r _ => ?_))
  exact congrArg₂ (· * ·) (tile_entry V c t r q) (tile_entry V c t r q)

/-- Row `p` lies in tile `p / 5000`. -/
theorem cover7 (i : S50000x256.Idx) :
    ∃ t : Fin cfg7.N, (cfg7.win 7).flush t = true ∧ i ∈ ((cfg7.win 7).blk t).view.set := by
  obtain ⟨p, q, rfl⟩ : ∃ (p : Fin 50000) (q : Fin 256), i = ix2 p q := ⟨i 0, i 1, eq_ix2 i⟩
  have hp := p.isLt
  let t : Fin cfg7.N := Fin.cast N_7.symm ⟨p.val / 5000, by omega⟩
  let r : Fin 5000 := ⟨p.val % 5000, Nat.mod_lt _ (by decide)⟩
  have h := ((cfg7.win 7).blk t).view.emb_mem_set (ix2 r q)
  rw [emb7, show Cert.Spec.tileRow (tile t) r = p from Fin.ext (Nat.div_add_mod' _ _)] at h
  exact ⟨t, flush7_7 t, h⟩

theorem cover8 (i : S10x1x256.Idx) :
    ∃ t : Fin cfg7.N, (cfg7.win 8).flush t = true ∧ i ∈ ((cfg7.win 8).blk t).view.set := by
  obtain ⟨a, b, q, rfl⟩ : ∃ (a : Fin 10) (b : Fin 1) (q : Fin 256), i = ix3 a b q := ⟨i 0, i 1, i 2, eq_ix3 i⟩
  obtain rfl : b = 0 := Subsingleton.elim _ _
  have h := ((cfg7.win 8).blk (a.cast N_7.symm)).view.emb_mem_set (ix3 0 0 q)
  rw [emb8] at h
  exact ⟨_, flush7_8 _, h⟩

theorem cover9 (i : S10x1x256.Idx) :
    ∃ t : Fin cfg7.N, (cfg7.win 9).flush t = true ∧ i ∈ ((cfg7.win 9).blk t).view.set := by
  obtain ⟨a, b, q, rfl⟩ : ∃ (a : Fin 10) (b : Fin 1) (q : Fin 256), i = ix3 a b q := ⟨i 0, i 1, i 2, eq_ix3 i⟩
  obtain rfl : b = 0 := Subsingleton.elim _ _
  have h := ((cfg7.win 9).blk (a.cast N_7.symm)).view.emb_mem_set (ix3 0 0 q)
  rw [emb9] at h
  exact ⟨_, flush7_9 _, h⟩

theorem z2 (c : Dev nD) (p : Fin 50000) (q : Fin 256) :
    (dat7 (F := Ideal) V c).arrAt 7 cfg7.N (ix2 p q) = Z2 V c p q :=
  congrFun ((dat7 (F := Ideal) V c).arrAt_eq_of_cover 7 (G7 V c) (fun t _ => wb7 V c t) cover7) (ix2 p q)

theorem psum (c : Dev nD) (t : Fin 10) (q : Fin 256) :
    (dat7 (F := Ideal) V c).arrAt 8 cfg7.N (ix3 t 0 q) = Cert.Spec.tileSum (Z2 V c) t q :=
  congrFun ((dat7 (F := Ideal) V c).arrAt_eq_of_cover 8 (G8 V c) (fun t _ => wb8 V c t) cover8) (ix3 t 0 q)

theorem psumsq (c : Dev nD) (t : Fin 10) (q : Fin 256) :
    (dat7 (F := Ideal) V c).arrAt 9 cfg7.N (ix3 t 0 q) = Cert.Spec.tileSumSq (Z2 V c) t q :=
  congrFun ((dat7 (F := Ideal) V c).arrAt_eq_of_cover 9 (G9 V c) (fun t _ => wb9 V c t) cover9) (ix3 t 0 q)

end Cert.KernelIdeal.LiftB7

end
-- ==== Proof.LiftC8.lean ====
import proofs.«401895_j21930103014155_2_alg».proof.Proof.Gen.KernelIdeal.Frame
import proofs.«401895_j21930103014155_2_alg».proof.Proof.Spec
import proofs.«401895_j21930103014155_2_alg».proof.Proof.LiftC
import Idealize.ShloMosaic.Lib.ValueIdx
import Idealize.ShloMosaic.Lib.ValueLayout
import Idealize.ShloMosaic.Lib.Pipeline.Value

noncomputable section

namespace Cert.KernelIdeal.LiftC8

open Idealize.ShloMosaic Idealize.ShloMosaic.TcCoe ValueIdx
open Cert.KernelIdeal Cert.KernelIdeal.Gen
open Idealize.ShloMosaic.Pipeline (Dat)

variable (V : (c : Dev nD) → (b : Ref sig .tc) → Buf (Elt Ideal) ((c : Thread nD τ).loc b))

abbrev row1 (c : Dev nD) : Cert.Spec.Row 256 := fun q => V c (Pipeline.arrRef spec8 1) (ix2 0 q)
abbrev row2 (c : Dev nD) : Cert.Spec.Row 256 := fun q => V c (Pipeline.arrRef spec8 2) (ix2 0 q)
abbrev row3 (c : Dev nD) : Cert.Spec.Row 256 := fun q => V c (Pipeline.arrRef spec8 3) (ix2 0 q)
abbrev row4 (c : Dev nD) : Cert.Spec.Row 256 := fun q => V c (Pipeline.arrRef spec8 4) (ix2 0 q)

abbrev BN (c : Dev nD) : Cert.Spec.Mat 50000 256 :=
  Cert.Spec.norm (fun p k => V c (Pipeline.arrRef spec8 0) (ix2 p k)) (row1 V c) (row2 V c) (row3 V c) (row4 V c)

abbrev res (c : Dev nD) : S50000x256.Idx → EReal := fun i => Cert.Spec.reluM (BN V c) (i 0) (i 1)

theorem npoints : cfg8.N = 10 := by decide

abbrev rowOf (t : Fin cfg8.N) (r : Fin 5000) : Fin 50000 :=
  ⟨t.val * 5000 + r.val, by have h : t.val < 10 := Nat.lt_of_lt_of_eq t.isLt npoints; omega⟩

-- The [50000, 256] operand and the result move down one tile of 5000 rows per grid point; the four rows stay.
theorem idx_maps : ∀ t : Fin cfg8.N,
    (win8_0.index t (0 : Fin 2) = t.val ∧ win8_0.index t (1 : Fin 2) = 0)
    ∧ (∀ a : Fin 2, win8_1.index t a = 0) ∧ (∀ a : Fin 2, win8_2.index t a = 0)
    ∧ (∀ a : Fin 2, win8_3.index t a = 0) ∧ (∀ a : Fin 2, win8_4.index t a = 0)
    ∧ win8_5.index t (0 : Fin 2) = t.val ∧ win8_5.index t (1 : Fin 2) = 0 :=
  (by decide +kernel : ∀ t : Fin grid8.N, _)

theorem emb0 (t : Fin cfg8.N) (r : Fin 5000) (q : Fin 256) :
    ((cfg8.win 0).blk t).view.emb (ix2 r q) = ix2 (rowOf t r) q := by
  refine Shape.idx_ext₂ ?_ ?_
  exacts [(win8_0.rect_emb_val t (ix2 r q) (0 : Fin 2)).trans (congrArg (fun k : ℕ => k * 5000 + r.val) (idx_maps t).1.1),
    win8_0.rect_emb_val_of_index_zero t (1 : Fin 2) (idx_maps t).1.2 (ix2 r q)]

theorem emb5 (t : Fin cfg8.N) (r : Fin 5000) (q : Fin 256) :
    ((cfg8.win 5).blk t).view.emb (ix2 r q) = ix2 (rowOf t r) q := by
  refine Shape.idx_ext₂ ?_ ?_
  exacts [(win8_5.rect_emb_val t (ix2 r q) (0 : Fin 2)).trans (congrArg (fun k : ℕ => k * 5000 + r.val) (idx_maps t).2.2.2.2.2.1),
    win8_5.rect_emb_val_of_index_zero t (1 : Fin 2) (idx_maps t).2.2.2.2.2.2 (ix2 r q)]

-- Point t writes back tile t of res: the body loads rows 5000·t … of the operand and the four rows whole.
theorem flushed_eq (c : Dev nD) (t : Fin cfg8.N) :
    (dat8 (F := Ideal) V c).flushed 5 t = ((cfg8.win 5).blk t).view.read (Elt Ideal) (res V c) := by
  obtain ⟨-, h1, h2, h3, h4, -⟩ := idx_maps t
  show (cfg8.win 5).cut (grid8.coords t) ((dat8 (F := Ideal) V c).after 5 t) = _
  rw [after8_5]
  unfold out8_5
  rw [View.canon_unit_zero LiftC.zero_off]
  simp only [View.ld_unit_zero (S := S5000x256) LiftC.zero_off, View.ld_unit_zero (S := S1x256) LiftC.zero_off]
  funext j
  obtain ⟨r, q, rfl⟩ : ∃ (r : Fin 5000) (q : Fin 256), j = ix2 r q := ⟨j 0, j 1, eq_ix2 j⟩
  have e0 : iblk8 V c 0 t (ix2 r q) = V c (Pipeline.arrRef spec8 0) (ix2 (rowOf t r) q) :=
    congrArg (V c (Pipeline.arrRef spec8 0)) (emb0 t r q)
  have e1 : iblk8 V c 1 t (ix2 (0 : Fin 1) q) = row1 V c q :=
    congrArg (V c (Pipeline.arrRef spec8 1)) (LiftC.emb_eq_self win8_1 t h1 (ix2 (0 : Fin 1) q) fun _ => rfl)
  have e2 : iblk8 V c 2 t (ix2 (0 : Fin 1) q) = row2 V c q :=
    congrArg (V c (Pipeline.arrRef spec8 2)) (LiftC.emb_eq_self win8_2 t h2 (ix2 (0 : Fin 1) q) fun _ => rfl)
  have e3 : iblk8 V c 3 t (ix2 (0 : Fin 1) q) = row3 V c q :=
    congrArg (V c (Pipeline.arrRef spec8 3)) (LiftC.emb_eq_self win8_3 t h3 (ix2 (0 : Fin 1) q) fun _ => rfl)
  have e4 : iblk8 V c 4 t (ix2 (0 : Fin 1) q) = row4 V c q :=
    congrArg (V c (Pipeline.arrRef spec8 4)) (LiftC.emb_eq_self win8_4 t h4 (ix2 (0 : Fin 1) q) fun _ => rfl)
  show k2_pay1 (F := Ideal) (iblk8 V c 0 t) (iblk8 V c 1 t) (iblk8 V c 2 t) (iblk8 V c 3 t) (iblk8 V c 4 t) (ix2 r q)
    = res V c (((cfg8.win 5).blk t).view.emb (ix2 r q))
  rw [emb5, LiftC.pay_relu, e0, e1, e2, e3, e4]
  rfl

-- Row p lies in tile p / 5000, so the ten blocks cover the result.
theorem cover (i : S50000x256.Idx) :
    ∃ t : Fin cfg8.N, (cfg8.win 5).flush t = true ∧ i ∈ ((cfg8.win 5).blk t).view.set := by
  have hi : (i 0).val < 50000 := idx2_lt0 i
  obtain ⟨t, ht⟩ : ∃ t : Fin cfg8.N, t.val = (i 0).val / 5000 := ⟨⟨(i 0).val / 5000, by rw [npoints]; omega⟩, rfl⟩
  obtain ⟨r, hr⟩ : ∃ r : Fin 5000, r.val = (i 0).val % 5000 := ⟨⟨(i 0).val % 5000, Nat.mod_lt _ (by norm_num)⟩, rfl⟩
  obtain ⟨q, hq⟩ : ∃ q : Fin 256, q.val = (i 1).val := ⟨i 1, rfl⟩
  have h : ix2 (rowOf t r) q = i := by
    refine Shape.idx_ext₂ ?_ hq
    show t.val * 5000 + r.val = (i 0).val
    omega
  refine ⟨t, flush8_5 t, ?_⟩
  rw [← h, ← emb5]
  exact View.emb_mem_set _ _

theorem out (c : Dev nD) (p : Fin 50000) (q : Fin 256) :
    (dat8 (F := Ideal) V c).arrAt 5 cfg8.N (ix2 p q) = Cert.Spec.reluM (BN V c) p q :=
  congrFun ((dat8 (F := Ideal) V c).arrAt_eq_of_cover 5 (res V c) (fun t _ => flushed_eq V c t) cover) (ix2 p q)

end Cert.KernelIdeal.LiftC8

end
-- ==== Proof.KLayer2.lean ====
import proofs.«401895_j21930103014155_2_alg».proof.Proof.Gen.KernelIdeal.Frame
import proofs.«401895_j21930103014155_2_alg».proof.Proof.KLayer2Host
import proofs.«401895_j21930103014155_2_alg».proof.Proof.KLayer1
import proofs.«401895_j21930103014155_2_alg».proof.Proof.LiftA6
import proofs.«401895_j21930103014155_2_alg».proof.Proof.LiftB7
import proofs.«401895_j21930103014155_2_alg».proof.Proof.LiftC8

noncomputable section

namespace Cert.KernelIdeal.KLayer2

open Idealize.ShloMosaic Idealize.ShloMosaic.TcCoe Idealize.ShloMosaic.ValueIdx
open Cert.KernelIdeal Cert.KernelIdeal.Gen

variable (m : (ℓ : Loc nD τ sig) → Buf (Elt Ideal) ℓ) (ρ : Dev nD → PrngReg) (c : Dev nD)

theorem par_in (r : Ref sig .tc) (hr : r ∈ pars) :
    W16 m ρ c (Proc.devRef .tc r) = m ((c : Thread nD τ).loc r) :=
  KLayer1.par_W16 m ρ c r hr

theorem par_a (r : Ref sig .tc) (hr : r ∈ pars) :
    W20 m ρ c (Proc.devRef .tc r) = m ((c : Thread nD τ).loc r) := by
  refine Eq.trans ?_ ((keeps_pre (W16 m ρ c) r hr).trans (par_in m ρ c r hr))
  simp only [pars, List.mem_cons, List.not_mem_nil, or_false] at hr
  rcases hr with rfl | rfl | rfl | rfl | rfl | rfl | rfl | rfl | rfl | rfl | rfl <;> exact W20_of_ne m ρ c _ (by decide)

theorem par_b (r : Ref sig .tc) (hr : r ∈ pars) :
    W22 m ρ c (Proc.devRef .tc r) = m ((c : Thread nD τ).loc r) := by
  refine Eq.trans ?_ ((keeps_d (W20 m ρ c) r hr).trans (par_a m ρ c r hr))
  simp only [pars, List.mem_cons, List.not_mem_nil, or_false] at hr
  rcases hr with rfl | rfl | rfl | rfl | rfl | rfl | rfl | rfl | rfl | rfl | rfl <;> exact W22_of_ne m ρ c _ (by decide)

theorem par_W24 (r : Ref sig .tc) (hr : r ∈ pars) :
    W24 m ρ c (Proc.devRef .tc r) = m ((c : Thread nD τ).loc r) := by
  refine Eq.trans ?_ ((keeps_e (W22 m ρ c) r hr).trans (par_b m ρ c r hr))
  simp only [pars, List.mem_cons, List.not_mem_nil, or_false] at hr
  rcases hr with rfl | rfl | rfl | rfl | rfl | rfl | rfl | rfl | rfl | rfl | rfl <;> exact W24_of_ne m ρ c _ (by decide)

theorem step (p : Fin 50000) (q : Fin 256) :
    W24 m ρ c (Proc.devRef .tc main_v146) (ix2 p q)
      = Spec.kLayer false (m ((c : Thread nD τ).loc main_arg9) (ix1 (2 : Fin 5)))
          (fun p k => W16 m ρ c (Proc.devRef .tc main_v97) (ix2 p k))
          (fun p k => KLayer.agg (W16 m ρ c (Proc.devRef .tc main_v97)) (m ((c : Thread nD τ).loc main_arg1))
            (m ((c : Thread nD τ).loc main_arg2)) (ix2 p k))
          (fun k q => m ((c : Thread nD τ).loc main_arg3) (ix3 (2 : Fin 5) k q))
          (fun q => m ((c : Thread nD τ).loc main_arg4) (ix2 (2 : Fin 5) q))
          (fun q => m ((c : Thread nD τ).loc main_arg5) (ix2 (2 : Fin 5) q))
          (fun q => m ((c : Thread nD τ).loc main_arg6) (ix2 (2 : Fin 5) q))
          (fun k q => m ((c : Thread nD τ).loc main_arg7) (ix3 (2 : Fin 5) k q))
          (fun q => m ((c : Thread nD τ).loc main_arg8) (ix2 (2 : Fin 5) q))
          (fun q => m ((c : Thread nD τ).loc main_arg10) (ix2 (2 : Fin 5) q))
          (fun q => m ((c : Thread nD τ).loc main_arg11) (ix2 (2 : Fin 5) q)) p q := by
  have ps1 : (fun (t : Fin 10) (q : Fin 256) => W20 m ρ c (Proc.devRef .tc main_v111_1) (ix3 t 0 q))
      = Spec.tileSum (LiftA6.Z1 (V19 m ρ) c) :=
    funext fun t => funext fun q => (congrFun (W20_arr m ρ c 6) _).trans (LiftA6.psum (V19 m ρ) c t q)
  have pss1 : (fun (t : Fin 10) (q : Fin 256) => W20 m ρ c (Proc.devRef .tc main_v111_2) (ix3 t 0 q))
      = Spec.tileSumSq (LiftA6.Z1 (V19 m ρ) c) :=
    funext fun t => funext fun q => (congrFun (W20_arr m ρ c 7) _).trans (LiftA6.psumsq (V19 m ρ) c t q)
  have ps2 : (fun (t : Fin 10) (q : Fin 256) => W22 m ρ c (Proc.devRef .tc main_v131_1) (ix3 t 0 q))
      = Spec.tileSum (LiftB7.Z2 (V21 m ρ) c) :=
    funext fun t => funext fun q => (congrFun (W22_arr m ρ c 8) _).trans (LiftB7.psum (V21 m ρ) c t q)
  have pss2 : (fun (t : Fin 10) (q : Fin 256) => W22 m ρ c (Proc.devRef .tc main_v131_2) (ix3 t 0 q))
      = Spec.tileSumSq (LiftB7.Z2 (V21 m ρ) c) :=
    funext fun t => funext fun q => (congrFun (W22_arr m ρ c 9) _).trans (LiftB7.psumsq (V21 m ρ) c t q)
  have H := Spec.kLayer_of_regions (last := false) (z1 := LiftA6.Z1 (V19 m ρ) c) (z2 := LiftB7.Z2 (V21 m ρ) c) rfl rfl
    (funext fun p => funext fun k => congrFun (in_at (W16 m ρ c)) (ix2 p k))
    (funext fun p => funext fun k => congrFun ((agg_arr (W16 m ρ c)).trans
      (congr (congrArg (KLayer.agg (W16 m ρ c (Proc.devRef .tc main_v97))) (par_in m ρ c main_arg1 (by decide))) (par_in m ρ c main_arg2 (by decide)))) (ix2 p k))
    (funext fun k => (eps_at (W16 m ρ c) k).trans (congrFun (par_in m ρ c main_arg9 (by decide)) _))
    (funext fun k => funext fun q => (w1_at (W16 m ρ c) k q).trans (congrFun (par_in m ρ c main_arg3 (by decide)) _))
    (funext fun q => (b1_at (W16 m ρ c) q).trans (congrFun (par_in m ρ c main_arg4 (by decide)) _))
    (funext fun p => funext fun k =>
      (congrFun ((z1_at (W20 m ρ c)).trans (W20_arr m ρ c 5)) _).trans (LiftA6.z1 (V19 m ρ) c p k))
    (funext fun q => (mean1_at (W20 m ρ c) q).trans (congrFun (congrArg Spec.meanT ps1) q))
    (funext fun q => (var1_at (W20 m ρ c) q).trans (congrFun (congr (congrArg Spec.varT ps1) pss1) q))
    (funext fun q => (g1_at (W20 m ρ c) q).trans (congrFun (par_a m ρ c main_arg5 (by decide)) _))
    (funext fun q => (bt1_at (W20 m ρ c) q).trans (congrFun (par_a m ρ c main_arg6 (by decide)) _))
    (funext fun k => funext fun q => (w2_at (W20 m ρ c) k q).trans (congrFun (par_a m ρ c main_arg7 (by decide)) _))
    (funext fun q => (b2_at (W20 m ρ c) q).trans (congrFun (par_a m ρ c main_arg8 (by decide)) _))
    (funext fun p => funext fun k =>
      (congrFun ((z2_at (W22 m ρ c)).trans (W22_arr m ρ c 7)) _).trans (LiftB7.z2 (V21 m ρ) c p k))
    (funext fun q => (mean2_at (W22 m ρ c) q).trans (congrFun (congrArg Spec.meanT ps2) q))
    (funext fun q => (var2_at (W22 m ρ c) q).trans (congrFun (congr (congrArg Spec.varT ps2) pss2) q))
    (funext fun q => (bng_at (W22 m ρ c) q).trans (congrFun (par_b m ρ c main_arg10 (by decide)) _))
    (funext fun q => (bnb_at (W22 m ρ c) q).trans (congrFun (par_b m ρ c main_arg11 (by decide)) _))
  rw [show W24 m ρ c (Proc.devRef .tc main_v146) = _ from W24_arr m ρ c 5]
  exact (LiftC8.out (V23 m ρ) c p q).trans (congrFun (congrFun H p) q)

end Cert.KernelIdeal.KLayer2

end
-- ==== Proof.LiftA9.lean ====
import proofs.«401895_j21930103014155_2_alg».proof.Proof.Gen.KernelIdeal.Frame
import proofs.«401895_j21930103014155_2_alg».proof.Proof.PayA0
import Idealize.ShloMosaic.Lib.Pipeline.Value

noncomputable section

namespace Cert.KernelIdeal.LiftA9

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

abbrev Z1 (c : Dev nD) : Cert.Spec.Mat 50000 256 :=
  Cert.Spec.lin (Cert.Spec.zpreRow (fun k => V c (Pipeline.arrRef spec9 2) (ix2 0 k)) (fun p k => V c (Pipeline.arrRef spec9 0) (ix2 p k)) (fun p k => V c (Pipeline.arrRef spec9 1) (ix2 p k))) (fun k q => V c (Pipeline.arrRef spec9 3) (ix2 k q)) (fun q => V c (Pipeline.arrRef spec9 4) (ix2 0 q))

abbrev tile (t : Fin cfg9.N) : Fin 10 := ⟨t.val, lt_of_lt_of_eq t.isLt N_9⟩

theorem idx_facts : ∀ t : Fin cfg9.N,
    (win9_0.index t (0 : Fin 2) = t.val ∧ win9_0.index t (1 : Fin 2) = 0)
    ∧ (win9_1.index t (0 : Fin 2) = t.val ∧ win9_1.index t (1 : Fin 2) = 0)
    ∧ (win9_2.index t (0 : Fin 2) = 0 ∧ win9_2.index t (1 : Fin 2) = 0)
    ∧ (win9_3.index t (0 : Fin 2) = 0 ∧ win9_3.index t (1 : Fin 2) = 0)
    ∧ (win9_4.index t (0 : Fin 2) = 0 ∧ win9_4.index t (1 : Fin 2) = 0)
    ∧ (win9_5.index t (0 : Fin 2) = t.val ∧ win9_5.index t (1 : Fin 2) = 0)
    ∧ (win9_6.index t (0 : Fin 3) = t.val ∧ win9_6.index t (1 : Fin 3) = 0 ∧ win9_6.index t (2 : Fin 3) = 0)
    ∧ (win9_7.index t (0 : Fin 3) = t.val ∧ win9_7.index t (1 : Fin 3) = 0 ∧ win9_7.index t (2 : Fin 3) = 0) :=
  (by decide +kernel : ∀ t : Fin grid9.N, _)

theorem blk0_apply (c : Dev nD) (t : Fin cfg9.N) (r : Fin 5000) (k : Fin 256) :
    (iblk9 V c 0 t : Vec Ideal S5000x256 .f32) (ix2 r k)
      = (V c (Pipeline.arrRef spec9 0) : Vec Ideal S50000x256 .f32) (ix2 (Cert.Spec.tileRow (tile t) r) k) := by
  obtain ⟨⟨e0, e1⟩, -⟩ := idx_facts t
  unfold iblk9
  rw [View.read_apply]
  show (V c (Pipeline.arrRef spec9 0) : Vec Ideal S50000x256 .f32) (((cfg9.win 0).blk t).view.emb (ix2 r k)) = _
  refine congrArg _ ?_
  exact Shape.idx_ext₂ ((win9_0.rect_emb_val t _ (0 : Fin 2)).trans (congrArg (· * 5000 + r.val) e0))
    (win9_0.rect_emb_val_of_index_zero t (1 : Fin 2) e1 _)

theorem blk1_apply (c : Dev nD) (t : Fin cfg9.N) (r : Fin 5000) (k : Fin 256) :
    (iblk9 V c 1 t : Vec Ideal S5000x256 .f32) (ix2 r k)
      = (V c (Pipeline.arrRef spec9 1) : Vec Ideal S50000x256 .f32) (ix2 (Cert.Spec.tileRow (tile t) r) k) := by
  obtain ⟨-, ⟨e0, e1⟩, -⟩ := idx_facts t
  unfold iblk9
  rw [View.read_apply]
  show (V c (Pipeline.arrRef spec9 1) : Vec Ideal S50000x256 .f32) (((cfg9.win 1).blk t).view.emb (ix2 r k)) = _
  refine congrArg _ ?_
  exact Shape.idx_ext₂ ((win9_1.rect_emb_val t _ (0 : Fin 2)).trans (congrArg (· * 5000 + r.val) e0))
    (win9_1.rect_emb_val_of_index_zero t (1 : Fin 2) e1 _)

theorem blk2 (c : Dev nD) (t : Fin cfg9.N) :
    (iblk9 V c 2 t : Vec Ideal S1x256 .f32) = V c (Pipeline.arrRef spec9 2) := by
  obtain ⟨-, -, ⟨e0, e1⟩, -⟩ := idx_facts t
  unfold iblk9
  funext y
  rw [View.read_apply]
  show (V c (Pipeline.arrRef spec9 2) : Vec Ideal S1x256 .f32) (((cfg9.win 2).blk t).view.emb y) = _
  exact congrArg _ (Shape.idx_ext₂ (win9_2.rect_emb_val_of_index_zero t (0 : Fin 2) e0 y) (win9_2.rect_emb_val_of_index_zero t (1 : Fin 2) e1 y))

theorem blk3 (c : Dev nD) (t : Fin cfg9.N) :
    (iblk9 V c 3 t : Vec Ideal S256x256 .f32) = V c (Pipeline.arrRef spec9 3) := by
  obtain ⟨-, -, -, ⟨e0, e1⟩, -⟩ := idx_facts t
  unfold iblk9
  funext y
  rw [View.read_apply]
  show (V c (Pipeline.arrRef spec9 3) : Vec Ideal S256x256 .f32) (((cfg9.win 3).blk t).view.emb y) = _
  exact congrArg _ (Shape.idx_ext₂ (win9_3.rect_emb_val_of_index_zero t (0 : Fin 2) e0 y) (win9_3.rect_emb_val_of_index_zero t (1 : Fin 2) e1 y))

theorem blk4 (c : Dev nD) (t : Fin cfg9.N) :
    (iblk9 V c 4 t : Vec Ideal S1x256 .f32) = V c (Pipeline.arrRef spec9 4) := by
  obtain ⟨-, -, -, -, ⟨e0, e1⟩, -⟩ := idx_facts t
  unfold iblk9
  funext y
  rw [View.read_apply]
  show (V c (Pipeline.arrRef spec9 4) : Vec Ideal S1x256 .f32) (((cfg9.win 4).blk t).view.emb y) = _
  exact congrArg _ (Shape.idx_ext₂ (win9_4.rect_emb_val_of_index_zero t (0 : Fin 2) e0 y) (win9_4.rect_emb_val_of_index_zero t (1 : Fin 2) e1 y))

-- Point t's tile is rows 5000·t … 5000·t + 4999 of Z1.
theorem tile_apply (c : Dev nD) (t : Fin cfg9.N) (r : Fin 5000) (q : Fin 256) :
    Gen.k0_pay1 (iblk9 V c 0 t) (iblk9 V c 1 t) (iblk9 V c 2 t) (iblk9 V c 3 t) (iblk9 V c 4 t) (ix2 r q)
      = Z1 V c (Cert.Spec.tileRow (tile t) r) q := by
  refine (PayA0.pay1_apply _ _ _ _ _ r q).trans ?_
  refine congrArg₂ (· + ·) (Finset.sum_congr rfl fun k _ => ?_) (congrFun (blk4 V c t) _)
  exact congrArg₂ (· * ·) (congrArg₂ (· + ·) (congrArg₂ (· * ·) (congrArg (Cert.Spec.c1 + ·) (congrFun (blk2 V c t) _))
    (blk0_apply V c t r k)) (blk1_apply V c t r k)) (congrFun (blk3 V c t) _)

theorem out5_eq (x0 x1 : Vec Ideal S5000x256 .f32) (x2 : Vec Ideal S1x256 .f32) (x3 : Vec Ideal S256x256 .f32) (x4 : Vec Ideal S1x256 .f32) :
    out9_5 x0 x1 x2 x3 x4 = Gen.k0_pay1 x0 x1 x2 x3 x4 := by
  unfold out9_5
  rw [View.canon_unit_zero PayA0.hz2]
  simp only [View.ld_unit_zero (S := S5000x256) PayA0.hz2, View.ld_unit_zero (S := S1x256) PayA0.hz2, View.ld_unit_zero (S := S256x256) PayA0.hz2, k9_pay1, Gen.k0_pay1, shapeCast_self]

theorem out6_eq (x0 x1 : Vec Ideal S5000x256 .f32) (x2 : Vec Ideal S1x256 .f32) (x3 : Vec Ideal S256x256 .f32) (x4 : Vec Ideal S1x256 .f32) :
    out9_6 x0 x1 x2 x3 x4 = Gen.k0_pay2 x0 x1 x2 x3 x4 := by
  unfold out9_6
  rw [View.canon_unit_zero PayA0.hz3]
  simp only [View.ld_unit_zero (S := S5000x256) PayA0.hz2, View.ld_unit_zero (S := S1x256) PayA0.hz2, View.ld_unit_zero (S := S256x256) PayA0.hz2, k9_pay2, Gen.k0_pay2, k9_pay1, Gen.k0_pay1, shapeCast_self]

theorem out7_eq (x0 x1 : Vec Ideal S5000x256 .f32) (x2 : Vec Ideal S1x256 .f32) (x3 : Vec Ideal S256x256 .f32) (x4 : Vec Ideal S1x256 .f32) :
    out9_7 x0 x1 x2 x3 x4 = Gen.k0_pay3 x0 x1 x2 x3 x4 := by
  unfold out9_7
  rw [View.canon_unit_zero PayA0.hz3]
  simp only [View.ld_unit_zero (S := S5000x256) PayA0.hz2, View.ld_unit_zero (S := S1x256) PayA0.hz2, View.ld_unit_zero (S := S256x256) PayA0.hz2, k9_pay3, Gen.k0_pay3, k9_pay1, Gen.k0_pay1, shapeCast_self]

abbrev G5 (c : Dev nD) : S50000x256.Idx → Elt Ideal .f32 := fun i => Z1 V c (i 0) (i 1)
abbrev G6 (c : Dev nD) : S10x1x256.Idx → Elt Ideal .f32 := fun i => Cert.Spec.tileSum (Z1 V c) (i 0) (i 2)
abbrev G7 (c : Dev nD) : S10x1x256.Idx → Elt Ideal .f32 := fun i => Cert.Spec.tileSumSq (Z1 V c) (i 0) (i 2)

theorem emb5 (t : Fin cfg9.N) (r : Fin 5000) (q : Fin 256) :
    ((cfg9.win 5).blk t).view.emb (ix2 r q) = ix2 (Cert.Spec.tileRow (tile t) r) q := by
  obtain ⟨-, -, -, -, -, ⟨e0, e1⟩, -⟩ := idx_facts t
  exact Shape.idx_ext₂ ((win9_5.rect_emb_val t _ (0 : Fin 2)).trans (congrArg (· * 5000 + r.val) e0))
    (win9_5.rect_emb_val_of_index_zero t (1 : Fin 2) e1 _)

theorem emb6 (t : Fin cfg9.N) (q : Fin 256) :
    ((cfg9.win 6).blk t).view.emb (ix3 0 0 q) = ix3 (tile t) 0 q := by
  obtain ⟨-, -, -, -, -, -, ⟨e0, e1, e2⟩, -⟩ := idx_facts t
  refine funext fun a => Fin.ext ((win9_6.rect_emb_val t _ a).trans ?_)
  match a with
  | ⟨0, _⟩ => exact (congrArg (· * 1 + 0) e0).trans (Nat.mul_one _)
  | ⟨1, _⟩ => exact congrArg (· * 1 + 0) e1
  | ⟨2, _⟩ => exact (congrArg (· * 256 + q.val) e2).trans (Nat.zero_add _)

theorem emb7 (t : Fin cfg9.N) (q : Fin 256) :
    ((cfg9.win 7).blk t).view.emb (ix3 0 0 q) = ix3 (tile t) 0 q := by
  obtain ⟨-, -, -, -, -, -, -, ⟨e0, e1, e2⟩⟩ := idx_facts t
  refine funext fun a => Fin.ext ((win9_7.rect_emb_val t _ a).trans ?_)
  match a with
  | ⟨0, _⟩ => exact (congrArg (· * 1 + 0) e0).trans (Nat.mul_one _)
  | ⟨1, _⟩ => exact congrArg (· * 1 + 0) e1
  | ⟨2, _⟩ => exact (congrArg (· * 256 + q.val) e2).trans (Nat.zero_add _)

theorem flushed5_eq (c : Dev nD) (t : Fin cfg9.N) :
    (dat9 V c).flushed 5 t = ((cfg9.win 5).blk t).view.read (Elt Ideal) (G5 V c) := by
  show (cfg9.win 5).cut (grid9.coords t) ((dat9 V c).after 5 t) = _
  rw [after9_5, out5_eq]
  show (Gen.k0_pay1 (iblk9 V c 0 t) (iblk9 V c 1 t) (iblk9 V c 2 t) (iblk9 V c 3 t) (iblk9 V c 4 t) : Vec Ideal S5000x256 .f32) = _
  funext j
  obtain ⟨r, q, rfl⟩ : ∃ (r : Fin 5000) (q : Fin 256), j = ix2 r q := ⟨j 0, j 1, eq_ix2 j⟩
  refine (tile_apply V c t r q).trans ?_
  show _ = G5 V c (((cfg9.win 5).blk t).view.emb (ix2 r q))
  rw [emb5]

theorem flushed6_eq (c : Dev nD) (t : Fin cfg9.N) :
    (dat9 V c).flushed 6 t = ((cfg9.win 6).blk t).view.read (Elt Ideal) (G6 V c) := by
  show (cfg9.win 6).cut (grid9.coords t) ((dat9 V c).after 6 t) = _
  rw [after9_6, out6_eq]
  show (Gen.k0_pay2 (iblk9 V c 0 t) (iblk9 V c 1 t) (iblk9 V c 2 t) (iblk9 V c 3 t) (iblk9 V c 4 t) : Vec Ideal S1x1x256 .f32) = _
  refine PayA0.ext_1x1 fun q => (PayA0.pay2_apply _ _ _ _ _ q).trans ?_
  show _ = G6 V c (((cfg9.win 6).blk t).view.emb (ix3 0 0 q))
  rw [emb6 t q]
  show _ = Cert.Spec.c0 + ∑ r : Fin 5000, Z1 V c (Cert.Spec.tileRow (tile t) r) q
  rw [PayA0.c0_add]
  exact Finset.sum_congr rfl fun r _ => tile_apply V c t r q

theorem flushed7_eq (c : Dev nD) (t : Fin cfg9.N) :
    (dat9 V c).flushed 7 t = ((cfg9.win 7).blk t).view.read (Elt Ideal) (G7 V c) := by
  show (cfg9.win 7).cut (grid9.coords t) ((dat9 V c).after 7 t) = _
  rw [after9_7, out7_eq]
  show (Gen.k0_pay3 (iblk9 V c 0 t) (iblk9 V c 1 t) (iblk9 V c 2 t) (iblk9 V c 3 t) (iblk9 V c 4 t) : Vec Ideal S1x1x256 .f32) = _
  refine PayA0.ext_1x1 fun q => (PayA0.pay3_apply _ _ _ _ _ q).trans ?_
  show _ = G7 V c (((cfg9.win 7).blk t).view.emb (ix3 0 0 q))
  rw [emb7 t q]
  show _ = Cert.Spec.c0 + ∑ r : Fin 5000, Z1 V c (Cert.Spec.tileRow (tile t) r) q * Z1 V c (Cert.Spec.tileRow (tile t) r) q
  rw [PayA0.c0_add]
  exact Finset.sum_congr rfl fun r _ => congrArg₂ (· * ·) (tile_apply V c t r q) (tile_apply V c t r q)

-- Row p of the array lies in tile p / 5000, at row p % 5000 of it.
theorem cover5 (i : S50000x256.Idx) :
    ∃ t : Fin cfg9.N, (cfg9.win 5).flush t = true ∧ i ∈ ((cfg9.win 5).blk t).view.set :=
  ⟨⟨(i 0).val / 5000, lt_of_lt_of_eq (Nat.div_lt_of_lt_mul (i 0).isLt) N_9.symm⟩, flush9_5 _,
    PayA0.mem_set_of_emb _ ((emb5 _ ⟨(i 0).val % 5000, Nat.mod_lt _ (by decide)⟩ (i 1)).trans
      (Shape.idx_ext₂ (by exact Nat.div_add_mod' _ _) (by rfl)))⟩

theorem cover6 (i : S10x1x256.Idx) :
    ∃ t : Fin cfg9.N, (cfg9.win 6).flush t = true ∧ i ∈ ((cfg9.win 6).blk t).view.set :=
  ⟨⟨(i 0).val, lt_of_lt_of_eq (i 0).isLt N_9.symm⟩, flush9_6 _, PayA0.mem_set_of_emb _ ((emb6 _ (i 2)).trans (PayA0.ix3_mid i))⟩

theorem cover7 (i : S10x1x256.Idx) :
    ∃ t : Fin cfg9.N, (cfg9.win 7).flush t = true ∧ i ∈ ((cfg9.win 7).blk t).view.set :=
  ⟨⟨(i 0).val, lt_of_lt_of_eq (i 0).isLt N_9.symm⟩, flush9_7 _, PayA0.mem_set_of_emb _ ((emb7 _ (i 2)).trans (PayA0.ix3_mid i))⟩

theorem final5 (c : Dev nD) : (dat9 V c).arrAt 5 cfg9.N = G5 V c :=
  (dat9 V c).arrAt_eq_of_cover 5 (G5 V c) (fun t _ => flushed5_eq V c t) cover5

theorem final6 (c : Dev nD) : (dat9 V c).arrAt 6 cfg9.N = G6 V c :=
  (dat9 V c).arrAt_eq_of_cover 6 (G6 V c) (fun t _ => flushed6_eq V c t) cover6

theorem final7 (c : Dev nD) : (dat9 V c).arrAt 7 cfg9.N = G7 V c :=
  (dat9 V c).arrAt_eq_of_cover 7 (G7 V c) (fun t _ => flushed7_eq V c t) cover7

theorem z1 (c : Dev nD) (p : Fin 50000) (q : Fin 256) :
    (dat9 (F := Ideal) V c).arrAt 5 cfg9.N (ix2 p q) = Z1 V c p q :=
  congrFun (final5 V c) (ix2 p q)

theorem psum (c : Dev nD) (t : Fin 10) (q : Fin 256) :
    (dat9 (F := Ideal) V c).arrAt 6 cfg9.N (ix3 t 0 q) = Cert.Spec.tileSum (Z1 V c) t q :=
  congrFun (final6 V c) (ix3 t 0 q)

theorem psumsq (c : Dev nD) (t : Fin 10) (q : Fin 256) :
    (dat9 (F := Ideal) V c).arrAt 7 cfg9.N (ix3 t 0 q) = Cert.Spec.tileSumSq (Z1 V c) t q :=
  congrFun (final7 V c) (ix3 t 0 q)

end Cert.KernelIdeal.LiftA9

end
-- ==== Proof.LiftB10.lean ====
import proofs.«401895_j21930103014155_2_alg».proof.Proof.Gen.KernelIdeal.Frame
import proofs.«401895_j21930103014155_2_alg».proof.Proof.PayB1

set_option maxRecDepth 16384

noncomputable section

namespace Cert.KernelIdeal.LiftB10

open Idealize.ShloMosaic Idealize.ShloMosaic.TcCoe ValueIdx Cert.KernelIdeal Cert.KernelIdeal.Gen
open Idealize.ShloMosaic.Pipeline (Dat)
open scoped BigOperators

variable (V : (c : Dev nD) → (b : Ref sig .tc) → Buf (Elt Ideal) ((c : Thread nD τ).loc b))

abbrev row1 (c : Dev nD) : Cert.Spec.Row 256 := fun q => V c (Pipeline.arrRef spec10 1) (ix2 0 q)
abbrev row2 (c : Dev nD) : Cert.Spec.Row 256 := fun q => V c (Pipeline.arrRef spec10 2) (ix2 0 q)
abbrev row3 (c : Dev nD) : Cert.Spec.Row 256 := fun q => V c (Pipeline.arrRef spec10 3) (ix2 0 q)
abbrev row4 (c : Dev nD) : Cert.Spec.Row 256 := fun q => V c (Pipeline.arrRef spec10 4) (ix2 0 q)
abbrev row6 (c : Dev nD) : Cert.Spec.Row 256 := fun q => V c (Pipeline.arrRef spec10 6) (ix2 0 q)

/-- The second linear layer's output over all 50000 rows. -/
abbrev Z2 (c : Dev nD) : Cert.Spec.Mat 50000 256 :=
  Cert.Spec.lin (Cert.Spec.reluM (Cert.Spec.norm (fun p k => V c (Pipeline.arrRef spec10 0) (ix2 p k))
    (row1 V c) (row2 V c) (row3 V c) (row4 V c))) (fun k q => V c (Pipeline.arrRef spec10 5) (ix2 k q)) (row6 V c)

abbrev tile (t : Fin cfg10.N) : Fin 10 := t.cast N_10

theorem idx_fix : ∀ (t : Fin cfg10.N) (w : Fin 10) (a : Fin (cfg10.win w).shape.rank),
    (w ≠ 0 ∧ w < 7) ∨ a.val ≠ 0 → (cfg10.win w).index t a = 0 :=
  (by decide +kernel : ∀ t : Fin grid10.N, _)

theorem idx_mov : ∀ (t : Fin cfg10.N) (w : Fin 10) (a : Fin (cfg10.win w).shape.rank),
    w = 0 ∨ 7 ≤ w → a.val = 0 → (cfg10.win w).index t a = t.val :=
  (by decide +kernel : ∀ t : Fin grid10.N, _)

/-- Entry `(r, k)` of tile `t` is entry `(t · 5000 + r, k)` of the whole matrix. -/
theorem emb0 (t : Fin cfg10.N) (r : Fin 5000) (k : Fin 256) :
    ((cfg10.win 0).blk t).view.emb (ix2 r k) = ix2 (Cert.Spec.tileRow (tile t) r) k :=
  funext fun a => Fin.ext <| (win10_0.rect_emb_val t (ix2 r k) a).trans <| by
    match a with
    | ⟨0, _⟩ => exact congrArg (· * 5000 + r.val) (idx_mov t 0 (0 : Fin 2) (by decide) rfl)
    | ⟨1, _⟩ => exact (congrArg (· * 256 + k.val) (idx_fix t 0 (1 : Fin 2) (.inr (by decide)))).trans (Nat.zero_add _)

theorem emb7 (t : Fin cfg10.N) (r : Fin 5000) (k : Fin 256) :
    ((cfg10.win 7).blk t).view.emb (ix2 r k) = ix2 (Cert.Spec.tileRow (tile t) r) k :=
  funext fun a => Fin.ext <| (win10_7.rect_emb_val t (ix2 r k) a).trans <| by
    match a with
    | ⟨0, _⟩ => exact congrArg (· * 5000 + r.val) (idx_mov t 7 (0 : Fin 2) (by decide) rfl)
    | ⟨1, _⟩ => exact (congrArg (· * 256 + k.val) (idx_fix t 7 (1 : Fin 2) (.inr (by decide)))).trans (Nat.zero_add _)

/-- Tile `t`'s row of column sums is row `t` of the 10 × 1 × 256 array. -/
theorem emb8 (t : Fin cfg10.N) (q : Fin 256) :
    ((cfg10.win 8).blk t).view.emb (ix3 0 0 q) = ix3 (tile t) 0 q :=
  funext fun a => Fin.ext <| (win10_8.rect_emb_val t (ix3 0 0 q) a).trans <| by
    match a with
    | ⟨0, _⟩ => exact congrArg (· * 1 + 0) (idx_mov t 8 (0 : Fin 3) (by decide) rfl) |>.trans (Nat.mul_one _)
    | ⟨1, _⟩ => exact congrArg (· * 1 + 0) (idx_fix t 8 (1 : Fin 3) (.inr (by decide)))
    | ⟨2, _⟩ => exact (congrArg (· * 256 + q.val) (idx_fix t 8 (2 : Fin 3) (.inr (by decide)))).trans (Nat.zero_add _)

theorem emb9 (t : Fin cfg10.N) (q : Fin 256) :
    ((cfg10.win 9).blk t).view.emb (ix3 0 0 q) = ix3 (tile t) 0 q :=
  funext fun a => Fin.ext <| (win10_9.rect_emb_val t (ix3 0 0 q) a).trans <| by
    match a with
    | ⟨0, _⟩ => exact congrArg (· * 1 + 0) (idx_mov t 9 (0 : Fin 3) (by decide) rfl) |>.trans (Nat.mul_one _)
    | ⟨1, _⟩ => exact congrArg (· * 1 + 0) (idx_fix t 9 (1 : Fin 3) (.inr (by decide)))
    | ⟨2, _⟩ => exact (congrArg (· * 256 + q.val) (idx_fix t 9 (2 : Fin 3) (.inr (by decide)))).trans (Nat.zero_add _)

theorem rd0 (c : Dev nD) (t : Fin cfg10.N) (r : Fin 5000) (k : Fin 256) :
    (iblk10 V c 0 t : Vec Ideal S5000x256 .f32) (ix2 r k)
      = V c (Pipeline.arrRef spec10 0) (ix2 (Cert.Spec.tileRow (tile t) r) k) :=
  congrArg (V c (Pipeline.arrRef spec10 0)) (emb0 t r k)

theorem rd1 (c : Dev nD) (t : Fin cfg10.N) (k : Fin 256) :
    (iblk10 V c 1 t : Vec Ideal S1x256 .f32) (ix2 0 k) = row1 V c k :=
  congrArg (V c (Pipeline.arrRef spec10 1)) (funext fun a => Fin.ext
    (win10_1.rect_emb_val_of_index_zero t a (idx_fix t 1 a (.inl (by decide))) (ix2 0 k)))

theorem rd2 (c : Dev nD) (t : Fin cfg10.N) (k : Fin 256) :
    (iblk10 V c 2 t : Vec Ideal S1x256 .f32) (ix2 0 k) = row2 V c k :=
  congrArg (V c (Pipeline.arrRef spec10 2)) (funext fun a => Fin.ext
    (win10_2.rect_emb_val_of_index_zero t a (idx_fix t 2 a (.inl (by decide))) (ix2 0 k)))

theorem rd3 (c : Dev nD) (t : Fin cfg10.N) (k : Fin 256) :
    (iblk10 V c 3 t : Vec Ideal S1x256 .f32) (ix2 0 k) = row3 V c k :=
  congrArg (V c (Pipeline.arrRef spec10 3)) (funext fun a => Fin.ext
    (win10_3.rect_emb_val_of_index_zero t a (idx_fix t 3 a (.inl (by decide))) (ix2 0 k)))

theorem rd4 (c : Dev nD) (t : Fin cfg10.N) (k : Fin 256) :
    (iblk10 V c 4 t : Vec Ideal S1x256 .f32) (ix2 0 k) = row4 V c k :=
  congrArg (V c (Pipeline.arrRef spec10 4)) (funext fun a => Fin.ext
    (win10_4.rect_emb_val_of_index_zero t a (idx_fix t 4 a (.inl (by decide))) (ix2 0 k)))

theorem rd5 (c : Dev nD) (t : Fin cfg10.N) (k q : Fin 256) :
    (iblk10 V c 5 t : Vec Ideal S256x256 .f32) (ix2 k q) = V c (Pipeline.arrRef spec10 5) (ix2 k q) :=
  congrArg (V c (Pipeline.arrRef spec10 5)) (funext fun a => Fin.ext
    (win10_5.rect_emb_val_of_index_zero t a (idx_fix t 5 a (.inl (by decide))) (ix2 k q)))

theorem rd6 (c : Dev nD) (t : Fin cfg10.N) (k : Fin 256) :
    (iblk10 V c 6 t : Vec Ideal S1x256 .f32) (ix2 0 k) = row6 V c k :=
  congrArg (V c (Pipeline.arrRef spec10 6)) (funext fun a => Fin.ext
    (win10_6.rect_emb_val_of_index_zero t a (idx_fix t 6 a (.inl (by decide))) (ix2 0 k)))

/-- Entry `(r, q)` of the tile computed for `t` is entry `(t · 5000 + r, q)` of the second layer's output. -/
theorem tile_entry (c : Dev nD) (t : Fin cfg10.N) (r : Fin 5000) (q : Fin 256) :
    k10_pay2 (iblk10 V c 0 t) (iblk10 V c 1 t) (iblk10 V c 2 t) (iblk10 V c 3 t) (iblk10 V c 4 t) (iblk10 V c 5 t) (iblk10 V c 6 t) (ix2 r q)
      = Z2 V c (Cert.Spec.tileRow (tile t) r) q := by
  refine (PayB1.pay2_apply _ _ _ _ _ _ _ r q).trans ?_
  unfold PayB1.act
  simp only [rd0 V c t, rd1 V c t, rd2 V c t, rd3 V c t, rd4 V c t, rd5 V c t, rd6 V c t]
  rfl

theorem hz2 : (![0, 0] : Fin 2 → Nat) = fun _ => 0 := funext fun a => by fin_cases a <;> rfl
theorem hz3 : (![0, 0, 0] : Fin 3 → Nat) = fun _ => 0 := funext fun a => by fin_cases a <;> rfl

/-- The second layer's output, and per tile its column sums and column sums of squares. -/
abbrev G7 (c : Dev nD) : S50000x256.Idx → Elt Ideal .f32 := fun i => Z2 V c (i 0) (i 1)
abbrev G8 (c : Dev nD) : S10x1x256.Idx → Elt Ideal .f32 := fun i => Cert.Spec.tileSum (Z2 V c) (i 0) (i 2)
abbrev G9 (c : Dev nD) : S10x1x256.Idx → Elt Ideal .f32 := fun i => Cert.Spec.tileSumSq (Z2 V c) (i 0) (i 2)

theorem wb7 (c : Dev nD) (t : Fin cfg10.N) :
    (dat10 (F := Ideal) V c).flushed 7 t = ((cfg10.win 7).blk t).view.read (Elt Ideal) (G7 V c) := by
  show (cfg10.win 7).cut (grid10.coords t) ((dat10 (F := Ideal) V c).after 7 t) = _
  rw [after10_7]
  unfold out10_7
  rw [View.canon_unit_zero hz2]
  simp only [View.ld_unit_zero (S := S5000x256) hz2, View.ld_unit_zero (S := S1x256) hz2, View.ld_unit_zero (S := S256x256) hz2]
  funext j
  obtain ⟨r, q, rfl⟩ : ∃ (r : Fin 5000) (q : Fin 256), j = ix2 r q := ⟨j 0, j 1, eq_ix2 j⟩
  exact (tile_entry V c t r q).trans (congrArg (G7 V c) (emb7 t r q)).symm

theorem wb8 (c : Dev nD) (t : Fin cfg10.N) :
    (dat10 (F := Ideal) V c).flushed 8 t = ((cfg10.win 8).blk t).view.read (Elt Ideal) (G8 V c) := by
  show (cfg10.win 8).cut (grid10.coords t) ((dat10 (F := Ideal) V c).after 8 t) = _
  rw [after10_8]
  unfold out10_8
  rw [View.canon_unit_zero hz3]
  simp only [View.ld_unit_zero (S := S5000x256) hz2, View.ld_unit_zero (S := S1x256) hz2, View.ld_unit_zero (S := S256x256) hz2]
  funext j
  obtain ⟨a, b, q, rfl⟩ : ∃ (a b : Fin 1) (q : Fin 256), j = ix3 a b q := ⟨j 0, j 1, j 2, eq_ix3 j⟩
  obtain rfl : a = 0 := Subsingleton.elim _ _
  obtain rfl : b = 0 := Subsingleton.elim _ _
  refine (PayB1.pay4_apply (iblk10 V c 0 t) (iblk10 V c 1 t) (iblk10 V c 2 t) (iblk10 V c 3 t) (iblk10 V c 4 t) (iblk10 V c 5 t) (iblk10 V c 6 t) q).trans (.trans ?_ (congrArg (G8 V c) (emb8 t q)).symm)
  refine (zero_add _).symm.trans (congrArg₂ (· + ·) Ideal.ofBits_zero_f32.symm (Finset.sum_congr rfl fun r _ => ?_))
  exact tile_entry V c t r q

theorem wb9 (c : Dev nD) (t : Fin cfg10.N) :
    (dat10 (F := Ideal) V c).flushed 9 t = ((cfg10.win 9).blk t).view.read (Elt Ideal) (G9 V c) := by
  show (cfg10.win 9).cut (grid10.coords t) ((dat10 (F := Ideal) V c).after 9 t) = _
  rw [after10_9]
  unfold out10_9
  rw [View.canon_unit_zero hz3]
  simp only [View.ld_unit_zero (S := S5000x256) hz2, View.ld_unit_zero (S := S1x256) hz2, View.ld_unit_zero (S := S256x256) hz2]
  funext j
  obtain ⟨a, b, q, rfl⟩ : ∃ (a b : Fin 1) (q : Fin 256), j = ix3 a b q := ⟨j 0, j 1, j 2, eq_ix3 j⟩
  obtain rfl : a = 0 := Subsingleton.elim _ _
  obtain rfl : b = 0 := Subsingleton.elim _ _
  refine (PayB1.pay13_apply (iblk10 V c 0 t) (iblk10 V c 1 t) (iblk10 V c 2 t) (iblk10 V c 3 t) (iblk10 V c 4 t) (iblk10 V c 5 t) (iblk10 V c 6 t) q).trans (.trans ?_ (congrArg (G9 V c) (emb9 t q)).symm)
  refine (zero_add _).symm.trans (congrArg₂ (· + ·) Ideal.ofBits_zero_f32.symm (Finset.sum_congr rfl fun r _ => ?_))
  exact congrArg₂ (· * ·) (tile_entry V c t r q) (tile_entry V c t r q)

/-- Row `p` lies in tile `p / 5000`. -/
theorem cover7 (i : S50000x256.Idx) :
    ∃ t : Fin cfg10.N, (cfg10.win 7).flush t = true ∧ i ∈ ((cfg10.win 7).blk t).view.set := by
  obtain ⟨p, q, rfl⟩ : ∃ (p : Fin 50000) (q : Fin 256), i = ix2 p q := ⟨i 0, i 1, eq_ix2 i⟩
  have hp := p.isLt
  let t : Fin cfg10.N := Fin.cast N_10.symm ⟨p.val / 5000, by omega⟩
  let r : Fin 5000 := ⟨p.val % 5000, Nat.mod_lt _ (by decide)⟩
  have h := ((cfg10.win 7).blk t).view.emb_mem_set (ix2 r q)
  rw [emb7, show Cert.Spec.tileRow (tile t) r = p from Fin.ext (Nat.div_add_mod' _ _)] at h
  exact ⟨t, flush10_7 t, h⟩

theorem cover8 (i : S10x1x256.Idx) :
    ∃ t : Fin cfg10.N, (cfg10.win 8).flush t = true ∧ i ∈ ((cfg10.win 8).blk t).view.set := by
  obtain ⟨a, b, q, rfl⟩ : ∃ (a : Fin 10) (b : Fin 1) (q : Fin 256), i = ix3 a b q := ⟨i 0, i 1, i 2, eq_ix3 i⟩
  obtain rfl : b = 0 := Subsingleton.elim _ _
  have h := ((cfg10.win 8).blk (a.cast N_10.symm)).view.emb_mem_set (ix3 0 0 q)
  rw [emb8] at h
  exact ⟨_, flush10_8 _, h⟩

theorem cover9 (i : S10x1x256.Idx) :
    ∃ t : Fin cfg10.N, (cfg10.win 9).flush t = true ∧ i ∈ ((cfg10.win 9).blk t).view.set := by
  obtain ⟨a, b, q, rfl⟩ : ∃ (a : Fin 10) (b : Fin 1) (q : Fin 256), i = ix3 a b q := ⟨i 0, i 1, i 2, eq_ix3 i⟩
  obtain rfl : b = 0 := Subsingleton.elim _ _
  have h := ((cfg10.win 9).blk (a.cast N_10.symm)).view.emb_mem_set (ix3 0 0 q)
  rw [emb9] at h
  exact ⟨_, flush10_9 _, h⟩

theorem z2 (c : Dev nD) (p : Fin 50000) (q : Fin 256) :
    (dat10 (F := Ideal) V c).arrAt 7 cfg10.N (ix2 p q) = Z2 V c p q :=
  congrFun ((dat10 (F := Ideal) V c).arrAt_eq_of_cover 7 (G7 V c) (fun t _ => wb7 V c t) cover7) (ix2 p q)

theorem psum (c : Dev nD) (t : Fin 10) (q : Fin 256) :
    (dat10 (F := Ideal) V c).arrAt 8 cfg10.N (ix3 t 0 q) = Cert.Spec.tileSum (Z2 V c) t q :=
  congrFun ((dat10 (F := Ideal) V c).arrAt_eq_of_cover 8 (G8 V c) (fun t _ => wb8 V c t) cover8) (ix3 t 0 q)

theorem psumsq (c : Dev nD) (t : Fin 10) (q : Fin 256) :
    (dat10 (F := Ideal) V c).arrAt 9 cfg10.N (ix3 t 0 q) = Cert.Spec.tileSumSq (Z2 V c) t q :=
  congrFun ((dat10 (F := Ideal) V c).arrAt_eq_of_cover 9 (G9 V c) (fun t _ => wb9 V c t) cover9) (ix3 t 0 q)

end Cert.KernelIdeal.LiftB10

end
-- ==== Proof.LiftC11.lean ====
import proofs.«401895_j21930103014155_2_alg».proof.Proof.Gen.KernelIdeal.Frame
import proofs.«401895_j21930103014155_2_alg».proof.Proof.Spec
import proofs.«401895_j21930103014155_2_alg».proof.Proof.LiftC
import Idealize.ShloMosaic.Lib.ValueIdx
import Idealize.ShloMosaic.Lib.ValueLayout
import Idealize.ShloMosaic.Lib.Pipeline.Value

noncomputable section

namespace Cert.KernelIdeal.LiftC11

open Idealize.ShloMosaic Idealize.ShloMosaic.TcCoe ValueIdx
open Cert.KernelIdeal Cert.KernelIdeal.Gen
open Idealize.ShloMosaic.Pipeline (Dat)

variable (V : (c : Dev nD) → (b : Ref sig .tc) → Buf (Elt Ideal) ((c : Thread nD τ).loc b))

abbrev row1 (c : Dev nD) : Cert.Spec.Row 256 := fun q => V c (Pipeline.arrRef spec11 1) (ix2 0 q)
abbrev row2 (c : Dev nD) : Cert.Spec.Row 256 := fun q => V c (Pipeline.arrRef spec11 2) (ix2 0 q)
abbrev row3 (c : Dev nD) : Cert.Spec.Row 256 := fun q => V c (Pipeline.arrRef spec11 3) (ix2 0 q)
abbrev row4 (c : Dev nD) : Cert.Spec.Row 256 := fun q => V c (Pipeline.arrRef spec11 4) (ix2 0 q)

abbrev BN (c : Dev nD) : Cert.Spec.Mat 50000 256 :=
  Cert.Spec.norm (fun p k => V c (Pipeline.arrRef spec11 0) (ix2 p k)) (row1 V c) (row2 V c) (row3 V c) (row4 V c)

abbrev res (c : Dev nD) : S50000x256.Idx → EReal := fun i => Cert.Spec.reluM (BN V c) (i 0) (i 1)

theorem npoints : cfg11.N = 10 := by decide

abbrev rowOf (t : Fin cfg11.N) (r : Fin 5000) : Fin 50000 :=
  ⟨t.val * 5000 + r.val, by have h : t.val < 10 := Nat.lt_of_lt_of_eq t.isLt npoints; omega⟩

-- The [50000, 256] operand and the result move down one tile of 5000 rows per grid point; the four rows stay.
theorem idx_maps : ∀ t : Fin cfg11.N,
    (win11_0.index t (0 : Fin 2) = t.val ∧ win11_0.index t (1 : Fin 2) = 0)
    ∧ (∀ a : Fin 2, win11_1.index t a = 0) ∧ (∀ a : Fin 2, win11_2.index t a = 0)
    ∧ (∀ a : Fin 2, win11_3.index t a = 0) ∧ (∀ a : Fin 2, win11_4.index t a = 0)
    ∧ win11_5.index t (0 : Fin 2) = t.val ∧ win11_5.index t (1 : Fin 2) = 0 :=
  (by decide +kernel : ∀ t : Fin grid11.N, _)

theorem emb0 (t : Fin cfg11.N) (r : Fin 5000) (q : Fin 256) :
    ((cfg11.win 0).blk t).view.emb (ix2 r q) = ix2 (rowOf t r) q := by
  refine Shape.idx_ext₂ ?_ ?_
  exacts [(win11_0.rect_emb_val t (ix2 r q) (0 : Fin 2)).trans (congrArg (fun k : ℕ => k * 5000 + r.val) (idx_maps t).1.1),
    win11_0.rect_emb_val_of_index_zero t (1 : Fin 2) (idx_maps t).1.2 (ix2 r q)]

theorem emb5 (t : Fin cfg11.N) (r : Fin 5000) (q : Fin 256) :
    ((cfg11.win 5).blk t).view.emb (ix2 r q) = ix2 (rowOf t r) q := by
  refine Shape.idx_ext₂ ?_ ?_
  exacts [(win11_5.rect_emb_val t (ix2 r q) (0 : Fin 2)).trans (congrArg (fun k : ℕ => k * 5000 + r.val) (idx_maps t).2.2.2.2.2.1),
    win11_5.rect_emb_val_of_index_zero t (1 : Fin 2) (idx_maps t).2.2.2.2.2.2 (ix2 r q)]

-- Point t writes back tile t of res: the body loads rows 5000·t … of the operand and the four rows whole.
theorem flushed_eq (c : Dev nD) (t : Fin cfg11.N) :
    (dat11 (F := Ideal) V c).flushed 5 t = ((cfg11.win 5).blk t).view.read (Elt Ideal) (res V c) := by
  obtain ⟨-, h1, h2, h3, h4, -⟩ := idx_maps t
  show (cfg11.win 5).cut (grid11.coords t) ((dat11 (F := Ideal) V c).after 5 t) = _
  rw [after11_5]
  unfold out11_5
  rw [View.canon_unit_zero LiftC.zero_off]
  simp only [View.ld_unit_zero (S := S5000x256) LiftC.zero_off, View.ld_unit_zero (S := S1x256) LiftC.zero_off]
  funext j
  obtain ⟨r, q, rfl⟩ : ∃ (r : Fin 5000) (q : Fin 256), j = ix2 r q := ⟨j 0, j 1, eq_ix2 j⟩
  have e0 : iblk11 V c 0 t (ix2 r q) = V c (Pipeline.arrRef spec11 0) (ix2 (rowOf t r) q) :=
    congrArg (V c (Pipeline.arrRef spec11 0)) (emb0 t r q)
  have e1 : iblk11 V c 1 t (ix2 (0 : Fin 1) q) = row1 V c q :=
    congrArg (V c (Pipeline.arrRef spec11 1)) (LiftC.emb_eq_self win11_1 t h1 (ix2 (0 : Fin 1) q) fun _ => rfl)
  have e2 : iblk11 V c 2 t (ix2 (0 : Fin 1) q) = row2 V c q :=
    congrArg (V c (Pipeline.arrRef spec11 2)) (LiftC.emb_eq_self win11_2 t h2 (ix2 (0 : Fin 1) q) fun _ => rfl)
  have e3 : iblk11 V c 3 t (ix2 (0 : Fin 1) q) = row3 V c q :=
    congrArg (V c (Pipeline.arrRef spec11 3)) (LiftC.emb_eq_self win11_3 t h3 (ix2 (0 : Fin 1) q) fun _ => rfl)
  have e4 : iblk11 V c 4 t (ix2 (0 : Fin 1) q) = row4 V c q :=
    congrArg (V c (Pipeline.arrRef spec11 4)) (LiftC.emb_eq_self win11_4 t h4 (ix2 (0 : Fin 1) q) fun _ => rfl)
  show k2_pay1 (F := Ideal) (iblk11 V c 0 t) (iblk11 V c 1 t) (iblk11 V c 2 t) (iblk11 V c 3 t) (iblk11 V c 4 t) (ix2 r q)
    = res V c (((cfg11.win 5).blk t).view.emb (ix2 r q))
  rw [emb5, LiftC.pay_relu, e0, e1, e2, e3, e4]
  rfl

-- Row p lies in tile p / 5000, so the ten blocks cover the result.
theorem cover (i : S50000x256.Idx) :
    ∃ t : Fin cfg11.N, (cfg11.win 5).flush t = true ∧ i ∈ ((cfg11.win 5).blk t).view.set := by
  have hi : (i 0).val < 50000 := idx2_lt0 i
  obtain ⟨t, ht⟩ : ∃ t : Fin cfg11.N, t.val = (i 0).val / 5000 := ⟨⟨(i 0).val / 5000, by rw [npoints]; omega⟩, rfl⟩
  obtain ⟨r, hr⟩ : ∃ r : Fin 5000, r.val = (i 0).val % 5000 := ⟨⟨(i 0).val % 5000, Nat.mod_lt _ (by norm_num)⟩, rfl⟩
  obtain ⟨q, hq⟩ : ∃ q : Fin 256, q.val = (i 1).val := ⟨i 1, rfl⟩
  have h : ix2 (rowOf t r) q = i := by
    refine Shape.idx_ext₂ ?_ hq
    show t.val * 5000 + r.val = (i 0).val
    omega
  refine ⟨t, flush11_5 t, ?_⟩
  rw [← h, ← emb5]
  exact View.emb_mem_set _ _

theorem out (c : Dev nD) (p : Fin 50000) (q : Fin 256) :
    (dat11 (F := Ideal) V c).arrAt 5 cfg11.N (ix2 p q) = Cert.Spec.reluM (BN V c) p q :=
  congrFun ((dat11 (F := Ideal) V c).arrAt_eq_of_cover 5 (res V c) (fun t _ => flushed_eq V c t) cover) (ix2 p q)

end Cert.KernelIdeal.LiftC11

end
-- ==== Proof.KLayer3.lean ====
import proofs.«401895_j21930103014155_2_alg».proof.Proof.Gen.KernelIdeal.Frame
import proofs.«401895_j21930103014155_2_alg».proof.Proof.KLayer3Host
import proofs.«401895_j21930103014155_2_alg».proof.Proof.KLayer2
import proofs.«401895_j21930103014155_2_alg».proof.Proof.LiftA9
import proofs.«401895_j21930103014155_2_alg».proof.Proof.LiftB10
import proofs.«401895_j21930103014155_2_alg».proof.Proof.LiftC11

noncomputable section

namespace Cert.KernelIdeal.KLayer3

open Idealize.ShloMosaic Idealize.ShloMosaic.TcCoe Idealize.ShloMosaic.ValueIdx
open Cert.KernelIdeal Cert.KernelIdeal.Gen

variable (m : (ℓ : Loc nD τ sig) → Buf (Elt Ideal) ℓ) (ρ : Dev nD → PrngReg) (c : Dev nD)

theorem par_in (r : Ref sig .tc) (hr : r ∈ pars) :
    W24 m ρ c (Proc.devRef .tc r) = m ((c : Thread nD τ).loc r) :=
  KLayer2.par_W24 m ρ c r hr

theorem par_a (r : Ref sig .tc) (hr : r ∈ pars) :
    W28 m ρ c (Proc.devRef .tc r) = m ((c : Thread nD τ).loc r) := by
  refine Eq.trans ?_ ((keeps_pre (W24 m ρ c) r hr).trans (par_in m ρ c r hr))
  simp only [pars, List.mem_cons, List.not_mem_nil, or_false] at hr
  rcases hr with rfl | rfl | rfl | rfl | rfl | rfl | rfl | rfl | rfl | rfl | rfl <;> exact W28_of_ne m ρ c _ (by decide)

theorem par_b (r : Ref sig .tc) (hr : r ∈ pars) :
    W30 m ρ c (Proc.devRef .tc r) = m ((c : Thread nD τ).loc r) := by
  refine Eq.trans ?_ ((keeps_d (W28 m ρ c) r hr).trans (par_a m ρ c r hr))
  simp only [pars, List.mem_cons, List.not_mem_nil, or_false] at hr
  rcases hr with rfl | rfl | rfl | rfl | rfl | rfl | rfl | rfl | rfl | rfl | rfl <;> exact W30_of_ne m ρ c _ (by decide)

theorem par_W32 (r : Ref sig .tc) (hr : r ∈ pars) :
    W32 m ρ c (Proc.devRef .tc r) = m ((c : Thread nD τ).loc r) := by
  refine Eq.trans ?_ ((keeps_e (W30 m ρ c) r hr).trans (par_b m ρ c r hr))
  simp only [pars, List.mem_cons, List.not_mem_nil, or_false] at hr
  rcases hr with rfl | rfl | rfl | rfl | rfl | rfl | rfl | rfl | rfl | rfl | rfl <;> exact W32_of_ne m ρ c _ (by decide)

theorem step (p : Fin 50000) (q : Fin 256) :
    W32 m ρ c (Proc.devRef .tc main_v195) (ix2 p q)
      = Spec.kLayer false (m ((c : Thread nD τ).loc main_arg9) (ix1 (3 : Fin 5)))
          (fun p k => W24 m ρ c (Proc.devRef .tc main_v146) (ix2 p k))
          (fun p k => KLayer.agg (W24 m ρ c (Proc.devRef .tc main_v146)) (m ((c : Thread nD τ).loc main_arg1))
            (m ((c : Thread nD τ).loc main_arg2)) (ix2 p k))
          (fun k q => m ((c : Thread nD τ).loc main_arg3) (ix3 (3 : Fin 5) k q))
          (fun q => m ((c : Thread nD τ).loc main_arg4) (ix2 (3 : Fin 5) q))
          (fun q => m ((c : Thread nD τ).loc main_arg5) (ix2 (3 : Fin 5) q))
          (fun q => m ((c : Thread nD τ).loc main_arg6) (ix2 (3 : Fin 5) q))
          (fun k q => m ((c : Thread nD τ).loc main_arg7) (ix3 (3 : Fin 5) k q))
          (fun q => m ((c : Thread nD τ).loc main_arg8) (ix2 (3 : Fin 5) q))
          (fun q => m ((c : Thread nD τ).loc main_arg10) (ix2 (3 : Fin 5) q))
          (fun q => m ((c : Thread nD τ).loc main_arg11) (ix2 (3 : Fin 5) q)) p q := by
  have ps1 : (fun (t : Fin 10) (q : Fin 256) => W28 m ρ c (Proc.devRef .tc main_v160_1) (ix3 t 0 q))
      = Spec.tileSum (LiftA9.Z1 (V27 m ρ) c) :=
    funext fun t => funext fun q => (congrFun (W28_arr m ρ c 6) _).trans (LiftA9.psum (V27 m ρ) c t q)
  have pss1 : (fun (t : Fin 10) (q : Fin 256) => W28 m ρ c (Proc.devRef .tc main_v160_2) (ix3 t 0 q))
      = Spec.tileSumSq (LiftA9.Z1 (V27 m ρ) c) :=
    funext fun t => funext fun q => (congrFun (W28_arr m ρ c 7) _).trans (LiftA9.psumsq (V27 m ρ) c t q)
  have ps2 : (fun (t : Fin 10) (q : Fin 256) => W30 m ρ c (Proc.devRef .tc main_v180_1) (ix3 t 0 q))
      = Spec.tileSum (LiftB10.Z2 (V29 m ρ) c) :=
    funext fun t => funext fun q => (congrFun (W30_arr m ρ c 8) _).trans (LiftB10.psum (V29 m ρ) c t q)
  have pss2 : (fun (t : Fin 10) (q : Fin 256) => W30 m ρ c (Proc.devRef .tc main_v180_2) (ix3 t 0 q))
      = Spec.tileSumSq (LiftB10.Z2 (V29 m ρ) c) :=
    funext fun t => funext fun q => (congrFun (W30_arr m ρ c 9) _).trans (LiftB10.psumsq (V29 m ρ) c t q)
  have H := Spec.kLayer_of_regions (last := false) (z1 := LiftA9.Z1 (V27 m ρ) c) (z2 := LiftB10.Z2 (V29 m ρ) c) rfl rfl
    (funext fun p => funext fun k => congrFun (in_at (W24 m ρ c)) (ix2 p k))
    (funext fun p => funext fun k => congrFun ((agg_arr (W24 m ρ c)).trans
      (congr (congrArg (KLayer.agg (W24 m ρ c (Proc.devRef .tc main_v146))) (par_in m ρ c main_arg1 (by decide))) (par_in m ρ c main_arg2 (by decide)))) (ix2 p k))
    (funext fun k => (eps_at (W24 m ρ c) k).trans (congrFun (par_in m ρ c main_arg9 (by decide)) _))
    (funext fun k => funext fun q => (w1_at (W24 m ρ c) k q).trans (congrFun (par_in m ρ c main_arg3 (by decide)) _))
    (funext fun q => (b1_at (W24 m ρ c) q).trans (congrFun (par_in m ρ c main_arg4 (by decide)) _))
    (funext fun p => funext fun k =>
      (congrFun ((z1_at (W28 m ρ c)).trans (W28_arr m ρ c 5)) _).trans (LiftA9.z1 (V27 m ρ) c p k))
    (funext fun q => (mean1_at (W28 m ρ c) q).trans (congrFun (congrArg Spec.meanT ps1) q))
    (funext fun q => (var1_at (W28 m ρ c) q).trans (congrFun (congr (congrArg Spec.varT ps1) pss1) q))
    (funext fun q => (g1_at (W28 m ρ c) q).trans (congrFun (par_a m ρ c main_arg5 (by decide)) _))
    (funext fun q => (bt1_at (W28 m ρ c) q).trans (congrFun (par_a m ρ c main_arg6 (by decide)) _))
    (funext fun k => funext fun q => (w2_at (W28 m ρ c) k q).trans (congrFun (par_a m ρ c main_arg7 (by decide)) _))
    (funext fun q => (b2_at (W28 m ρ c) q).trans (congrFun (par_a m ρ c main_arg8 (by decide)) _))
    (funext fun p => funext fun k =>
      (congrFun ((z2_at (W30 m ρ c)).trans (W30_arr m ρ c 7)) _).trans (LiftB10.z2 (V29 m ρ) c p k))
    (funext fun q => (mean2_at (W30 m ρ c) q).trans (congrFun (congrArg Spec.meanT ps2) q))
    (funext fun q => (var2_at (W30 m ρ c) q).trans (congrFun (congr (congrArg Spec.varT ps2) pss2) q))
    (funext fun q => (bng_at (W30 m ρ c) q).trans (congrFun (par_b m ρ c main_arg10 (by decide)) _))
    (funext fun q => (bnb_at (W30 m ρ c) q).trans (congrFun (par_b m ρ c main_arg11 (by decide)) _))
  rw [show W32 m ρ c (Proc.devRef .tc main_v195) = _ from W32_arr m ρ c 5]
  exact (LiftC11.out (V31 m ρ) c p q).trans (congrFun (congrFun H p) q)

end Cert.KernelIdeal.KLayer3

end
-- ==== Proof.LiftA12.lean ====
import proofs.«401895_j21930103014155_2_alg».proof.Proof.Gen.KernelIdeal.Frame
import proofs.«401895_j21930103014155_2_alg».proof.Proof.PayA0
import Idealize.ShloMosaic.Lib.Pipeline.Value

noncomputable section

namespace Cert.KernelIdeal.LiftA12

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

abbrev Z1 (c : Dev nD) : Cert.Spec.Mat 50000 256 :=
  Cert.Spec.lin (Cert.Spec.zpreRow (fun k => V c (Pipeline.arrRef spec12 2) (ix2 0 k)) (fun p k => V c (Pipeline.arrRef spec12 0) (ix2 p k)) (fun p k => V c (Pipeline.arrRef spec12 1) (ix2 p k))) (fun k q => V c (Pipeline.arrRef spec12 3) (ix2 k q)) (fun q => V c (Pipeline.arrRef spec12 4) (ix2 0 q))

abbrev tile (t : Fin cfg12.N) : Fin 10 := ⟨t.val, lt_of_lt_of_eq t.isLt N_12⟩

theorem idx_facts : ∀ t : Fin cfg12.N,
    (win12_0.index t (0 : Fin 2) = t.val ∧ win12_0.index t (1 : Fin 2) = 0)
    ∧ (win12_1.index t (0 : Fin 2) = t.val ∧ win12_1.index t (1 : Fin 2) = 0)
    ∧ (win12_2.index t (0 : Fin 2) = 0 ∧ win12_2.index t (1 : Fin 2) = 0)
    ∧ (win12_3.index t (0 : Fin 2) = 0 ∧ win12_3.index t (1 : Fin 2) = 0)
    ∧ (win12_4.index t (0 : Fin 2) = 0 ∧ win12_4.index t (1 : Fin 2) = 0)
    ∧ (win12_5.index t (0 : Fin 2) = t.val ∧ win12_5.index t (1 : Fin 2) = 0)
    ∧ (win12_6.index t (0 : Fin 3) = t.val ∧ win12_6.index t (1 : Fin 3) = 0 ∧ win12_6.index t (2 : Fin 3) = 0)
    ∧ (win12_7.index t (0 : Fin 3) = t.val ∧ win12_7.index t (1 : Fin 3) = 0 ∧ win12_7.index t (2 : Fin 3) = 0) :=
  (by decide +kernel : ∀ t : Fin grid12.N, _)

theorem blk0_apply (c : Dev nD) (t : Fin cfg12.N) (r : Fin 5000) (k : Fin 256) :
    (iblk12 V c 0 t : Vec Ideal S5000x256 .f32) (ix2 r k)
      = (V c (Pipeline.arrRef spec12 0) : Vec Ideal S50000x256 .f32) (ix2 (Cert.Spec.tileRow (tile t) r) k) := by
  obtain ⟨⟨e0, e1⟩, -⟩ := idx_facts t
  unfold iblk12
  rw [View.read_apply]
  show (V c (Pipeline.arrRef spec12 0) : Vec Ideal S50000x256 .f32) (((cfg12.win 0).blk t).view.emb (ix2 r k)) = _
  refine congrArg _ ?_
  exact Shape.idx_ext₂ ((win12_0.rect_emb_val t _ (0 : Fin 2)).trans (congrArg (· * 5000 + r.val) e0))
    (win12_0.rect_emb_val_of_index_zero t (1 : Fin 2) e1 _)

theorem blk1_apply (c : Dev nD) (t : Fin cfg12.N) (r : Fin 5000) (k : Fin 256) :
    (iblk12 V c 1 t : Vec Ideal S5000x256 .f32) (ix2 r k)
      = (V c (Pipeline.arrRef spec12 1) : Vec Ideal S50000x256 .f32) (ix2 (Cert.Spec.tileRow (tile t) r) k) := by
  obtain ⟨-, ⟨e0, e1⟩, -⟩ := idx_facts t
  unfold iblk12
  rw [View.read_apply]
  show (V c (Pipeline.arrRef spec12 1) : Vec Ideal S50000x256 .f32) (((cfg12.win 1).blk t).view.emb (ix2 r k)) = _
  refine congrArg _ ?_
  exact Shape.idx_ext₂ ((win12_1.rect_emb_val t _ (0 : Fin 2)).trans (congrArg (· * 5000 + r.val) e0))
    (win12_1.rect_emb_val_of_index_zero t (1 : Fin 2) e1 _)

theorem blk2 (c : Dev nD) (t : Fin cfg12.N) :
    (iblk12 V c 2 t : Vec Ideal S1x256 .f32) = V c (Pipeline.arrRef spec12 2) := by
  obtain ⟨-, -, ⟨e0, e1⟩, -⟩ := idx_facts t
  unfold iblk12
  funext y
  rw [View.read_apply]
  show (V c (Pipeline.arrRef spec12 2) : Vec Ideal S1x256 .f32) (((cfg12.win 2).blk t).view.emb y) = _
  exact congrArg _ (Shape.idx_ext₂ (win12_2.rect_emb_val_of_index_zero t (0 : Fin 2) e0 y) (win12_2.rect_emb_val_of_index_zero t (1 : Fin 2) e1 y))

theorem blk3 (c : Dev nD) (t : Fin cfg12.N) :
    (iblk12 V c 3 t : Vec Ideal S256x256 .f32) = V c (Pipeline.arrRef spec12 3) := by
  obtain ⟨-, -, -, ⟨e0, e1⟩, -⟩ := idx_facts t
  unfold iblk12
  funext y
  rw [View.read_apply]
  show (V c (Pipeline.arrRef spec12 3) : Vec Ideal S256x256 .f32) (((cfg12.win 3).blk t).view.emb y) = _
  exact congrArg _ (Shape.idx_ext₂ (win12_3.rect_emb_val_of_index_zero t (0 : Fin 2) e0 y) (win12_3.rect_emb_val_of_index_zero t (1 : Fin 2) e1 y))

theorem blk4 (c : Dev nD) (t : Fin cfg12.N) :
    (iblk12 V c 4 t : Vec Ideal S1x256 .f32) = V c (Pipeline.arrRef spec12 4) := by
  obtain ⟨-, -, -, -, ⟨e0, e1⟩, -⟩ := idx_facts t
  unfold iblk12
  funext y
  rw [View.read_apply]
  show (V c (Pipeline.arrRef spec12 4) : Vec Ideal S1x256 .f32) (((cfg12.win 4).blk t).view.emb y) = _
  exact congrArg _ (Shape.idx_ext₂ (win12_4.rect_emb_val_of_index_zero t (0 : Fin 2) e0 y) (win12_4.rect_emb_val_of_index_zero t (1 : Fin 2) e1 y))

-- Point t's tile is rows 5000·t … 5000·t + 4999 of Z1.
theorem tile_apply (c : Dev nD) (t : Fin cfg12.N) (r : Fin 5000) (q : Fin 256) :
    Gen.k0_pay1 (iblk12 V c 0 t) (iblk12 V c 1 t) (iblk12 V c 2 t) (iblk12 V c 3 t) (iblk12 V c 4 t) (ix2 r q)
      = Z1 V c (Cert.Spec.tileRow (tile t) r) q := by
  refine (PayA0.pay1_apply _ _ _ _ _ r q).trans ?_
  refine congrArg₂ (· + ·) (Finset.sum_congr rfl fun k _ => ?_) (congrFun (blk4 V c t) _)
  exact congrArg₂ (· * ·) (congrArg₂ (· + ·) (congrArg₂ (· * ·) (congrArg (Cert.Spec.c1 + ·) (congrFun (blk2 V c t) _))
    (blk0_apply V c t r k)) (blk1_apply V c t r k)) (congrFun (blk3 V c t) _)

theorem out5_eq (x0 x1 : Vec Ideal S5000x256 .f32) (x2 : Vec Ideal S1x256 .f32) (x3 : Vec Ideal S256x256 .f32) (x4 : Vec Ideal S1x256 .f32) :
    out12_5 x0 x1 x2 x3 x4 = Gen.k0_pay1 x0 x1 x2 x3 x4 := by
  unfold out12_5
  rw [View.canon_unit_zero PayA0.hz2]
  simp only [View.ld_unit_zero (S := S5000x256) PayA0.hz2, View.ld_unit_zero (S := S1x256) PayA0.hz2, View.ld_unit_zero (S := S256x256) PayA0.hz2, k12_pay1, Gen.k0_pay1, shapeCast_self]

theorem out6_eq (x0 x1 : Vec Ideal S5000x256 .f32) (x2 : Vec Ideal S1x256 .f32) (x3 : Vec Ideal S256x256 .f32) (x4 : Vec Ideal S1x256 .f32) :
    out12_6 x0 x1 x2 x3 x4 = Gen.k0_pay2 x0 x1 x2 x3 x4 := by
  unfold out12_6
  rw [View.canon_unit_zero PayA0.hz3]
  simp only [View.ld_unit_zero (S := S5000x256) PayA0.hz2, View.ld_unit_zero (S := S1x256) PayA0.hz2, View.ld_unit_zero (S := S256x256) PayA0.hz2, k12_pay2, Gen.k0_pay2, k12_pay1, Gen.k0_pay1, shapeCast_self]

theorem out7_eq (x0 x1 : Vec Ideal S5000x256 .f32) (x2 : Vec Ideal S1x256 .f32) (x3 : Vec Ideal S256x256 .f32) (x4 : Vec Ideal S1x256 .f32) :
    out12_7 x0 x1 x2 x3 x4 = Gen.k0_pay3 x0 x1 x2 x3 x4 := by
  unfold out12_7
  rw [View.canon_unit_zero PayA0.hz3]
  simp only [View.ld_unit_zero (S := S5000x256) PayA0.hz2, View.ld_unit_zero (S := S1x256) PayA0.hz2, View.ld_unit_zero (S := S256x256) PayA0.hz2, k12_pay3, Gen.k0_pay3, k12_pay1, Gen.k0_pay1, shapeCast_self]

abbrev G5 (c : Dev nD) : S50000x256.Idx → Elt Ideal .f32 := fun i => Z1 V c (i 0) (i 1)
abbrev G6 (c : Dev nD) : S10x1x256.Idx → Elt Ideal .f32 := fun i => Cert.Spec.tileSum (Z1 V c) (i 0) (i 2)
abbrev G7 (c : Dev nD) : S10x1x256.Idx → Elt Ideal .f32 := fun i => Cert.Spec.tileSumSq (Z1 V c) (i 0) (i 2)

theorem emb5 (t : Fin cfg12.N) (r : Fin 5000) (q : Fin 256) :
    ((cfg12.win 5).blk t).view.emb (ix2 r q) = ix2 (Cert.Spec.tileRow (tile t) r) q := by
  obtain ⟨-, -, -, -, -, ⟨e0, e1⟩, -⟩ := idx_facts t
  exact Shape.idx_ext₂ ((win12_5.rect_emb_val t _ (0 : Fin 2)).trans (congrArg (· * 5000 + r.val) e0))
    (win12_5.rect_emb_val_of_index_zero t (1 : Fin 2) e1 _)

theorem emb6 (t : Fin cfg12.N) (q : Fin 256) :
    ((cfg12.win 6).blk t).view.emb (ix3 0 0 q) = ix3 (tile t) 0 q := by
  obtain ⟨-, -, -, -, -, -, ⟨e0, e1, e2⟩, -⟩ := idx_facts t
  refine funext fun a => Fin.ext ((win12_6.rect_emb_val t _ a).trans ?_)
  match a with
  | ⟨0, _⟩ => exact (congrArg (· * 1 + 0) e0).trans (Nat.mul_one _)
  | ⟨1, _⟩ => exact congrArg (· * 1 + 0) e1
  | ⟨2, _⟩ => exact (congrArg (· * 256 + q.val) e2).trans (Nat.zero_add _)

theorem emb7 (t : Fin cfg12.N) (q : Fin 256) :
    ((cfg12.win 7).blk t).view.emb (ix3 0 0 q) = ix3 (tile t) 0 q := by
  obtain ⟨-, -, -, -, -, -, -, ⟨e0, e1, e2⟩⟩ := idx_facts t
  refine funext fun a => Fin.ext ((win12_7.rect_emb_val t _ a).trans ?_)
  match a with
  | ⟨0, _⟩ => exact (congrArg (· * 1 + 0) e0).trans (Nat.mul_one _)
  | ⟨1, _⟩ => exact congrArg (· * 1 + 0) e1
  | ⟨2, _⟩ => exact (congrArg (· * 256 + q.val) e2).trans (Nat.zero_add _)

theorem flushed5_eq (c : Dev nD) (t : Fin cfg12.N) :
    (dat12 V c).flushed 5 t = ((cfg12.win 5).blk t).view.read (Elt Ideal) (G5 V c) := by
  show (cfg12.win 5).cut (grid12.coords t) ((dat12 V c).after 5 t) = _
  rw [after12_5, out5_eq]
  show (Gen.k0_pay1 (iblk12 V c 0 t) (iblk12 V c 1 t) (iblk12 V c 2 t) (iblk12 V c 3 t) (iblk12 V c 4 t) : Vec Ideal S5000x256 .f32) = _
  funext j
  obtain ⟨r, q, rfl⟩ : ∃ (r : Fin 5000) (q : Fin 256), j = ix2 r q := ⟨j 0, j 1, eq_ix2 j⟩
  refine (tile_apply V c t r q).trans ?_
  show _ = G5 V c (((cfg12.win 5).blk t).view.emb (ix2 r q))
  rw [emb5]

theorem flushed6_eq (c : Dev nD) (t : Fin cfg12.N) :
    (dat12 V c).flushed 6 t = ((cfg12.win 6).blk t).view.read (Elt Ideal) (G6 V c) := by
  show (cfg12.win 6).cut (grid12.coords t) ((dat12 V c).after 6 t) = _
  rw [after12_6, out6_eq]
  show (Gen.k0_pay2 (iblk12 V c 0 t) (iblk12 V c 1 t) (iblk12 V c 2 t) (iblk12 V c 3 t) (iblk12 V c 4 t) : Vec Ideal S1x1x256 .f32) = _
  refine PayA0.ext_1x1 fun q => (PayA0.pay2_apply _ _ _ _ _ q).trans ?_
  show _ = G6 V c (((cfg12.win 6).blk t).view.emb (ix3 0 0 q))
  rw [emb6 t q]
  show _ = Cert.Spec.c0 + ∑ r : Fin 5000, Z1 V c (Cert.Spec.tileRow (tile t) r) q
  rw [PayA0.c0_add]
  exact Finset.sum_congr rfl fun r _ => tile_apply V c t r q

theorem flushed7_eq (c : Dev nD) (t : Fin cfg12.N) :
    (dat12 V c).flushed 7 t = ((cfg12.win 7).blk t).view.read (Elt Ideal) (G7 V c) := by
  show (cfg12.win 7).cut (grid12.coords t) ((dat12 V c).after 7 t) = _
  rw [after12_7, out7_eq]
  show (Gen.k0_pay3 (iblk12 V c 0 t) (iblk12 V c 1 t) (iblk12 V c 2 t) (iblk12 V c 3 t) (iblk12 V c 4 t) : Vec Ideal S1x1x256 .f32) = _
  refine PayA0.ext_1x1 fun q => (PayA0.pay3_apply _ _ _ _ _ q).trans ?_
  show _ = G7 V c (((cfg12.win 7).blk t).view.emb (ix3 0 0 q))
  rw [emb7 t q]
  show _ = Cert.Spec.c0 + ∑ r : Fin 5000, Z1 V c (Cert.Spec.tileRow (tile t) r) q * Z1 V c (Cert.Spec.tileRow (tile t) r) q
  rw [PayA0.c0_add]
  exact Finset.sum_congr rfl fun r _ => congrArg₂ (· * ·) (tile_apply V c t r q) (tile_apply V c t r q)

-- Row p of the array lies in tile p / 5000, at row p % 5000 of it.
theorem cover5 (i : S50000x256.Idx) :
    ∃ t : Fin cfg12.N, (cfg12.win 5).flush t = true ∧ i ∈ ((cfg12.win 5).blk t).view.set :=
  ⟨⟨(i 0).val / 5000, lt_of_lt_of_eq (Nat.div_lt_of_lt_mul (i 0).isLt) N_12.symm⟩, flush12_5 _,
    PayA0.mem_set_of_emb _ ((emb5 _ ⟨(i 0).val % 5000, Nat.mod_lt _ (by decide)⟩ (i 1)).trans
      (Shape.idx_ext₂ (by exact Nat.div_add_mod' _ _) (by rfl)))⟩

theorem cover6 (i : S10x1x256.Idx) :
    ∃ t : Fin cfg12.N, (cfg12.win 6).flush t = true ∧ i ∈ ((cfg12.win 6).blk t).view.set :=
  ⟨⟨(i 0).val, lt_of_lt_of_eq (i 0).isLt N_12.symm⟩, flush12_6 _, PayA0.mem_set_of_emb _ ((emb6 _ (i 2)).trans (PayA0.ix3_mid i))⟩

theorem cover7 (i : S10x1x256.Idx) :
    ∃ t : Fin cfg12.N, (cfg12.win 7).flush t = true ∧ i ∈ ((cfg12.win 7).blk t).view.set :=
  ⟨⟨(i 0).val, lt_of_lt_of_eq (i 0).isLt N_12.symm⟩, flush12_7 _, PayA0.mem_set_of_emb _ ((emb7 _ (i 2)).trans (PayA0.ix3_mid i))⟩

theorem final5 (c : Dev nD) : (dat12 V c).arrAt 5 cfg12.N = G5 V c :=
  (dat12 V c).arrAt_eq_of_cover 5 (G5 V c) (fun t _ => flushed5_eq V c t) cover5

theorem final6 (c : Dev nD) : (dat12 V c).arrAt 6 cfg12.N = G6 V c :=
  (dat12 V c).arrAt_eq_of_cover 6 (G6 V c) (fun t _ => flushed6_eq V c t) cover6

theorem final7 (c : Dev nD) : (dat12 V c).arrAt 7 cfg12.N = G7 V c :=
  (dat12 V c).arrAt_eq_of_cover 7 (G7 V c) (fun t _ => flushed7_eq V c t) cover7

theorem z1 (c : Dev nD) (p : Fin 50000) (q : Fin 256) :
    (dat12 (F := Ideal) V c).arrAt 5 cfg12.N (ix2 p q) = Z1 V c p q :=
  congrFun (final5 V c) (ix2 p q)

theorem psum (c : Dev nD) (t : Fin 10) (q : Fin 256) :
    (dat12 (F := Ideal) V c).arrAt 6 cfg12.N (ix3 t 0 q) = Cert.Spec.tileSum (Z1 V c) t q :=
  congrFun (final6 V c) (ix3 t 0 q)

theorem psumsq (c : Dev nD) (t : Fin 10) (q : Fin 256) :
    (dat12 (F := Ideal) V c).arrAt 7 cfg12.N (ix3 t 0 q) = Cert.Spec.tileSumSq (Z1 V c) t q :=
  congrFun (final7 V c) (ix3 t 0 q)

end Cert.KernelIdeal.LiftA12

end
-- ==== Proof.LiftB13.lean ====
import proofs.«401895_j21930103014155_2_alg».proof.Proof.Gen.KernelIdeal.Frame
import proofs.«401895_j21930103014155_2_alg».proof.Proof.PayB1

set_option maxRecDepth 16384

noncomputable section

namespace Cert.KernelIdeal.LiftB13

open Idealize.ShloMosaic Idealize.ShloMosaic.TcCoe ValueIdx Cert.KernelIdeal Cert.KernelIdeal.Gen
open Idealize.ShloMosaic.Pipeline (Dat)
open scoped BigOperators

variable (V : (c : Dev nD) → (b : Ref sig .tc) → Buf (Elt Ideal) ((c : Thread nD τ).loc b))

abbrev row1 (c : Dev nD) : Cert.Spec.Row 256 := fun q => V c (Pipeline.arrRef spec13 1) (ix2 0 q)
abbrev row2 (c : Dev nD) : Cert.Spec.Row 256 := fun q => V c (Pipeline.arrRef spec13 2) (ix2 0 q)
abbrev row3 (c : Dev nD) : Cert.Spec.Row 256 := fun q => V c (Pipeline.arrRef spec13 3) (ix2 0 q)
abbrev row4 (c : Dev nD) : Cert.Spec.Row 256 := fun q => V c (Pipeline.arrRef spec13 4) (ix2 0 q)
abbrev row6 (c : Dev nD) : Cert.Spec.Row 256 := fun q => V c (Pipeline.arrRef spec13 6) (ix2 0 q)

/-- The second linear layer's output over all 50000 rows. -/
abbrev Z2 (c : Dev nD) : Cert.Spec.Mat 50000 256 :=
  Cert.Spec.lin (Cert.Spec.reluM (Cert.Spec.norm (fun p k => V c (Pipeline.arrRef spec13 0) (ix2 p k))
    (row1 V c) (row2 V c) (row3 V c) (row4 V c))) (fun k q => V c (Pipeline.arrRef spec13 5) (ix2 k q)) (row6 V c)

abbrev tile (t : Fin cfg13.N) : Fin 10 := t.cast N_13

theorem idx_fix : ∀ (t : Fin cfg13.N) (w : Fin 10) (a : Fin (cfg13.win w).shape.rank),
    (w ≠ 0 ∧ w < 7) ∨ a.val ≠ 0 → (cfg13.win w).index t a = 0 :=
  (by decide +kernel : ∀ t : Fin grid13.N, _)

theorem idx_mov : ∀ (t : Fin cfg13.N) (w : Fin 10) (a : Fin (cfg13.win w).shape.rank),
    w = 0 ∨ 7 ≤ w → a.val = 0 → (cfg13.win w).index t a = t.val :=
  (by decide +kernel : ∀ t : Fin grid13.N, _)

/-- Entry `(r, k)` of tile `t` is entry `(t · 5000 + r, k)` of the whole matrix. -/
theorem emb0 (t : Fin cfg13.N) (r : Fin 5000) (k : Fin 256) :
    ((cfg13.win 0).blk t).view.emb (ix2 r k) = ix2 (Cert.Spec.tileRow (tile t) r) k :=
  funext fun a => Fin.ext <| (win13_0.rect_emb_val t (ix2 r k) a).trans <| by
    match a with
    | ⟨0, _⟩ => exact congrArg (· * 5000 + r.val) (idx_mov t 0 (0 : Fin 2) (by decide) rfl)
    | ⟨1, _⟩ => exact (congrArg (· * 256 + k.val) (idx_fix t 0 (1 : Fin 2) (.inr (by decide)))).trans (Nat.zero_add _)

theorem emb7 (t : Fin cfg13.N) (r : Fin 5000) (k : Fin 256) :
    ((cfg13.win 7).blk t).view.emb (ix2 r k) = ix2 (Cert.Spec.tileRow (tile t) r) k :=
  funext fun a => Fin.ext <| (win13_7.rect_emb_val t (ix2 r k) a).trans <| by
    match a with
    | ⟨0, _⟩ => exact congrArg (· * 5000 + r.val) (idx_mov t 7 (0 : Fin 2) (by decide) rfl)
    | ⟨1, _⟩ => exact (congrArg (· * 256 + k.val) (idx_fix t 7 (1 : Fin 2) (.inr (by decide)))).trans (Nat.zero_add _)

/-- Tile `t`'s row of column sums is row `t` of the 10 × 1 × 256 array. -/
theorem emb8 (t : Fin cfg13.N) (q : Fin 256) :
    ((cfg13.win 8).blk t).view.emb (ix3 0 0 q) = ix3 (tile t) 0 q :=
  funext fun a => Fin.ext <| (win13_8.rect_emb_val t (ix3 0 0 q) a).trans <| by
    match a with
    | ⟨0, _⟩ => exact congrArg (· * 1 + 0) (idx_mov t 8 (0 : Fin 3) (by decide) rfl) |>.trans (Nat.mul_one _)
    | ⟨1, _⟩ => exact congrArg (· * 1 + 0) (idx_fix t 8 (1 : Fin 3) (.inr (by decide)))
    | ⟨2, _⟩ => exact (congrArg (· * 256 + q.val) (idx_fix t 8 (2 : Fin 3) (.inr (by decide)))).trans (Nat.zero_add _)

theorem emb9 (t : Fin cfg13.N) (q : Fin 256) :
    ((cfg13.win 9).blk t).view.emb (ix3 0 0 q) = ix3 (tile t) 0 q :=
  funext fun a => Fin.ext <| (win13_9.rect_emb_val t (ix3 0 0 q) a).trans <| by
    match a with
    | ⟨0, _⟩ => exact congrArg (· * 1 + 0) (idx_mov t 9 (0 : Fin 3) (by decide) rfl) |>.trans (Nat.mul_one _)
    | ⟨1, _⟩ => exact congrArg (· * 1 + 0) (idx_fix t 9 (1 : Fin 3) (.inr (by decide)))
    | ⟨2, _⟩ => exact (congrArg (· * 256 + q.val) (idx_fix t 9 (2 : Fin 3) (.inr (by decide)))).trans (Nat.zero_add _)

theorem rd0 (c : Dev nD) (t : Fin cfg13.N) (r : Fin 5000) (k : Fin 256) :
    (iblk13 V c 0 t : Vec Ideal S5000x256 .f32) (ix2 r k)
      = V c (Pipeline.arrRef spec13 0) (ix2 (Cert.Spec.tileRow (tile t) r) k) :=
  congrArg (V c (Pipeline.arrRef spec13 0)) (emb0 t r k)

theorem rd1 (c : Dev nD) (t : Fin cfg13.N) (k : Fin 256) :
    (iblk13 V c 1 t : Vec Ideal S1x256 .f32) (ix2 0 k) = row1 V c k :=
  congrArg (V c (Pipeline.arrRef spec13 1)) (funext fun a => Fin.ext
    (win13_1.rect_emb_val_of_index_zero t a (idx_fix t 1 a (.inl (by decide))) (ix2 0 k)))

theorem rd2 (c : Dev nD) (t : Fin cfg13.N) (k : Fin 256) :
    (iblk13 V c 2 t : Vec Ideal S1x256 .f32) (ix2 0 k) = row2 V c k :=
  congrArg (V c (Pipeline.arrRef spec13 2)) (funext fun a => Fin.ext
    (win13_2.rect_emb_val_of_index_zero t a (idx_fix t 2 a (.inl (by decide))) (ix2 0 k)))

theorem rd3 (c : Dev nD) (t : Fin cfg13.N) (k : Fin 256) :
    (iblk13 V c 3 t : Vec Ideal S1x256 .f32) (ix2 0 k) = row3 V c k :=
  congrArg (V c (Pipeline.arrRef spec13 3)) (funext fun a => Fin.ext
    (win13_3.rect_emb_val_of_index_zero t a (idx_fix t 3 a (.inl (by decide))) (ix2 0 k)))

theorem rd4 (c : Dev nD) (t : Fin cfg13.N) (k : Fin 256) :
    (iblk13 V c 4 t : Vec Ideal S1x256 .f32) (ix2 0 k) = row4 V c k :=
  congrArg (V c (Pipeline.arrRef spec13 4)) (funext fun a => Fin.ext
    (win13_4.rect_emb_val_of_index_zero t a (idx_fix t 4 a (.inl (by decide))) (ix2 0 k)))

theorem rd5 (c : Dev nD) (t : Fin cfg13.N) (k q : Fin 256) :
    (iblk13 V c 5 t : Vec Ideal S256x256 .f32) (ix2 k q) = V c (Pipeline.arrRef spec13 5) (ix2 k q) :=
  congrArg (V c (Pipeline.arrRef spec13 5)) (funext fun a => Fin.ext
    (win13_5.rect_emb_val_of_index_zero t a (idx_fix t 5 a (.inl (by decide))) (ix2 k q)))

theorem rd6 (c : Dev nD) (t : Fin cfg13.N) (k : Fin 256) :
    (iblk13 V c 6 t : Vec Ideal S1x256 .f32) (ix2 0 k) = row6 V c k :=
  congrArg (V c (Pipeline.arrRef spec13 6)) (funext fun a => Fin.ext
    (win13_6.rect_emb_val_of_index_zero t a (idx_fix t 6 a (.inl (by decide))) (ix2 0 k)))

/-- Entry `(r, q)` of the tile computed for `t` is entry `(t · 5000 + r, q)` of the second layer's output. -/
theorem tile_entry (c : Dev nD) (t : Fin cfg13.N) (r : Fin 5000) (q : Fin 256) :
    k13_pay2 (iblk13 V c 0 t) (iblk13 V c 1 t) (iblk13 V c 2 t) (iblk13 V c 3 t) (iblk13 V c 4 t) (iblk13 V c 5 t) (iblk13 V c 6 t) (ix2 r q)
      = Z2 V c (Cert.Spec.tileRow (tile t) r) q := by
  refine (PayB1.pay2_apply _ _ _ _ _ _ _ r q).trans ?_
  unfold PayB1.act
  simp only [rd0 V c t, rd1 V c t, rd2 V c t, rd3 V c t, rd4 V c t, rd5 V c t, rd6 V c t]
  rfl

theorem hz2 : (![0, 0] : Fin 2 → Nat) = fun _ => 0 := funext fun a => by fin_cases a <;> rfl
theorem hz3 : (![0, 0, 0] : Fin 3 → Nat) = fun _ => 0 := funext fun a => by fin_cases a <;> rfl

/-- The second layer's output, and per tile its column sums and column sums of squares. -/
abbrev G7 (c : Dev nD) : S50000x256.Idx → Elt Ideal .f32 := fun i => Z2 V c (i 0) (i 1)
abbrev G8 (c : Dev nD) : S10x1x256.Idx → Elt Ideal .f32 := fun i => Cert.Spec.tileSum (Z2 V c) (i 0) (i 2)
abbrev G9 (c : Dev nD) : S10x1x256.Idx → Elt Ideal .f32 := fun i => Cert.Spec.tileSumSq (Z2 V c) (i 0) (i 2)

theorem wb7 (c : Dev nD) (t : Fin cfg13.N) :
    (dat13 (F := Ideal) V c).flushed 7 t = ((cfg13.win 7).blk t).view.read (Elt Ideal) (G7 V c) := by
  show (cfg13.win 7).cut (grid13.coords t) ((dat13 (F := Ideal) V c).after 7 t) = _
  rw [after13_7]
  unfold out13_7
  rw [View.canon_unit_zero hz2]
  simp only [View.ld_unit_zero (S := S5000x256) hz2, View.ld_unit_zero (S := S1x256) hz2, View.ld_unit_zero (S := S256x256) hz2]
  funext j
  obtain ⟨r, q, rfl⟩ : ∃ (r : Fin 5000) (q : Fin 256), j = ix2 r q := ⟨j 0, j 1, eq_ix2 j⟩
  exact (tile_entry V c t r q).trans (congrArg (G7 V c) (emb7 t r q)).symm

theorem wb8 (c : Dev nD) (t : Fin cfg13.N) :
    (dat13 (F := Ideal) V c).flushed 8 t = ((cfg13.win 8).blk t).view.read (Elt Ideal) (G8 V c) := by
  show (cfg13.win 8).cut (grid13.coords t) ((dat13 (F := Ideal) V c).after 8 t) = _
  rw [after13_8]
  unfold out13_8
  rw [View.canon_unit_zero hz3]
  simp only [View.ld_unit_zero (S := S5000x256) hz2, View.ld_unit_zero (S := S1x256) hz2, View.ld_unit_zero (S := S256x256) hz2]
  funext j
  obtain ⟨a, b, q, rfl⟩ : ∃ (a b : Fin 1) (q : Fin 256), j = ix3 a b q := ⟨j 0, j 1, j 2, eq_ix3 j⟩
  obtain rfl : a = 0 := Subsingleton.elim _ _
  obtain rfl : b = 0 := Subsingleton.elim _ _
  refine (PayB1.pay4_apply (iblk13 V c 0 t) (iblk13 V c 1 t) (iblk13 V c 2 t) (iblk13 V c 3 t) (iblk13 V c 4 t) (iblk13 V c 5 t) (iblk13 V c 6 t) q).trans (.trans ?_ (congrArg (G8 V c) (emb8 t q)).symm)
  refine (zero_add _).symm.trans (congrArg₂ (· + ·) Ideal.ofBits_zero_f32.symm (Finset.sum_congr rfl fun r _ => ?_))
  exact tile_entry V c t r q

theorem wb9 (c : Dev nD) (t : Fin cfg13.N) :
    (dat13 (F := Ideal) V c).flushed 9 t = ((cfg13.win 9).blk t).view.read (Elt Ideal) (G9 V c) := by
  show (cfg13.win 9).cut (grid13.coords t) ((dat13 (F := Ideal) V c).after 9 t) = _
  rw [after13_9]
  unfold out13_9
  rw [View.canon_unit_zero hz3]
  simp only [View.ld_unit_zero (S := S5000x256) hz2, View.ld_unit_zero (S := S1x256) hz2, View.ld_unit_zero (S := S256x256) hz2]
  funext j
  obtain ⟨a, b, q, rfl⟩ : ∃ (a b : Fin 1) (q : Fin 256), j = ix3 a b q := ⟨j 0, j 1, j 2, eq_ix3 j⟩
  obtain rfl : a = 0 := Subsingleton.elim _ _
  obtain rfl : b = 0 := Subsingleton.elim _ _
  refine (PayB1.pay13_apply (iblk13 V c 0 t) (iblk13 V c 1 t) (iblk13 V c 2 t) (iblk13 V c 3 t) (iblk13 V c 4 t) (iblk13 V c 5 t) (iblk13 V c 6 t) q).trans (.trans ?_ (congrArg (G9 V c) (emb9 t q)).symm)
  refine (zero_add _).symm.trans (congrArg₂ (· + ·) Ideal.ofBits_zero_f32.symm (Finset.sum_congr rfl fun r _ => ?_))
  exact congrArg₂ (· * ·) (tile_entry V c t r q) (tile_entry V c t r q)

/-- Row `p` lies in tile `p / 5000`. -/
theorem cover7 (i : S50000x256.Idx) :
    ∃ t : Fin cfg13.N, (cfg13.win 7).flush t = true ∧ i ∈ ((cfg13.win 7).blk t).view.set := by
  obtain ⟨p, q, rfl⟩ : ∃ (p : Fin 50000) (q : Fin 256), i = ix2 p q := ⟨i 0, i 1, eq_ix2 i⟩
  have hp := p.isLt
  let t : Fin cfg13.N := Fin.cast N_13.symm ⟨p.val / 5000, by omega⟩
  let r : Fin 5000 := ⟨p.val % 5000, Nat.mod_lt _ (by decide)⟩
  have h := ((cfg13.win 7).blk t).view.emb_mem_set (ix2 r q)
  rw [emb7, show Cert.Spec.tileRow (tile t) r = p from Fin.ext (Nat.div_add_mod' _ _)] at h
  exact ⟨t, flush13_7 t, h⟩

theorem cover8 (i : S10x1x256.Idx) :
    ∃ t : Fin cfg13.N, (cfg13.win 8).flush t = true ∧ i ∈ ((cfg13.win 8).blk t).view.set := by
  obtain ⟨a, b, q, rfl⟩ : ∃ (a : Fin 10) (b : Fin 1) (q : Fin 256), i = ix3 a b q := ⟨i 0, i 1, i 2, eq_ix3 i⟩
  obtain rfl : b = 0 := Subsingleton.elim _ _
  have h := ((cfg13.win 8).blk (a.cast N_13.symm)).view.emb_mem_set (ix3 0 0 q)
  rw [emb8] at h
  exact ⟨_, flush13_8 _, h⟩

theorem cover9 (i : S10x1x256.Idx) :
    ∃ t : Fin cfg13.N, (cfg13.win 9).flush t = true ∧ i ∈ ((cfg13.win 9).blk t).view.set := by
  obtain ⟨a, b, q, rfl⟩ : ∃ (a : Fin 10) (b : Fin 1) (q : Fin 256), i = ix3 a b q := ⟨i 0, i 1, i 2, eq_ix3 i⟩
  obtain rfl : b = 0 := Subsingleton.elim _ _
  have h := ((cfg13.win 9).blk (a.cast N_13.symm)).view.emb_mem_set (ix3 0 0 q)
  rw [emb9] at h
  exact ⟨_, flush13_9 _, h⟩

theorem z2 (c : Dev nD) (p : Fin 50000) (q : Fin 256) :
    (dat13 (F := Ideal) V c).arrAt 7 cfg13.N (ix2 p q) = Z2 V c p q :=
  congrFun ((dat13 (F := Ideal) V c).arrAt_eq_of_cover 7 (G7 V c) (fun t _ => wb7 V c t) cover7) (ix2 p q)

theorem psum (c : Dev nD) (t : Fin 10) (q : Fin 256) :
    (dat13 (F := Ideal) V c).arrAt 8 cfg13.N (ix3 t 0 q) = Cert.Spec.tileSum (Z2 V c) t q :=
  congrFun ((dat13 (F := Ideal) V c).arrAt_eq_of_cover 8 (G8 V c) (fun t _ => wb8 V c t) cover8) (ix3 t 0 q)

theorem psumsq (c : Dev nD) (t : Fin 10) (q : Fin 256) :
    (dat13 (F := Ideal) V c).arrAt 9 cfg13.N (ix3 t 0 q) = Cert.Spec.tileSumSq (Z2 V c) t q :=
  congrFun ((dat13 (F := Ideal) V c).arrAt_eq_of_cover 9 (G9 V c) (fun t _ => wb9 V c t) cover9) (ix3 t 0 q)

end Cert.KernelIdeal.LiftB13

end
-- ==== Proof.LiftC14.lean ====
import proofs.«401895_j21930103014155_2_alg».proof.Proof.Gen.KernelIdeal.Frame
import proofs.«401895_j21930103014155_2_alg».proof.Proof.Spec
import proofs.«401895_j21930103014155_2_alg».proof.Proof.LiftC
import Idealize.ShloMosaic.Lib.ValueIdx
import Idealize.ShloMosaic.Lib.ValueLayout
import Idealize.ShloMosaic.Lib.Pipeline.Value

noncomputable section

namespace Cert.KernelIdeal.LiftC14

open Idealize.ShloMosaic Idealize.ShloMosaic.TcCoe ValueIdx
open Cert.KernelIdeal Cert.KernelIdeal.Gen
open Idealize.ShloMosaic.Pipeline (Dat)

variable (V : (c : Dev nD) → (b : Ref sig .tc) → Buf (Elt Ideal) ((c : Thread nD τ).loc b))

abbrev row1 (c : Dev nD) : Cert.Spec.Row 256 := fun q => V c (Pipeline.arrRef spec14 1) (ix2 0 q)
abbrev row2 (c : Dev nD) : Cert.Spec.Row 256 := fun q => V c (Pipeline.arrRef spec14 2) (ix2 0 q)
abbrev row3 (c : Dev nD) : Cert.Spec.Row 256 := fun q => V c (Pipeline.arrRef spec14 3) (ix2 0 q)
abbrev row4 (c : Dev nD) : Cert.Spec.Row 256 := fun q => V c (Pipeline.arrRef spec14 4) (ix2 0 q)

abbrev BN (c : Dev nD) : Cert.Spec.Mat 50000 256 :=
  Cert.Spec.norm (fun p k => V c (Pipeline.arrRef spec14 0) (ix2 p k)) (row1 V c) (row2 V c) (row3 V c) (row4 V c)

abbrev res (c : Dev nD) : S50000x256.Idx → EReal := fun i => BN V c (i 0) (i 1)

theorem npoints : cfg14.N = 10 := by decide

abbrev rowOf (t : Fin cfg14.N) (r : Fin 5000) : Fin 50000 :=
  ⟨t.val * 5000 + r.val, by have h : t.val < 10 := Nat.lt_of_lt_of_eq t.isLt npoints; omega⟩

-- The [50000, 256] operand and the result move down one tile of 5000 rows per grid point; the four rows stay.
theorem idx_maps : ∀ t : Fin cfg14.N,
    (win14_0.index t (0 : Fin 2) = t.val ∧ win14_0.index t (1 : Fin 2) = 0)
    ∧ (∀ a : Fin 2, win14_1.index t a = 0) ∧ (∀ a : Fin 2, win14_2.index t a = 0)
    ∧ (∀ a : Fin 2, win14_3.index t a = 0) ∧ (∀ a : Fin 2, win14_4.index t a = 0)
    ∧ win14_5.index t (0 : Fin 2) = t.val ∧ win14_5.index t (1 : Fin 2) = 0 :=
  (by decide +kernel : ∀ t : Fin grid14.N, _)

theorem emb0 (t : Fin cfg14.N) (r : Fin 5000) (q : Fin 256) :
    ((cfg14.win 0).blk t).view.emb (ix2 r q) = ix2 (rowOf t r) q := by
  refine Shape.idx_ext₂ ?_ ?_
  exacts [(win14_0.rect_emb_val t (ix2 r q) (0 : Fin 2)).trans (congrArg (fun k : ℕ => k * 5000 + r.val) (idx_maps t).1.1),
    win14_0.rect_emb_val_of_index_zero t (1 : Fin 2) (idx_maps t).1.2 (ix2 r q)]

theorem emb5 (t : Fin cfg14.N) (r : Fin 5000) (q : Fin 256) :
    ((cfg14.win 5).blk t).view.emb (ix2 r q) = ix2 (rowOf t r) q := by
  refine Shape.idx_ext₂ ?_ ?_
  exacts [(win14_5.rect_emb_val t (ix2 r q) (0 : Fin 2)).trans (congrArg (fun k : ℕ => k * 5000 + r.val) (idx_maps t).2.2.2.2.2.1),
    win14_5.rect_emb_val_of_index_zero t (1 : Fin 2) (idx_maps t).2.2.2.2.2.2 (ix2 r q)]

-- Point t writes back tile t of res: the body loads rows 5000·t … of the operand and the four rows whole.
theorem flushed_eq (c : Dev nD) (t : Fin cfg14.N) :
    (dat14 (F := Ideal) V c).flushed 5 t = ((cfg14.win 5).blk t).view.read (Elt Ideal) (res V c) := by
  obtain ⟨-, h1, h2, h3, h4, -⟩ := idx_maps t
  show (cfg14.win 5).cut (grid14.coords t) ((dat14 (F := Ideal) V c).after 5 t) = _
  rw [after14_5]
  unfold out14_5
  rw [View.canon_unit_zero LiftC.zero_off]
  simp only [View.ld_unit_zero (S := S5000x256) LiftC.zero_off, View.ld_unit_zero (S := S1x256) LiftC.zero_off]
  funext j
  obtain ⟨r, q, rfl⟩ : ∃ (r : Fin 5000) (q : Fin 256), j = ix2 r q := ⟨j 0, j 1, eq_ix2 j⟩
  have e0 : iblk14 V c 0 t (ix2 r q) = V c (Pipeline.arrRef spec14 0) (ix2 (rowOf t r) q) :=
    congrArg (V c (Pipeline.arrRef spec14 0)) (emb0 t r q)
  have e1 : iblk14 V c 1 t (ix2 (0 : Fin 1) q) = row1 V c q :=
    congrArg (V c (Pipeline.arrRef spec14 1)) (LiftC.emb_eq_self win14_1 t h1 (ix2 (0 : Fin 1) q) fun _ => rfl)
  have e2 : iblk14 V c 2 t (ix2 (0 : Fin 1) q) = row2 V c q :=
    congrArg (V c (Pipeline.arrRef spec14 2)) (LiftC.emb_eq_self win14_2 t h2 (ix2 (0 : Fin 1) q) fun _ => rfl)
  have e3 : iblk14 V c 3 t (ix2 (0 : Fin 1) q) = row3 V c q :=
    congrArg (V c (Pipeline.arrRef spec14 3)) (LiftC.emb_eq_self win14_3 t h3 (ix2 (0 : Fin 1) q) fun _ => rfl)
  have e4 : iblk14 V c 4 t (ix2 (0 : Fin 1) q) = row4 V c q :=
    congrArg (V c (Pipeline.arrRef spec14 4)) (LiftC.emb_eq_self win14_4 t h4 (ix2 (0 : Fin 1) q) fun _ => rfl)
  show k14_pay1 (F := Ideal) (iblk14 V c 0 t) (iblk14 V c 1 t) (iblk14 V c 2 t) (iblk14 V c 3 t) (iblk14 V c 4 t) (ix2 r q)
    = res V c (((cfg14.win 5).blk t).view.emb (ix2 r q))
  rw [emb5, LiftC.pay_lin, e0, e1, e2, e3, e4]
  rfl

-- Row p lies in tile p / 5000, so the ten blocks cover the result.
theorem cover (i : S50000x256.Idx) :
    ∃ t : Fin cfg14.N, (cfg14.win 5).flush t = true ∧ i ∈ ((cfg14.win 5).blk t).view.set := by
  have hi : (i 0).val < 50000 := idx2_lt0 i
  obtain ⟨t, ht⟩ : ∃ t : Fin cfg14.N, t.val = (i 0).val / 5000 := ⟨⟨(i 0).val / 5000, by rw [npoints]; omega⟩, rfl⟩
  obtain ⟨r, hr⟩ : ∃ r : Fin 5000, r.val = (i 0).val % 5000 := ⟨⟨(i 0).val % 5000, Nat.mod_lt _ (by norm_num)⟩, rfl⟩
  obtain ⟨q, hq⟩ : ∃ q : Fin 256, q.val = (i 1).val := ⟨i 1, rfl⟩
  have h : ix2 (rowOf t r) q = i := by
    refine Shape.idx_ext₂ ?_ hq
    show t.val * 5000 + r.val = (i 0).val
    omega
  refine ⟨t, flush14_5 t, ?_⟩
  rw [← h, ← emb5]
  exact View.emb_mem_set _ _

theorem out (c : Dev nD) (p : Fin 50000) (q : Fin 256) :
    (dat14 (F := Ideal) V c).arrAt 5 cfg14.N (ix2 p q) = BN V c p q :=
  congrFun ((dat14 (F := Ideal) V c).arrAt_eq_of_cover 5 (res V c) (fun t _ => flushed_eq V c t) cover) (ix2 p q)

end Cert.KernelIdeal.LiftC14

end
-- ==== Proof.KLayer4.lean ====
import proofs.«401895_j21930103014155_2_alg».proof.Proof.Gen.KernelIdeal.Frame
import proofs.«401895_j21930103014155_2_alg».proof.Proof.KLayer4Host
import proofs.«401895_j21930103014155_2_alg».proof.Proof.KLayer3
import proofs.«401895_j21930103014155_2_alg».proof.Proof.LiftA12
import proofs.«401895_j21930103014155_2_alg».proof.Proof.LiftB13
import proofs.«401895_j21930103014155_2_alg».proof.Proof.LiftC14

noncomputable section

namespace Cert.KernelIdeal.KLayer4

open Idealize.ShloMosaic Idealize.ShloMosaic.TcCoe Idealize.ShloMosaic.ValueIdx
open Cert.KernelIdeal Cert.KernelIdeal.Gen

variable (m : (ℓ : Loc nD τ sig) → Buf (Elt Ideal) ℓ) (ρ : Dev nD → PrngReg) (c : Dev nD)

theorem par_in (r : Ref sig .tc) (hr : r ∈ pars) :
    W32 m ρ c (Proc.devRef .tc r) = m ((c : Thread nD τ).loc r) :=
  KLayer3.par_W32 m ρ c r hr

theorem par_a (r : Ref sig .tc) (hr : r ∈ pars) :
    W36 m ρ c (Proc.devRef .tc r) = m ((c : Thread nD τ).loc r) := by
  refine Eq.trans ?_ ((keeps_pre (W32 m ρ c) r hr).trans (par_in m ρ c r hr))
  simp only [pars, List.mem_cons, List.not_mem_nil, or_false] at hr
  rcases hr with rfl | rfl | rfl | rfl | rfl | rfl | rfl | rfl | rfl | rfl | rfl <;> exact W36_of_ne m ρ c _ (by decide)

theorem par_b (r : Ref sig .tc) (hr : r ∈ pars) :
    W38 m ρ c (Proc.devRef .tc r) = m ((c : Thread nD τ).loc r) := by
  refine Eq.trans ?_ ((keeps_d (W36 m ρ c) r hr).trans (par_a m ρ c r hr))
  simp only [pars, List.mem_cons, List.not_mem_nil, or_false] at hr
  rcases hr with rfl | rfl | rfl | rfl | rfl | rfl | rfl | rfl | rfl | rfl | rfl <;> exact W38_of_ne m ρ c _ (by decide)

theorem par_W40 (r : Ref sig .tc) (hr : r ∈ pars) :
    W40 m ρ c (Proc.devRef .tc r) = m ((c : Thread nD τ).loc r) := by
  refine Eq.trans ?_ ((keeps_e (W38 m ρ c) r hr).trans (par_b m ρ c r hr))
  simp only [pars, List.mem_cons, List.not_mem_nil, or_false] at hr
  rcases hr with rfl | rfl | rfl | rfl | rfl | rfl | rfl | rfl | rfl | rfl | rfl <;> exact W40_of_ne m ρ c _ (by decide)

theorem step (p : Fin 50000) (q : Fin 256) :
    W40 m ρ c (Proc.devRef .tc main_v244) (ix2 p q)
      = Spec.kLayer true (m ((c : Thread nD τ).loc main_arg9) (ix1 (4 : Fin 5)))
          (fun p k => W32 m ρ c (Proc.devRef .tc main_v195) (ix2 p k))
          (fun p k => KLayer.agg (W32 m ρ c (Proc.devRef .tc main_v195)) (m ((c : Thread nD τ).loc main_arg1))
            (m ((c : Thread nD τ).loc main_arg2)) (ix2 p k))
          (fun k q => m ((c : Thread nD τ).loc main_arg3) (ix3 (4 : Fin 5) k q))
          (fun q => m ((c : Thread nD τ).loc main_arg4) (ix2 (4 : Fin 5) q))
          (fun q => m ((c : Thread nD τ).loc main_arg5) (ix2 (4 : Fin 5) q))
          (fun q => m ((c : Thread nD τ).loc main_arg6) (ix2 (4 : Fin 5) q))
          (fun k q => m ((c : Thread nD τ).loc main_arg7) (ix3 (4 : Fin 5) k q))
          (fun q => m ((c : Thread nD τ).loc main_arg8) (ix2 (4 : Fin 5) q))
          (fun q => m ((c : Thread nD τ).loc main_arg10) (ix2 (4 : Fin 5) q))
          (fun q => m ((c : Thread nD τ).loc main_arg11) (ix2 (4 : Fin 5) q)) p q := by
  have ps1 : (fun (t : Fin 10) (q : Fin 256) => W36 m ρ c (Proc.devRef .tc main_v209_1) (ix3 t 0 q))
      = Spec.tileSum (LiftA12.Z1 (V35 m ρ) c) :=
    funext fun t => funext fun q => (congrFun (W36_arr m ρ c 6) _).trans (LiftA12.psum (V35 m ρ) c t q)
  have pss1 : (fun (t : Fin 10) (q : Fin 256) => W36 m ρ c (Proc.devRef .tc main_v209_2) (ix3 t 0 q))
      = Spec.tileSumSq (LiftA12.Z1 (V35 m ρ) c) :=
    funext fun t => funext fun q => (congrFun (W36_arr m ρ c 7) _).trans (LiftA12.psumsq (V35 m ρ) c t q)
  have ps2 : (fun (t : Fin 10) (q : Fin 256) => W38 m ρ c (Proc.devRef .tc main_v229_1) (ix3 t 0 q))
      = Spec.tileSum (LiftB13.Z2 (V37 m ρ) c) :=
    funext fun t => funext fun q => (congrFun (W38_arr m ρ c 8) _).trans (LiftB13.psum (V37 m ρ) c t q)
  have pss2 : (fun (t : Fin 10) (q : Fin 256) => W38 m ρ c (Proc.devRef .tc main_v229_2) (ix3 t 0 q))
      = Spec.tileSumSq (LiftB13.Z2 (V37 m ρ) c) :=
    funext fun t => funext fun q => (congrFun (W38_arr m ρ c 9) _).trans (LiftB13.psumsq (V37 m ρ) c t q)
  have H := Spec.kLayer_of_regions (last := true) (z1 := LiftA12.Z1 (V35 m ρ) c) (z2 := LiftB13.Z2 (V37 m ρ) c) rfl rfl
    (funext fun p => funext fun k => congrFun (in_at (W32 m ρ c)) (ix2 p k))
    (funext fun p => funext fun k => congrFun ((agg_arr (W32 m ρ c)).trans
      (congr (congrArg (KLayer.agg (W32 m ρ c (Proc.devRef .tc main_v195))) (par_in m ρ c main_arg1 (by decide))) (par_in m ρ c main_arg2 (by decide)))) (ix2 p k))
    (funext fun k => (eps_at (W32 m ρ c) k).trans (congrFun (par_in m ρ c main_arg9 (by decide)) _))
    (funext fun k => funext fun q => (w1_at (W32 m ρ c) k q).trans (congrFun (par_in m ρ c main_arg3 (by decide)) _))
    (funext fun q => (b1_at (W32 m ρ c) q).trans (congrFun (par_in m ρ c main_arg4 (by decide)) _))
    (funext fun p => funext fun k =>
      (congrFun ((z1_at (W36 m ρ c)).trans (W36_arr m ρ c 5)) _).trans (LiftA12.z1 (V35 m ρ) c p k))
    (funext fun q => (mean1_at (W36 m ρ c) q).trans (congrFun (congrArg Spec.meanT ps1) q))
    (funext fun q => (var1_at (W36 m ρ c) q).trans (congrFun (congr (congrArg Spec.varT ps1) pss1) q))
    (funext fun q => (g1_at (W36 m ρ c) q).trans (congrFun (par_a m ρ c main_arg5 (by decide)) _))
    (funext fun q => (bt1_at (W36 m ρ c) q).trans (congrFun (par_a m ρ c main_arg6 (by decide)) _))
    (funext fun k => funext fun q => (w2_at (W36 m ρ c) k q).trans (congrFun (par_a m ρ c main_arg7 (by decide)) _))
    (funext fun q => (b2_at (W36 m ρ c) q).trans (congrFun (par_a m ρ c main_arg8 (by decide)) _))
    (funext fun p => funext fun k =>
      (congrFun ((z2_at (W38 m ρ c)).trans (W38_arr m ρ c 7)) _).trans (LiftB13.z2 (V37 m ρ) c p k))
    (funext fun q => (mean2_at (W38 m ρ c) q).trans (congrFun (congrArg Spec.meanT ps2) q))
    (funext fun q => (var2_at (W38 m ρ c) q).trans (congrFun (congr (congrArg Spec.varT ps2) pss2) q))
    (funext fun q => (bng_at (W38 m ρ c) q).trans (congrFun (par_b m ρ c main_arg10 (by decide)) _))
    (funext fun q => (bnb_at (W38 m ρ c) q).trans (congrFun (par_b m ρ c main_arg11 (by decide)) _))
  rw [show W40 m ρ c (Proc.devRef .tc main_v244) = _ from W40_arr m ρ c 5]
  exact (LiftC14.out (V39 m ρ) c p q).trans (congrFun (congrFun H p) q)

end Cert.KernelIdeal.KLayer4

end
-- ==== Proof.RefLayerArr.lean ====
import Idealize.ShloMosaic.PureOps.Ideal
import proofs.«401895_j21930103014155_2_alg».proof.ReferenceIdeal

noncomputable section

namespace Cert.ReferenceIdeal.RefLayer

open Idealize.ShloMosaic
open Cert.ReferenceIdeal Cert.ReferenceIdeal.Facts₀

variable [Facts₀]

def msgs (h : FVec Ideal S50000x256 .f32) (src : IVec S300000 32) : FVec Ideal S300000x256 .f32 :=
  have c : IVec S_ 32 := constantI S_ 32 0#32
  have v0 : IVec S300000 32 := broadcastInDim S300000 ![] bcast_S_S300000 c
  have v1 : IVec S300000 1 := cmpi .slt src v0
  have c_0 : IVec S_ 32 := constantI S_ 32 50000#32
  have v2 : IVec S300000 32 := broadcastInDim S300000 ![] bcast_S_S300000 c_0
  have v3 : IVec S300000 32 := addi src v2
  have v4 : IVec S300000 32 := select v1 v3 src
  have v5 : IVec S300000x1 32 := broadcastInDim S300000x1 ![0] bcast_S300000_S300000x1_0 v4
  Host.gather gather_S50000x256_S300000x1_S300000x256_1_0_n_n_0_1_1256 h v5

def agg (h : FVec Ideal S50000x256 .f32) (src dst : IVec S300000 32) : FVec Ideal S50000x256 .f32 :=
  have v6 : FVec Ideal S300000x256 .f32 := msgs h src
  have r_cst : FVec Ideal S_ .f32 := constant (F := Ideal) S_ .f32 0x00000000#32
  have r_v0 : FVec Ideal S300000x256 .f32 := broadcastInDim S300000x256 ![] bcast_S_S300000x256 r_cst
  have v7 : FVec Ideal S300000x256 .f32 := maximumf v6 r_v0
  have cst : FVec Ideal S_ .f32 := constant (F := Ideal) S_ .f32 0x00000000#32
  have v8 : FVec Ideal S50000x256 .f32 := broadcastInDim S50000x256 ![] bcast_S_S50000x256 cst
  have v9 : IVec S300000x1 32 := broadcastInDim S300000x1 ![0] bcast_S300000_S300000x1_0 dst
  Host.scatterAdd (F := Ideal) scatter_S50000x256_S300000x1_S300000x256_1_0_0_1 v8 v9 v7

def z0Arr (h a : FVec Ideal S50000x256 .f32) (e : FVec Ideal S_ .f32) : FVec Ideal S50000x256 .f32 :=
  addf (mulf (broadcastInDim S50000x256 ![] bcast_S_S50000x256
    (addf (constant (F := Ideal) S_ .f32 0x3F800000#32) e)) h) a

def linArr (a : FVec Ideal S50000x256 .f32) (W : FVec Ideal S256x256 .f32) (b : FVec Ideal S256 .f32) :
    FVec Ideal S50000x256 .f32 :=
  addf (Host.dotGeneral (F := Ideal) dot_S50000x256_S256x256_S50000x256_1_0_0_1_n_n none a W)
    (broadcastInDim S50000x256 ![0, 1] bcast_S1x256_S50000x256_0_1 (broadcastInDim S1x256 ![1] bcast_S256_S1x256_1 b))

def meanArr (z : FVec Ideal S50000x256 .f32) : FVec Ideal S256 .f32 :=
  Host.divf (F := Ideal)
    (Host.reduceAdd (F := Ideal) z (constant (F := Ideal) S_ .f32 0x00000000#32) reducesTo_S50000x256_S256_d0 h_S_)
    (broadcastInDim S256 ![] bcast_S_S256 (constant (F := Ideal) S_ .f32 0x47435000#32))

def devArr (z : FVec Ideal S50000x256 .f32) : FVec Ideal S50000x256 .f32 :=
  subf z (broadcastInDim S50000x256 ![0, 1] bcast_S1x256_S50000x256_0_1
    (Host.divf (F := Ideal)
      (broadcastInDim S1x256 ![1] bcast_S256_S1x256_1
        (Host.reduceAdd (F := Ideal) z (constant (F := Ideal) S_ .f32 0x00000000#32) reducesTo_S50000x256_S256_d0 h_S_))
      (broadcastInDim S1x256 ![] bcast_S_S1x256 (constant (F := Ideal) S_ .f32 0x47435000#32))))

def cntArr : FVec Ideal S_ .f32 :=
  subf (constant (F := Ideal) S_ .f32 0x47435000#32) (sitofp .f32 (constantI S_ 32 0#32))

def varArr (z : FVec Ideal S50000x256 .f32) : FVec Ideal S256 .f32 :=
  select
    (broadcastInDim S256 ![] bcast_S_S256 (cmpf .ogt cntArr (constant (F := Ideal) S_ .f32 0x00000000#32)))
    (Host.divf (F := Ideal)
      (Host.reduceAdd (F := Ideal) (mulf (devArr z) (devArr z)) (constant (F := Ideal) S_ .f32 0x00000000#32)
        reducesTo_S50000x256_S256_d0 h_S_)
      (broadcastInDim S256 ![] bcast_S_S256 cntArr))
    (broadcastInDim S256 ![] bcast_S_S256 (id (constant (F := Ideal) S_ .f32 0x7FC00000#32)))

def normArr (z : FVec Ideal S50000x256 .f32) (m v g bt : FVec Ideal S256 .f32) : FVec Ideal S50000x256 .f32 :=
  addf
    (mulf
      (mulf
        (subf z (broadcastInDim S50000x256 ![0, 1] bcast_S1x256_S50000x256_0_1
          (broadcastInDim S1x256 ![1] bcast_S256_S1x256_1 m)))
        (broadcastInDim S50000x256 ![0, 1] bcast_S1x256_S50000x256_0_1
          (broadcastInDim S1x256 ![1] bcast_S256_S1x256_1
            (Host.rsqrt (F := Ideal)
              (addf v (broadcastInDim S256 ![] bcast_S_S256 (constant (F := Ideal) S_ .f32 0x3727C5AC#32)))))))
      (broadcastInDim S50000x256 ![0, 1] bcast_S1x256_S50000x256_0_1
        (broadcastInDim S1x256 ![1] bcast_S256_S1x256_1 g)))
    (broadcastInDim S50000x256 ![0, 1] bcast_S1x256_S50000x256_0_1
      (broadcastInDim S1x256 ![1] bcast_S256_S1x256_1 bt))

def bnArr (z : FVec Ideal S50000x256 .f32) (g bt : FVec Ideal S256 .f32) : FVec Ideal S50000x256 .f32 :=
  normArr z (meanArr z) (varArr z) g bt

def reluArr (x : FVec Ideal S50000x256 .f32) : FVec Ideal S50000x256 .f32 :=
  maximumf x (broadcastInDim S50000x256 ![] bcast_S_S50000x256 (constant (F := Ideal) S_ .f32 0x00000000#32))

def preArr (h : FVec Ideal S50000x256 .f32) (src dst : IVec S300000 32) (e : FVec Ideal S_ .f32)
    (W1 : FVec Ideal S256x256 .f32) (b1 g1 bt1 : FVec Ideal S256 .f32)
    (W2 : FVec Ideal S256x256 .f32) (b2 bng bnb : FVec Ideal S256 .f32) : FVec Ideal S50000x256 .f32 :=
  bnArr (linArr (reluArr (bnArr (linArr (z0Arr h (agg h src dst) e) W1 b1) g1 bt1)) W2 b2) bng bnb

def layerArr (last : Bool) (h : FVec Ideal S50000x256 .f32) (src dst : IVec S300000 32) (e : FVec Ideal S_ .f32)
    (W1 : FVec Ideal S256x256 .f32) (b1 g1 bt1 : FVec Ideal S256 .f32)
    (W2 : FVec Ideal S256x256 .f32) (b2 bng bnb : FVec Ideal S256 .f32) : FVec Ideal S50000x256 .f32 :=
  if last then preArr h src dst e W1 b1 g1 bt1 W2 b2 bng bnb else reluArr (preArr h src dst e W1 b1 g1 bt1 W2 b2 bng bnb)

end Cert.ReferenceIdeal.RefLayer

end
-- ==== Proof.SpecStats.lean ====
import proofs.«401895_j21930103014155_2_alg».proof.Proof.Spec

noncomputable section

namespace Cert.Spec

open Idealize.ShloMosaic
open scoped BigOperators

theorem c0_eq : c0 = ((0 : ℝ) : EReal) := by
  simp [c0, Ideal.ofBits, Ideal.ieee]

theorem c1_eq : c1 = ((1 : ℝ) : EReal) := by
  simp [c1, Ideal.ofBits, Ideal.ieee, -EReal.coe_mul]
  norm_num

theorem cN_eq : cN = ((50000 : ℝ) : EReal) := by
  simp [cN, Ideal.ofBits, Ideal.ieee, -EReal.coe_mul]
  norm_num

theorem cEps_pos : ∃ r : ℝ, 0 < r ∧ cEps = (r : EReal) := by
  refine ⟨10995116 * (2 : ℝ) ^ (-40 : ℤ), by positivity, ?_⟩
  simp [cEps, Ideal.ofBits, Ideal.ieee, -EReal.coe_mul]

-- A row index is uniquely 5000 · t + r with t < 10 and r < 5000.
theorem sum_tiles (f : Fin 50000 → EReal) :
    (∑ p : Fin 50000, f p) = ∑ t : Fin 10, ∑ r : Fin 5000, f (tileRow t r) := by
  have h : (∑ x : Fin 10 × Fin 5000, f (tileRow x.1 x.2)) = ∑ p : Fin 50000, f p := by
    refine Fintype.sum_equiv (finProdFinEquiv : Fin 10 × Fin 5000 ≃ Fin (10 * 5000)) _ _ (fun x => ?_)
    congr 1
    ext
    simp only [tileRow, finProdFinEquiv_apply_val]
    omega
  rw [← h]
  exact Fintype.sum_prod_type _

theorem kmean_eq_rmean (z : Mat 50000 256) : kmean z = rmean z := by
  funext q
  simp only [kmean, meanT, tileSum, rmean, c0_eq, EReal.coe_zero, zero_add]
  rw [sum_tiles (fun p => z p q)]

theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable {z : Mat 50000 256} {r : Fin 50000 → Fin 256 → ℝ}

-- The mean of column q of real entries, as a real number.
def colMean (r : Fin 50000 → Fin 256 → ℝ) (q : Fin 256) : ℝ := (∑ p : Fin 50000, r p q) / 50000

theorem rmean_coe (hr : ∀ p q, z p q = (r p q : EReal)) (q : Fin 256) : rmean z q = (colMean r q : EReal) := by
  simp only [rmean, colMean, c0_eq, EReal.coe_zero, zero_add, cN_eq, hr]
  rw [Ideal.div_coe (by norm_num), ← coe_sum, ← EReal.coe_mul]
  congr 1
  ring

theorem rvar_coe (hr : ∀ p q, z p q = (r p q : EReal)) (q : Fin 256) :
    rvar z q = (((∑ p : Fin 50000, (r p q - colMean r q) * (r p q - colMean r q)) / 50000 : ℝ) : EReal) := by
  simp only [rvar, c0_eq, EReal.coe_zero, zero_add, cN_eq, rmean_coe hr q, hr]
  rw [Ideal.div_coe (by norm_num)]
  simp only [← EReal.coe_sub, ← EReal.coe_mul, ← coe_sum]
  congr 1
  ring

theorem kvar_coe (hr : ∀ p q, z p q = (r p q : EReal)) (q : Fin 256) :
    kvar z q = (((∑ p : Fin 50000, r p q * r p q) / 50000 - colMean r q * colMean r q : ℝ) : EReal) := by
  have hm : meanT (tileSum z) q = (colMean r q : EReal) := by
    rw [← rmean_coe hr q, ← kmean_eq_rmean]
    rfl
  simp only [kvar, varT, hm]
  simp only [tileSumSq, c0_eq, EReal.coe_zero, zero_add, cN_eq]
  rw [← sum_tiles (fun p => z p q * z p q), Ideal.div_coe (by norm_num)]
  simp only [hr, ← EReal.coe_sub, ← EReal.coe_mul, ← coe_sum]
  congr 1
  ring

-- With m the column mean, the sum of (r − m)² is the sum of r² − 2 m r + m², and the sum of r is 50000 m.
theorem kvar_eq_rvar (z : Mat 50000 256) (hz : IsReal z) : kvar z = rvar z := by
  funext q
  choose r hr using hz
  rw [kvar_coe hr q, rvar_coe hr q]
  congr 1
  have e : ∀ p : Fin 50000, (r p q - colMean r q) * (r p q - colMean r q)
      = r p q * r p q - 2 * colMean r q * r p q + colMean r q * colMean r q := fun p => by ring
  simp only [e, Finset.sum_add_distrib, Finset.sum_sub_distrib, ← Finset.mul_sum, Finset.sum_const, Finset.card_univ,
    Fintype.card_fin, nsmul_eq_mul]
  unfold colMean
  push_cast
  ring

theorem isRealRow_rmean (z : Mat 50000 256) (hz : IsReal z) : IsRealRow (rmean z) := by
  intro q
  choose r hr using hz
  exact ⟨_, rmean_coe hr q⟩

theorem rvar_nonneg (z : Mat 50000 256) (hz : IsReal z) : ∀ q, ∃ r : ℝ, 0 ≤ r ∧ rvar z q = (r : EReal) := by
  intro q
  choose r hr using hz
  exact ⟨_, div_nonneg (Finset.sum_nonneg (fun p _ => mul_self_nonneg _)) (by norm_num), rvar_coe hr q⟩

end Cert.Spec

end
-- ==== Proof.RefLayerIdx.lean ====
import Idealize.ShloMosaic.Lib.IdealHost
import Idealize.ShloMosaic.Lib.StackMember
import Idealize.ShloMosaic.Lib.Pipeline.Value
import proofs.«401895_j21930103014155_2_alg».proof.Proof.RefLayerArr
import proofs.«401895_j21930103014155_2_alg».proof.Proof.SpecStats

noncomputable section

namespace Cert.ReferenceIdeal.RefLayer

open Idealize.ShloMosaic Idealize.ShloMosaic.ValueIdx
open Cert.ReferenceIdeal Cert.ReferenceIdeal.Facts₀
open scoped BigOperators

variable [Facts₀]

theorem rowsBcast_apply (x : FVec Ideal S1x256 .f32) (p : Fin 50000) (q : Fin 256) :
    broadcastInDim S50000x256 ![0, 1] bcast_S1x256_S50000x256_0_1 x (ix2 p q) = x (ix2 (0 : Fin 1) q) := by
  refine broadcastInDim_apply _ _ _ (ix2 p q) (ix2 (0 : Fin 1) q) ?_
  intro a
  match a with
  | ⟨0, _⟩ => rfl
  | ⟨1, _⟩ => rfl

theorem unitRowBcast_apply (v : FVec Ideal S256 .f32) (q : Fin 256) :
    broadcastInDim S1x256 ![1] bcast_S256_S1x256_1 v (ix2 (0 : Fin 1) q) = v (ix1 q) := by
  refine broadcastInDim_apply _ _ _ (ix2 (0 : Fin 1) q) (ix1 q) ?_
  intro a
  match a with
  | ⟨0, _⟩ => rfl

-- a row vector repeated down the rows: first down the rows, then the unit axis
theorem rowBcast_apply (v : FVec Ideal S256 .f32) (p : Fin 50000) (q : Fin 256) :
    broadcastInDim S50000x256 ![0, 1] bcast_S1x256_S50000x256_0_1
      (broadcastInDim S1x256 ![1] bcast_S256_S1x256_1 v) (ix2 p q) = v (ix1 q) :=
  (rowsBcast_apply _ p q).trans (unitRowBcast_apply v q)

theorem scalarBcast2_apply (x : FVec Ideal S_ .f32) (p : Fin 50000) (q : Fin 256) :
    broadcastInDim S50000x256 ![] bcast_S_S50000x256 x (ix2 p q) = x ix0 :=
  broadcastInDim_scalar_apply _ _ _

theorem scalarBcast1_apply (x : FVec Ideal S_ .f32) (q : Fin 256) :
    broadcastInDim S256 ![] bcast_S_S256 x (ix1 q) = x ix0 :=
  broadcastInDim_scalar_apply _ _ _

theorem scalarBcastRow_apply (x : FVec Ideal S_ .f32) (q : Fin 256) :
    broadcastInDim S1x256 ![] bcast_S_S1x256 x (ix2 (0 : Fin 1) q) = x ix0 :=
  broadcastInDim_scalar_apply _ _ _

theorem colSum_apply (z : FVec Ideal S50000x256 .f32) (c : FVec Ideal S_ .f32) (q : Fin 256) :
    Host.reduceAdd (F := Ideal) z c reducesTo_S50000x256_S256_d0 h_S_ (ix1 q)
      = c ix0 + ∑ p : Fin 50000, z (ix2 p q) := by
  have hR : S50000x256.Reduces [0] S256 := by decide
  rw [hostReduceAdd_apply, Ideal.hostReduceAdd_single reducesTo_S50000x256_S256_d0 hR]
  have h0 : c (Shape.Idx.first h_S_) = c ix0 := congrArg c (funext fun a => a.elim0)
  have hl : ∀ k : Fin 50000, hR.lift (ix1 q) k = ix2 k q := fun k => funext fun a => Fin.ext (by
    match a with
    | ⟨0, _⟩ => rfl
    | ⟨1, _⟩ => rfl)
  rw [h0]
  exact congrArg (c ix0 + ·) (Finset.sum_congr rfl fun k _ => congrArg z (hl k))

-- the reference's product has the plain product's dimension numbers
theorem dot_apply (A : FVec Ideal S50000x256 .f32) (W : FVec Ideal S256x256 .f32) (p : Fin 50000) (q : Fin 256) :
    Host.dotGeneral (F := Ideal) dot_S50000x256_S256x256_S50000x256_1_0_0_1_n_n none A W (ix2 p q)
      = ∑ k : Fin 256, A (ix2 p k) * W (ix2 k q) :=
  StackMember.dotGeneral_plain_apply none A W p q

abbrev toMat {n m : ℕ} (x : FVec Ideal ⟨2, ![n, m]⟩ .f32) : Fin n → Fin m → EReal := fun p q => x (ix2 p q)
abbrev toRow {m : ℕ} (x : FVec Ideal ⟨1, ![m]⟩ .f32) : Fin m → EReal := fun q => x (ix1 q)

theorem z0Arr_apply (h a : FVec Ideal S50000x256 .f32) (e : FVec Ideal S_ .f32) (p : Fin 50000) (q : Fin 256) :
    z0Arr h a e (ix2 p q) = Spec.zpre (e ix0) (toMat h) (toMat a) p q := by
  unfold z0Arr
  rw [addf_apply, mulf_apply, scalarBcast2_apply, addf_apply, constant_apply]
  rfl

theorem linArr_apply (a : FVec Ideal S50000x256 .f32) (W : FVec Ideal S256x256 .f32) (b : FVec Ideal S256 .f32)
    (p : Fin 50000) (q : Fin 256) :
    linArr a W b (ix2 p q) = Spec.lin (toMat a) (toMat W) (toRow b) p q := by
  unfold linArr
  rw [addf_apply, dot_apply, rowBcast_apply]
  rfl

theorem meanArr_apply (z : FVec Ideal S50000x256 .f32) (q : Fin 256) :
    meanArr z (ix1 q) = Spec.rmean (toMat z) q := by
  unfold meanArr
  rw [hostDivf_apply, colSum_apply, scalarBcast1_apply, constant_apply, constant_apply]
  rfl

theorem count_sub_zero :
    Ideal.ofBits .f32 0x47435000#32 - FloatOps.sitofp (F := Ideal) .f32 (0#32 : BitVec 32) = Spec.cN := by
  show Spec.cN - (((0#32 : BitVec 32).toInt : ℝ) : EReal) = Spec.cN
  simp

theorem zero_lt_count : Spec.c0 < Spec.cN := by
  rw [Spec.c0_eq, Spec.cN_eq]
  exact_mod_cast (by norm_num : (0 : ℝ) < 50000)

theorem count_gt_zero :
    FloatOps.cmpf (F := Ideal) (φ := .f32) .ogt
      (Ideal.ofBits .f32 0x47435000#32 - FloatOps.sitofp (F := Ideal) .f32 (0#32 : BitVec 32))
      (Ideal.ofBits .f32 0x00000000#32) = 1#1 := by
  rw [count_sub_zero]
  show BitVec.ofBool (decide (Spec.c0 < Spec.cN)) = 1#1
  rw [decide_eq_true zero_lt_count]
  rfl

theorem devArr_apply (z : FVec Ideal S50000x256 .f32) (p : Fin 50000) (q : Fin 256) :
    devArr z (ix2 p q) = toMat z p q - Spec.rmean (toMat z) q := by
  unfold devArr
  rw [subf_apply, rowsBcast_apply, hostDivf_apply, unitRowBcast_apply, colSum_apply, scalarBcastRow_apply,
    constant_apply, constant_apply]
  rfl

theorem varArr_apply (z : FVec Ideal S50000x256 .f32) (q : Fin 256) :
    varArr z (ix1 q) = Spec.rvar (toMat z) q := by
  unfold varArr
  have hc : broadcastInDim S256 ![] bcast_S_S256
      (cmpf .ogt cntArr (constant (F := Ideal) S_ .f32 0x00000000#32)) (ix1 q) = 1#1 := by
    rw [broadcastInDim_scalar_apply]
    exact count_gt_zero
  have hdv : broadcastInDim S256 ![] bcast_S_S256 cntArr (ix1 q) = Spec.cN := by
    rw [scalarBcast1_apply]
    exact count_sub_zero
  rw [select_apply, hc, select_one, hostDivf_apply, hdv, colSum_apply, constant_apply]
  refine congrArg (fun s => Ideal.div (Spec.c0 + s) Spec.cN) (Finset.sum_congr rfl fun p _ => ?_)
  rw [mulf_apply, devArr_apply]

theorem normArr_apply (z : FVec Ideal S50000x256 .f32) (m v g bt : FVec Ideal S256 .f32) (p : Fin 50000) (q : Fin 256) :
    normArr z m v g bt (ix2 p q) = Spec.norm (toMat z) (toRow m) (toRow v) (toRow g) (toRow bt) p q := by
  unfold normArr
  rw [addf_apply, mulf_apply, mulf_apply, subf_apply, rowBcast_apply, rowBcast_apply, rowBcast_apply, rowBcast_apply]
  show (z (ix2 p q) - m (ix1 q)) * Ideal.rsqrt (addf v (broadcastInDim S256 ![] bcast_S_S256
      (constant (F := Ideal) S_ .f32 0x3727C5AC#32)) (ix1 q)) * g (ix1 q) + bt (ix1 q) = _
  rw [addf_apply, scalarBcast1_apply, constant_apply]
  rfl

theorem reluArr_apply (x : FVec Ideal S50000x256 .f32) (p : Fin 50000) (q : Fin 256) :
    reluArr x (ix2 p q) = Spec.reluM (toMat x) p q := by
  unfold reluArr
  rw [maximumf_apply, scalarBcast2_apply, constant_apply]
  rfl

theorem toMat_z0Arr (h a : FVec Ideal S50000x256 .f32) (e : FVec Ideal S_ .f32) :
    toMat (z0Arr h a e) = Spec.zpre (e ix0) (toMat h) (toMat a) :=
  funext fun p => funext fun q => z0Arr_apply h a e p q

theorem toMat_linArr (a : FVec Ideal S50000x256 .f32) (W : FVec Ideal S256x256 .f32) (b : FVec Ideal S256 .f32) :
    toMat (linArr a W b) = Spec.lin (toMat a) (toMat W) (toRow b) :=
  funext fun p => funext fun q => linArr_apply a W b p q

theorem toRow_meanArr (z : FVec Ideal S50000x256 .f32) : toRow (meanArr z) = Spec.rmean (toMat z) :=
  funext fun q => meanArr_apply z q

theorem toRow_varArr (z : FVec Ideal S50000x256 .f32) : toRow (varArr z) = Spec.rvar (toMat z) :=
  funext fun q => varArr_apply z q

theorem toMat_bnArr (z : FVec Ideal S50000x256 .f32) (g bt : FVec Ideal S256 .f32) :
    toMat (bnArr z g bt) = Spec.rbn (toMat z) (toRow g) (toRow bt) := by
  funext p q
  show bnArr z g bt (ix2 p q) = _
  unfold bnArr
  rw [normArr_apply, toRow_meanArr, toRow_varArr]
  rfl

theorem toMat_reluArr (x : FVec Ideal S50000x256 .f32) : toMat (reluArr x) = Spec.reluM (toMat x) :=
  funext fun p => funext fun q => reluArr_apply x p q

theorem toMat_z2 (h : FVec Ideal S50000x256 .f32) (a : FVec Ideal S50000x256 .f32) (e : FVec Ideal S_ .f32)
    (W1 : FVec Ideal S256x256 .f32) (b1 g1 bt1 : FVec Ideal S256 .f32)
    (W2 : FVec Ideal S256x256 .f32) (b2 : FVec Ideal S256 .f32) :
    toMat (linArr (reluArr (bnArr (linArr (z0Arr h a e) W1 b1) g1 bt1)) W2 b2) =
      Spec.lin (Spec.reluM (Spec.rbn (Spec.lin (Spec.zpre (e ix0) (toMat h) (toMat a)) (toMat W1) (toRow b1))
        (toRow g1) (toRow bt1))) (toMat W2) (toRow b2) := by
  rw [toMat_linArr, toMat_reluArr, toMat_bnArr, toMat_linArr, toMat_z0Arr]

theorem layerArr_apply (last : Bool) (h : FVec Ideal S50000x256 .f32) (src dst : IVec S300000 32)
    (e : FVec Ideal S_ .f32) (W1 : FVec Ideal S256x256 .f32) (b1 g1 bt1 : FVec Ideal S256 .f32)
    (W2 : FVec Ideal S256x256 .f32) (b2 bng bnb : FVec Ideal S256 .f32) (p : Fin 50000) (q : Fin 256) :
    layerArr last h src dst e W1 b1 g1 bt1 W2 b2 bng bnb (ValueIdx.ix2 p q) =
      Cert.Spec.rLayer last (e ValueIdx.ix0) (fun p q => h (ValueIdx.ix2 p q))
        (fun p q => agg h src dst (ValueIdx.ix2 p q)) (fun k q => W1 (ValueIdx.ix2 k q))
        (fun q => b1 (ValueIdx.ix1 q)) (fun q => g1 (ValueIdx.ix1 q)) (fun q => bt1 (ValueIdx.ix1 q))
        (fun k q => W2 (ValueIdx.ix2 k q)) (fun q => b2 (ValueIdx.ix1 q)) (fun q => bng (ValueIdx.ix1 q))
        (fun q => bnb (ValueIdx.ix1 q)) p q := by
  unfold layerArr preArr
  cases last
  · rw [if_neg Bool.false_ne_true]
    show toMat (reluArr _) p q = _
    rw [toMat_reluArr, toMat_bnArr, toMat_z2]
    rfl
  · rw [if_pos rfl]
    show toMat (bnArr _ _ _) p q = _
    rw [toMat_bnArr, toMat_z2]
    rfl

end Cert.ReferenceIdeal.RefLayer

end
-- ==== Proof.RefValIdx.lean ====
import proofs.«401895_j21930103014155_2_alg».proof.ReferenceIdeal
import Idealize.ShloMosaic.Lib.StableHlo.Run
import Idealize.ShloMosaic.Lib.Pipeline.Value
import Idealize.ShloMosaic.Lib.ValueIdx
import Idealize.ShloMosaic.Lib.ValueLayout

noncomputable section

namespace Cert.ReferenceIdeal.RefVal

open Cert.ReferenceIdeal Idealize.ShloMosaic Idealize.ShloMosaic.ValueIdx

variable {α : Type}

theorem scalar_at (o : Nat) (ho : o < 5) (x : S5.Idx → α) (hs : S5.Slices ![o] S1) (hc : S1.ShapeCasts S_) :
    shapeCast S_ (extractStridedSlice S1 ![o] x hs) hc ix0 = x (ix1 (⟨o, ho⟩ : Fin 5)) := by
  rw [shapeCast_apply (extractStridedSlice S1 ![o] x hs) hc ix0 (ix1 (0 : Fin 1))
    (by rw [Shape.rowMajor_val_one]; exact (Shape.rowMajorPi_zero _ _).symm)]
  exact extractStridedSlice_apply _ x hs _ _ fun a => match a with
    | ⟨0, _⟩ => by show o = o + 0; omega

theorem mat_at (o : Nat) (ho : o < 5) (x : S5x256x256.Idx → α) (hs : S5x256x256.Slices ![o, 0, 0] S1x256x256)
    (hc : S1x256x256.ShapeCasts S256x256) (k q : Fin 256) :
    shapeCast S256x256 (extractStridedSlice S1x256x256 ![o, 0, 0] x hs) hc (ix2 k q) = x (ix3 (⟨o, ho⟩ : Fin 5) k q) := by
  rw [shapeCast_1ab_ab_apply]
  exact extractStridedSlice_apply _ x hs _ _ fun a => match a with
    | ⟨0, _⟩ => by show o = o + 0; omega
    | ⟨1, _⟩ => by show k.val = 0 + k.val; omega
    | ⟨2, _⟩ => by show q.val = 0 + q.val; omega

theorem row_at (o : Nat) (ho : o < 5) (x : S5x256.Idx → α) (hs : S5x256.Slices ![o, 0] S1x256)
    (hc : S1x256.ShapeCasts S256) (q : Fin 256) :
    shapeCast S256 (extractStridedSlice S1x256 ![o, 0] x hs) hc (ix1 q) = x (ix2 (⟨o, ho⟩ : Fin 5) q) := by
  rw [shapeCast_1a_a_apply]
  exact extractStridedSlice_apply _ x hs _ _ fun a => match a with
    | ⟨0, _⟩ => by show o = o + 0; omega
    | ⟨1, _⟩ => by show q.val = 0 + q.val; omega

end Cert.ReferenceIdeal.RefVal

end
-- ==== Proof.RefVal0.lean ====
import proofs.«401895_j21930103014155_2_alg».proof.Proof.RefOps0
import proofs.«401895_j21930103014155_2_alg».proof.Proof.RefLayerIdx
import proofs.«401895_j21930103014155_2_alg».proof.Proof.RefValIdx

noncomputable section

namespace Cert.ReferenceIdeal.RefVal

open Cert.ReferenceIdeal Cert.ReferenceIdeal.Gen Idealize.ShloMosaic Idealize.ShloMosaic.TcCoe Idealize.ShloMosaic.ValueIdx
  Idealize.ShloMosaic.StableHlo

-- reading the result buffer back through the list composes the operations' functions into the layer function
attribute [local irreducible] Host.gather Host.scatterAdd Host.reduceAdd Host.divf Host.rsqrt in
set_option maxRecDepth 65536 in
set_option maxHeartbeats 4000000 in
theorem arr_0 (V : Valuation τ sig (Elt Ideal)) :
    StableHlo.after (RefRun.L0 (F := Ideal)) V (main_v80 : DevRef τ sig)
      = RefLayer.layerArr false (V (main_arg0 : DevRef τ sig)) (V (main_arg1 : DevRef τ sig)) (V (main_arg2 : DevRef τ sig))
          (shapeCast S_ (extractStridedSlice S1 ![0] (V (main_arg9 : DevRef τ sig)) slices_S5_S1_0) shapeCasts_S1_S_)
          (shapeCast S256x256 (extractStridedSlice S1x256x256 ![0, 0, 0] (V (main_arg3 : DevRef τ sig)) slices_S5x256x256_S1x256x256_0_0_0) shapeCasts_S1x256x256_S256x256)
          (shapeCast S256 (extractStridedSlice S1x256 ![0, 0] (V (main_arg4 : DevRef τ sig)) slices_S5x256_S1x256_0_0) shapeCasts_S1x256_S256)
          (shapeCast S256 (extractStridedSlice S1x256 ![0, 0] (V (main_arg5 : DevRef τ sig)) slices_S5x256_S1x256_0_0) shapeCasts_S1x256_S256)
          (shapeCast S256 (extractStridedSlice S1x256 ![0, 0] (V (main_arg6 : DevRef τ sig)) slices_S5x256_S1x256_0_0) shapeCasts_S1x256_S256)
          (shapeCast S256x256 (extractStridedSlice S1x256x256 ![0, 0, 0] (V (main_arg7 : DevRef τ sig)) slices_S5x256x256_S1x256x256_0_0_0) shapeCasts_S1x256x256_S256x256)
          (shapeCast S256 (extractStridedSlice S1x256 ![0, 0] (V (main_arg8 : DevRef τ sig)) slices_S5x256_S1x256_0_0) shapeCasts_S1x256_S256)
          (shapeCast S256 (extractStridedSlice S1x256 ![0, 0] (V (main_arg10 : DevRef τ sig)) slices_S5x256_S1x256_0_0) shapeCasts_S1x256_S256)
          (shapeCast S256 (extractStridedSlice S1x256 ![0, 0] (V (main_arg11 : DevRef τ sig)) slices_S5x256_S1x256_0_0) shapeCasts_S1x256_S256) := by
  simp only [RefRun.L0, after_append]
  after_results_simp
  rfl

theorem step_0 (V : Valuation τ sig (Elt Ideal)) (p : Fin 50000) (q : Fin 256) :
    StableHlo.after (RefRun.L0 (F := Ideal)) V (main_v80 : DevRef τ sig) (ix2 p q)
      = Cert.Spec.rLayer false (V (main_arg9 : DevRef τ sig) (ix1 (0 : Fin 5)))
          (fun p k => V (main_arg0 : DevRef τ sig) (ix2 p k))
          (fun p k => RefLayer.agg (V (main_arg0 : DevRef τ sig)) (V (main_arg1 : DevRef τ sig)) (V (main_arg2 : DevRef τ sig)) (ix2 p k))
          (fun k q => V (main_arg3 : DevRef τ sig) (ix3 (0 : Fin 5) k q))
          (fun q => V (main_arg4 : DevRef τ sig) (ix2 (0 : Fin 5) q))
          (fun q => V (main_arg5 : DevRef τ sig) (ix2 (0 : Fin 5) q))
          (fun q => V (main_arg6 : DevRef τ sig) (ix2 (0 : Fin 5) q))
          (fun k q => V (main_arg7 : DevRef τ sig) (ix3 (0 : Fin 5) k q))
          (fun q => V (main_arg8 : DevRef τ sig) (ix2 (0 : Fin 5) q))
          (fun q => V (main_arg10 : DevRef τ sig) (ix2 (0 : Fin 5) q))
          (fun q => V (main_arg11 : DevRef τ sig) (ix2 (0 : Fin 5) q)) p q := by
  rw [arr_0 V, RefLayer.layerArr_apply]
  simp only [scalar_at 0 (by decide), mat_at 0 (by decide), row_at 0 (by decide)] <;> rfl

end Cert.ReferenceIdeal.RefVal

end
-- ==== Proof.RefVal1.lean ====
import proofs.«401895_j21930103014155_2_alg».proof.Proof.RefOps1
import proofs.«401895_j21930103014155_2_alg».proof.Proof.RefLayerIdx
import proofs.«401895_j21930103014155_2_alg».proof.Proof.RefValIdx

noncomputable section

namespace Cert.ReferenceIdeal.RefVal

open Cert.ReferenceIdeal Cert.ReferenceIdeal.Gen Idealize.ShloMosaic Idealize.ShloMosaic.TcCoe Idealize.ShloMosaic.ValueIdx
  Idealize.ShloMosaic.StableHlo

-- reading the result buffer back through the list composes the operations' functions into the layer function
attribute [local irreducible] Host.gather Host.scatterAdd Host.reduceAdd Host.divf Host.rsqrt in
set_option maxRecDepth 65536 in
set_option maxHeartbeats 4000000 in
theorem arr_1 (V : Valuation τ sig (Elt Ideal)) :
    StableHlo.after (RefRun.L1 (F := Ideal)) V (main_v161 : DevRef τ sig)
      = RefLayer.layerArr false (V (main_v80 : DevRef τ sig)) (V (main_arg1 : DevRef τ sig)) (V (main_arg2 : DevRef τ sig))
          (shapeCast S_ (extractStridedSlice S1 ![1] (V (main_arg9 : DevRef τ sig)) slices_S5_S1_1) shapeCasts_S1_S_)
          (shapeCast S256x256 (extractStridedSlice S1x256x256 ![1, 0, 0] (V (main_arg3 : DevRef τ sig)) slices_S5x256x256_S1x256x256_1_0_0) shapeCasts_S1x256x256_S256x256)
          (shapeCast S256 (extractStridedSlice S1x256 ![1, 0] (V (main_arg4 : DevRef τ sig)) slices_S5x256_S1x256_1_0) shapeCasts_S1x256_S256)
          (shapeCast S256 (extractStridedSlice S1x256 ![1, 0] (V (main_arg5 : DevRef τ sig)) slices_S5x256_S1x256_1_0) shapeCasts_S1x256_S256)
          (shapeCast S256 (extractStridedSlice S1x256 ![1, 0] (V (main_arg6 : DevRef τ sig)) slices_S5x256_S1x256_1_0) shapeCasts_S1x256_S256)
          (shapeCast S256x256 (extractStridedSlice S1x256x256 ![1, 0, 0] (V (main_arg7 : DevRef τ sig)) slices_S5x256x256_S1x256x256_1_0_0) shapeCasts_S1x256x256_S256x256)
          (shapeCast S256 (extractStridedSlice S1x256 ![1, 0] (V (main_arg8 : DevRef τ sig)) slices_S5x256_S1x256_1_0) shapeCasts_S1x256_S256)
          (shapeCast S256 (extractStridedSlice S1x256 ![1, 0] (V (main_arg10 : DevRef τ sig)) slices_S5x256_S1x256_1_0) shapeCasts_S1x256_S256)
          (shapeCast S256 (extractStridedSlice S1x256 ![1, 0] (V (main_arg11 : DevRef τ sig)) slices_S5x256_S1x256_1_0) shapeCasts_S1x256_S256) := by
  simp only [RefRun.L1, after_append]
  after_results_simp
  rfl

theorem step_1 (V : Valuation τ sig (Elt Ideal)) (p : Fin 50000) (q : Fin 256) :
    StableHlo.after (RefRun.L1 (F := Ideal)) V (main_v161 : DevRef τ sig) (ix2 p q)
      = Cert.Spec.rLayer false (V (main_arg9 : DevRef τ sig) (ix1 (1 : Fin 5)))
          (fun p k => V (main_v80 : DevRef τ sig) (ix2 p k))
          (fun p k => RefLayer.agg (V (main_v80 : DevRef τ sig)) (V (main_arg1 : DevRef τ sig)) (V (main_arg2 : DevRef τ sig)) (ix2 p k))
          (fun k q => V (main_arg3 : DevRef τ sig) (ix3 (1 : Fin 5) k q))
          (fun q => V (main_arg4 : DevRef τ sig) (ix2 (1 : Fin 5) q))
          (fun q => V (main_arg5 : DevRef τ sig) (ix2 (1 : Fin 5) q))
          (fun q => V (main_arg6 : DevRef τ sig) (ix2 (1 : Fin 5) q))
          (fun k q => V (main_arg7 : DevRef τ sig) (ix3 (1 : Fin 5) k q))
          (fun q => V (main_arg8 : DevRef τ sig) (ix2 (1 : Fin 5) q))
          (fun q => V (main_arg10 : DevRef τ sig) (ix2 (1 : Fin 5) q))
          (fun q => V (main_arg11 : DevRef τ sig) (ix2 (1 : Fin 5) q)) p q := by
  rw [arr_1 V, RefLayer.layerArr_apply]
  simp only [scalar_at 1 (by decide), mat_at 1 (by decide), row_at 1 (by decide)] <;> rfl

end Cert.ReferenceIdeal.RefVal

end
-- ==== Proof.RefVal2.lean ====
import proofs.«401895_j21930103014155_2_alg».proof.Proof.RefOps2
import proofs.«401895_j21930103014155_2_alg».proof.Proof.RefLayerIdx
import proofs.«401895_j21930103014155_2_alg».proof.Proof.RefValIdx

noncomputable section

namespace Cert.ReferenceIdeal.RefVal

open Cert.ReferenceIdeal Cert.ReferenceIdeal.Gen Idealize.ShloMosaic Idealize.ShloMosaic.TcCoe Idealize.ShloMosaic.ValueIdx
  Idealize.ShloMosaic.StableHlo

-- reading the result buffer back through the list composes the operations' functions into the layer function
attribute [local irreducible] Host.gather Host.scatterAdd Host.reduceAdd Host.divf Host.rsqrt in
set_option maxRecDepth 65536 in
set_option maxHeartbeats 4000000 in
theorem arr_2 (V : Valuation τ sig (Elt Ideal)) :
    StableHlo.after (RefRun.L2 (F := Ideal)) V (main_v242 : DevRef τ sig)
      = RefLayer.layerArr false (V (main_v161 : DevRef τ sig)) (V (main_arg1 : DevRef τ sig)) (V (main_arg2 : DevRef τ sig))
          (shapeCast S_ (extractStridedSlice S1 ![2] (V (main_arg9 : DevRef τ sig)) slices_S5_S1_2) shapeCasts_S1_S_)
          (shapeCast S256x256 (extractStridedSlice S1x256x256 ![2, 0, 0] (V (main_arg3 : DevRef τ sig)) slices_S5x256x256_S1x256x256_2_0_0) shapeCasts_S1x256x256_S256x256)
          (shapeCast S256 (extractStridedSlice S1x256 ![2, 0] (V (main_arg4 : DevRef τ sig)) slices_S5x256_S1x256_2_0) shapeCasts_S1x256_S256)
          (shapeCast S256 (extractStridedSlice S1x256 ![2, 0] (V (main_arg5 : DevRef τ sig)) slices_S5x256_S1x256_2_0) shapeCasts_S1x256_S256)
          (shapeCast S256 (extractStridedSlice S1x256 ![2, 0] (V (main_arg6 : DevRef τ sig)) slices_S5x256_S1x256_2_0) shapeCasts_S1x256_S256)
          (shapeCast S256x256 (extractStridedSlice S1x256x256 ![2, 0, 0] (V (main_arg7 : DevRef τ sig)) slices_S5x256x256_S1x256x256_2_0_0) shapeCasts_S1x256x256_S256x256)
          (shapeCast S256 (extractStridedSlice S1x256 ![2, 0] (V (main_arg8 : DevRef τ sig)) slices_S5x256_S1x256_2_0) shapeCasts_S1x256_S256)
          (shapeCast S256 (extractStridedSlice S1x256 ![2, 0] (V (main_arg10 : DevRef τ sig)) slices_S5x256_S1x256_2_0) shapeCasts_S1x256_S256)
          (shapeCast S256 (extractStridedSlice S1x256 ![2, 0] (V (main_arg11 : DevRef τ sig)) slices_S5x256_S1x256_2_0) shapeCasts_S1x256_S256) := by
  simp only [RefRun.L2, after_append]
  after_results_simp
  rfl

theorem step_2 (V : Valuation τ sig (Elt Ideal)) (p : Fin 50000) (q : Fin 256) :
    StableHlo.after (RefRun.L2 (F := Ideal)) V (main_v242 : DevRef τ sig) (ix2 p q)
      = Cert.Spec.rLayer false (V (main_arg9 : DevRef τ sig) (ix1 (2 : Fin 5)))
          (fun p k => V (main_v161 : DevRef τ sig) (ix2 p k))
          (fun p k => RefLayer.agg (V (main_v161 : DevRef τ sig)) (V (main_arg1 : DevRef τ sig)) (V (main_arg2 : DevRef τ sig)) (ix2 p k))
          (fun k q => V (main_arg3 : DevRef τ sig) (ix3 (2 : Fin 5) k q))
          (fun q => V (main_arg4 : DevRef τ sig) (ix2 (2 : Fin 5) q))
          (fun q => V (main_arg5 : DevRef τ sig) (ix2 (2 : Fin 5) q))
          (fun q => V (main_arg6 : DevRef τ sig) (ix2 (2 : Fin 5) q))
          (fun k q => V (main_arg7 : DevRef τ sig) (ix3 (2 : Fin 5) k q))
          (fun q => V (main_arg8 : DevRef τ sig) (ix2 (2 : Fin 5) q))
          (fun q => V (main_arg10 : DevRef τ sig) (ix2 (2 : Fin 5) q))
          (fun q => V (main_arg11 : DevRef τ sig) (ix2 (2 : Fin 5) q)) p q := by
  rw [arr_2 V, RefLayer.layerArr_apply]
  simp only [scalar_at 2 (by decide), mat_at 2 (by decide), row_at 2 (by decide)] <;> rfl

end Cert.ReferenceIdeal.RefVal

end
-- ==== Proof.RefVal3.lean ====
import proofs.«401895_j21930103014155_2_alg».proof.Proof.RefOps3
import proofs.«401895_j21930103014155_2_alg».proof.Proof.RefLayerIdx
import proofs.«401895_j21930103014155_2_alg».proof.Proof.RefValIdx

noncomputable section

namespace Cert.ReferenceIdeal.RefVal

open Cert.ReferenceIdeal Cert.ReferenceIdeal.Gen Idealize.ShloMosaic Idealize.ShloMosaic.TcCoe Idealize.ShloMosaic.ValueIdx
  Idealize.ShloMosaic.StableHlo

-- reading the result buffer back through the list composes the operations' functions into the layer function
attribute [local irreducible] Host.gather Host.scatterAdd Host.reduceAdd Host.divf Host.rsqrt in
set_option maxRecDepth 65536 in
set_option maxHeartbeats 4000000 in
theorem arr_3 (V : Valuation τ sig (Elt Ideal)) :
    StableHlo.after (RefRun.L3 (F := Ideal)) V (main_v323 : DevRef τ sig)
      = RefLayer.layerArr false (V (main_v242 : DevRef τ sig)) (V (main_arg1 : DevRef τ sig)) (V (main_arg2 : DevRef τ sig))
          (shapeCast S_ (extractStridedSlice S1 ![3] (V (main_arg9 : DevRef τ sig)) slices_S5_S1_3) shapeCasts_S1_S_)
          (shapeCast S256x256 (extractStridedSlice S1x256x256 ![3, 0, 0] (V (main_arg3 : DevRef τ sig)) slices_S5x256x256_S1x256x256_3_0_0) shapeCasts_S1x256x256_S256x256)
          (shapeCast S256 (extractStridedSlice S1x256 ![3, 0] (V (main_arg4 : DevRef τ sig)) slices_S5x256_S1x256_3_0) shapeCasts_S1x256_S256)
          (shapeCast S256 (extractStridedSlice S1x256 ![3, 0] (V (main_arg5 : DevRef τ sig)) slices_S5x256_S1x256_3_0) shapeCasts_S1x256_S256)
          (shapeCast S256 (extractStridedSlice S1x256 ![3, 0] (V (main_arg6 : DevRef τ sig)) slices_S5x256_S1x256_3_0) shapeCasts_S1x256_S256)
          (shapeCast S256x256 (extractStridedSlice S1x256x256 ![3, 0, 0] (V (main_arg7 : DevRef τ sig)) slices_S5x256x256_S1x256x256_3_0_0) shapeCasts_S1x256x256_S256x256)
          (shapeCast S256 (extractStridedSlice S1x256 ![3, 0] (V (main_arg8 : DevRef τ sig)) slices_S5x256_S1x256_3_0) shapeCasts_S1x256_S256)
          (shapeCast S256 (extractStridedSlice S1x256 ![3, 0] (V (main_arg10 : DevRef τ sig)) slices_S5x256_S1x256_3_0) shapeCasts_S1x256_S256)
          (shapeCast S256 (extractStridedSlice S1x256 ![3, 0] (V (main_arg11 : DevRef τ sig)) slices_S5x256_S1x256_3_0) shapeCasts_S1x256_S256) := by
  simp only [RefRun.L3, after_append]
  after_results_simp
  rfl

theorem step_3 (V : Valuation τ sig (Elt Ideal)) (p : Fin 50000) (q : Fin 256) :
    StableHlo.after (RefRun.L3 (F := Ideal)) V (main_v323 : DevRef τ sig) (ix2 p q)
      = Cert.Spec.rLayer false (V (main_arg9 : DevRef τ sig) (ix1 (3 : Fin 5)))
          (fun p k => V (main_v242 : DevRef τ sig) (ix2 p k))
          (fun p k => RefLayer.agg (V (main_v242 : DevRef τ sig)) (V (main_arg1 : DevRef τ sig)) (V (main_arg2 : DevRef τ sig)) (ix2 p k))
          (fun k q => V (main_arg3 : DevRef τ sig) (ix3 (3 : Fin 5) k q))
          (fun q => V (main_arg4 : DevRef τ sig) (ix2 (3 : Fin 5) q))
          (fun q => V (main_arg5 : DevRef τ sig) (ix2 (3 : Fin 5) q))
          (fun q => V (main_arg6 : DevRef τ sig) (ix2 (3 : Fin 5) q))
          (fun k q => V (main_arg7 : DevRef τ sig) (ix3 (3 : Fin 5) k q))
          (fun q => V (main_arg8 : DevRef τ sig) (ix2 (3 : Fin 5) q))
          (fun q => V (main_arg10 : DevRef τ sig) (ix2 (3 : Fin 5) q))
          (fun q => V (main_arg11 : DevRef τ sig) (ix2 (3 : Fin 5) q)) p q := by
  rw [arr_3 V, RefLayer.layerArr_apply]
  simp only [scalar_at 3 (by decide), mat_at 3 (by decide), row_at 3 (by decide)] <;> rfl

end Cert.ReferenceIdeal.RefVal

end
-- ==== Proof.RefVal4.lean ====
import proofs.«401895_j21930103014155_2_alg».proof.Proof.RefOps4
import proofs.«401895_j21930103014155_2_alg».proof.Proof.RefLayerIdx
import proofs.«401895_j21930103014155_2_alg».proof.Proof.RefValIdx

noncomputable section

namespace Cert.ReferenceIdeal.RefVal

open Cert.ReferenceIdeal Cert.ReferenceIdeal.Gen Idealize.ShloMosaic Idealize.ShloMosaic.TcCoe Idealize.ShloMosaic.ValueIdx
  Idealize.ShloMosaic.StableHlo

-- reading the result buffer back through the list composes the operations' functions into the layer function
attribute [local irreducible] Host.gather Host.scatterAdd Host.reduceAdd Host.divf Host.rsqrt in
set_option maxRecDepth 65536 in
set_option maxHeartbeats 4000000 in
theorem arr_4 (V : Valuation τ sig (Elt Ideal)) :
    StableHlo.after (RefRun.L4 (F := Ideal)) V (main_v403 : DevRef τ sig)
      = RefLayer.layerArr true (V (main_v323 : DevRef τ sig)) (V (main_arg1 : DevRef τ sig)) (V (main_arg2 : DevRef τ sig))
          (shapeCast S_ (extractStridedSlice S1 ![4] (V (main_arg9 : DevRef τ sig)) slices_S5_S1_4) shapeCasts_S1_S_)
          (shapeCast S256x256 (extractStridedSlice S1x256x256 ![4, 0, 0] (V (main_arg3 : DevRef τ sig)) slices_S5x256x256_S1x256x256_4_0_0) shapeCasts_S1x256x256_S256x256)
          (shapeCast S256 (extractStridedSlice S1x256 ![4, 0] (V (main_arg4 : DevRef τ sig)) slices_S5x256_S1x256_4_0) shapeCasts_S1x256_S256)
          (shapeCast S256 (extractStridedSlice S1x256 ![4, 0] (V (main_arg5 : DevRef τ sig)) slices_S5x256_S1x256_4_0) shapeCasts_S1x256_S256)
          (shapeCast S256 (extractStridedSlice S1x256 ![4, 0] (V (main_arg6 : DevRef τ sig)) slices_S5x256_S1x256_4_0) shapeCasts_S1x256_S256)
          (shapeCast S256x256 (extractStridedSlice S1x256x256 ![4, 0, 0] (V (main_arg7 : DevRef τ sig)) slices_S5x256x256_S1x256x256_4_0_0) shapeCasts_S1x256x256_S256x256)
          (shapeCast S256 (extractStridedSlice S1x256 ![4, 0] (V (main_arg8 : DevRef τ sig)) slices_S5x256_S1x256_4_0) shapeCasts_S1x256_S256)
          (shapeCast S256 (extractStridedSlice S1x256 ![4, 0] (V (main_arg10 : DevRef τ sig)) slices_S5x256_S1x256_4_0) shapeCasts_S1x256_S256)
          (shapeCast S256 (extractStridedSlice S1x256 ![4, 0] (V (main_arg11 : DevRef τ sig)) slices_S5x256_S1x256_4_0) shapeCasts_S1x256_S256) := by
  simp only [RefRun.L4, after_append]
  after_results_simp
  rfl

theorem step_4 (V : Valuation τ sig (Elt Ideal)) (p : Fin 50000) (q : Fin 256) :
    StableHlo.after (RefRun.L4 (F := Ideal)) V (main_v403 : DevRef τ sig) (ix2 p q)
      = Cert.Spec.rLayer true (V (main_arg9 : DevRef τ sig) (ix1 (4 : Fin 5)))
          (fun p k => V (main_v323 : DevRef τ sig) (ix2 p k))
          (fun p k => RefLayer.agg (V (main_v323 : DevRef τ sig)) (V (main_arg1 : DevRef τ sig)) (V (main_arg2 : DevRef τ sig)) (ix2 p k))
          (fun k q => V (main_arg3 : DevRef τ sig) (ix3 (4 : Fin 5) k q))
          (fun q => V (main_arg4 : DevRef τ sig) (ix2 (4 : Fin 5) q))
          (fun q => V (main_arg5 : DevRef τ sig) (ix2 (4 : Fin 5) q))
          (fun q => V (main_arg6 : DevRef τ sig) (ix2 (4 : Fin 5) q))
          (fun k q => V (main_arg7 : DevRef τ sig) (ix3 (4 : Fin 5) k q))
          (fun q => V (main_arg8 : DevRef τ sig) (ix2 (4 : Fin 5) q))
          (fun q => V (main_arg10 : DevRef τ sig) (ix2 (4 : Fin 5) q))
          (fun q => V (main_arg11 : DevRef τ sig) (ix2 (4 : Fin 5) q)) p q := by
  rw [arr_4 V, RefLayer.layerArr_apply]
  simp only [scalar_at 4 (by decide), mat_at 4 (by decide), row_at 4 (by decide)] <;> rfl

end Cert.ReferenceIdeal.RefVal

end
-- ==== Proof.LibAllReal.lean ====
import Idealize.ShloMosaic.PureOps.Ideal.Laws
import Idealize.ShloMosaic.PureOps.Contract
import Idealize.ShloMosaic.PureOps.ShapeOps
import Idealize.ShloMosaic.PureOps.Vector
import Mathlib.Analysis.SpecialFunctions.Pow.Real

noncomputable section

namespace Cert.Spec

open Idealize.ShloMosaic
open scoped BigOperators

def AllReal {S : Shape} (x : S.Idx → EReal) : Prop := ∀ i, ∃ r : ℝ, x i = (r : EReal)

-- The reals are closed under finite sums inside the extended reals.
theorem exists_real_sum {ι : Type} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨ra, hra⟩ := hf a (Finset.mem_insert_self a s)
    obtain ⟨rs, hrs⟩ := ih (fun i hi => hf i (Finset.mem_insert_of_mem hi))
    exact ⟨ra + rs, by rw [Finset.sum_insert ha, hra, hrs, EReal.coe_add]⟩

variable {s t : Shape} {φ : FTy}

-- The inclusion of the reals is monotone, so it commutes with max.
theorem AllReal.maximumf {x y : FVec Ideal s φ} (hx : AllReal x) (hy : AllReal y) :
    AllReal (maximumf (F := Ideal) x y) := fun i => by
  obtain ⟨a, ha⟩ := hx i
  obtain ⟨b, hb⟩ := hy i
  exact ⟨max a b, by show max (x i) (y i) = _; rw [ha, hb]; exact (EReal.coe_strictMono.monotone.map_max).symm⟩

theorem AllReal.constant_zero : AllReal (Idealize.ShloMosaic.constant (F := Ideal) s .f32 0x00000000#32) :=
  fun _ => ⟨0, Ideal.ofBits_zero_f32.trans EReal.coe_zero.symm⟩

-- Each entry of a broadcast or of a gather is an entry of the operand.
theorem AllReal.broadcastInDim {dims : Fin s.rank → Fin t.rank} {h : s.BroadcastsInDim t dims} {x : s.Idx → EReal}
    (hx : AllReal x) : AllReal (broadcastInDim t dims h x) :=
  fun _ => hx _

theorem AllReal.gather {si : Shape} {w : Nat} {d : GatherDims s si t} {x : s.Idx → EReal} {idx : IVec si w}
    (hx : AllReal x) : AllReal (Host.gather d x idx) :=
  fun _ => hx _

-- Each entry of an accumulating scatter is an entry of the operand plus a finite sum of entries of the updates.
theorem AllReal.scatterAdd {si u : Shape} {w : Nat} {d : ScatterDims s si u} {x : FVec Ideal s φ} {idx : IVec si w}
    {upd : FVec Ideal u φ} (hx : AllReal x) (hu : AllReal upd) :
    AllReal (Host.scatterAdd (F := Ideal) d x idx upd) := fun i => by
  obtain ⟨a, ha⟩ := hx i
  have key : ∀ S : Finset u.Idx, ∃ r : ℝ, x i + ∑ j ∈ S, upd j = (r : EReal) := fun S => by
    obtain ⟨b, hb⟩ := exists_real_sum S upd (fun j _ => hu j)
    exact ⟨a + b, by rw [ha, hb, EReal.coe_add]⟩
  exact key _

end Cert.Spec

end
-- ==== Proof.PreFacts.lean ====
import proofs.«401895_j21930103014155_2_alg».proof.Pre_finite_inputs
import proofs.«401895_j21930103014155_2_alg».proof.Proof.LibAllReal
import Idealize.ShloMosaic.Lib.ReduceAll
import Idealize.ShloMosaic.Lib.ValueIdx
import Idealize.ShloMosaic.Lib.Affine

noncomputable section

namespace Cert.PreFacts

open Idealize.ShloMosaic Cert.Spec
open Cert.Pre_finite_inputs Cert.Pre_finite_inputs.Facts

instance : Subsingleton S_.Idx := ⟨fun a b => funext fun d => d.elim0⟩

-- |x| < +∞ excludes both infinities.
theorem exists_real_of_abs_lt_top (x : EReal) (hx : max x (-x) < ⊤) : ∃ r : ℝ, x = (r : EReal) := by
  induction x using EReal.rec with
  | bot => exact absurd hx (by simp)
  | coe r => exact ⟨r, rfl⟩
  | top => exact absurd hx (by simp)

theorem allReal_of_all {s : Shape} {axes : List (Fin s.rank)} (x : FVec Ideal s .f32)
    (b : S_.BroadcastsInDim s (![] : Fin 0 → Fin s.rank)) (r : s.ReducesTo axes S_) (hS : 0 < S_.numel)
    (e : Host.reduce IntOp.andi
          (cmpf .olt (Host.absf x) (broadcastInDim s ![] b (constant (F := Ideal) S_ .f32 0x7F800000#32)))
          (constantI S_ 1 1#1) r hS ValueIdx.ix0 = 1#1) : AllReal x := by
  intro i
  have hi := Host.reduce_andi_all _ _ r hS ValueIdx.ix0 e i
  have htop : Ideal.ofBits .f32 0x7F800000#32 = ⊤ := by simp [Ideal.ofBits, Ideal.ieee]
  have hc : Ideal.cmp .olt (max (x i) (-(x i))) (Ideal.ofBits .f32 0x7F800000#32) = 1#1 := hi
  rw [htop] at hc
  unfold Ideal.cmp at hc
  have hlt : max (x i) (-(x i)) < ⊤ := by
    by_contra hn
    simp [hn] at hc
  exact exists_real_of_abs_lt_top (x i) hlt

theorem sge_of_all (x : IVec S300000 32) (c : BitVec 32)
    (b : S_.BroadcastsInDim S300000 (![] : Fin 0 → Fin S300000.rank)) (r : S300000.ReducesTo [0] S_) (hS : 0 < S_.numel)
    (e : Host.reduce IntOp.andi (cmpi .sge x (broadcastInDim S300000 ![] b (constantI S_ 32 c)))
          (constantI S_ 1 1#1) r hS ValueIdx.ix0 = 1#1) (i : S300000.Idx) : c.toInt ≤ (x i).toInt :=
  IntOp.cmpi_sge.1 (Host.reduce_andi_all _ _ r hS ValueIdx.ix0 e i)

theorem slt_of_all (x : IVec S300000 32) (c : BitVec 32)
    (b : S_.BroadcastsInDim S300000 (![] : Fin 0 → Fin S300000.rank)) (r : S300000.ReducesTo [0] S_) (hS : 0 < S_.numel)
    (e : Host.reduce IntOp.andi (cmpi .slt x (broadcastInDim S300000 ![] b (constantI S_ 32 c)))
          (constantI S_ 1 1#1) r hS ValueIdx.ix0 = 1#1) (i : S300000.Idx) : (x i).toInt < c.toInt :=
  IntOp.cmpi_slt.1 (Host.reduce_andi_all _ _ r hS ValueIdx.ix0 e i)

variable [Cert.Pre_finite_inputs.Facts]

-- The precondition read conjunct by conjunct: real entries everywhere, and src in [-50000, 50000).
theorem of_pre (a0 : FVec Ideal S50000x256 .f32) (a1 a2 : IVec S300000 32) (a3 : FVec Ideal S5x256x256 .f32)
    (a4 a5 a6 : FVec Ideal S5x256 .f32) (a7 : FVec Ideal S5x256x256 .f32) (a8 : FVec Ideal S5x256 .f32)
    (a9 : FVec Ideal S5 .f32) (a10 a11 : FVec Ideal S5x256 .f32)
    (h : Cert.Pre_finite_inputs.fn (F := Ideal) a0 a1 a2 a3 a4 a5 a6 a7 a8 a9 a10 a11 = fun _ => 1#1) :
    AllReal a0 ∧ AllReal a3 ∧ AllReal a4 ∧ AllReal a5 ∧ AllReal a6 ∧ AllReal a7 ∧ AllReal a8 ∧ AllReal a9
      ∧ AllReal a10 ∧ AllReal a11
      ∧ ∀ e : Fin 300000, (-50000 : Int) ≤ (a1 (ValueIdx.ix1 e)).toInt ∧ (a1 (ValueIdx.ix1 e)).toInt < 50000 := by
  have h0 := congrFun h ValueIdx.ix0
  dsimp only [fn, fn_part1, fn_part2, fn_part3, andi] at h0
  simp only [IntOp.andi_eq_one] at h0
  obtain ⟨⟨⟨⟨⟨⟨⟨⟨⟨⟨⟨e0, e3⟩, e4⟩, e5⟩, e6⟩, e7⟩, e8⟩, e9⟩, e10⟩, e11⟩, ege⟩, elt⟩ := h0
  have hm : (4294917296#32 : BitVec 32).toInt = -50000 := by decide
  have hp : (50000#32 : BitVec 32).toInt = 50000 := by decide
  refine ⟨allReal_of_all a0 _ _ _ e0, allReal_of_all a3 _ _ _ e3, allReal_of_all a4 _ _ _ e4,
    allReal_of_all a5 _ _ _ e5, allReal_of_all a6 _ _ _ e6, allReal_of_all a7 _ _ _ e7, allReal_of_all a8 _ _ _ e8,
    allReal_of_all a9 _ _ _ e9, allReal_of_all a10 _ _ _ e10, allReal_of_all a11 _ _ _ e11, fun e => ⟨?_, ?_⟩⟩
  · have := sge_of_all a1 _ _ _ _ ege (ValueIdx.ix1 e)
    rwa [hm] at this
  · have := slt_of_all a1 _ _ _ _ elt (ValueIdx.ix1 e)
    rwa [hp] at this

end Cert.PreFacts

end
-- ==== Proof.AggAgree.lean ====
import proofs.«401895_j21930103014155_2_alg».proof.Proof.KTake
import proofs.«401895_j21930103014155_2_alg».proof.Proof.RefLayerArr
import proofs.«401895_j21930103014155_2_alg».proof.Proof.LibAllReal

noncomputable section

namespace Cert.AggAgree

open Idealize.ShloMosaic Cert.Spec

-- With src in [-50000, 50000) the wrapped, range-masked gather is the plain gather.
theorem msgs_eq [Cert.KernelIdeal.Facts₀] [Cert.ReferenceIdeal.Facts₀]
    (h : FVec Ideal Cert.KernelIdeal.S50000x256 .f32) (src : IVec Cert.KernelIdeal.S300000 32)
    (hsrc : ∀ e : Fin 300000, (-50000 : Int) ≤ (src (ValueIdx.ix1 e)).toInt ∧ (src (ValueIdx.ix1 e)).toInt < 50000) :
    Cert.KernelIdeal.KLayer.msgs h src = Cert.ReferenceIdeal.RefLayer.msgs h src := by
  rw [Cert.KernelIdeal.KLayer.msgs_eq h src hsrc]
  rfl

theorem agg_eq [Cert.KernelIdeal.Facts₀] [Cert.ReferenceIdeal.Facts₀]
    (h : FVec Ideal Cert.KernelIdeal.S50000x256 .f32) (src dst : IVec Cert.KernelIdeal.S300000 32)
    (hsrc : ∀ e : Fin 300000, (-50000 : Int) ≤ (src (ValueIdx.ix1 e)).toInt ∧ (src (ValueIdx.ix1 e)).toInt < 50000) :
    Cert.KernelIdeal.KLayer.agg h src dst = Cert.ReferenceIdeal.RefLayer.agg h src dst := by
  unfold Cert.KernelIdeal.KLayer.agg Cert.ReferenceIdeal.RefLayer.agg
  dsimp only
  rw [msgs_eq h src hsrc]
  rfl

-- Gathering rows, taking positive parts and summing them into rows keep real entries real.
theorem allReal_agg [Cert.ReferenceIdeal.Facts₀]
    (h : FVec Ideal Cert.ReferenceIdeal.S50000x256 .f32) (src dst : IVec Cert.ReferenceIdeal.S300000 32)
    (hh : AllReal h) : AllReal (Cert.ReferenceIdeal.RefLayer.agg h src dst) := by
  unfold Cert.ReferenceIdeal.RefLayer.agg Cert.ReferenceIdeal.RefLayer.msgs
  dsimp only
  exact AllReal.scatterAdd (AllReal.broadcastInDim AllReal.constant_zero)
    (AllReal.maximumf (AllReal.gather hh) (AllReal.broadcastInDim AllReal.constant_zero))

end Cert.AggAgree

end
-- ==== Proof.Glue.lean ====
import Idealize.ShloMosaic.Lib.ValueIdx
import proofs.«401895_j21930103014155_2_alg».proof.Proof.LibAllReal
import proofs.«401895_j21930103014155_2_alg».proof.Proof.Spec

noncomputable section

namespace Cert.Glue

open Idealize.ShloMosaic Idealize.ShloMosaic.ValueIdx Cert.Spec

theorem isReal_of_allReal {n m : ℕ} {x : (⟨2, ![n, m]⟩ : Shape).Idx → EReal} (hx : AllReal x) :
    IsReal (fun p q => x (ix2 p q)) := fun p q => hx (ix2 p q)

theorem isReal_slab {a n m : ℕ} {x : (⟨3, ![a, n, m]⟩ : Shape).Idx → EReal} (hx : AllReal x) (l : Fin a) :
    IsReal (fun k q => x (ix3 l k q)) := fun k q => hx (ix3 l k q)

theorem isRealRow_row {a m : ℕ} {x : (⟨2, ![a, m]⟩ : Shape).Idx → EReal} (hx : AllReal x) (l : Fin a) :
    IsRealRow (fun q => x (ix2 l q)) := fun q => hx (ix2 l q)

theorem real_entry {a : ℕ} {x : (⟨1, ![a]⟩ : Shape).Idx → EReal} (hx : AllReal x) (l : Fin a) :
    ∃ r : ℝ, x (ix1 l) = (r : EReal) := hx (ix1 l)

-- Every rank-2 index is ix2 of its two coordinates, so what holds at every ix2 p q holds at every index.
theorem allReal_of_isReal {n m : ℕ} {x : (⟨2, ![n, m]⟩ : Shape).Idx → EReal}
    (h : IsReal (fun p q => x (ix2 p q))) : AllReal x := by
  intro i
  rw [eq_ix2 i]
  exact h _ _

theorem ext2 {n m : ℕ} {x y : (⟨2, ![n, m]⟩ : Shape).Idx → EReal}
    (h : ∀ p q, x (ix2 p q) = y (ix2 p q)) : x = y := by
  funext i
  rw [eq_ix2 i]
  exact h _ _

end Cert.Glue

end
-- ==== Proof.SpecLayer.lean ====
import proofs.«401895_j21930103014155_2_alg».proof.Proof.SpecStats

noncomputable section

namespace Cert.Spec

open Idealize.ShloMosaic
open scoped BigOperators

theorem IsReal.zpre {e : EReal} {h agg : Mat 50000 256} (he : ∃ r : ℝ, e = (r : EReal)) (hh : IsReal h) (ha : IsReal agg) :
    IsReal (zpre e h agg) := fun p q => by
  obtain ⟨r, hr⟩ := he
  obtain ⟨a, ha'⟩ := hh p q
  obtain ⟨b, hb⟩ := ha p q
  exact ⟨(1 + r) * a + b, by
    show (c1 + e) * h p q + agg p q = _
    rw [c1_eq, hr, ha', hb, EReal.coe_add, EReal.coe_mul, EReal.coe_add]⟩

-- An entry of a linear layer is a finite sum of products of reals plus a real.
theorem IsReal.lin {a : Mat 50000 256} {W : Mat 256 256} {b : Row 256} (ha : IsReal a) (hW : IsReal W) (hb : IsRealRow b) :
    IsReal (lin a W b) := fun p q => by
  choose a' ha' using ha
  choose W' hW' using hW
  choose b' hb' using hb
  exact ⟨(∑ k : Fin 256, a' p k * W' k q) + b' q, by
    simp only [Spec.lin, ha', hW', hb', EReal.coe_add, coe_sum, EReal.coe_mul]⟩

theorem IsReal.reluM {x : Mat 50000 256} (hx : IsReal x) : IsReal (reluM x) := fun p q => by
  obtain ⟨r, hr⟩ := hx p q
  exact ⟨max r 0, by
    show max (x p q) c0 = _
    rw [hr, c0_eq]
    exact (EReal.coe_strictMono.monotone.map_max).symm⟩

-- The variance is a nonnegative real and the added constant is positive, so the reciprocal square root is taken at a positive real.
theorem IsReal.rbn {z : Mat 50000 256} {g bt : Row 256} (hz : IsReal z) (hg : IsRealRow g) (hbt : IsRealRow bt) :
    IsReal (rbn z g bt) := fun p q => by
  obtain ⟨a, ha⟩ := hz p q
  obtain ⟨m, hm⟩ := isRealRow_rmean z hz q
  obtain ⟨v, hv0, hv⟩ := rvar_nonneg z hz q
  obtain ⟨ε, hε, hE⟩ := cEps_pos
  obtain ⟨γ, hγ⟩ := hg q
  obtain ⟨β, hβ⟩ := hbt q
  have hs : 0 < v + ε := add_pos_of_nonneg_of_pos hv0 hε
  refine ⟨(a - m) * (Real.sqrt (v + ε))⁻¹ * γ + β, ?_⟩
  show (z p q - rmean z q) * Ideal.rsqrt (rvar z q + cEps) * g q + bt q = _
  rw [ha, hm, hv, hE, hγ, hβ, ← EReal.coe_add v ε, Ideal.rsqrt_coe, if_neg (not_lt.2 hs.le), if_neg hs.ne',
    EReal.coe_add, EReal.coe_mul, EReal.coe_mul, EReal.coe_sub]

-- The two batch norms differ only in their column statistics, which agree on real entries.
theorem kbn_eq_rbn (z : Mat 50000 256) (hz : IsReal z) (g bt : Row 256) : kbn z g bt = rbn z g bt := by
  unfold kbn rbn
  rw [kmean_eq_rmean, kvar_eq_rvar z hz]

end Cert.Spec

end
-- ==== Proof.SpecAgree.lean ====
import proofs.«401895_j21930103014155_2_alg».proof.Proof.SpecLayer

noncomputable section

namespace Cert.Spec

-- Both batch norms of a layer act on real matrices, where the two programs' statistics agree.
theorem layer_agree (last : Bool) {e : EReal} {h aggK aggR : Mat 50000 256} {W1 : Mat 256 256} {b1 g1 bt1 : Row 256}
    {W2 : Mat 256 256} {b2 bng bnb : Row 256}
    (hagg : aggK = aggR)
    (he : ∃ r : ℝ, e = (r : EReal)) (hh : IsReal h) (ha : IsReal aggR) (hW1 : IsReal W1) (hb1 : IsRealRow b1)
    (hg1 : IsRealRow g1) (hbt1 : IsRealRow bt1) (hW2 : IsReal W2) (hb2 : IsRealRow b2) (hbng : IsRealRow bng)
    (hbnb : IsRealRow bnb) :
    kLayer last e h aggK W1 b1 g1 bt1 W2 b2 bng bnb = rLayer last e h aggR W1 b1 g1 bt1 W2 b2 bng bnb
      ∧ IsReal (rLayer last e h aggR W1 b1 g1 bt1 W2 b2 bng bnb) := by
  subst hagg
  have hz1 := IsReal.lin (IsReal.zpre he hh ha) hW1 hb1
  have hz2 := IsReal.lin (IsReal.reluM (IsReal.rbn hz1 hg1 hbt1)) hW2 hb2
  have h3 := IsReal.rbn hz2 hbng hbnb
  refine ⟨by dsimp only [kLayer, rLayer]; rw [kbn_eq_rbn _ hz1, kbn_eq_rbn _ hz2], ?_⟩
  cases last
  exacts [IsReal.reluM h3, h3]

end Cert.Spec

end
-- ==== Proof.LayerStep.lean ====
import proofs.«401895_j21930103014155_2_alg».proof.Proof.Glue
import proofs.«401895_j21930103014155_2_alg».proof.Proof.SpecAgree

noncomputable section

namespace Cert.Glue

open Idealize.ShloMosaic Idealize.ShloMosaic.ValueIdx Cert.Spec

-- Equal real rows, equal message sums and equal real parameters give equal real rows after one layer.
theorem layer_step (last : Bool) (l : Fin 5)
    {hK hK' hR hR' aggK aggR : (⟨2, ![50000, 256]⟩ : Shape).Idx → EReal}
    {a3 b3 a7 b7 : (⟨3, ![5, 256, 256]⟩ : Shape).Idx → EReal} {a4 b4 a5 b5 a6 b6 a8 b8 a10 b10 a11 b11 : (⟨2, ![5, 256]⟩ : Shape).Idx → EReal} {a9 b9 : (⟨1, ![5]⟩ : Shape).Idx → EReal}
    (hKstep : ∀ p q, hK' (ix2 p q) = kLayer last (a9 (ix1 l)) (fun p k => hK (ix2 p k)) (fun p k => aggK (ix2 p k)) (fun k q => a3 (ix3 l k q)) (fun q => a4 (ix2 l q)) (fun q => a5 (ix2 l q)) (fun q => a6 (ix2 l q)) (fun k q => a7 (ix3 l k q)) (fun q => a8 (ix2 l q)) (fun q => a10 (ix2 l q)) (fun q => a11 (ix2 l q)) p q)
    (hRstep : ∀ p q, hR' (ix2 p q) = rLayer last (b9 (ix1 l)) (fun p k => hR (ix2 p k)) (fun p k => aggR (ix2 p k)) (fun k q => b3 (ix3 l k q)) (fun q => b4 (ix2 l q)) (fun q => b5 (ix2 l q)) (fun q => b6 (ix2 l q)) (fun k q => b7 (ix3 l k q)) (fun q => b8 (ix2 l q)) (fun q => b10 (ix2 l q)) (fun q => b11 (ix2 l q)) p q)
    (hh : hK = hR) (hagg : aggK = aggR)
    (e3 : b3 = a3) (e4 : b4 = a4) (e5 : b5 = a5) (e6 : b6 = a6) (e7 : b7 = a7) (e8 : b8 = a8) (e9 : b9 = a9)
    (e10 : b10 = a10) (e11 : b11 = a11)
    (rh : AllReal hK) (ragg : AllReal aggR)
    (r3 : AllReal a3) (r4 : AllReal a4) (r5 : AllReal a5) (r6 : AllReal a6) (r7 : AllReal a7) (r8 : AllReal a8)
    (r9 : AllReal a9) (r10 : AllReal a10) (r11 : AllReal a11) :
    hK' = hR' ∧ AllReal hK' := by
  subst hh hagg e3 e4 e5 e6 e7 e8 e9 e10 e11
  obtain ⟨heq, hreal⟩ := layer_agree last (e := b9 (ix1 l)) (h := fun p k => hK (ix2 p k))
    (aggK := fun p k => aggK (ix2 p k)) (aggR := fun p k => aggK (ix2 p k))
    (W1 := fun k q => b3 (ix3 l k q)) (b1 := fun q => b4 (ix2 l q)) (g1 := fun q => b5 (ix2 l q))
    (bt1 := fun q => b6 (ix2 l q)) (W2 := fun k q => b7 (ix3 l k q)) (b2 := fun q => b8 (ix2 l q))
    (bng := fun q => b10 (ix2 l q)) (bnb := fun q => b11 (ix2 l q)) rfl
    (real_entry r9 l) (isReal_of_allReal rh) (isReal_of_allReal ragg) (isReal_slab r3 l) (isRealRow_row r4 l)
    (isRealRow_row r5 l) (isRealRow_row r6 l) (isReal_slab r7 l) (isRealRow_row r8 l) (isRealRow_row r10 l)
    (isRealRow_row r11 l)
  have hpt : ∀ p q, hK' (ix2 p q) = hR' (ix2 p q) := fun p q => by
    rw [hKstep p q, hRstep p q, heq]
  refine ⟨ext2 hpt, allReal_of_isReal fun p q => ?_⟩
  show ∃ r : ℝ, hK' (ix2 p q) = (r : EReal)
  rw [hpt p q, hRstep p q]
  exact hreal p q

end Cert.Glue

end
-- ==== Proof.Value.lean ====
import proofs.«401895_j21930103014155_2_alg».proof.Defs
import proofs.«401895_j21930103014155_2_alg».proof.Proof.KRun
import proofs.«401895_j21930103014155_2_alg».proof.Proof.KLayer4
import proofs.«401895_j21930103014155_2_alg».proof.Proof.RefFrame
import proofs.«401895_j21930103014155_2_alg».proof.Proof.RefVal0
import proofs.«401895_j21930103014155_2_alg».proof.Proof.RefVal1
import proofs.«401895_j21930103014155_2_alg».proof.Proof.RefVal2
import proofs.«401895_j21930103014155_2_alg».proof.Proof.RefVal3
import proofs.«401895_j21930103014155_2_alg».proof.Proof.RefVal4
import proofs.«401895_j21930103014155_2_alg».proof.Proof.PreFacts
import proofs.«401895_j21930103014155_2_alg».proof.Proof.AggAgree
import proofs.«401895_j21930103014155_2_alg».proof.Proof.LayerStep

noncomputable section

namespace Cert.Proof.Value

open Idealize.ShloMosaic Idealize.ShloMosaic.TcCoe Idealize.ShloMosaic.ValueIdx Idealize.SL.Sem
open Cert.Spec Cert.Glue
open Cert.KernelIdeal.Gen (W40)
open Cert.ReferenceIdeal.RefRun (L0 L1 L2 L3 L4 L0_keeps L1_keeps L2_keeps L3_keeps after_all all_keeps)

variable (m : (ℓ : Loc Cert.KernelIdeal.nD Cert.KernelIdeal.τ Cert.KernelIdeal.sig) → Buf (Elt Ideal) ℓ) (ρ : Dev Cert.KernelIdeal.nD → PrngReg)
variable (c : Dev Cert.KernelIdeal.nD)

abbrev RVal := Valuation Cert.ReferenceIdeal.τ Cert.ReferenceIdeal.sig (Elt Ideal)

abbrev kb (r : Ref Cert.KernelIdeal.sig .tc) := m ((c.tc : Thread Cert.KernelIdeal.nD Cert.KernelIdeal.τ).loc r)

abbrev rb (V : RVal) (r : Ref Cert.ReferenceIdeal.sig .tc) := V (r : DevRef Cert.ReferenceIdeal.τ Cert.ReferenceIdeal.sig)

abbrev Pre : Prop :=
  Cert.Pre_finite_inputs.fn (F := Ideal) (kb m c Cert.KernelIdeal.main_arg0) (kb m c Cert.KernelIdeal.main_arg1) (kb m c Cert.KernelIdeal.main_arg2) (kb m c Cert.KernelIdeal.main_arg3) (kb m c Cert.KernelIdeal.main_arg4) (kb m c Cert.KernelIdeal.main_arg5) (kb m c Cert.KernelIdeal.main_arg6) (kb m c Cert.KernelIdeal.main_arg7) (kb m c Cert.KernelIdeal.main_arg8) (kb m c Cert.KernelIdeal.main_arg9) (kb m c Cert.KernelIdeal.main_arg10) (kb m c Cert.KernelIdeal.main_arg11) = fun _ => 1#1

-- A valuation of the reference's buffers that holds the kernel's argument arrays at the twelve arguments.
structure Same (V : RVal) : Prop where
  a0 : rb V Cert.ReferenceIdeal.main_arg0 = kb m c Cert.KernelIdeal.main_arg0
  a1 : rb V Cert.ReferenceIdeal.main_arg1 = kb m c Cert.KernelIdeal.main_arg1
  a2 : rb V Cert.ReferenceIdeal.main_arg2 = kb m c Cert.KernelIdeal.main_arg2
  a3 : rb V Cert.ReferenceIdeal.main_arg3 = kb m c Cert.KernelIdeal.main_arg3
  a4 : rb V Cert.ReferenceIdeal.main_arg4 = kb m c Cert.KernelIdeal.main_arg4
  a5 : rb V Cert.ReferenceIdeal.main_arg5 = kb m c Cert.KernelIdeal.main_arg5
  a6 : rb V Cert.ReferenceIdeal.main_arg6 = kb m c Cert.KernelIdeal.main_arg6
  a7 : rb V Cert.ReferenceIdeal.main_arg7 = kb m c Cert.KernelIdeal.main_arg7
  a8 : rb V Cert.ReferenceIdeal.main_arg8 = kb m c Cert.KernelIdeal.main_arg8
  a9 : rb V Cert.ReferenceIdeal.main_arg9 = kb m c Cert.KernelIdeal.main_arg9
  a10 : rb V Cert.ReferenceIdeal.main_arg10 = kb m c Cert.KernelIdeal.main_arg10
  a11 : rb V Cert.ReferenceIdeal.main_arg11 = kb m c Cert.KernelIdeal.main_arg11

theorem Same.step {V V' : RVal} (h : Same m c V)
    (keeps : ∀ {r : Ref Cert.ReferenceIdeal.sig .tc}, r.idx.val < 12 → rb V' r = rb V r) : Same m c V' :=
  ⟨(keeps (by decide)).trans h.a0, (keeps (by decide)).trans h.a1, (keeps (by decide)).trans h.a2, (keeps (by decide)).trans h.a3, (keeps (by decide)).trans h.a4, (keeps (by decide)).trans h.a5, (keeps (by decide)).trans h.a6, (keeps (by decide)).trans h.a7, (keeps (by decide)).trans h.a8, (keeps (by decide)).trans h.a9, (keeps (by decide)).trans h.a10, (keeps (by decide)).trans h.a11⟩

-- One layer: equal real input rows give equal real output rows, the parameters being equal and real.
theorem layer (last : Bool) (l : Fin 5) {V : RVal} (s : Same m c V) (hpre : Pre m c)
    {hK hK' hR hR' : FVec Ideal Cert.KernelIdeal.S50000x256 .f32}
    (stepK : ∀ p q, hK' (ix2 p q) = kLayer last (kb m c Cert.KernelIdeal.main_arg9 (ix1 l)) (fun p k => hK (ix2 p k))
      (fun p k => Cert.KernelIdeal.KLayer.agg hK (kb m c Cert.KernelIdeal.main_arg1) (kb m c Cert.KernelIdeal.main_arg2) (ix2 p k))
      (fun k q => kb m c Cert.KernelIdeal.main_arg3 (ix3 l k q)) (fun q => kb m c Cert.KernelIdeal.main_arg4 (ix2 l q))
      (fun q => kb m c Cert.KernelIdeal.main_arg5 (ix2 l q)) (fun q => kb m c Cert.KernelIdeal.main_arg6 (ix2 l q))
      (fun k q => kb m c Cert.KernelIdeal.main_arg7 (ix3 l k q)) (fun q => kb m c Cert.KernelIdeal.main_arg8 (ix2 l q))
      (fun q => kb m c Cert.KernelIdeal.main_arg10 (ix2 l q)) (fun q => kb m c Cert.KernelIdeal.main_arg11 (ix2 l q)) p q)
    (stepR : ∀ p q, hR' (ix2 p q) = rLayer last (rb V Cert.ReferenceIdeal.main_arg9 (ix1 l)) (fun p k => hR (ix2 p k))
      (fun p k => Cert.ReferenceIdeal.RefLayer.agg hR (rb V Cert.ReferenceIdeal.main_arg1) (rb V Cert.ReferenceIdeal.main_arg2) (ix2 p k))
      (fun k q => rb V Cert.ReferenceIdeal.main_arg3 (ix3 l k q)) (fun q => rb V Cert.ReferenceIdeal.main_arg4 (ix2 l q))
      (fun q => rb V Cert.ReferenceIdeal.main_arg5 (ix2 l q)) (fun q => rb V Cert.ReferenceIdeal.main_arg6 (ix2 l q))
      (fun k q => rb V Cert.ReferenceIdeal.main_arg7 (ix3 l k q)) (fun q => rb V Cert.ReferenceIdeal.main_arg8 (ix2 l q))
      (fun q => rb V Cert.ReferenceIdeal.main_arg10 (ix2 l q)) (fun q => rb V Cert.ReferenceIdeal.main_arg11 (ix2 l q)) p q)
    (E : hK = hR) (A : AllReal hK) : hK' = hR' ∧ AllReal hK' := by
  obtain ⟨-, r3, r4, r5, r6, r7, r8, r9, r10, r11, hsrc⟩ := Cert.PreFacts.of_pre _ _ _ _ _ _ _ _ _ _ _ _ hpre
  subst E
  exact layer_step last l stepK stepR rfl (by rw [s.a1, s.a2]; exact Cert.AggAgree.agg_eq _ _ _ hsrc)
    s.a3 s.a4 s.a5 s.a6 s.a7 s.a8 s.a9 s.a10 s.a11 A (Cert.AggAgree.allReal_agg _ _ _ A)
    r3 r4 r5 r6 r7 r8 r9 r10 r11

theorem value (V0 : RVal) (s0 : Same m c V0) (hpre : Pre m c) :
    StableHlo.after (L0 ++ L1 ++ L2 ++ L3 ++ L4) V0 (Cert.ReferenceIdeal.main_v403 : DevRef Cert.ReferenceIdeal.τ Cert.ReferenceIdeal.sig)
      = W40 (F := Ideal) m ρ c Cert.KernelIdeal.main_v244 := by
  rw [after_all]
  have A0 := (Cert.PreFacts.of_pre _ _ _ _ _ _ _ _ _ _ _ _ hpre).1
  have s1 : Same m c (StableHlo.after (L0 (F := Ideal)) V0) := s0.step m c fun hr => L0_keeps hr V0
  obtain ⟨E1, A1⟩ := layer m c false 0 s0 hpre (Cert.KernelIdeal.KLayer0.step m ρ c) (Cert.ReferenceIdeal.RefVal.step_0 V0) s0.a0.symm A0
  set V1 := StableHlo.after (L0 (F := Ideal)) V0
  have s2 : Same m c (StableHlo.after (L1 (F := Ideal)) V1) := s1.step m c fun hr => L1_keeps hr V1
  obtain ⟨E2, A2⟩ := layer m c false 1 s1 hpre (Cert.KernelIdeal.KLayer1.step m ρ c) (Cert.ReferenceIdeal.RefVal.step_1 V1) E1 A1
  set V2 := StableHlo.after (L1 (F := Ideal)) V1
  have s3 : Same m c (StableHlo.after (L2 (F := Ideal)) V2) := s2.step m c fun hr => L2_keeps hr V2
  obtain ⟨E3, A3⟩ := layer m c false 2 s2 hpre (Cert.KernelIdeal.KLayer2.step m ρ c) (Cert.ReferenceIdeal.RefVal.step_2 V2) E2 A2
  set V3 := StableHlo.after (L2 (F := Ideal)) V2
  have s4 : Same m c (StableHlo.after (L3 (F := Ideal)) V3) := s3.step m c fun hr => L3_keeps hr V3
  obtain ⟨E4, A4⟩ := layer m c false 3 s3 hpre (Cert.KernelIdeal.KLayer3.step m ρ c) (Cert.ReferenceIdeal.RefVal.step_3 V3) E3 A3
  set V4 := StableHlo.after (L3 (F := Ideal)) V3
  exact (layer m c true 4 s4 hpre (Cert.KernelIdeal.KLayer4.step m ρ c) (Cert.ReferenceIdeal.RefVal.step_4 V4) E4 A4).1.symm

theorem algebraic : Cert.algebraic_KernelIdeal_ReferenceIdeal := by
  intro m ρ m' ρ' hpre hagree
  refine ⟨fun c => W40 (F := Ideal) m ρ c Cert.KernelIdeal.main_v244, Cert.KernelIdeal.Run.run_result (F := Ideal) m ρ, ?_⟩
  refine (θ_run Cert.ReferenceIdeal.defs _ _).mono (fun r h c => ?_) (Cert.ReferenceIdeal.RefRun.run (F := Ideal) m' ρ')
  obtain ⟨g0, g1, g2, g3, g4, g5, g6, g7, g8, g9, g10, g11⟩ := hagree c
  exact ⟨(h c Cert.ReferenceIdeal.main_v403).trans (value m ρ c (StableHlo.launchContents m' c)
      ⟨g0, g1, g2, g3, g4, g5, g6, g7, g8, g9, g10, g11⟩ (hpre c)),
    (h c Cert.ReferenceIdeal.main_arg0).trans (all_keeps (by decide) _),
    (h c Cert.ReferenceIdeal.main_arg1).trans (all_keeps (by decide) _),
    (h c Cert.ReferenceIdeal.main_arg2).trans (all_keeps (by decide) _),
    (h c Cert.ReferenceIdeal.main_arg3).trans (all_keeps (by decide) _),
    (h c Cert.ReferenceIdeal.main_arg4).trans (all_keeps (by decide) _),
    (h c Cert.ReferenceIdeal.main_arg5).trans (all_keeps (by decide) _),
    (h c Cert.ReferenceIdeal.main_arg6).trans (all_keeps (by decide) _),
    (h c Cert.ReferenceIdeal.main_arg7).trans (all_keeps (by decide) _),
    (h c Cert.ReferenceIdeal.main_arg8).trans (all_keeps (by decide) _),
    (h c Cert.ReferenceIdeal.main_arg9).trans (all_keeps (by decide) _),
    (h c Cert.ReferenceIdeal.main_arg10).trans (all_keeps (by decide) _),
    (h c Cert.ReferenceIdeal.main_arg11).trans (all_keeps (by decide) _)⟩

end Cert.Proof.Value

end
-- ==== Proof.lean ====
import proofs.«401895_j21930103014155_2_alg».proof.Defs
import proofs.«401895_j21930103014155_2_alg».proof.Proof.Gen.Kernel
import proofs.«401895_j21930103014155_2_alg».proof.Proof.Gen.Kernel.Skeleton
import proofs.«401895_j21930103014155_2_alg».proof.Proof.Gen.Kernel.Launch
import proofs.«401895_j21930103014155_2_alg».proof.Proof.Gen.Kernel.Points
import proofs.«401895_j21930103014155_2_alg».proof.Proof.Gen.Kernel.Frame
import proofs.«401895_j21930103014155_2_alg».proof.Proof.Gen.KernelIdeal
import proofs.«401895_j21930103014155_2_alg».proof.Proof.Gen.KernelIdeal.Skeleton
import proofs.«401895_j21930103014155_2_alg».proof.Proof.Gen.KernelIdeal.Launch
import proofs.«401895_j21930103014155_2_alg».proof.Proof.Gen.KernelIdeal.Points
import proofs.«401895_j21930103014155_2_alg».proof.Proof.Gen.KernelIdeal.Frame
import proofs.«401895_j21930103014155_2_alg».proof.Proof.Gen.ReferenceIdeal
import proofs.«401895_j21930103014155_2_alg».proof.Proof.Gen.Pre_finite_inputs
import proofs.«401895_j21930103014155_2_alg».proof.Proof.RefFrame
import proofs.«401895_j21930103014155_2_alg».proof.Proof.Value
import Idealize.ShloMosaic.Adequacy
import Idealize.ShloMosaic.Init

noncomputable section

namespace Cert.Proof

open Idealize.ShloMosaic Idealize.SL.Sem

-- The kernel's three tiled passes a layer and the reference's whole-array layers agree on real inputs with src a valid row index.
theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    Cert.ReferenceIdeal.RefRun.frame_ref,
    trivial,
    Cert.Proof.Value.algebraic⟩

end Cert.Proof

end
